-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v61_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v61_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v179) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x200 : Shape := ⟨2, ![1024, 200]⟩
abbrev S1024 : Shape := ⟨1, ![1024]⟩
abbrev S1000000x64 : Shape := ⟨2, ![1000000, 64]⟩
abbrev S10000x64 : Shape := ⟨2, ![10000, 64]⟩
abbrev S32x512 : Shape := ⟨2, ![32, 512]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_

variable [Facts]

def fn_part4 {F : FTy → Type} [FloatOps F] (main_arg19 : FVec F S1x64 .f32) (main_arg20 : FVec F S1 .f32) (main_v63 : IVec S_ 1) (main_v67 : IVec S_ 1) : IVec S_ 1 :=
  let main_v68 : IVec S_ 1 := andi main_v63 main_v67
  let main_v69 : FVec F S1x64 .f32 := Host.absf main_arg19
  let main_cst_26 : FVec F S_ .f32 := constant S_ .f32 0x7F800000#32
  let main_v70 : FVec F S1x64 .f32 := broadcastInDim S1x64 ![] bcast_S_S1x64 main_cst_26
  let main_v71 : IVec S1x64 1 := cmpf .olt main_v69 main_v70
  let main_c_27 : IVec S_ 1 := constantI S_ 1 1#1
  let main_v72 : IVec S_ 1 := (fun x v => Host.reduce IntOp.andi x v reducesTo_S1x64_S_d0_1 h_S_) main_v71 main_c_27
  let main_v73 : IVec S_ 1 := andi main_v68 main_v72
  let main_v74 : FVec F S1 .f32 := Host.absf main_arg20
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg16 : FVec F S128 .f32) (main_arg17 : FVec F S64x128 .f32) (main_arg18 : FVec F S64 .f32) (main_arg19 : FVec F S1x64 .f32) (main_arg20 : FVec F S1 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128 .f32 := Host.absf main_arg16
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S64x128 .f32 := Host.absf main_arg17
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S64 .f32 := Host.absf main_arg18
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg19 main_arg20 main_v63 main_v67

def fn_part2 {F : FTy → Type} [FloatOps F] (main_arg12 : FVec F S16 .f32) (main_arg13 : FVec F S1x16 .f32) (main_arg14 : FVec F S1 .f32) (main_arg15 : FVec F S128x256 .f32) (main_arg16 : FVec F S128 .f32) (main_arg17 : FVec F S64x128 .f32) (main_arg18 : FVec F S64 .f32) (main_arg19 : FVec F S1x64 .f32) (main_arg20 : FVec F S1 .f32) (main_v33 : IVec S_ 1) : IVec S_ 1 :=
  let main_v34 : FVec F S16 .f32 := Host.absf main_arg12
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S1x16 .f32 := Host.absf main_arg13
  let main_cst_14 : FVec F S_ .f32 := constant S_ .f32 0x7F800000#32
  let main_v40 : FVec F S1x16 .f32 := broadcastInDim S1x16 ![] bcast_S_S1x16 main_cst_14
  let main_v41 : IVec S1x16 1 := cmpf .olt main_v39 main_v40
  let main_c_15 : IVec S_ 1 := constantI S_ 1 1#1
  let main_v42 : IVec S_ 1 := (fun x v => Host.reduce IntOp.andi x v reducesTo_S1x16_S_d0_1 h_S_) main_v41 main_c_15
  let main_v43 : IVec S_ 1 := andi main_v38 main_v42
  let main_v44 : FVec F S1 .f32 := Host.absf main_arg14
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x256 .f32 := Host.absf main_arg15
  let main_cst_18 : FVec F S_ .f32 := constant S_ .f32 0x7F800000#32
  let main_v50 : FVec F S128x256 .f32 := broadcastInDim S128x256 ![] bcast_S_S128x256 main_cst_18
  fn_part3 (F := F) main_arg16 main_arg17 main_arg18 main_arg19 main_arg20 main_v48 main_v49 main_v50

def fn_part1 {F : FTy → Type} [FloatOps F] (main_arg9 : FVec F S32 .f32) (main_arg10 : FVec F S16x32 .f32) (main_arg11 : FVec F S16 .f32) (main_arg12 : FVec F S16 .f32) (main_arg13 : FVec F S1x16 .f32) (main_arg14 : FVec F S1 .f32) (main_arg15 : FVec F S128x256 .f32) (main_arg16 : FVec F S128 .f32) (main_arg17 : FVec F S64x128 .f32) (main_arg18 : FVec F S64 .f32) (main_arg19 : FVec F S1x64 .f32) (main_arg20 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg9
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S16x32 .f32 := Host.absf main_arg10
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S16 .f32 := Host.absf main_arg11
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg12 main_arg13 main_arg14 main_arg15 main_arg16 main_arg17 main_arg18 main_arg19 main_arg20 main_v33

def fn {F : FTy → Type} [FloatOps F] (main_arg0 : IVec S1024x200 32) (main_arg1 : IVec S1024x200 32) (main_arg2 : IVec S1024 32) (main_arg3 : IVec S1024 32) (main_arg4 : IVec S1024 32) (main_arg5 : FVec F S1000000x64 .f32) (main_arg6 : FVec F S10000x64 .f32) (main_arg7 : FVec F S32x512 .f32) (main_arg8 : FVec F S32 .f32) (main_arg9 : FVec F S32 .f32) (main_arg10 : FVec F S16x32 .f32) (main_arg11 : FVec F S16 .f32) (main_arg12 : FVec F S16 .f32) (main_arg13 : FVec F S1x16 .f32) (main_arg14 : FVec F S1 .f32) (main_arg15 : FVec F S128x256 .f32) (main_arg16 : FVec F S128 .f32) (main_arg17 : FVec F S64x128 .f32) (main_arg18 : FVec F S64 .f32) (main_arg19 : FVec F S1x64 .f32) (main_arg20 : FVec F S1 .f32) : IVec S_ 1 :=
  let main_v0 : FVec F S1000000x64 .f32 := Host.absf main_arg5
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S10000x64 .f32 := Host.absf main_arg6
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S32x512 .f32 := Host.absf main_arg7
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  let main_v14 : FVec F S32 .f32 := Host.absf main_arg8
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg9 main_arg10 main_arg11 main_arg12 main_arg13 main_arg14 main_arg15 main_arg16 main_arg17 main_arg18 main_arg19 main_arg20 main_v13 main_v16
-- ==== Kernel.lean ====
abbrev S1024x200 : Shape := ⟨2, ![1024, 200]⟩
abbrev S1024 : Shape := ⟨1, ![1024]⟩
abbrev S1000000x64 : Shape := ⟨2, ![1000000, 64]⟩
abbrev S10000x64 : Shape := ⟨2, ![10000, 64]⟩
abbrev S32x512 : Shape := ⟨2, ![32, 512]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S_ : Shape := ⟨0, ![]⟩
abbrev S1024x1 : Shape := ⟨2, ![1024, 1]⟩
abbrev S1024x64 : Shape := ⟨2, ![1024, 64]⟩
abbrev S1024x200x1 : Shape := ⟨3, ![1024, 200, 1]⟩
abbrev S1024x200x64 : Shape := ⟨3, ![1024, 200, 64]⟩
abbrev S512x32 : Shape := ⟨2, ![512, 32]⟩
abbrev S32x16 : Shape := ⟨2, ![32, 16]⟩
abbrev S16x1 : Shape := ⟨2, ![16, 1]⟩
abbrev S256x128 : Shape := ⟨2, ![256, 128]⟩
abbrev S128x64 : Shape := ⟨2, ![128, 64]⟩
abbrev S64x1 : Shape := ⟨2, ![64, 1]⟩
abbrev S1x32 : Shape := ⟨2, ![1, 32]⟩
abbrev S1x1 : Shape := ⟨2, ![1, 1]⟩
abbrev S1x128 : Shape := ⟨2, ![1, 128]⟩
abbrev S1024x200x32 : Shape := ⟨3, ![1024, 200, 32]⟩
abbrev S32x200x64 : Shape := ⟨3, ![32, 200, 64]⟩
abbrev S32x64 : Shape := ⟨2, ![32, 64]⟩
abbrev S32x200 : Shape := ⟨2, ![32, 200]⟩
abbrev S32x200x32 : Shape := ⟨3, ![32, 200, 32]⟩
abbrev S32x200x1 : Shape := ⟨3, ![32, 200, 1]⟩
abbrev S32x1x64 : Shape := ⟨3, ![32, 1, 64]⟩
abbrev S6400x32 : Shape := ⟨2, ![6400, 32]⟩
abbrev S64x32 : Shape := ⟨2, ![64, 32]⟩
abbrev S6400x64 : Shape := ⟨2, ![6400, 64]⟩
abbrev S1024x200x16 : Shape := ⟨3, ![1024, 200, 16]⟩
abbrev S32x200x16 : Shape := ⟨3, ![32, 200, 16]⟩
abbrev S1x1x32 : Shape := ⟨3, ![1, 1, 32]⟩
abbrev S6400x16 : Shape := ⟨2, ![6400, 16]⟩
abbrev S1024x128 : Shape := ⟨2, ![1024, 128]⟩
abbrev S32x128 : Shape := ⟨2, ![32, 128]⟩
abbrev S1x1x16 : Shape := ⟨3, ![1, 1, 16]⟩
abbrev S6400x1 : Shape := ⟨2, ![6400, 1]⟩
abbrev S32x1 : Shape := ⟨2, ![32, 1]⟩
abbrev S32x1x1 : Shape := ⟨3, ![32, 1, 1]⟩
abbrev S1024x256 : Shape := ⟨2, ![1024, 256]⟩
abbrev S1x1024 : Shape := ⟨2, ![1, 1024]⟩

abbrev nBuf : Space → Nat
  | .hbm => 103
  | .vmem => 58
  | .smem => 0
  | _ => 0

abbrev bufTy : (tb : Table) → Fin (tcTables nBuf tb) → BufTy
  | .hbm, ⟨0, _⟩ => ⟨S1024x200, .i32⟩
  | .hbm, ⟨1, _⟩ => ⟨S1024x200, .i32⟩
  | .hbm, ⟨2, _⟩ => ⟨S1024, .i32⟩
  | .hbm, ⟨3, _⟩ => ⟨S1024, .i32⟩
  | .hbm, ⟨4, _⟩ => ⟨S1024, .i32⟩
  | .hbm, ⟨5, _⟩ => ⟨S1000000x64, .f32⟩
  | .hbm, ⟨6, _⟩ => ⟨S10000x64, .f32⟩
  | .hbm, ⟨7, _⟩ => ⟨S32x512, .f32⟩
  | .hbm, ⟨8, _⟩ => ⟨S32, .f32⟩
  | .hbm, ⟨9, _⟩ => ⟨S32, .f32⟩
  | .hbm, ⟨10, _⟩ => ⟨S16x32, .f32⟩
  | .hbm, ⟨11, _⟩ => ⟨S16, .f32⟩
  | .hbm, ⟨12, _⟩ => ⟨S16, .f32⟩
  | .hbm, ⟨13, _⟩ => ⟨S1x16, .f32⟩
  | .hbm, ⟨14, _⟩ => ⟨S1, .f32⟩
  | .hbm, ⟨15, _⟩ => ⟨S128x256, .f32⟩
  | .hbm, ⟨16, _⟩ => ⟨S128, .f32⟩
  | .hbm, ⟨17, _⟩ => ⟨S64x128, .f32⟩
  | .hbm, ⟨18, _⟩ => ⟨S64, .f32⟩
  | .hbm, ⟨19, _⟩ => ⟨S1x64, .f32⟩
  | .hbm, ⟨20, _⟩ => ⟨S1, .f32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x64, .f32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1024x64, .f32⟩
  | .hbm, ⟨39, _⟩ => ⟨S_, .i32⟩
  | .hbm, ⟨40, _⟩ => ⟨S1024x200, .i32⟩
  | .hbm, ⟨41, _⟩ => ⟨S1024x200, .i1⟩
  | .hbm, ⟨42, _⟩ => ⟨S_, .i32⟩
  | .hbm, ⟨43, _⟩ => ⟨S1024x200, .i32⟩
  | .hbm, ⟨44, _⟩ => ⟨S1024x200, .i32⟩
  | .hbm, ⟨45, _⟩ => ⟨S1024x200, .i32⟩
  | .hbm, ⟨46, _⟩ => ⟨S1024x200x1, .i32⟩
  | .hbm, ⟨47, _⟩ => ⟨S1024x200x64, .f32⟩
  | .hbm, ⟨48, _⟩ => ⟨S_, .i32⟩
  | .hbm, ⟨49, _⟩ => ⟨S1024x200, .i32⟩
  | .hbm, ⟨50, _⟩ => ⟨S1024x200, .i1⟩
  | .hbm, ⟨51, _⟩ => ⟨S_, .i32⟩
  | .hbm, ⟨52, _⟩ => ⟨S1024x200, .i32⟩
  | .hbm, ⟨53, _⟩ => ⟨S1024x200, .i32⟩
  | .hbm, ⟨54, _⟩ => ⟨S1024x200, .i32⟩
  | .hbm, ⟨55, _⟩ => ⟨S1024x200x1, .i32⟩
  | .hbm, ⟨56, _⟩ => ⟨S1024x200x64, .f32⟩
  | .hbm, ⟨57, _⟩ => ⟨S512x32, .f32⟩
  | .hbm, ⟨58, _⟩ => ⟨S32x16, .f32⟩
  | .hbm, ⟨59, _⟩ => ⟨S16x1, .f32⟩
  | .hbm, ⟨60, _⟩ => ⟨S256x128, .f32⟩
  | .hbm, ⟨61, _⟩ => ⟨S128x64, .f32⟩
  | .hbm, ⟨62, _⟩ => ⟨S64x1, .f32⟩
  | .hbm, ⟨63, _⟩ => ⟨S1x32, .f32⟩
  | .hbm, ⟨64, _⟩ => ⟨S1x32, .f32⟩
  | .hbm, ⟨65, _⟩ => ⟨S1x16, .f32⟩
  | .hbm, ⟨66, _⟩ => ⟨S1x16, .f32⟩
  | .hbm, ⟨67, _⟩ => ⟨S1x1, .f32⟩
  | .hbm, ⟨68, _⟩ => ⟨S1x128, .f32⟩
  | .hbm, ⟨69, _⟩ => ⟨S1x64, .f32⟩
  | .hbm, ⟨70, _⟩ => ⟨S1x1, .f32⟩
  | .hbm, ⟨71, _⟩ => ⟨S1024x200x32, .f32⟩
  | .hbm, ⟨72, _⟩ => ⟨S1x32, .f32⟩
  | .hbm, ⟨73, _⟩ => ⟨S1x32, .f32⟩
  | .hbm, ⟨74, _⟩ => ⟨S_, .f32⟩
  | .hbm, ⟨75, _⟩ => ⟨S1x32, .f32⟩
  | .hbm, ⟨76, _⟩ => ⟨S1x32, .f32⟩
  | .hbm, ⟨77, _⟩ => ⟨S_, .f32⟩
  | .hbm, ⟨78, _⟩ => ⟨S1x32, .f32⟩
  | .hbm, ⟨79, _⟩ => ⟨S1x32, .f32⟩
  | .hbm, ⟨80, _⟩ => ⟨S1x32, .f32⟩
  | .hbm, ⟨81, _⟩ => ⟨S1x32, .f32⟩
  | .hbm, ⟨82, _⟩ => ⟨S_, .f32⟩
  | .hbm, ⟨83, _⟩ => ⟨S1x32, .f32⟩
  | .hbm, ⟨84, _⟩ => ⟨S1x32, .f32⟩
  | .hbm, ⟨85, _⟩ => ⟨S1024x200x16, .f32⟩
  | .hbm, ⟨86, _⟩ => ⟨S1x16, .f32⟩
  | .hbm, ⟨87, _⟩ => ⟨S1x16, .f32⟩
  | .hbm, ⟨88, _⟩ => ⟨S_, .f32⟩
  | .hbm, ⟨89, _⟩ => ⟨S1x16, .f32⟩
  | .hbm, ⟨90, _⟩ => ⟨S1x16, .f32⟩
  | .hbm, ⟨91, _⟩ => ⟨S_, .f32⟩
  | .hbm, ⟨92, _⟩ => ⟨S1x16, .f32⟩
  | .hbm, ⟨93, _⟩ => ⟨S1x16, .f32⟩
  | .hbm, ⟨94, _⟩ => ⟨S1x16, .f32⟩
  | .hbm, ⟨95, _⟩ => ⟨S1x16, .f32⟩
  | .hbm, ⟨96, _⟩ => ⟨S_, .f32⟩
  | .hbm, ⟨97, _⟩ => ⟨S1x16, .f32⟩
  | .hbm, ⟨98, _⟩ => ⟨S1x16, .f32⟩
  | .hbm, ⟨99, _⟩ => ⟨S1024x128, .f32⟩
  | .hbm, ⟨100, _⟩ => ⟨S1024, .f32⟩
  | .hbm, ⟨101, _⟩ => ⟨S1x1, .f32⟩
  | .hbm, ⟨102, _⟩ => ⟨S_, .f32⟩
  | .local _ .vmem, ⟨0, _⟩ => ⟨S32x200x64, .f32⟩
  | .local _ .vmem, ⟨1, _⟩ => ⟨S32x200x64, .f32⟩
  | .local _ .vmem, ⟨2, _⟩ => ⟨S32x200x64, .f32⟩
  | .local _ .vmem, ⟨3, _⟩ => ⟨S32x200x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S32x64, .f32⟩
  | .local _ .vmem, ⟨8, _⟩ => ⟨S32x200, .i32⟩
  | .local _ .vmem, ⟨9, _⟩ => ⟨S32x200, .i32⟩
  | .local _ .vmem, ⟨10, _⟩ => ⟨S512x32, .f32⟩
  | .local _ .vmem, ⟨11, _⟩ => ⟨S1x32, .f32⟩
  | .local _ .vmem, ⟨12, _⟩ => ⟨S32x200x32, .f32⟩
  | .local _ .vmem, ⟨13, _⟩ => ⟨S32x200x32, .f32⟩
  | .local _ .vmem, ⟨14, _⟩ => ⟨S1x32, .f32⟩
  | .local _ .vmem, ⟨15, _⟩ => ⟨S1x32, .f32⟩
  | .local _ .vmem, ⟨16, _⟩ => ⟨S1x32, .f32⟩
  | .local _ .vmem, ⟨17, _⟩ => ⟨S1x32, .f32⟩
  | .local _ .vmem, ⟨18, _⟩ => ⟨S32x200x32, .f32⟩
  | .local _ .vmem, ⟨19, _⟩ => ⟨S32x200x32, .f32⟩
  | .local _ .vmem, ⟨20, _⟩ => ⟨S1x32, .f32⟩
  | .local _ .vmem, ⟨21, _⟩ => ⟨S1x32, .f32⟩
  | .local _ .vmem, ⟨22, _⟩ => ⟨S1x32, .f32⟩
  | .local _ .vmem, ⟨23, _⟩ => ⟨S32x16, .f32⟩
  | .local _ .vmem, ⟨24, _⟩ => ⟨S1x16, .f32⟩
  | .local _ .vmem, ⟨25, _⟩ => ⟨S32x200x16, .f32⟩
  | .local _ .vmem, ⟨26, _⟩ => ⟨S32x200x16, .f32⟩
  | .local _ .vmem, ⟨27, _⟩ => ⟨S1x16, .f32⟩
  | .local _ .vmem, ⟨28, _⟩ => ⟨S1x16, .f32⟩
  | .local _ .vmem, ⟨29, _⟩ => ⟨S1x16, .f32⟩
  | .local _ .vmem, ⟨30, _⟩ => ⟨S1x16, .f32⟩
  | .local _ .vmem, ⟨31, _⟩ => ⟨S32x200x16, .f32⟩
  | .local _ .vmem, ⟨32, _⟩ => ⟨S32x200x16, .f32⟩
  | .local _ .vmem, ⟨33, _⟩ => ⟨S1x16, .f32⟩
  | .local _ .vmem, ⟨34, _⟩ => ⟨S1x16, .f32⟩
  | .local _ .vmem, ⟨35, _⟩ => ⟨S1x16, .f32⟩
  | .local _ .vmem, ⟨36, _⟩ => ⟨S16x1, .f32⟩
  | .local _ .vmem, ⟨37, _⟩ => ⟨S1x1, .f32⟩
  | .local _ .vmem, ⟨38, _⟩ => ⟨S32x200x64, .f32⟩
  | .local _ .vmem, ⟨39, _⟩ => ⟨S32x200x64, .f32⟩
  | .local _ .vmem, ⟨40, _⟩ => ⟨S32x200x64, .f32⟩
  | .local _ .vmem, ⟨41, _⟩ => ⟨S32x200x64, .f32⟩
  | .local _ .vmem, ⟨42, _⟩ => ⟨S32x200, .i32⟩
  | .local _ .vmem, ⟨43, _⟩ => ⟨S32x200, .i32⟩
  | .local _ .vmem, ⟨44, _⟩ => ⟨S32x128, .f32⟩
  | .local _ .vmem, ⟨45, _⟩ => ⟨S32x128, .f32⟩
  | .local _ .vmem, ⟨46, _⟩ => ⟨S1024x128, .f32⟩
  | .local _ .vmem, ⟨47, _⟩ => ⟨S1024x64, .f32⟩
  | .local _ .vmem, ⟨48, _⟩ => ⟨S1024x64, .f32⟩
  | .local _ .vmem, ⟨49, _⟩ => ⟨S1024, .i32⟩
  | .local _ .vmem, ⟨50, _⟩ => ⟨S256x128, .f32⟩
  | .local _ .vmem, ⟨51, _⟩ => ⟨S1x128, .f32⟩
  | .local _ .vmem, ⟨52, _⟩ => ⟨S128x64, .f32⟩
  | .local _ .vmem, ⟨53, _⟩ => ⟨S1x64, .f32⟩
  | .local _ .vmem, ⟨54, _⟩ => ⟨S64x1, .f32⟩
  | .local _ .vmem, ⟨55, _⟩ => ⟨S1x1, .f32⟩
  | .local _ .vmem, ⟨56, _⟩ => ⟨S1024, .f32⟩
  | .local _ .vmem, ⟨57, _⟩ => ⟨S1x1, .f32⟩
  | _, _ => ⟨S1024x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_5 : Ref sig .tc := ⟨.hbm, 48, rfl⟩
abbrev main_v21 : Ref sig .tc := ⟨.hbm, 49, rfl⟩
abbrev main_v22 : Ref sig .tc := ⟨.hbm, 50, rfl⟩
abbrev main_c_6 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42_0 : Ref sig .tc := ⟨.hbm, 71, rfl⟩
abbrev main_v42_1 : Ref sig .tc := ⟨.hbm, 72, rfl⟩
abbrev main_v42_2 : Ref sig .tc := ⟨.hbm, 73, rfl⟩
abbrev main_cst : Ref sig .tc := ⟨.hbm, 74, rfl⟩
abbrev main_v43 : Ref sig .tc := ⟨.hbm, 75, rfl⟩
abbrev main_v44 : Ref sig .tc := ⟨.hbm, 76, rfl⟩
abbrev main_cst_7 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_8 : Ref sig .tc := ⟨.hbm, 82, rfl⟩
abbrev main_v49 : Ref sig .tc := ⟨.hbm, 83, rfl⟩
abbrev main_v50 : Ref sig .tc := ⟨.hbm, 84, rfl⟩
abbrev main_v51_0 : Ref sig .tc := ⟨.hbm, 85, rfl⟩
abbrev main_v51_1 : Ref sig .tc := ⟨.hbm, 86, rfl⟩
abbrev main_v51_2 : Ref sig .tc := ⟨.hbm, 87, rfl⟩
abbrev main_cst_9 : Ref sig .tc := ⟨.hbm, 88, rfl⟩
abbrev main_v52 : Ref sig .tc := ⟨.hbm, 89, rfl⟩
abbrev main_v53 : Ref sig .tc := ⟨.hbm, 90, rfl⟩
abbrev main_cst_10 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_11 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61_0 : Ref sig .tc := ⟨.hbm, 100, rfl⟩
abbrev main_v61_1 : Ref sig .tc := ⟨.hbm, 101, rfl⟩
abbrev main_v62 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg8_0 : Ref sig .tc := ⟨.vmem, 28, rfl⟩
abbrev cc1_scratch0 : Ref sig .tc := ⟨.vmem, 29, rfl⟩
abbrev cc1_scratch1 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg6_1 : Ref sig .tc := ⟨.vmem, 39, rfl⟩
abbrev cc2_stg7_0 : Ref sig .tc := ⟨.vmem, 40, rfl⟩
abbrev cc2_stg7_1 : Ref sig .tc := ⟨.vmem, 41, rfl⟩
abbrev cc2_stg8_0 : Ref sig .tc := ⟨.vmem, 42, rfl⟩
abbrev cc2_stg8_1 : Ref sig .tc := ⟨.vmem, 43, rfl⟩
abbrev cc2_stg9_0 : Ref sig .tc := ⟨.vmem, 44, rfl⟩
abbrev cc2_stg9_1 : Ref sig .tc := ⟨.vmem, 45, rfl⟩
abbrev cc3_stg0_0 : Ref sig .tc := ⟨.vmem, 46, rfl⟩
abbrev cc3_stg1_0 : Ref sig .tc := ⟨.vmem, 47, rfl⟩
abbrev cc3_stg2_0 : Ref sig .tc := ⟨.vmem, 48, rfl⟩
abbrev cc3_stg3_0 : Ref sig .tc := ⟨.vmem, 49, rfl⟩
abbrev cc3_stg4_0 : Ref sig .tc := ⟨.vmem, 50, rfl⟩
abbrev cc3_stg5_0 : Ref sig .tc := ⟨.vmem, 51, rfl⟩
abbrev cc3_stg6_0 : Ref sig .tc := ⟨.vmem, 52, rfl⟩
abbrev cc3_stg7_0 : Ref sig .tc := ⟨.vmem, 53, rfl⟩
abbrev cc3_stg8_0 : Ref sig .tc := ⟨.vmem, 54, rfl⟩
abbrev cc3_stg9_0 : Ref sig .tc := ⟨.vmem, 55, rfl⟩
abbrev cc3_stg10_0 : Ref sig .tc := ⟨.vmem, 56, rfl⟩
abbrev cc3_stg11_0 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24
abbrev cc1_sem7_0 : DmaSem sig := 25
abbrev cc1_sem8_0 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem6_1 : DmaSem sig := 35
abbrev cc2_sem7_0 : DmaSem sig := 36
abbrev cc2_sem7_1 : DmaSem sig := 37
abbrev cc2_sem8_0 : DmaSem sig := 38
abbrev cc2_sem8_1 : DmaSem sig := 39
abbrev cc2_sem9_0 : DmaSem sig := 40
abbrev cc2_sem9_1 : DmaSem sig := 41
abbrev cc3_sem0_0 : DmaSem sig := 42
abbrev cc3_sem1_0 : DmaSem sig := 43
abbrev cc3_sem2_0 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem7_0 : DmaSem sig := 49
abbrev cc3_sem8_0 : DmaSem sig := 50
abbrev cc3_sem9_0 : DmaSem sig := 51
abbrev cc3_sem10_0 : DmaSem sig := 52
abbrev cc3_sem11_0 : DmaSem sig := 53

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v109 : BitVec 1 := Scalar.cmpi .eq arg0 c31_i32
  let v110 : BitVec 32 := Scalar.extui v109
  let c0_i32_45 : BitVec 32 := 0#32
  let v111 : BitVec 1 := Scalar.cmpi .ne v110 c0_i32_45
  v111

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x200 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x200x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v56 : BitVec 1 := Scalar.cmpi .eq arg0 c31_i32
  let v57 : BitVec 32 := Scalar.extui v56
  let c0_i32_28 : BitVec 32 := 0#32
  let v58 : BitVec 1 := Scalar.cmpi .ne v57 c0_i32_28
  v58

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x200x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S32x200x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S32x200x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S32x200x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S32x200x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S32x200 .i32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S32x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1024x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1024x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024 .i32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x1 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  transposes_S32x512_S512x32_1_0 : S32x512.Transposes [1, 0] S512x32
  transposes_S16x32_S32x16_1_0 : S16x32.Transposes [1, 0] S32x16
  transposes_S1x16_S16x1_1_0 : S1x16.Transposes [1, 0] S16x1
  transposes_S128x256_S256x128_1_0 : S128x256.Transposes [1, 0] S256x128
  transposes_S64x128_S128x64_1_0 : S64x128.Transposes [1, 0] S128x64
  transposes_S1x64_S64x1_1_0 : S1x64.Transposes [1, 0] S64x1
  shapeCasts_S32_S1x32 : S32.ShapeCasts S1x32
  shapeCasts_S16_S1x16 : S16.ShapeCasts S1x16
  shapeCasts_S1_S1x1 : S1.ShapeCasts S1x1
  shapeCasts_S128_S1x128 : S128.ShapeCasts S1x128
  shapeCasts_S64_S1x64 : S64.ShapeCasts S1x64
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x200_S32x200_0_0 : ∀ a, (![0, 0] : Fin 2 → Nat) a + S32x200.size a ≤ S32x200.size a
  h_S32x200 : 0 < S32x200.numel
  natLt_1_32 : 1 < 32
  shapeCasts_S32x200_S32x200x1 : S32x200.ShapeCasts S32x200x1
  inb_S32x200x64_S32x200x64_0_0_0 : ∀ a, (![0, 0, 0] : Fin 3 → Nat) a + S32x200x64.size a ≤ S32x200x64.size a
  h_S32x200x64 : 0 < S32x200x64.numel
  shapeCasts_S32x200x64_S32x200x64 : S32x200x64.ShapeCasts S32x200x64
  broadcasts_S32x200x1_S32x200x64 : S32x200x1.Broadcasts S32x200x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  shapeCasts_S32x64_S32x1x64 : S32x64.ShapeCasts S32x1x64
  shapeCasts_S32x1x64_S32x1x64 : S32x1x64.ShapeCasts S32x1x64
  broadcasts_S32x1x64_S32x200x64 : S32x1x64.Broadcasts S32x200x64
  inb_S512x32_S64x32_0_0 : ∀ a, (![0, 0] : Fin 2 → Nat) a + S64x32.size a ≤ S512x32.size a
  h_S64x32 : 0 < S64x32.numel
  shapeCasts_S64x32_S64x32 : S64x32.ShapeCasts S64x32
  bitsLt_bf16_f32 : FTy.bits .bf16 < FTy.bits .f32
  shapeCasts_S32x200x64_S6400x64 : S32x200x64.ShapeCasts S6400x64
  inb_S512x32_S64x32_64_0 : ∀ a, (![64, 0] : Fin 2 → Nat) a + S64x32.size a ≤ S512x32.size a
  inb_S512x32_S64x32_128_0 : ∀ a, (![128, 0] : Fin 2 → Nat) a + S64x32.size a ≤ S512x32.size a
  inb_S512x32_S64x32_192_0 : ∀ a, (![192, 0] : Fin 2 → Nat) a + S64x32.size a ≤ S512x32.size a
  inb_S512x32_S64x32_256_0 : ∀ a, (![256, 0] : Fin 2 → Nat) a + S64x32.size a ≤ S512x32.size a
  inb_S512x32_S64x32_320_0 : ∀ a, (![320, 0] : Fin 2 → Nat) a + S64x32.size a ≤ S512x32.size a
  inb_S512x32_S64x32_384_0 : ∀ a, (![384, 0] : Fin 2 → Nat) a + S64x32.size a ≤ S512x32.size a
  inb_S512x32_S64x32_448_0 : ∀ a, (![448, 0] : Fin 2 → Nat) a + S64x32.size a ≤ S512x32.size a
  broadcasts_S1x32_S6400x32 : S1x32.Broadcasts S6400x32
  shapeCasts_S6400x32_S32x200x32 : S6400x32.ShapeCasts S32x200x32
  inb_S32x200x32_S32x200x32_0_0_0 : ∀ a, (![0, 0, 0] : Fin 3 → Nat) a + S32x200x32.size a ≤ S32x200x32.size a
  h_S32x200x32 : 0 < S32x200x32.numel
  reduces_S6400x32_S32 : S6400x32.Reduces [0] S32
  bcast_S_S1x32 : S_.BroadcastsInDim S1x32 (![] : Fin 0 → Fin S1x32.rank)
  inb_S1x16_S1x16_0_0 : ∀ a, (![0, 0] : Fin 2 → Nat) a + S1x16.size a ≤ S1x16.size a
  h_S1x16 : 0 < S1x16.numel
  shapeCasts_S1x16_S1x16 : S1x16.ShapeCasts S1x16
  shapeCasts_S32x200x32_S32x200x32 : S32x200x32.ShapeCasts S32x200x32
  shapeCasts_S1x32_S1x1x32 : S1x32.ShapeCasts S1x1x32
  broadcasts_S1x1x32_S32x200x32 : S1x1x32.Broadcasts S32x200x32
  shapeCasts_S32x200x32_S6400x32 : S32x200x32.ShapeCasts S6400x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  broadcasts_S1x16_S6400x16 : S1x16.Broadcasts S6400x16
  shapeCasts_S6400x16_S32x200x16 : S6400x16.ShapeCasts S32x200x16
  inb_S32x200x16_S32x200x16_0_0_0 : ∀ a, (![0, 0, 0] : Fin 3 → Nat) a + S32x200x16.size a ≤ S32x200x16.size a
  h_S32x200x16 : 0 < S32x200x16.numel
  reduces_S6400x16_S16 : S6400x16.Reduces [0] S16
  bcast_S_S1x16 : S_.BroadcastsInDim S1x16 (![] : Fin 0 → Fin S1x16.rank)
  shapeCasts_S32x200x16_S32x200x16 : S32x200x16.ShapeCasts S32x200x16
  shapeCasts_S1x16_S1x1x16 : S1x16.ShapeCasts S1x1x16
  broadcasts_S1x1x16_S32x200x16 : S1x1x16.Broadcasts S32x200x16
  shapeCasts_S32x200x16_S6400x16 : S32x200x16.ShapeCasts S6400x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6400x1 : S1x1.Broadcasts S6400x1
  shapeCasts_S6400x1_S32x200x1 : S6400x1.ShapeCasts S32x200x1
  reduces_S32x200x1_S32x1 : S32x200x1.Reduces [1] S32x1
  shapeCasts_S32x1_S32x1x1 : S32x1.ShapeCasts S32x1x1
  broadcasts_S32x1x1_S32x200x1 : S32x1x1.Broadcasts S32x200x1
  reduces_S32x200x64_S32x64 : S32x200x64.Reduces [1] S32x64
  concatenates_S32x64_S32x64_S32x128_d1 : Shape.Concatenates [S32x64, S32x64] S32x128 1
  inb_S32x128_S32x128_0_0 : ∀ a, (![0, 0] : Fin 2 → Nat) a + S32x128.size a ≤ S32x128.size a
  h_S32x128 : 0 < S32x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  concatenates_S1024x128_S1024x64_S1024x64_S1024x256_d1 : Shape.Concatenates [S1024x128, S1024x64, S1024x64] S1024x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S1x1_S1024x1 : S1x1.Broadcasts S1024x1
  shapeCasts_S1024x1_S1024 : S1024x1.ShapeCasts S1024
  inb_S1024_S1024_0 : ∀ a, (![0] : Fin 1 → Nat) a + S1024.size a ≤ S1024.size a
  h_S1024 : 0 < S1024.numel
  shapeCasts_S1024_S1x1024 : S1024.ShapeCasts S1x1024
  shapeCasts_S1x1_S_ : S1x1.ShapeCasts S_
  gather_S1000000x64_S1024x1_S1024x64_1_0_n_n_0_1_164_wf : GatherDims.WF S1000000x64 S1024x1 S1024x64 [1] [0] [] [0] [] 1 ![1, 64]
  gather_S10000x64_S1024x1_S1024x64_1_0_n_n_0_1_164_wf : GatherDims.WF S10000x64 S1024x1 S1024x64 [1] [0] [] [0] [] 1 ![1, 64]
  gather_S1000000x64_S1024x200x1_S1024x200x64_2_0_n_n_0_2_164_wf : GatherDims.WF S1000000x64 S1024x200x1 S1024x200x64 [2] [0] [] [0] [] 2 ![1, 64]
  gather_S10000x64_S1024x200x1_S1024x200x64_2_0_n_n_0_2_164_wf : GatherDims.WF S10000x64 S1024x200x1 S1024x200x64 [2] [0] [] [0] [] 2 ![1, 64]
  dot_S6400x64_S64x32_S6400x32_1_0_0_1_n_n_wf : DotDims.WF S6400x64 S64x32 S6400x32 [1] [0] [0] [1] [] []
  dot_S6400x32_S32x16_S6400x16_1_0_0_1_n_n_wf : DotDims.WF S6400x32 S32x16 S6400x16 [1] [0] [0] [1] [] []
  dot_S6400x16_S16x1_S6400x1_1_0_0_1_n_n_wf : DotDims.WF S6400x16 S16x1 S6400x1 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []
  dot_S1x1024_S1024x1_S1x1_1_0_0_1_n_n_wf : DotDims.WF S1x1024 S1024x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x200x64.size a ≤ S1024x200x64.size a
  hwx0_0 : ∀ i : grid0.Coords, EltTy.bits .f32 = 32 ∨ (Rect.block (s := S1024x200x64) S32x200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x200x64.size a ≤ S1024x200x64.size a
  hwx0_1 : ∀ i : grid0.Coords, EltTy.bits .f32 = 32 ∨ (Rect.block (s := S1024x200x64) S32x200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S1024x64.size a
  hwx0_2 : ∀ i : grid0.Coords, EltTy.bits .f32 = 32 ∨ (Rect.block (s := S1024x64) S32x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S1024x64.size a
  hwx0_3 : ∀ i : grid0.Coords, EltTy.bits .f32 = 32 ∨ (Rect.block (s := S1024x64) S32x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x200.size a ≤ S1024x200.size a
  hwx0_4 : ∀ i : grid0.Coords, EltTy.bits .i32 = 32 ∨ (Rect.block (s := S1024x200) S32x200.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x32.size a ≤ S512x32.size a
  hwx0_5 : ∀ i : grid0.Coords, EltTy.bits .f32 = 32 ∨ (Rect.block (s := S512x32) S512x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x200x32.size a ≤ S1024x200x32.size a
  hwx0_7 : ∀ i : grid0.Coords, EltTy.bits .f32 = 32 ∨ (Rect.block (s := S1024x200x32) S32x200x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x200x32.size a ≤ S1024x200x32.size a
  hwx1_0 : ∀ i : grid1.Coords, EltTy.bits .f32 = 32 ∨ (Rect.block (s := S1024x200x32) S32x200x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x16.size a ≤ S32x16.size a
  hwx1_4 : ∀ i : grid1.Coords, EltTy.bits .f32 = 32 ∨ (Rect.block (s := S32x16) S32x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S32x200x16.size a ≤ S1024x200x16.size a
  hwx1_6 : ∀ i : grid1.Coords, EltTy.bits .f32 = 32 ∨ (Rect.block (s := S1024x200x16) S32x200x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x16.size a ≤ S1x16.size a
  hwx1_7 : ∀ i : grid1.Coords, EltTy.bits .f32 = 32 ∨ (Rect.block (s := S1x16) S1x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x16.size a ≤ S1x16.size a
  hwx1_8 : ∀ i : grid1.Coords, EltTy.bits .f32 = 32 ∨ (Rect.block (s := S1x16) S1x16.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x200x16.size a ≤ S1024x200x16.size a
  hwx2_0 : ∀ i : grid2.Coords, EltTy.bits .f32 = 32 ∨ (Rect.block (s := S1024x200x16) S32x200x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x1.size a ≤ S16x1.size a
  hwx2_4 : ∀ i : grid2.Coords, EltTy.bits .f32 = 32 ∨ (Rect.block (s := S16x1) S16x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S32x200x64.size a ≤ S1024x200x64.size a
  hwx2_6 : ∀ i : grid2.Coords, EltTy.bits .f32 = 32 ∨ (Rect.block (s := S1024x200x64) S32x200x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S32x200x64.size a ≤ S1024x200x64.size a
  hwx2_7 : ∀ i : grid2.Coords, EltTy.bits .f32 = 32 ∨ (Rect.block (s := S1024x200x64) S32x200x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S32x200.size a ≤ S1024x200.size a
  hwx2_8 : ∀ i : grid2.Coords, EltTy.bits .i32 = 32 ∨ (Rect.block (s := S1024x200) S32x200.size (cc2_transform_8 i) (hinb2_8 i)).WholeWords (EltTy.packing .i32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S32x128.size a ≤ S1024x128.size a
  hwx2_9 : ∀ i : grid2.Coords, EltTy.bits .f32 = 32 ∨ (Rect.block (s := S1024x128) S32x128.size (cc2_transform_9 i) (hinb2_9 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S1024x128.size a
  hwx3_0 : ∀ i : grid3.Coords, EltTy.bits .f32 = 32 ∨ (Rect.block (s := S1024x128) S1024x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S1024x64.size a
  hwx3_1 : ∀ i : grid3.Coords, EltTy.bits .f32 = 32 ∨ (Rect.block (s := S1024x64) S1024x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024x64.size a ≤ S1024x64.size a
  hwx3_2 : ∀ i : grid3.Coords, EltTy.bits .f32 = 32 ∨ (Rect.block (s := S1024x64) S1024x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024.size a ≤ S1024.size a
  hwx3_3 : ∀ i : grid3.Coords, EltTy.bits .i32 = 32 ∨ (Rect.block (s := S1024) S1024.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x128.size a ≤ S256x128.size a
  hwx3_4 : ∀ i : grid3.Coords, EltTy.bits .f32 = 32 ∨ (Rect.block (s := S256x128) S256x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x64.size a ≤ S128x64.size a
  hwx3_6 : ∀ i : grid3.Coords, EltTy.bits .f32 = 32 ∨ (Rect.block (s := S128x64) S128x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x1.size a ≤ S64x1.size a
  hwx3_8 : ∀ i : grid3.Coords, EltTy.bits .f32 = 32 ∨ (Rect.block (s := S64x1) S64x1.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x1.size a ≤ S1x1.size a
  hwx3_9 : ∀ i : grid3.Coords, EltTy.bits .f32 = 32 ∨ (Rect.block (s := S1x1) S1x1.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1024.size a ≤ S1024.size a
  hwx3_10 : ∀ i : grid3.Coords, EltTy.bits .f32 = 32 ∨ (Rect.block (s := S1024) S1024.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x1.size a ≤ S1x1.size a
  hwx3_11 : ∀ i : grid3.Coords, EltTy.bits .f32 = 32 ∨ (Rect.block (s := S1x1) S1x1.size (cc3_transform_11 i) (hinb3_11 i)).WholeWords (EltTy.packing .f32)

variable [Facts₀]

def gather_S1000000x64_S1024x1_S1024x64_1_0_n_n_0_1_164 : GatherDims S1000000x64 S1024x1 S1024x64 where
  offsetDims := [1]
  collapsedSliceDims := [0]
  operandBatchingDims := []
  startIndicesBatchingDims := []
  startIndexMap := [0]
  indexVectorDim := 1
  sliceSizes := ![1, 64]
  wf := gather_S1000000x64_S1024x1_S1024x64_1_0_n_n_0_1_164_wf
def gather_S10000x64_S1024x1_S1024x64_1_0_n_n_0_1_164 : GatherDims S10000x64 S1024x1 S1024x64 where
  offsetDims := [1]
  collapsedSliceDims := [0]
  operandBatchingDims := []
  startIndicesBatchingDims := []
  startIndexMap := [0]
  indexVectorDim := 1
  sliceSizes := ![1, 64]
  wf := gather_S10000x64_S1024x1_S1024x64_1_0_n_n_0_1_164_wf
def gather_S1000000x64_S1024x200x1_S1024x200x64_2_0_n_n_0_2_164 : GatherDims S1000000x64 S1024x200x1 S1024x200x64 where
  offsetDims := [2]
  collapsedSliceDims := [0]
  operandBatchingDims := []
  startIndicesBatchingDims := []
  startIndexMap := [0]
  indexVectorDim := 2
  sliceSizes := ![1, 64]
  wf := gather_S1000000x64_S1024x200x1_S1024x200x64_2_0_n_n_0_2_164_wf
def gather_S10000x64_S1024x200x1_S1024x200x64_2_0_n_n_0_2_164 : GatherDims S10000x64 S1024x200x1 S1024x200x64 where
  offsetDims := [2]
  collapsedSliceDims := [0]
  operandBatchingDims := []
  startIndicesBatchingDims := []
  startIndexMap := [0]
  indexVectorDim := 2
  sliceSizes := ![1, 64]
  wf := gather_S10000x64_S1024x200x1_S1024x200x64_2_0_n_n_0_2_164_wf
def dot_S6400x64_S64x32_S6400x32_1_0_0_1_n_n : DotDims S6400x64 S64x32 S6400x32 where
  lhsContracting := [1]
  rhsContracting := [0]
  lhsNonContracting := [0]
  rhsNonContracting := [1]
  lhsBatch := []
  rhsBatch := []
  wf := dot_S6400x64_S64x32_S6400x32_1_0_0_1_n_n_wf
def dot_S6400x32_S32x16_S6400x16_1_0_0_1_n_n : DotDims S6400x32 S32x16 S6400x16 where
  lhsContracting := [1]
  rhsContracting := [0]
  lhsNonContracting := [0]
  rhsNonContracting := [1]
  lhsBatch := []
  rhsBatch := []
  wf := dot_S6400x32_S32x16_S6400x16_1_0_0_1_n_n_wf
def dot_S6400x16_S16x1_S6400x1_1_0_0_1_n_n : DotDims S6400x16 S16x1 S6400x1 where
  lhsContracting := [1]
  rhsContracting := [0]
  lhsNonContracting := [0]
  rhsNonContracting := [1]
  lhsBatch := []
  rhsBatch := []
  wf := dot_S6400x16_S16x1_S6400x1_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf
def dot_S1x1024_S1024x1_S1x1_1_0_0_1_n_n : DotDims S1x1024 S1024x1 S1x1 where
  lhsContracting := [1]
  rhsContracting := [0]
  lhsNonContracting := [0]
  rhsNonContracting := [1]
  lhsBatch := []
  rhsBatch := []
  wf := dot_S1x1024_S1024x1_S1x1_1_0_0_1_n_n_wf

abbrev win0_0 : Pipeline.Window sig grid0 :=
  Pipeline.Window.ofSpec (Memref.whole main_v20) S32x200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S32x200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S32x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S32x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S32x200.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28) S512x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42_0) S32x200x32.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v42_1) S1x32.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42_2) S1x32.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v42_0) S32x200x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S32x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51_0) S32x200x16.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v51_1) S1x16.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v51_2) S1x16.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v51_0) S32x200x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S16x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S32x200x64.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v27) S32x200x64.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_arg0) S32x200.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_v60) S32x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v60) S1024x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v6) S1024x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v13) S1024x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg4) S1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31) S256x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v32) S128x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v40) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v33) S64x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v41) S1x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v61_0) S1024.size cc3_transform_10 reads3_10 true true 1 stage3_10 sem3_10
    hrank3 hreads3_10 hinb3_10 nbuf3_10 (Memref.isWhole_whole _) hwx3_10 hstage3_10

abbrev win3_11 : Pipeline.Window sig grid3 :=
  Pipeline.Window.ofSpec (Memref.whole main_v61_1) S1x1.size cc3_transform_11 reads3_11 true true 1 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S1024x200 : Shape := ⟨2, ![1024, 200]⟩
abbrev S1024 : Shape := ⟨1, ![1024]⟩
abbrev S1000000x64 : Shape := ⟨2, ![1000000, 64]⟩
abbrev S10000x64 : Shape := ⟨2, ![10000, 64]⟩
abbrev S32x512 : Shape := ⟨2, ![32, 512]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S_ : Shape := ⟨0, ![]⟩
abbrev S1024x1 : Shape := ⟨2, ![1024, 1]⟩
abbrev S1024x64 : Shape := ⟨2, ![1024, 64]⟩
abbrev S1024x200x1 : Shape := ⟨3, ![1024, 200, 1]⟩
abbrev S1024x200x64 : Shape := ⟨3, ![1024, 200, 64]⟩
abbrev S1024x200x128 : Shape := ⟨3, ![1024, 200, 128]⟩
abbrev S1024x128 : Shape := ⟨2, ![1024, 128]⟩
abbrev S1024x1x128 : Shape := ⟨3, ![1024, 1, 128]⟩
abbrev S1024x200x512 : Shape := ⟨3, ![1024, 200, 512]⟩
abbrev S204800x512 : Shape := ⟨2, ![204800, 512]⟩
abbrev S512x32 : Shape := ⟨2, ![512, 32]⟩
abbrev S204800x32 : Shape := ⟨2, ![204800, 32]⟩
abbrev S1x32 : Shape := ⟨2, ![1, 32]⟩
abbrev S32x16 : Shape := ⟨2, ![32, 16]⟩
abbrev S204800x16 : Shape := ⟨2, ![204800, 16]⟩
abbrev S16x1 : Shape := ⟨2, ![16, 1]⟩
abbrev S204800x1 : Shape := ⟨2, ![204800, 1]⟩
abbrev S1x1 : Shape := ⟨2, ![1, 1]⟩
abbrev S1024x1x1 : Shape := ⟨3, ![1024, 1, 1]⟩
abbrev S1024x256 : Shape := ⟨2, ![1024, 256]⟩
abbrev S256x128 : Shape := ⟨2, ![256, 128]⟩
abbrev S1x128 : Shape := ⟨2, ![1, 128]⟩
abbrev S128x64 : Shape := ⟨2, ![128, 64]⟩
abbrev S64x1 : Shape := ⟨2, ![64, 1]⟩

abbrev nBuf : Space → Nat
  | .hbm => 241
  | .vmem => 0
  | .smem => 0
  | _ => 0

abbrev hbmTy0_0 (i : Nat) : BufTy := match i % 128 with
  | 0 => ⟨S1024x200, .i32⟩
  | 1 => ⟨S1024x200, .i32⟩
  | 2 => ⟨S1024, .i32⟩
  | 3 => ⟨S1024, .i32⟩
  | 4 => ⟨S1024, .i32⟩
  | 5 => ⟨S1000000x64, .f32⟩
  | 6 => ⟨S10000x64, .f32⟩
  | 7 => ⟨S32x512, .f32⟩
  | 8 => ⟨S32, .f32⟩
  | 9 => ⟨S32, .f32⟩
  | 10 => ⟨S16x32, .f32⟩
  | 11 => ⟨S16, .f32⟩
  | 12 => ⟨S16, .f32⟩
  | 13 => ⟨S1x16, .f32⟩
  | 14 => ⟨S1, .f32⟩
  | 15 => ⟨S128x256, .f32⟩
  | 16 => ⟨S128, .f32⟩
  | 17 => ⟨S64x128, .f32⟩
  | 18 => ⟨S64, .f32⟩
  | 19 => ⟨S1x64, .f32⟩
  | 20 => ⟨S1, .f32⟩
  | 21 => ⟨S_, .i32⟩
  | 22 => ⟨S1024, .i32⟩
  | 23 => ⟨S1024, .i1⟩
  | 24 => ⟨S_, .i32⟩
  | 25 => ⟨S1024, .i32⟩
  | 26 => ⟨S1024, .i32⟩
  | 27 => ⟨S1024, .i32⟩
  | 28 => ⟨S1024x1, .i32⟩
  | 29 => ⟨S1024x64, .f32⟩
  | 30 => ⟨S_, .i32⟩
  | 31 => ⟨S1024, .i32⟩
  | 32 => ⟨S1024, .i1⟩
  | 33 => ⟨S_, .i32⟩
  | 34 => ⟨S1024, .i32⟩
  | 35 => ⟨S1024, .i32⟩
  | 36 => ⟨S1024, .i32⟩
  | 37 => ⟨S1024x1, .i32⟩
  | 38 => ⟨S1024x64, .f32⟩
  | 39 => ⟨S_, .i32⟩
  | 40 => ⟨S1024x200, .i32⟩
  | 41 => ⟨S1024x200, .i1⟩
  | 42 => ⟨S1024x200, .f32⟩
  | 43 => ⟨S1024x200x1, .f32⟩
  | 44 => ⟨S_, .i32⟩
  | 45 => ⟨S1024x200, .i32⟩
  | 46 => ⟨S1024x200, .i1⟩
  | 47 => ⟨S_, .i32⟩
  | 48 => ⟨S1024x200, .i32⟩
  | 49 => ⟨S1024x200, .i32⟩
  | 50 => ⟨S1024x200, .i32⟩
  | 51 => ⟨S1024x200x1, .i32⟩
  | 52 => ⟨S1024x200x64, .f32⟩
  | 53 => ⟨S1024x200x64, .f32⟩
  | 54 => ⟨S1024x200x64, .f32⟩
  | 55 => ⟨S_, .i32⟩
  | 56 => ⟨S1024x200, .i32⟩
  | 57 => ⟨S1024x200, .i1⟩
  | 58 => ⟨S_, .i32⟩
  | 59 => ⟨S1024x200, .i32⟩
  | 60 => ⟨S1024x200, .i32⟩
  | 61 => ⟨S1024x200, .i32⟩
  | 62 => ⟨S1024x200x1, .i32⟩
  | 63 => ⟨S1024x200x64, .f32⟩
  | 64 => ⟨S1024x200x64, .f32⟩
  | 65 => ⟨S1024x200x64, .f32⟩
  | 66 => ⟨S1024x200x128, .f32⟩
  | 67 => ⟨S1024x128, .f32⟩
  | 68 => ⟨S1024x1x128, .f32⟩
  | 69 => ⟨S1024x200x128, .f32⟩
  | 70 => ⟨S1024x200x128, .f32⟩
  | 71 => ⟨S1024x200x128, .f32⟩
  | 72 => ⟨S1024x200x512, .f32⟩
  | 73 => ⟨S204800x512, .f32⟩
  | 74 => ⟨S512x32, .f32⟩
  | 75 => ⟨S204800x32, .f32⟩
  | 76 => ⟨S1x32, .f32⟩
  | 77 => ⟨S204800x32, .f32⟩
  | 78 => ⟨S204800x32, .f32⟩
  | 79 => ⟨S_, .f32⟩
  | 80 => ⟨S32, .f32⟩
  | 81 => ⟨S1x32, .f32⟩
  | 82 => ⟨S_, .f32⟩
  | 83 => ⟨S1x32, .f32⟩
  | 84 => ⟨S1x32, .f32⟩
  | 85 => ⟨S204800x32, .f32⟩
  | 86 => ⟨S204800x32, .f32⟩
  | 87 => ⟨S204800x32, .f32⟩
  | 88 => ⟨S_, .f32⟩
  | 89 => ⟨S32, .f32⟩
  | 90 => ⟨S1x32, .f32⟩
  | 91 => ⟨S_, .f32⟩
  | 92 => ⟨S1x32, .f32⟩
  | 93 => ⟨S1x32, .f32⟩
  | 94 => ⟨S204800x32, .f32⟩
  | 95 => ⟨S204800x32, .f32⟩
  | 96 => ⟨S_, .f32⟩
  | 97 => ⟨S1x32, .f32⟩
  | 98 => ⟨S1x32, .f32⟩
  | 99 => ⟨S1x32, .f32⟩
  | 100 => ⟨S204800x32, .f32⟩
  | 101 => ⟨S204800x32, .f32⟩
  | 102 => ⟨S204800x32, .f32⟩
  | 103 => ⟨S204800x32, .f32⟩
  | 104 => ⟨S_, .f32⟩
  | 105 => ⟨S204800x32, .f32⟩
  | 106 => ⟨S204800x32, .f32⟩
  | 107 => ⟨S_, .f32⟩
  | 108 => ⟨S204800x32, .f32⟩
  | 109 => ⟨S204800x32, .f32⟩
  | 110 => ⟨S204800x32, .f32⟩
  | 111 => ⟨S_, .f32⟩
  | 112 => ⟨S204800x32, .f32⟩
  | 113 => ⟨S204800x32, .f32⟩
  | 114 => ⟨S1x32, .f32⟩
  | 115 => ⟨S204800x32, .f32⟩
  | 116 => ⟨S204800x32, .f32⟩
  | 117 => ⟨S204800x32, .f32⟩
  | 118 => ⟨S204800x32, .f32⟩
  | 119 => ⟨S32x16, .f32⟩
  | 120 => ⟨S204800x16, .f32⟩
  | 121 => ⟨S1x16, .f32⟩
  | 122 => ⟨S204800x16, .f32⟩
  | 123 => ⟨S204800x16, .f32⟩
  | 124 => ⟨S_, .f32⟩
  | 125 => ⟨S16, .f32⟩
  | 126 => ⟨S1x16, .f32⟩
  | 127 => ⟨S_, .f32⟩
  | _ => ⟨S1024x200, .i32⟩

abbrev hbmTy0_1 (i : Nat) : BufTy := match i % 128 with
  | 0 => ⟨S1x16, .f32⟩
  | 1 => ⟨S1x16, .f32⟩
  | 2 => ⟨S204800x16, .f32⟩
  | 3 => ⟨S204800x16, .f32⟩
  | 4 => ⟨S204800x16, .f32⟩
  | 5 => ⟨S_, .f32⟩
  | 6 => ⟨S16, .f32⟩
  | 7 => ⟨S1x16, .f32⟩
  | 8 => ⟨S_, .f32⟩
  | 9 => ⟨S1x16, .f32⟩
  | 10 => ⟨S1x16, .f32⟩
  | 11 => ⟨S204800x16, .f32⟩
  | 12 => ⟨S204800x16, .f32⟩
  | 13 => ⟨S_, .f32⟩
  | 14 => ⟨S1x16, .f32⟩
  | 15 => ⟨S1x16, .f32⟩
  | 16 => ⟨S1x16, .f32⟩
  | 17 => ⟨S204800x16, .f32⟩
  | 18 => ⟨S204800x16, .f32⟩
  | 19 => ⟨S204800x16, .f32⟩
  | 20 => ⟨S204800x16, .f32⟩
  | 21 => ⟨S_, .f32⟩
  | 22 => ⟨S204800x16, .f32⟩
  | 23 => ⟨S204800x16, .f32⟩
  | 24 => ⟨S_, .f32⟩
  | 25 => ⟨S204800x16, .f32⟩
  | 26 => ⟨S204800x16, .f32⟩
  | 27 => ⟨S204800x16, .f32⟩
  | 28 => ⟨S_, .f32⟩
  | 29 => ⟨S204800x16, .f32⟩
  | 30 => ⟨S204800x16, .f32⟩
  | 31 => ⟨S1x16, .f32⟩
  | 32 => ⟨S204800x16, .f32⟩
  | 33 => ⟨S204800x16, .f32⟩
  | 34 => ⟨S204800x16, .f32⟩
  | 35 => ⟨S204800x16, .f32⟩
  | 36 => ⟨S16x1, .f32⟩
  | 37 => ⟨S204800x1, .f32⟩
  | 38 => ⟨S1x1, .f32⟩
  | 39 => ⟨S204800x1, .f32⟩
  | 40 => ⟨S204800x1, .f32⟩
  | 41 => ⟨S1024x200x1, .f32⟩
  | 42 => ⟨S_, .f32⟩
  | 43 => ⟨S1024x200x1, .f32⟩
  | 44 => ⟨S1024x200x1, .f32⟩
  | 45 => ⟨S_, .f32⟩
  | 46 => ⟨S1024x200x1, .f32⟩
  | 47 => ⟨S1024x200x1, .f32⟩
  | 48 => ⟨S1024x200x1, .f32⟩
  | 49 => ⟨S_, .f32⟩
  | 50 => ⟨S1024x1, .f32⟩
  | 51 => ⟨S_, .f32⟩
  | 52 => ⟨S1024x1, .f32⟩
  | 53 => ⟨S1024x1, .f32⟩
  | 54 => ⟨S1024x1x1, .f32⟩
  | 55 => ⟨S1024x200x1, .f32⟩
  | 56 => ⟨S1024x200x1, .f32⟩
  | 57 => ⟨S1024x200x1, .f32⟩
  | 58 => ⟨S_, .f32⟩
  | 59 => ⟨S1024x1, .f32⟩
  | 60 => ⟨S1024x1x1, .f32⟩
  | 61 => ⟨S1024x200x1, .f32⟩
  | 62 => ⟨S1024x200x1, .f32⟩
  | 63 => ⟨S1024x200x128, .f32⟩
  | 64 => ⟨S1024x200x128, .f32⟩
  | 65 => ⟨S_, .f32⟩
  | 66 => ⟨S1024x128, .f32⟩
  | 67 => ⟨S1024x256, .f32⟩
  | 68 => ⟨S256x128, .f32⟩
  | 69 => ⟨S1024x128, .f32⟩
  | 70 => ⟨S1x128, .f32⟩
  | 71 => ⟨S1024x128, .f32⟩
  | 72 => ⟨S1024x128, .f32⟩
  | 73 => ⟨S_, .f32⟩
  | 74 => ⟨S1024x128, .f32⟩
  | 75 => ⟨S1024x128, .f32⟩
  | 76 => ⟨S128x64, .f32⟩
  | 77 => ⟨S1024x64, .f32⟩
  | 78 => ⟨S1x64, .f32⟩
  | 79 => ⟨S1024x64, .f32⟩
  | 80 => ⟨S1024x64, .f32⟩
  | 81 => ⟨S_, .f32⟩
  | 82 => ⟨S1024x64, .f32⟩
  | 83 => ⟨S1024x64, .f32⟩
  | 84 => ⟨S64x1, .f32⟩
  | 85 => ⟨S1024x1, .f32⟩
  | 86 => ⟨S1x1, .f32⟩
  | 87 => ⟨S1024x1, .f32⟩
  | 88 => ⟨S1024x1, .f32⟩
  | 89 => ⟨S1024, .f32⟩
  | 90 => ⟨S1024, .f32⟩
  | 91 => ⟨S_, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1024, .f32⟩
  | 101 => ⟨S_, .f32⟩
  | 102 => ⟨S_, .f32⟩
  | 103 => ⟨S_, .f32⟩
  | 104 => ⟨S_, .f32⟩
  | 105 => ⟨S1024, .f32⟩
  | 106 => ⟨S1024, .f32⟩
  | 107 => ⟨S_, .f32⟩
  | 108 => ⟨S1024, .f32⟩
  | 109 => ⟨S1024, .f32⟩
  | 110 => ⟨S_, .f32⟩
  | 111 => ⟨S1024, .f32⟩
  | 112 => ⟨S1024, .f32⟩
  | _ => ⟨S1024x200, .i32⟩

abbrev hbmTy (i : Nat) : BufTy := match i / 128 with
  | 0 => hbmTy0_0 i
  | 1 => hbmTy0_1 i
  | _ => ⟨S1024x200, .i32⟩

abbrev bufTy : (tb : Table) → Fin (tcTables nBuf tb) → BufTy
  | .hbm, ⟨i, _⟩ => hbmTy i
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_v18 : Ref sig .tc := ⟨.hbm, 45, rfl⟩
abbrev main_v19 : Ref sig .tc := ⟨.hbm, 46, rfl⟩
abbrev main_c_5 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_v28 : Ref sig .tc := ⟨.hbm, 57, rfl⟩
abbrev main_c_7 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst : Ref sig .tc := ⟨.hbm, 79, rfl⟩
abbrev main_v49 : Ref sig .tc := ⟨.hbm, 80, rfl⟩
abbrev main_v50 : Ref sig .tc := ⟨.hbm, 81, rfl⟩
abbrev main_cst_8 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_cst_10 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_12 : Ref sig .tc := ⟨.hbm, 104, rfl⟩
abbrev main_v69 : Ref sig .tc := ⟨.hbm, 105, rfl⟩
abbrev main_v70 : Ref sig .tc := ⟨.hbm, 106, rfl⟩
abbrev main_cst_13 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_14 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_15 : Ref sig .tc := ⟨.hbm, 124, rfl⟩
abbrev main_v86 : Ref sig .tc := ⟨.hbm, 125, rfl⟩
abbrev main_v87 : Ref sig .tc := ⟨.hbm, 126, rfl⟩
abbrev main_cst_16 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_17 : Ref sig .tc := ⟨.hbm, 133, rfl⟩
abbrev main_v93 : Ref sig .tc := ⟨.hbm, 134, rfl⟩
abbrev main_v94 : Ref sig .tc := ⟨.hbm, 135, rfl⟩
abbrev main_cst_18 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_19 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_20 : Ref sig .tc := ⟨.hbm, 149, rfl⟩
abbrev main_v106 : Ref sig .tc := ⟨.hbm, 150, rfl⟩
abbrev main_v107 : Ref sig .tc := ⟨.hbm, 151, rfl⟩
abbrev main_cst_21 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_22 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_23 : Ref sig .tc := ⟨.hbm, 170, rfl⟩
abbrev main_v124 : Ref sig .tc := ⟨.hbm, 171, rfl⟩
abbrev main_v125 : Ref sig .tc := ⟨.hbm, 172, rfl⟩
abbrev main_cst_24 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_25 : Ref sig .tc := ⟨.hbm, 177, rfl⟩
abbrev main_v129 : Ref sig .tc := ⟨.hbm, 178, rfl⟩
abbrev main_cst_26 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_27 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_28 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_call0_cst : Ref sig .tc := ⟨.hbm, 201, rfl⟩
abbrev main_call0_v0 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_call1_cst : Ref sig .tc := ⟨.hbm, 209, rfl⟩
abbrev main_call1_v0 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_cst_29 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_cst_30 : Ref sig .tc := ⟨.hbm, 229, rfl⟩
abbrev main_v172 : Ref sig .tc := ⟨.hbm, 230, rfl⟩
abbrev main_cst_31 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_cst_32 : Ref sig .tc := ⟨.hbm, 235, rfl⟩
abbrev main_v176 : Ref sig .tc := ⟨.hbm, 236, rfl⟩
abbrev main_v177 : Ref sig .tc := ⟨.hbm, 237, rfl⟩
abbrev main_cst_33 : Ref sig .tc := ⟨.hbm, 238, rfl⟩
abbrev main_v178 : Ref sig .tc := ⟨.hbm, 239, rfl⟩
abbrev main_v179 : Ref sig .tc := ⟨.hbm, 240, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S1024x200x1_S1024x200x64_0_1_2 : S1024x200x1.BroadcastsInDim S1024x200x64 (![0, 1, 2] : Fin 3 → Fin S1024x200x64.rank)
  concatenates_S1024x200x64_S1024x200x64_S1024x200x128_d2 : Shape.Concatenates [S1024x200x64, S1024x200x64] S1024x200x128 2
  concatenates_S1024x64_S1024x64_S1024x128_d1 : Shape.Concatenates [S1024x64, S1024x64] S1024x128 1
  bcast_S1024x128_S1024x1x128_0_2 : S1024x128.BroadcastsInDim S1024x1x128 (![0, 2] : Fin 2 → Fin S1024x1x128.rank)
  bcast_S1024x1x128_S1024x200x128_0_1_2 : S1024x1x128.BroadcastsInDim S1024x200x128 (![0, 1, 2] : Fin 3 → Fin S1024x200x128.rank)
  concatenates_S1024x200x128_S1024x200x128_S1024x200x128_S1024x200x128_S1024x200x512_d2 : Shape.Concatenates [S1024x200x128, S1024x200x128, S1024x200x128, S1024x200x128] S1024x200x512 2
  shapeCasts_S1024x200x512_S204800x512 : S1024x200x512.ShapeCasts S204800x512
  transposes_S32x512_S512x32_1_0 : S32x512.Transposes [1, 0] S512x32
  bcast_S32_S1x32_1 : S32.BroadcastsInDim S1x32 (![1] : Fin 1 → Fin S1x32.rank)
  bcast_S1x32_S204800x32_0_1 : S1x32.BroadcastsInDim S204800x32 (![0, 1] : Fin 2 → Fin S204800x32.rank)
  reducesTo_S204800x32_S32_d0 : S204800x32.ReducesTo [0] S32
  h_S_ : 0 < S_.numel
  bcast_S_S1x32 : S_.BroadcastsInDim S1x32 (![] : Fin 0 → Fin S1x32.rank)
  bcast_S_S204800x32 : S_.BroadcastsInDim S204800x32 (![] : Fin 0 → Fin S204800x32.rank)
  transposes_S16x32_S32x16_1_0 : S16x32.Transposes [1, 0] S32x16
  bcast_S16_S1x16_1 : S16.BroadcastsInDim S1x16 (![1] : Fin 1 → Fin S1x16.rank)
  bcast_S1x16_S204800x16_0_1 : S1x16.BroadcastsInDim S204800x16 (![0, 1] : Fin 2 → Fin S204800x16.rank)
  reducesTo_S204800x16_S16_d0 : S204800x16.ReducesTo [0] S16
  bcast_S_S1x16 : S_.BroadcastsInDim S1x16 (![] : Fin 0 → Fin S1x16.rank)
  bcast_S_S204800x16 : S_.BroadcastsInDim S204800x16 (![] : Fin 0 → Fin S204800x16.rank)
  transposes_S1x16_S16x1_1_0 : S1x16.Transposes [1, 0] S16x1
  bcast_S1_S1x1_1 : S1.BroadcastsInDim S1x1 (![1] : Fin 1 → Fin S1x1.rank)
  bcast_S1x1_S204800x1_0_1 : S1x1.BroadcastsInDim S204800x1 (![0, 1] : Fin 2 → Fin S204800x1.rank)
  shapeCasts_S204800x1_S1024x200x1 : S204800x1.ShapeCasts S1024x200x1
  bcast_S_S1024x200x1 : S_.BroadcastsInDim S1024x200x1 (![] : Fin 0 → Fin S1024x200x1.rank)
  reducesTo_S1024x200x1_S1024x1_d1 : S1024x200x1.ReducesTo [1] S1024x1
  bcast_S_S1024x1 : S_.BroadcastsInDim S1024x1 (![] : Fin 0 → Fin S1024x1.rank)
  bcast_S1024x1_S1024x1x1_0_2 : S1024x1.BroadcastsInDim S1024x1x1 (![0, 2] : Fin 2 → Fin S1024x1x1.rank)
  bcast_S1024x1x1_S1024x200x1_0_1_2 : S1024x1x1.BroadcastsInDim S1024x200x1 (![0, 1, 2] : Fin 3 → Fin S1024x200x1.rank)
  bcast_S1024x200x1_S1024x200x128_0_1_2 : S1024x200x1.BroadcastsInDim S1024x200x128 (![0, 1, 2] : Fin 3 → Fin S1024x200x128.rank)
  reducesTo_S1024x200x128_S1024x128_d1 : S1024x200x128.ReducesTo [1] S1024x128
  concatenates_S1024x128_S1024x64_S1024x64_S1024x256_d1 : Shape.Concatenates [S1024x128, S1024x64, S1024x64] S1024x256 1
  transposes_S128x256_S256x128_1_0 : S128x256.Transposes [1, 0] S256x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  transposes_S64x128_S128x64_1_0 : S64x128.Transposes [1, 0] S128x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  transposes_S1x64_S64x1_1_0 : S1x64.Transposes [1, 0] S64x1
  bcast_S1x1_S1024x1_0_1 : S1x1.BroadcastsInDim S1024x1 (![0, 1] : Fin 2 → Fin S1024x1.rank)
  shapeCasts_S1024x1_S1024 : S1024x1.ShapeCasts S1024
  reducesTo_S1024_S_d0 : S1024.ReducesTo [0] S_
  gather_S1000000x64_S1024x1_S1024x64_1_0_n_n_0_1_164_wf : GatherDims.WF S1000000x64 S1024x1 S1024x64 [1] [0] [] [0] [] 1 ![1, 64]
  gather_S10000x64_S1024x1_S1024x64_1_0_n_n_0_1_164_wf : GatherDims.WF S10000x64 S1024x1 S1024x64 [1] [0] [] [0] [] 1 ![1, 64]
  gather_S1000000x64_S1024x200x1_S1024x200x64_2_0_n_n_0_2_164_wf : GatherDims.WF S1000000x64 S1024x200x1 S1024x200x64 [2] [0] [] [0] [] 2 ![1, 64]
  gather_S10000x64_S1024x200x1_S1024x200x64_2_0_n_n_0_2_164_wf : GatherDims.WF S10000x64 S1024x200x1 S1024x200x64 [2] [0] [] [0] [] 2 ![1, 64]
  dot_S204800x512_S512x32_S204800x32_1_0_0_1_n_n_wf : DotDims.WF S204800x512 S512x32 S204800x32 [1] [0] [0] [1] [] []
  dot_S204800x32_S32x16_S204800x16_1_0_0_1_n_n_wf : DotDims.WF S204800x32 S32x16 S204800x16 [1] [0] [0] [1] [] []
  dot_S204800x16_S16x1_S204800x1_1_0_0_1_n_n_wf : DotDims.WF S204800x16 S16x1 S204800x1 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []

variable [Facts₀]

def gather_S1000000x64_S1024x1_S1024x64_1_0_n_n_0_1_164 : GatherDims S1000000x64 S1024x1 S1024x64 where
  offsetDims := [1]
  collapsedSliceDims := [0]
  operandBatchingDims := []
  startIndicesBatchingDims := []
  startIndexMap := [0]
  indexVectorDim := 1
  sliceSizes := ![1, 64]
  wf := gather_S1000000x64_S1024x1_S1024x64_1_0_n_n_0_1_164_wf
def gather_S10000x64_S1024x1_S1024x64_1_0_n_n_0_1_164 : GatherDims S10000x64 S1024x1 S1024x64 where
  offsetDims := [1]
  collapsedSliceDims := [0]
  operandBatchingDims := []
  startIndicesBatchingDims := []
  startIndexMap := [0]
  indexVectorDim := 1
  sliceSizes := ![1, 64]
  wf := gather_S10000x64_S1024x1_S1024x64_1_0_n_n_0_1_164_wf
def gather_S1000000x64_S1024x200x1_S1024x200x64_2_0_n_n_0_2_164 : GatherDims S1000000x64 S1024x200x1 S1024x200x64 where
  offsetDims := [2]
  collapsedSliceDims := [0]
  operandBatchingDims := []
  startIndicesBatchingDims := []
  startIndexMap := [0]
  indexVectorDim := 2
  sliceSizes := ![1, 64]
  wf := gather_S1000000x64_S1024x200x1_S1024x200x64_2_0_n_n_0_2_164_wf
def gather_S10000x64_S1024x200x1_S1024x200x64_2_0_n_n_0_2_164 : GatherDims S10000x64 S1024x200x1 S1024x200x64 where
  offsetDims := [2]
  collapsedSliceDims := [0]
  operandBatchingDims := []
  startIndicesBatchingDims := []
  startIndexMap := [0]
  indexVectorDim := 2
  sliceSizes := ![1, 64]
  wf := gather_S10000x64_S1024x200x1_S1024x200x64_2_0_n_n_0_2_164_wf
def dot_S204800x512_S512x32_S204800x32_1_0_0_1_n_n : DotDims S204800x512 S512x32 S204800x32 where
  lhsContracting := [1]
  rhsContracting := [0]
  lhsNonContracting := [0]
  rhsNonContracting := [1]
  lhsBatch := []
  rhsBatch := []
  wf := dot_S204800x512_S512x32_S204800x32_1_0_0_1_n_n_wf
def dot_S204800x32_S32x16_S204800x16_1_0_0_1_n_n : DotDims S204800x32 S32x16 S204800x16 where
  lhsContracting := [1]
  rhsContracting := [0]
  lhsNonContracting := [0]
  rhsNonContracting := [1]
  lhsBatch := []
  rhsBatch := []
  wf := dot_S204800x32_S32x16_S204800x16_1_0_0_1_n_n_wf
def dot_S204800x16_S16x1_S204800x1_1_0_0_1_n_n : DotDims S204800x16 S16x1 S204800x1 where
  lhsContracting := [1]
  rhsContracting := [0]
  lhsNonContracting := [0]
  rhsNonContracting := [1]
  lhsBatch := []
  rhsBatch := []
  wf := dot_S204800x16_S16x1_S204800x1_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.K.R0Pt.lean ====
import proofs.«421617_j66314295050867_4_alg».proof.Proof.Gen.Kernel.Skeleton
import Idealize.ShloMosaic.Lib.Pipeline.FrameBody

noncomputable section

namespace Cert.Kernel.Fr

open Idealize.ShloMosaic Idealize.SL.Sem
open Cert.Kernel Cert.Kernel.Gen

variable {F : FTy → Type} [FloatOps F]

def wr0_0 : Rect S512x32 := Rect.unit (s := S512x32) ![0, 0] S64x32.size inb_S512x32_S64x32_0_0
def wr0_1 : Rect S512x32 := Rect.unit (s := S512x32) ![64, 0] S64x32.size inb_S512x32_S64x32_64_0
def wr0_2 : Rect S512x32 := Rect.unit (s := S512x32) ![128, 0] S64x32.size inb_S512x32_S64x32_128_0
def wr0_3 : Rect S512x32 := Rect.unit (s := S512x32) ![192, 0] S64x32.size inb_S512x32_S64x32_192_0
def wr0_4 : Rect S512x32 := Rect.unit (s := S512x32) ![256, 0] S64x32.size inb_S512x32_S64x32_256_0
def wr0_5 : Rect S512x32 := Rect.unit (s := S512x32) ![320, 0] S64x32.size inb_S512x32_S64x32_320_0
def wr0_6 : Rect S512x32 := Rect.unit (s := S512x32) ![384, 0] S64x32.size inb_S512x32_S64x32_384_0
def wr0_7 : Rect S512x32 := Rect.unit (s := S512x32) ![448, 0] S64x32.size inb_S512x32_S64x32_448_0

def pt0_acc (im cm : Vec F S32x200x64 .f32) (ti tc : Vec F S32x64 .f32) (hist : Vec F S32x200 .i32)
    (w : Vec F S512x32 .f32) : FVec F S6400x32 .f32 :=
  k0_pay17 (k0_pay8 hist im) (k0_pay9 hist cm) (k0_pay11 tc) (k0_pay12 hist im ti) (k0_pay13 hist cm tc)
    (k0_pay14 hist im ti) (k0_pay16 ti (View.ld w (Rect.unit (s := S512x32) ![0, 0] S64x32.size inb_S512x32_S64x32_0_0)))
    (View.ld w (Rect.unit (s := S512x32) ![64, 0] S64x32.size inb_S512x32_S64x32_64_0))
    (View.ld w (Rect.unit (s := S512x32) ![128, 0] S64x32.size inb_S512x32_S64x32_128_0))
    (View.ld w (Rect.unit (s := S512x32) ![192, 0] S64x32.size inb_S512x32_S64x32_192_0))
    (View.ld w (Rect.unit (s := S512x32) ![256, 0] S64x32.size inb_S512x32_S64x32_256_0))
    (View.ld w (Rect.unit (s := S512x32) ![320, 0] S64x32.size inb_S512x32_S64x32_320_0))
    (View.ld w (Rect.unit (s := S512x32) ![384, 0] S64x32.size inb_S512x32_S64x32_384_0))

def pt0_h (im cm : Vec F S32x200x64 .f32) (ti tc : Vec F S32x64 .f32) (hist : Vec F S32x200 .i32)
    (w : Vec F S512x32 .f32) (b : Vec F S1x32 .f32) : FVec F S32x200x32 .f32 :=
  k0_pay2 (k0_pay15 hist cm tc) (pt0_acc im cm ti tc hist w)
    (View.ld w (Rect.unit (s := S512x32) ![448, 0] S64x32.size inb_S512x32_S64x32_448_0)) b

def pt0_s (im cm : Vec F S32x200x64 .f32) (ti tc : Vec F S32x64 .f32) (hist : Vec F S32x200 .i32)
    (w : Vec F S512x32 .f32) (b : Vec F S1x32 .f32) (acc : Vec F S1x32 .f32) : FVec F S1x32 .f32 :=
  k0_pay3 (k0_pay15 hist cm tc) (pt0_acc im cm ti tc hist w)
    (View.ld w (Rect.unit (s := S512x32) ![448, 0] S64x32.size inb_S512x32_S64x32_448_0)) b acc

def pt0_q (im cm : Vec F S32x200x64 .f32) (ti tc : Vec F S32x64 .f32) (hist : Vec F S32x200 .i32)
    (w : Vec F S512x32 .f32) (b : Vec F S1x32 .f32) (acc : Vec F S1x32 .f32) : FVec F S1x32 .f32 :=
  k0_pay4 (k0_pay15 hist cm tc) (pt0_acc im cm ti tc hist w)
    (View.ld w (Rect.unit (s := S512x32) ![448, 0] S64x32.size inb_S512x32_S64x32_448_0)) b acc

def pt0_s0 : FVec F S1x32 .f32 := k0_pay5 (F := F)

def pt0_q0 : FVec F S1x32 .f32 := k0_pay6 (F := F)

end Cert.Kernel.Fr

end
-- ==== Proof.K.Whole.lean ====
import Idealize.ShloMosaic.Lib.Pipeline.FrameBody
import Idealize.ShloMosaic.Lib.Pipeline.Value

noncomputable section

namespace Cert.Kernel.Fr

open Idealize.ShloMosaic

theorem readAt_unit_zero {sig' : RefSig} {κ : Kind} {sp : Space} {Val : EltTy → Type} {S : Shape} {e : EltTy}
    (v : View sig' κ sp S e) {off : Fin S.rank → ℕ} (h : off = fun _ => 0) (inb : ∀ a, off a + S.size a ≤ S.size a)
    (f : v.ty.Contents Val) : v.readAt Val (Rect.unit off S.size inb).toLoadRect f = v.read Val f :=
  (View.readAt_eq_ld v f _).trans (View.ld_unit_zero h inb _)

theorem read_writes_unit_zero {sig' : RefSig} {κ : Kind} {sp : Space} {Val : EltTy → Type} [∀ e, Nonempty (Val e)] {S : Shape} {e : EltTy}
    (v : View sig' κ sp S e) {off : Fin S.rank → ℕ} (h : off = fun _ => 0) (inb : ∀ a, off a + S.size a ≤ S.size a)
    (f : v.ty.Contents Val) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

theorem hz2 : (![0, 0] : Fin 2 → ℕ) = fun _ => 0 := by funext a; fin_cases a <;> rfl
theorem hz3 : (![0, 0, 0] : Fin 3 → ℕ) = fun _ => 0 := by funext a; fin_cases a <;> rfl

end Cert.Kernel.Fr

end
-- ==== Proof.K.R0.Runs.lean ====
import proofs.«421617_j66314295050867_4_alg».proof.Proof.Gen.Kernel.Launch
import proofs.«421617_j66314295050867_4_alg».proof.Proof.Gen.Kernel.Skeleton
import proofs.«421617_j66314295050867_4_alg».proof.Proof.Gen.Kernel.Points
import proofs.«421617_j66314295050867_4_alg».proof.Proof.K.R0Pt
import proofs.«421617_j66314295050867_4_alg».proof.Proof.K.Whole
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1

theorem hcond0_1 : ∀ t : Fin cfg0.N, cond0_1 (grid0.coords t) ↔ t.val = 31 :=
  (by decide +kernel : ∀ t : Fin grid0.N, cond0_1 (grid0.coords t) ↔ t.val = 31)

variable (c : Dev nD) (E : Set ℕ) (i : grid0.Coords) (arg1 : Memref sig .tc .vmem S32x200x64 .f32) (harg1 : arg1.IsWhole) (arg2 : Memref sig .tc .vmem S32x200x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S32x200 .i32) (harg5 : arg5.IsWhole) (arg6 : Memref sig .tc .vmem S512x32 .f32) (harg6 : arg6.IsWhole) (arg7 : Memref sig .tc .vmem S1x32 .f32) (harg7 : arg7.IsWhole) (arg8 : Memref sig .tc .vmem S32x200x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole)

set_option maxHeartbeats 4000000 in

theorem kernelRun0_A
    (hc0 : cond0_0 i) (hc1 : ¬cond0_1 i)
    (x1 x2 : Vec F S32x200x64 .f32) (x3 x4 : Vec F S32x64 .f32) (x5 : Vec F S32x200 .i32) (x6 : Vec F S512x32 .f32) (x7 : Vec F S1x32 .f32) (K : PUnit → sProp 𝕄) :
    iprop(owns c arg1 fullShare x1 ∗ owns c arg2 fullShare x2 ∗ owns c arg3 fullShare x3
        ∗ owns c arg4 fullShare x4 ∗ owns c arg5 fullShare x5 ∗ owns c arg6 fullShare x6
        ∗ owns c arg7 fullShare x7 ∗ (∃ d, owns c arg8 fullShare d)
        ∗ (∃ d, owns c arg11 fullShare d) ∗ (∃ d, owns c arg12 fullShare d)
        ∗ (iprop(owns c arg1 fullShare x1 ∗ owns c arg2 fullShare x2 ∗ owns c arg3 fullShare x3
        ∗ owns c arg4 fullShare x4 ∗ owns c arg5 fullShare x5 ∗ owns c arg6 fullShare x6
        ∗ owns c arg7 fullShare x7 ∗ owns c arg8 fullShare (pt0_h x1 x2 x3 x4 x5 x6 x7)
            ∗ owns c arg11 fullShare (pt0_s x1 x2 x3 x4 x5 x6 x7 pt0_s0) ∗ owns c arg12 fullShare (pt0_q x1 x2 x3 x4 x5 x6 x7 pt0_q0)) -∗ K ⟨⟩))
      ⊢ wp frame (wpE (defs₀ (F := F)) Variants.none c none) E (cc0__dice_h0_kernel i arg1 harg1 arg2 harg2 arg3 harg3 arg4 harg4 arg5 harg5 arg6 harg6 arg7 harg7 arg8 harg8 arg9 harg9 arg10 harg10 arg11 harg11 arg12 harg12) K := by
  simp only [cc0__dice_h0_kernel_eq_skeleton]; unfold cc0__dice_h0_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
  subst hf1 hf2 hf3 hf4 hf5 hf6 hf7
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; iexists _; isplitr; swap; iexact H8; rotate_left
  isplitl [HS0]; iexists _; isplitr; swap; iexact HS0; rotate_left
  iexists _; isplitr; swap; iexact HS1
  all_goals
    ipureintro
    first | rw [read_writes_unit_zero _ hz3] | rw [read_writes_unit_zero _ hz2]
    try unfold kernelRun0_A.sl.v94 kernelRun0_A.sl.HS0_1
    try unfold kernelRun0_A.sl.v101 kernelRun0_A.sl.HS1_1
    unfold kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
    simp only [pt0_h, pt0_s, pt0_q, pt0_s0, pt0_q0, pt0_acc, readAt_unit_zero (S := S32x200x64) _ hz3, readAt_unit_zero (S := S32x64) _ hz2, readAt_unit_zero (S := S32x200) _ hz2, readAt_unit_zero (S := S1x32) _ hz2, View.readCov_unit_zero (S := S1x32) _ hz2, View.readAt_eq_ld]

set_option maxHeartbeats 4000000 in

theorem kernelRun0_B
    (hc0 : ¬cond0_0 i) (hc1 : ¬cond0_1 i)
    (x1 x2 : Vec F S32x200x64 .f32) (x3 x4 : Vec F S32x64 .f32) (x5 : Vec F S32x200 .i32) (x6 : Vec F S512x32 .f32) (x7 : Vec F S1x32 .f32)
    (xs0 xs1 : Vec F S1x32 .f32) (K : PUnit → sProp 𝕄) :
    iprop(owns c arg1 fullShare x1 ∗ owns c arg2 fullShare x2 ∗ owns c arg3 fullShare x3
        ∗ owns c arg4 fullShare x4 ∗ owns c arg5 fullShare x5 ∗ owns c arg6 fullShare x6
        ∗ owns c arg7 fullShare x7 ∗ (∃ d, owns c arg8 fullShare d)
        ∗ owns c arg11 fullShare xs0 ∗ owns c arg12 fullShare xs1
        ∗ (iprop(owns c arg1 fullShare x1 ∗ owns c arg2 fullShare x2 ∗ owns c arg3 fullShare x3
            ∗ owns c arg4 fullShare x4 ∗ owns c arg5 fullShare x5 ∗ owns c arg6 fullShare x6
            ∗ owns c arg7 fullShare x7 ∗ owns c arg8 fullShare (pt0_h x1 x2 x3 x4 x5 x6 x7)
            ∗ owns c arg11 fullShare (pt0_s x1 x2 x3 x4 x5 x6 x7 xs0) ∗ owns c arg12 fullShare (pt0_q x1 x2 x3 x4 x5 x6 x7 xs1)) -∗ K ⟨⟩))
      ⊢ wp frame (wpE (defs₀ (F := F)) Variants.none c none) E (cc0__dice_h0_kernel i arg1 harg1 arg2 harg2 arg3 harg3 arg4 harg4 arg5 harg5 arg6 harg6 arg7 harg7 arg8 harg8 arg9 harg9 arg10 harg10 arg11 harg11 arg12 harg12) K := by
  simp only [cc0__dice_h0_kernel_eq_skeleton]; unfold cc0__dice_h0_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
  subst hf1 hf2 hf3 hf4 hf5 hf6 hf7 hfs0 hfs1
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; iexists _; isplitr; swap; iexact H8; rotate_left
  isplitl [HS0]; iexists _; isplitr; swap; iexact HS0; rotate_left
  iexists _; isplitr; swap; iexact HS1
  all_goals
    ipureintro
    first | rw [read_writes_unit_zero _ hz3] | rw [read_writes_unit_zero _ hz2]
    unfold kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r
    simp only [pt0_h, pt0_s, pt0_q, pt0_s0, pt0_q0, pt0_acc, readAt_unit_zero (S := S32x200x64) _ hz3, readAt_unit_zero (S := S32x64) _ hz2, readAt_unit_zero (S := S32x200) _ hz2, readAt_unit_zero (S := S1x32) _ hz2, View.readCov_unit_zero (S := S1x32) _ hz2, View.readAt_eq_ld]

set_option maxHeartbeats 4000000 in

theorem kernelRun0_C
    (hc0 : ¬cond0_0 i) (hc1 : cond0_1 i)
    (x1 x2 : Vec F S32x200x64 .f32) (x3 x4 : Vec F S32x64 .f32) (x5 : Vec F S32x200 .i32) (x6 : Vec F S512x32 .f32) (x7 : Vec F S1x32 .f32) (xs0 xs1 : Vec F S1x32 .f32) (K : PUnit → sProp 𝕄) :
    iprop(owns c arg1 fullShare x1 ∗ owns c arg2 fullShare x2 ∗ owns c arg3 fullShare x3
        ∗ owns c arg4 fullShare x4 ∗ owns c arg5 fullShare x5 ∗ owns c arg6 fullShare x6
        ∗ owns c arg7 fullShare x7 ∗ (∃ d, owns c arg8 fullShare d)
        ∗ (∃ d, owns c arg9 fullShare d) ∗ (∃ d, owns c arg10 fullShare d)
        ∗ owns c arg11 fullShare xs0 ∗ owns c arg12 fullShare xs1
        ∗ (iprop(owns c arg1 fullShare x1 ∗ owns c arg2 fullShare x2 ∗ owns c arg3 fullShare x3
        ∗ owns c arg4 fullShare x4 ∗ owns c arg5 fullShare x5 ∗ owns c arg6 fullShare x6
        ∗ owns c arg7 fullShare x7 ∗ owns c arg8 fullShare (pt0_h x1 x2 x3 x4 x5 x6 x7)
            ∗ owns c arg9 fullShare (pt0_s x1 x2 x3 x4 x5 x6 x7 xs0) ∗ owns c arg10 fullShare (pt0_q x1 x2 x3 x4 x5 x6 x7 xs1)
            ∗ owns c arg11 fullShare (pt0_s x1 x2 x3 x4 x5 x6 x7 xs0) ∗ owns c arg12 fullShare (pt0_q x1 x2 x3 x4 x5 x6 x7 xs1)) -∗ K ⟨⟩))
      ⊢ wp frame (wpE (defs₀ (F := F)) Variants.none c none) E (cc0__dice_h0_kernel i arg1 harg1 arg2 harg2 arg3 harg3 arg4 harg4 arg5 harg5 arg6 harg6 arg7 harg7 arg8 harg8 arg9 harg9 arg10 harg10 arg11 harg11 arg12 harg12) K := by
  simp only [cc0__dice_h0_kernel_eq_skeleton]; unfold cc0__dice_h0_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
  subst hf1 hf2 hf3 hf4 hf5 hf6 hf7 hfs0 hfs1
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; iexists _; isplitr; swap; iexact H8; rotate_left
  isplitl [H9]; iexists _; isplitr; swap; iexact H9; rotate_left
  isplitl [H10]; iexists _; isplitr; swap; iexact H10; rotate_left
  isplitl [HS0]; iexists _; isplitr; swap; iexact HS0; rotate_left
  iexists _; isplitr; swap; iexact HS1
  all_goals
    ipureintro
    try unfold kernelRun0_C.sl.HS0_1
    try unfold kernelRun0_C.sl.HS1_1
    first | rw [read_writes_unit_zero _ hz3] | rw [read_writes_unit_zero _ hz2]
    try unfold kernelRun0_C.sl.v112 kernelRun0_C.sl.HS0_1
    try unfold kernelRun0_C.sl.v114 kernelRun0_C.sl.HS1_1
    unfold kernelRun0_C.sl.r_8 kernelRun0_C.sl.r_7 kernelRun0_C.sl.r_6 kernelRun0_C.sl.r_5 kernelRun0_C.sl.r_4 kernelRun0_C.sl.r_3 kernelRun0_C.sl.r_2 kernelRun0_C.sl.r_1 kernelRun0_C.sl.r
    simp only [pt0_h, pt0_s, pt0_q, pt0_s0, pt0_q0, pt0_acc, readAt_unit_zero (S := S32x200x64) _ hz3, readAt_unit_zero (S := S32x64) _ hz2, readAt_unit_zero (S := S32x200) _ hz2, readAt_unit_zero (S := S1x32) _ hz2, View.readCov_unit_zero (S := S1x32) _ hz2, View.readAt_eq_ld]

end Cert.Kernel.Fr

end
-- ==== Proof.K.R0.lean ====
import proofs.«421617_j66314295050867_4_alg».proof.Proof.K.R0.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem idle0_89 : ∀ t : Fin cfg0.N, ¬cond0_1 (grid0.coords t) →
    (idle0 8 (grid0.coords t) = true ∧ (win0 8).flush t = false) ∧ idle0 9 (grid0.coords t) = true ∧ (win0 9).flush t = false := by decide +kernel
theorem live0_89 : ∀ t : Fin cfg0.N, cond0_1 (grid0.coords t) → idle0 8 (grid0.coords t) = false ∧ idle0 9 (grid0.coords t) = false := by decide +kernel

abbrev scM0_0 : Memref sig .tc .vmem S1x32 .f32 := Memref.whole cc0_scratch0
abbrev scM0_1 : Memref sig .tc .vmem S1x32 .f32 := Memref.whole cc0_scratch1

abbrev rest0 (c : Dev nD) : sProp 𝕄 :=
  Pipeline.scopedRestBut (Ix := Unit) (Name := ℕ) (U := UR sig nD τ) (Lvl := ℕ) (Val := Elt F) spec0 c [cc0_scratch0, cc0_scratch1]

theorem PhiA0_eq (c : Dev nD) :
    (Pipeline.ΦA spec0 c : sProp 𝕄)
      = iprop(iprop(iprop((∃ d, owns c scM0_0 fullShare d) ∗ (∃ d, owns c scM0_1 fullShare d)) ∗ rest0 (F := F) c) ∗ (∃ r, prngReg c r)) := by
  unfold Pipeline.ΦA; rw [scopedRest0_split]; simp only [scM0_0, scM0_1, owns_whole]; try rfl

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def ptAt0 (c : Dev nD) (t : Fin cfg0.N) (a : Vec F S1x32 .f32 × Vec F S1x32 .f32) : Vec F S1x32 .f32 × Vec F S1x32 .f32 :=
  (pt0_s (iblk0 V c 0 t) (iblk0 V c 1 t) (iblk0 V c 2 t) (iblk0 V c 3 t) (iblk0 V c 4 t) (iblk0 V c 5 t) (iblk0 V c 6 t) a.1,
    pt0_q (iblk0 V c 0 t) (iblk0 V c 1 t) (iblk0 V c 2 t) (iblk0 V c 3 t) (iblk0 V c 4 t) (iblk0 V c 5 t) (iblk0 V c 6 t) a.2)

def sAt0 (c : Dev nD) : (n : ℕ) → n < cfg0.N → Vec F S1x32 .f32 × Vec F S1x32 .f32
  | 0, h => ptAt0 V c ⟨0, h⟩ (pt0_s0, pt0_q0)
  | n + 1, h => ptAt0 V c ⟨n + 1, h⟩ (sAt0 c n (Nat.lt_of_succ_lt h))

theorem sAt0_zero (c : Dev nD) (h : 0 < cfg0.N) :
    sAt0 V c 0 h = (pt0_s (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (iblk0 V c 6 ⟨0, h⟩) pt0_s0, pt0_q (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (iblk0 V c 6 ⟨0, h⟩) pt0_q0) := rfl

theorem sAt0_succ (c : Dev nD) (n : ℕ) (h : n + 1 < cfg0.N) :
    sAt0 V c (n + 1) h = (pt0_s (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (sAt0 V c n (Nat.lt_of_succ_lt h)).1,
      pt0_q (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (sAt0 V c n (Nat.lt_of_succ_lt h)).2) := rfl

def PhiS0 (c : Dev nD) : (n : ℕ) → n ≤ cfg0.N → sProp 𝕄
  | 0, _ => Pipeline.ΦA spec0 c
  | n + 1, hn => iprop(iprop(iprop(owns c scM0_0 fullShare (sAt0 V c n hn).1 ∗ owns c scM0_1 fullShare (sAt0 V c n hn).2) ∗ rest0 (F := F) c) ∗ (∃ r, prngReg c r))

theorem PhiS0_succ (c : Dev nD) (n : ℕ) (hn : n < cfg0.N) :
    PhiS0 V c (n + 1) hn = iprop(iprop(iprop(owns c scM0_0 fullShare (sAt0 V c n hn).1 ∗ owns c scM0_1 fullShare (sAt0 V c n hn).2) ∗ rest0 (F := F) c) ∗ (∃ r, prngReg c r)) := rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => pt0_h (iblk0 V c 0 t) (iblk0 V c 1 t) (iblk0 V c 2 t) (iblk0 V c 3 t) (iblk0 V c 4 t) (iblk0 V c 5 t) (iblk0 V c 6 t)
    | ⟨8, _⟩ => (sAt0 V c t.val t.isLt).1
    | ⟨9, _⟩ => (sAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem after0_7 (c : Dev nD) (t : Fin cfg0.N) : (dat0 V c).after 7 t = pt0_h (iblk0 V c 0 t) (iblk0 V c 1 t) (iblk0 V c 2 t) (iblk0 V c 3 t) (iblk0 V c 4 t) (iblk0 V c 5 t) (iblk0 V c 6 t) := rfl
theorem after0_8 (c : Dev nD) (t : Fin cfg0.N) : (dat0 V c).after 8 t = (sAt0 V c t.val t.isLt).1 := rfl
theorem after0_9 (c : Dev nD) (t : Fin cfg0.N) : (dat0 V c).after 9 t = (sAt0 V c t.val t.isLt).2 := rfl

theorem before0 (c : Dev nD) (t : Fin cfg0.N) : ∀ (w : Fin cfg0.W) (_ : w.val < 7) (d), (dat0 V c).before w t d = (dat0 V c).fetched w t d
  | ⟨0, _⟩, _, d | ⟨1, _⟩, _, d | ⟨2, _⟩, _, d | ⟨3, _⟩, _, d | ⟨4, _⟩, _, d | ⟨5, _⟩, _, d | ⟨6, _⟩, _, d =>
    (dat0 V c).before_in_eq_fetched _ rfl (fun _ => rfl) (fun _ _ _ => rfl) (fun _ => rfl) t d
  | ⟨n + 7, _⟩, h, _ => absurd h (Nat.not_lt.mpr (Nat.le_add_left 7 n))

set_option maxHeartbeats 4800000 in

theorem body_obligation0 (c : Dev nD) : BodyObligation (dat0 (F := F) V c) (defs₀ (F := F)) Variants.none () Set.univ := fun t => by
  rw [bigSep_W0, bigSep_W0]
  have hb := before0 V c t
  simp only [hb 0 (by decide), hb 1 (by decide), hb 2 (by decide), hb 3 (by decide), hb 4 (by decide), hb 5 (by decide), hb 6 (by decide)]
  change _ ⊢ wp _ _ _ (bodyAt0 t) _
  unfold bodyAt0
  rw [show (dat0 V c).Φ t.succ = _ from PhiS0_succ V c t.val t.isLt, show (dat0 V c).owesAt () t.succ = (dat0 V c).owesAt () t.castSucc from rfl]
  obtain ⟨n, hn⟩ := t
  cases n with
  | zero =>
    have hc1 : ¬cond0_1 (grid0.coords ⟨0, hn⟩) := fun h => absurd ((hcond0_1 _).mp h) (by decide : 0 ≠ 31)
    obtain ⟨⟨i7, f7⟩, i8, f8⟩ := idle0_89 _ hc1
    simp only [i7, f7, i8, f8]
    rw [show (dat0 V c).Φ (Fin.castSucc ⟨0, hn⟩) = _ from PhiA0_eq c]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (kernelRun0_A c Set.univ _ _ _ _ _ _ _ _ _ _ _ _ _ _ _ _ _ _ _ _ _ _ _ _ _ ((hcond0_0 ⟨0, hn⟩).mpr rfl) hc1 _ _ _ _ _ _ _ _)
    iframe
    isplitl [H7]; · iexists _; iexact H7
    iintro ⟨H0, H1, H2, H3, H4, H5, H6, H7, HS0, HS1⟩
    isplitl [HS0 HS1]
    · isplitl [HS0]; · iexact HS0
      iexact HS1
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  | succ n =>
    have hc0 : ¬cond0_0 (grid0.coords ⟨n + 1, hn⟩) := fun h => absurd ((hcond0_0 _).mp h) n.succ_ne_zero
    rw [show (dat0 V c).Φ (Fin.castSucc ⟨n + 1, hn⟩) = _ from PhiS0_succ V c n _]
    by_cases hc1 : cond0_1 (grid0.coords ⟨n + 1, hn⟩)
    · obtain ⟨l7, l8⟩ := live0_89 _ hc1
      simp only [l7, l8]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (kernelRun0_C c Set.univ _ _ _ _ _ _ _ _ _ _ _ _ _ _ _ _ _ _ _ _ _ _ _ _ _ hc0 hc1 _ _ _ _ _ _ _ _ _ _)
      iframe
      isplitl [H7]; · iexists _; iexact H7
      isplitl [H8]; · iexists _; iexact H8
      isplitl [H9]; · iexists _; iexact H9
      iintro ⟨H0, H1, H2, H3, H4, H5, H6, H7, H8, H9, HS0, HS1⟩
      isplitl [HS0 HS1]
      · isplitl [HS0]; · iexact HS0
        iexact HS1
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · obtain ⟨⟨i7, f7⟩, i8, f8⟩ := idle0_89 _ hc1
      simp only [i7, f7, i8, f8]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (kernelRun0_B c Set.univ _ _ _ _ _ _ _ _ _ _ _ _ _ _ _ _ _ _ _ _ _ _ _ _ _ hc0 hc1 _ _ _ _ _ _ _ _ _ _)
      iframe
      isplitl [H7]; · iexists _; iexact H7
      iintro ⟨H0, H1, H2, H3, H4, H5, H6, H7, HS0, HS1⟩
      isplitl [HS0 HS1]
      · isplitl [HS0]; · iexact HS0
        iexact HS1
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

theorem hin0 (c : Dev nD) : Pipeline.ΦA spec0 c ⊢ (dat0 V c).Φ 0 := Idealize.SL.BI.Entails.refl _

theorem hout0 (c : Dev nD) : (dat0 V c).Φ (Fin.last cfg0.N) ⊢ Pipeline.ΦA spec0 c := by
  rw [show (dat0 V c).Φ (Fin.last cfg0.N) = _ from PhiS0_succ V c 31 (by decide), PhiA0_eq]
  iintro ⟨⟨⟨HS0, HS1⟩, Hr⟩, Hg⟩
  iframe
  isplitl [HS0]
  · iexists _; iexact HS0
  iexists _; iexact HS1

end Region

end Cert.Kernel.Fr

end
-- ==== Proof.K.R1Pt.lean ====
import proofs.«421617_j66314295050867_4_alg».proof.Proof.Gen.Kernel.Skeleton

noncomputable section

namespace Cert.Kernel.Fr

open Idealize.ShloMosaic Idealize.SL.Sem Cert.Kernel.Gen

variable {F : FTy → Type} [FloatOps F]

def pt1_m (h0 : Vec F S32x200x32 .f32) (mu var al : Vec F S1x32 .f32) (w : Vec F S32x16 .f32)
    (b : Vec F S1x16 .f32) : FVec F S6400x16 .f32 :=
  k1_pay5 h0 mu var al w b

def pt1_h (h0 : Vec F S32x200x32 .f32) (mu var al : Vec F S1x32 .f32) (w : Vec F S32x16 .f32)
    (b : Vec F S1x16 .f32) : FVec F S32x200x16 .f32 :=
  k1_pay6 h0 mu var al w b

def pt1_s (h0 : Vec F S32x200x32 .f32) (mu var al : Vec F S1x32 .f32) (w : Vec F S32x16 .f32)
    (b : Vec F S1x16 .f32) (acc : Vec F S1x16 .f32) : FVec F S1x16 .f32 :=
  k1_pay1 (k1_pay5 h0 mu var al w b) acc

def pt1_q (h0 : Vec F S32x200x32 .f32) (mu var al : Vec F S1x32 .f32) (w : Vec F S32x16 .f32)
    (b : Vec F S1x16 .f32) (acc : Vec F S1x16 .f32) : FVec F S1x16 .f32 :=
  k1_pay2 (k1_pay5 h0 mu var al w b) acc

def pt1_s0 : FVec F S1x16 .f32 := k1_pay3 (F := F)

def pt1_q0 : FVec F S1x16 .f32 := k1_pay4 (F := F)

end Cert.Kernel.Fr
-- ==== Proof.K.R1.Runs.lean ====
import proofs.«421617_j66314295050867_4_alg».proof.Proof.Gen.Kernel.Launch
import proofs.«421617_j66314295050867_4_alg».proof.Proof.Gen.Kernel.Skeleton
import proofs.«421617_j66314295050867_4_alg».proof.Proof.Gen.Kernel.Points
import proofs.«421617_j66314295050867_4_alg».proof.Proof.K.R1Pt
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1

theorem hcond1_1 : ∀ t : Fin cfg1.N, cond1_1 (grid1.coords t) ↔ t.val = 31 :=
  (by decide +kernel : ∀ t : Fin grid1.N, cond1_1 (grid1.coords t) ↔ t.val = 31)

theorem zeros2_1 : (![0, 0] : Fin 2 → Nat) = fun _ => 0 := funext fun a => by fin_cases a <;> rfl
theorem zeros3_1 : (![0, 0, 0] : Fin 3 → Nat) = fun _ => 0 := funext fun a => by fin_cases a <;> rfl

theorem readAt_unit_zero1 {Val : EltTy → Type} {sg : RefSig} {κ : Kind} {sp : Space} {S : Shape} {e : EltTy}
    (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld]; exact View.ld_unit_zero h inb _

theorem read_writes_cons_unit_zero1 {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

variable (c : Dev nD) (E : Set ℕ) (i : grid1.Coords) (arg1 : Memref sig .tc .vmem S32x200x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S32x16 .f32) (harg5 : arg5.IsWhole) (arg6 : Memref sig .tc .vmem S1x16 .f32) (harg6 : arg6.IsWhole) (arg7 : Memref sig .tc .vmem S32x200x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x16 .f32) (harg11 : arg11.IsWhole)

set_option maxHeartbeats 4000000 in

theorem run1_A
    (hc0 : cond1_0 i) (hc1 : ¬cond1_1 i) (x0 : Vec F S32x200x32 .f32) (x1 x2 x3 : Vec F S1x32 .f32) (x4 : Vec F S32x16 .f32) (x5 : Vec F S1x16 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare x5
        ∗ (∃ d, owns c arg7 fullShare d)
        ∗ (∃ d, owns c arg10 fullShare d) ∗ (∃ d, owns c arg11 fullShare d)
        ∗ (iprop(owns c arg1 fullShare x0 ∗ owns c arg2 fullShare x1 ∗ owns c arg3 fullShare x2
        ∗ owns c arg4 fullShare x3 ∗ owns c arg5 fullShare x4 ∗ owns c arg6 fullShare x5
            ∗ owns c arg7 fullShare (pt1_h x0 x1 x2 x3 x4 x5)
            ∗ owns c arg10 fullShare (pt1_s x0 x1 x2 x3 x4 x5 pt1_s0)
            ∗ owns c arg11 fullShare (pt1_q x0 x1 x2 x3 x4 x5 pt1_q0)) -∗ K ⟨⟩))
      ⊢ wp frame (wpE (defs₀ (F := F)) Variants.none c none) E (cc1__dice_h1_kernel i arg1 harg1 arg2 harg2 arg3 harg3 arg4 harg4 arg5 harg5 arg6 harg6 arg7 harg7 arg8 harg8 arg9 harg9 arg10 harg10 arg11 harg11) K := by
  simp only [cc1__dice_h1_kernel_eq_skeleton]; unfold cc1__dice_h1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%e0, %g0, -, HS0⟩, ⟨%e1, %g1, -, HS1⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]; iexists _; isplitr; swap; iexact H6; rotate_left
  isplitl [HS0]; iexists _; isplitr; swap; iexact HS0; rotate_left
  iexists _; isplitr; swap; iexact HS1
  all_goals
    ipureintro
    first | rw [read_writes_cons_unit_zero1 (S := S32x200x16) _ _ zeros3_1] | rw [read_writes_cons_unit_zero1 (S := S1x16) _ _ zeros2_1]
    try unfold run1_A.sl.v41 run1_A.sl.HS0_1
    try unfold run1_A.sl.v48 run1_A.sl.HS1_1
    simp only [readAt_unit_zero1 (S := S32x200x32) _ _ zeros3_1, readAt_unit_zero1 (S := S1x32) _ _ zeros2_1, readAt_unit_zero1 (S := S32x16) _ _ zeros2_1, readAt_unit_zero1 (S := S1x16) _ _ zeros2_1, View.readCov_unit_zero (S := S1x16) _ zeros2_1] <;> rfl

set_option maxHeartbeats 4000000 in

theorem run1_B
    (hc0 : ¬cond1_0 i) (hc1 : ¬cond1_1 i) (x0 : Vec F S32x200x32 .f32) (x1 x2 x3 : Vec F S1x32 .f32) (x4 : Vec F S32x16 .f32) (x5 : Vec F S1x16 .f32)
    (a0 a1 : Vec F S1x16 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare x5
        ∗ (∃ d, owns c arg7 fullShare d)
        ∗ owns c arg10 fullShare a0 ∗ owns c arg11 fullShare a1
        ∗ (iprop(owns c arg1 fullShare x0 ∗ owns c arg2 fullShare x1 ∗ owns c arg3 fullShare x2
        ∗ owns c arg4 fullShare x3 ∗ owns c arg5 fullShare x4 ∗ owns c arg6 fullShare x5
            ∗ owns c arg7 fullShare (pt1_h x0 x1 x2 x3 x4 x5)
            ∗ owns c arg10 fullShare (pt1_s x0 x1 x2 x3 x4 x5 a0)
            ∗ owns c arg11 fullShare (pt1_q x0 x1 x2 x3 x4 x5 a1)) -∗ K ⟨⟩))
      ⊢ wp frame (wpE (defs₀ (F := F)) Variants.none c none) E (cc1__dice_h1_kernel i arg1 harg1 arg2 harg2 arg3 harg3 arg4 harg4 arg5 harg5 arg6 harg6 arg7 harg7 arg8 harg8 arg9 harg9 arg10 harg10 arg11 harg11) K := by
  simp only [cc1__dice_h1_kernel_eq_skeleton]; unfold cc1__dice_h1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%g0, %hg0, HS0⟩, ⟨%g1, %hg1, HS1⟩, Hk⟩
  subst hf0 hf1 hf2 hf3 hf4 hf5 hg0 hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]; iexists _; isplitr; swap; iexact H6; rotate_left
  isplitl [HS0]; iexists _; isplitr; swap; iexact HS0; rotate_left
  iexists _; isplitr; swap; iexact HS1
  all_goals
    ipureintro
    first | rw [read_writes_cons_unit_zero1 (S := S32x200x16) _ _ zeros3_1] | rw [read_writes_cons_unit_zero1 (S := S1x16) _ _ zeros2_1]
    simp only [readAt_unit_zero1 (S := S32x200x32) _ _ zeros3_1, readAt_unit_zero1 (S := S1x32) _ _ zeros2_1, readAt_unit_zero1 (S := S32x16) _ _ zeros2_1, readAt_unit_zero1 (S := S1x16) _ _ zeros2_1, View.readCov_unit_zero (S := S1x16) _ zeros2_1] <;> rfl

set_option maxHeartbeats 4000000 in

theorem run1_C
    (hc0 : ¬cond1_0 i) (hc1 : cond1_1 i) (x0 : Vec F S32x200x32 .f32) (x1 x2 x3 : Vec F S1x32 .f32) (x4 : Vec F S32x16 .f32) (x5 : Vec F S1x16 .f32)
    (a0 a1 : Vec F S1x16 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare x5
        ∗ (∃ d, owns c arg7 fullShare d) ∗ (∃ d, owns c arg8 fullShare d) ∗ (∃ d, owns c arg9 fullShare d)
        ∗ owns c arg10 fullShare a0 ∗ owns c arg11 fullShare a1
        ∗ (iprop(owns c arg1 fullShare x0 ∗ owns c arg2 fullShare x1 ∗ owns c arg3 fullShare x2
        ∗ owns c arg4 fullShare x3 ∗ owns c arg5 fullShare x4 ∗ owns c arg6 fullShare x5
            ∗ owns c arg7 fullShare (pt1_h x0 x1 x2 x3 x4 x5)
            ∗ owns c arg8 fullShare (pt1_s x0 x1 x2 x3 x4 x5 a0)
            ∗ owns c arg9 fullShare (pt1_q x0 x1 x2 x3 x4 x5 a1)
            ∗ owns c arg10 fullShare (pt1_s x0 x1 x2 x3 x4 x5 a0)
            ∗ owns c arg11 fullShare (pt1_q x0 x1 x2 x3 x4 x5 a1)) -∗ K ⟨⟩))
      ⊢ wp frame (wpE (defs₀ (F := F)) Variants.none c none) E (cc1__dice_h1_kernel i arg1 harg1 arg2 harg2 arg3 harg3 arg4 harg4 arg5 harg5 arg6 harg6 arg7 harg7 arg8 harg8 arg9 harg9 arg10 harg10 arg11 harg11) K := by
  simp only [cc1__dice_h1_kernel_eq_skeleton]; unfold cc1__dice_h1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%g0, %hg0, HS0⟩, ⟨%g1, %hg1, HS1⟩, Hk⟩
  subst hf0 hf1 hf2 hf3 hf4 hf5 hg0 hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]; iexists _; isplitr; swap; iexact H6; rotate_left
  isplitl [H7]; iexists _; isplitr; swap; iexact H7; rotate_left
  isplitl [H8]; iexists _; isplitr; swap; iexact H8; rotate_left
  isplitl [HS0]; iexists _; isplitr; swap; iexact HS0; rotate_left
  iexists _; isplitr; swap; iexact HS1
  all_goals
    ipureintro
    try unfold run1_C.sl.HS0_1
    try unfold run1_C.sl.HS1_1
    first | rw [read_writes_cons_unit_zero1 (S := S32x200x16) _ _ zeros3_1] | rw [read_writes_cons_unit_zero1 (S := S1x16) _ _ zeros2_1]
    try unfold run1_C.sl.v59 run1_C.sl.HS0_1
    try unfold run1_C.sl.v61 run1_C.sl.HS1_1
    simp only [readAt_unit_zero1 (S := S32x200x32) _ _ zeros3_1, readAt_unit_zero1 (S := S1x32) _ _ zeros2_1, readAt_unit_zero1 (S := S32x16) _ _ zeros2_1, readAt_unit_zero1 (S := S1x16) _ _ zeros2_1, View.readCov_unit_zero (S := S1x16) _ zeros2_1] <;> rfl

end Cert.Kernel.Fr

end
-- ==== Proof.K.R1.lean ====
import proofs.«421617_j66314295050867_4_alg».proof.Proof.K.R1.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem idle1_78 : ∀ t : Fin cfg1.N, ¬cond1_1 (grid1.coords t) →
    (idle1 7 (grid1.coords t) = true ∧ (win1 7).flush t = false) ∧ idle1 8 (grid1.coords t) = true ∧ (win1 8).flush t = false := by decide +kernel
theorem live1_78 : ∀ t : Fin cfg1.N, cond1_1 (grid1.coords t) → idle1 7 (grid1.coords t) = false ∧ idle1 8 (grid1.coords t) = false := by decide +kernel

abbrev scM1_0 : Memref sig .tc .vmem S1x16 .f32 := Memref.whole cc1_scratch0
abbrev scM1_1 : Memref sig .tc .vmem S1x16 .f32 := Memref.whole cc1_scratch1

abbrev rest1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns c scM1_0 fullShare d) ∗ (∃ d, owns c scM1_1 fullShare d)) ∗ rest1 (F := F) c) ∗ (∃ r, prngReg c r)) := by
  unfold Pipeline.ΦA; rw [scopedRest1_split]; simp only [scM1_0, scM1_1, owns_whole]; try rfl

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def ptAt1 (c : Dev nD) (t : Fin cfg1.N) (a : Vec F S1x16 .f32 × Vec F S1x16 .f32) : Vec F S1x16 .f32 × Vec F S1x16 .f32 :=
  (pt1_s (iblk1 V c 0 t) (iblk1 V c 1 t) (iblk1 V c 2 t) (iblk1 V c 3 t) (iblk1 V c 4 t) (iblk1 V c 5 t) a.1,
    pt1_q (iblk1 V c 0 t) (iblk1 V c 1 t) (iblk1 V c 2 t) (iblk1 V c 3 t) (iblk1 V c 4 t) (iblk1 V c 5 t) a.2)

def sAt1 (c : Dev nD) : (n : ℕ) → n < cfg1.N → Vec F S1x16 .f32 × Vec F S1x16 .f32
  | 0, h => ptAt1 V c ⟨0, h⟩ (pt1_s0, pt1_q0)
  | n + 1, h => ptAt1 V c ⟨n + 1, h⟩ (sAt1 c n (Nat.lt_of_succ_lt h))

theorem sAt1_zero (c : Dev nD) (h : 0 < cfg1.N) :
    sAt1 V c 0 h = (pt1_s (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) pt1_s0, pt1_q (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) pt1_q0) := rfl

theorem sAt1_succ (c : Dev nD) (n : ℕ) (h : n + 1 < cfg1.N) :
    sAt1 V c (n + 1) h = (pt1_s (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (sAt1 V c n (Nat.lt_of_succ_lt h)).1,
      pt1_q (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (sAt1 V c n (Nat.lt_of_succ_lt h)).2) := rfl

def PhiS1 (c : Dev nD) : (n : ℕ) → n ≤ cfg1.N → sProp 𝕄
  | 0, _ => Pipeline.ΦA spec1 c
  | n + 1, hn => iprop(iprop(iprop(owns c scM1_0 fullShare (sAt1 V c n hn).1 ∗ owns c scM1_1 fullShare (sAt1 V c n hn).2) ∗ rest1 (F := F) c) ∗ (∃ r, prngReg c r))

theorem PhiS1_succ (c : Dev nD) (n : ℕ) (hn : n < cfg1.N) :
    PhiS1 V c (n + 1) hn = iprop(iprop(iprop(owns c scM1_0 fullShare (sAt1 V c n hn).1 ∗ owns c scM1_1 fullShare (sAt1 V c n hn).2) ∗ rest1 (F := F) c) ∗ (∃ r, prngReg c r)) := rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => pt1_h (iblk1 V c 0 t) (iblk1 V c 1 t) (iblk1 V c 2 t) (iblk1 V c 3 t) (iblk1 V c 4 t) (iblk1 V c 5 t)
    | ⟨7, _⟩ => (sAt1 V c t.val t.isLt).1
    | ⟨8, _⟩ => (sAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_6 (c : Dev nD) (t : Fin cfg1.N) : (dat1 V c).after 6 t = pt1_h (iblk1 V c 0 t) (iblk1 V c 1 t) (iblk1 V c 2 t) (iblk1 V c 3 t) (iblk1 V c 4 t) (iblk1 V c 5 t) := rfl
theorem after1_7 (c : Dev nD) (t : Fin cfg1.N) : (dat1 V c).after 7 t = (sAt1 V c t.val t.isLt).1 := rfl
theorem after1_8 (c : Dev nD) (t : Fin cfg1.N) : (dat1 V c).after 8 t = (sAt1 V c t.val t.isLt).2 := rfl

theorem before1 (c : Dev nD) (t : Fin cfg1.N) : ∀ (w : Fin cfg1.W) (_ : w.val < 6) (d), (dat1 V c).before w t d = (dat1 V c).fetched w t d
  | ⟨0, _⟩, _, d | ⟨1, _⟩, _, d | ⟨2, _⟩, _, d | ⟨3, _⟩, _, d | ⟨4, _⟩, _, d | ⟨5, _⟩, _, d =>
    (dat1 V c).before_in_eq_fetched _ rfl (fun _ => rfl) (fun _ _ _ => rfl) (fun _ => rfl) t d
  | ⟨n + 6, _⟩, h, _ => absurd h (Nat.not_lt.mpr (Nat.le_add_left 6 n))

set_option maxHeartbeats 4800000 in

theorem body_obligation1 (c : Dev nD) : BodyObligation (dat1 (F := F) V c) (defs₀ (F := F)) Variants.none () Set.univ := fun t => by
  rw [bigSep_W1, bigSep_W1]
  have hb := before1 V c t
  simp only [hb 0 (by decide), hb 1 (by decide), hb 2 (by decide), hb 3 (by decide), hb 4 (by decide), hb 5 (by decide)]
  change _ ⊢ wp _ _ _ (bodyAt1 t) _
  unfold bodyAt1
  rw [show (dat1 V c).Φ t.succ = _ from PhiS1_succ V c t.val t.isLt, show (dat1 V c).owesAt () t.succ = (dat1 V c).owesAt () t.castSucc from rfl]
  obtain ⟨n, hn⟩ := t
  cases n with
  | zero =>
    have hc1 : ¬cond1_1 (grid1.coords ⟨0, hn⟩) := fun h => absurd ((hcond1_1 _).mp h) (by decide : 0 ≠ 31)
    obtain ⟨⟨i7, f7⟩, i8, f8⟩ := idle1_78 _ hc1
    simp only [i7, f7, i8, f8]
    rw [show (dat1 V c).Φ (Fin.castSucc ⟨0, hn⟩) = _ from PhiA1_eq c]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, H7, H8⟩
    iapply (run1_A c Set.univ _ _ _ _ _ _ _ _ _ _ _ _ _ _ _ _ _ _ _ _ _ _ _ ((hcond1_0 ⟨0, hn⟩).mpr rfl) hc1 _ _ _ _ _ _ _)
    iframe
    isplitl [H6]; · iexists _; iexact H6
    iintro ⟨H0, H1, H2, H3, H4, H5, H6, HS0, HS1⟩
    isplitl [HS0 HS1]
    · isplitl [HS0]; · iexact HS0
      iexact HS1
    isplitl [H0]; · iexact H0
    isplitl [H1]; · iexact H1
    isplitl [H2]; · iexact H2
    isplitl [H3]; · iexact H3
    isplitl [H4]; · iexact H4
    isplitl [H5]; · iexact H5
    iexact H6
  | succ n =>
    have hc0 : ¬cond1_0 (grid1.coords ⟨n + 1, hn⟩) := fun h => absurd ((hcond1_0 _).mp h) n.succ_ne_zero
    rw [show (dat1 V c).Φ (Fin.castSucc ⟨n + 1, hn⟩) = _ from PhiS1_succ V c n _]
    by_cases hc1 : cond1_1 (grid1.coords ⟨n + 1, hn⟩)
    · obtain ⟨l7, l8⟩ := live1_78 _ hc1
      simp only [l7, l8]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run1_C c Set.univ _ _ _ _ _ _ _ _ _ _ _ _ _ _ _ _ _ _ _ _ _ _ _ hc0 hc1 _ _ _ _ _ _ _ _ _)
      iframe
      isplitl [H6]; · iexists _; iexact H6
      isplitl [H7]; · iexists _; iexact H7
      isplitl [H8]; · iexists _; iexact H8
      iintro ⟨H0, H1, H2, H3, H4, H5, H6, H7, H8, HS0, HS1⟩
      isplitl [HS0 HS1]
      · isplitl [HS0]; · iexact HS0
        iexact HS1
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · obtain ⟨⟨i7, f7⟩, i8, f8⟩ := idle1_78 _ hc1
      simp only [i7, f7, i8, f8]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, H7, H8⟩
      iapply (run1_B c Set.univ _ _ _ _ _ _ _ _ _ _ _ _ _ _ _ _ _ _ _ _ _ _ _ hc0 hc1 _ _ _ _ _ _ _ _ _)
      iframe
      isplitl [H6]; · iexists _; iexact H6
      iintro ⟨H0, H1, H2, H3, H4, H5, H6, HS0, HS1⟩
      isplitl [HS0 HS1]
      · isplitl [HS0]; · iexact HS0
        iexact HS1
      isplitl [H0]; · iexact H0
      isplitl [H1]; · iexact H1
      isplitl [H2]; · iexact H2
      isplitl [H3]; · iexact H3
      isplitl [H4]; · iexact H4
      isplitl [H5]; · iexact H5
      iexact H6

theorem hin1 (c : Dev nD) : Pipeline.ΦA spec1 c ⊢ (dat1 V c).Φ 0 := Idealize.SL.BI.Entails.refl _

theorem hout1 (c : Dev nD) : (dat1 V c).Φ (Fin.last cfg1.N) ⊢ Pipeline.ΦA spec1 c := by
  rw [show (dat1 V c).Φ (Fin.last cfg1.N) = _ from PhiS1_succ V c 31 (by decide), PhiA1_eq]
  iintro ⟨⟨⟨HS0, HS1⟩, Hr⟩, Hg⟩
  iframe
  isplitl [HS0]
  · iexists _; iexact HS0
  iexists _; iexact HS1

end Region

end Cert.Kernel.Fr

end
-- ==== Proof.K.R2Pt.lean ====
import proofs.«421617_j66314295050867_4_alg».proof.Proof.Gen.Kernel.Skeleton

noncomputable section

namespace Cert.Kernel.Fr

open Idealize.ShloMosaic Idealize.SL.Sem Cert.Kernel.Gen

variable {F : FTy → Type} [FloatOps F]

def pt2_score (h1 : Vec F S32x200x16 .f32) (mu var al : Vec F S1x16 .f32) (w : Vec F S16x1 .f32)
    (b : Vec F S1x1 .f32) : FVec F S32x200x1 .f32 :=
  k2_pay2 h1 mu var al w b

def pt2_mask (hist : Vec F S32x200 .i32) : IVec S32x200 1 :=
  k2_pay3 (F := F) hist

def pt2 (h1 : Vec F S32x200x16 .f32) (mu var al : Vec F S1x16 .f32) (w : Vec F S16x1 .f32)
    (b : Vec F S1x1 .f32) (im cm : Vec F S32x200x64 .f32) (hist : Vec F S32x200 .i32) :
    FVec F S32x128 .f32 :=
  k2_pay1 (k2_pay2 h1 mu var al w b) (k2_pay3 (F := F) hist) im cm

theorem pt2_eq (h1 : Vec F S32x200x16 .f32) (mu var al : Vec F S1x16 .f32) (w : Vec F S16x1 .f32)
    (b : Vec F S1x1 .f32) (im cm : Vec F S32x200x64 .f32) (hist : Vec F S32x200 .i32) :
    pt2 h1 mu var al w b im cm hist = k2_pay1 (pt2_score h1 mu var al w b) (pt2_mask hist) im cm := rfl

end Cert.Kernel.Fr
-- ==== Proof.K.R2.lean ====
import proofs.«421617_j66314295050867_4_alg».proof.Proof.Gen.Kernel.Launch
import proofs.«421617_j66314295050867_4_alg».proof.Proof.Gen.Kernel.Skeleton
import proofs.«421617_j66314295050867_4_alg».proof.Proof.Gen.Kernel.Points
import proofs.«421617_j66314295050867_4_alg».proof.Proof.K.R2Pt
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

theorem zero2 : (![0, 0] : Fin 2 → Nat) = fun _ => 0 := funext fun a => by fin_cases a <;> rfl
theorem zero3 : (![0, 0, 0] : Fin 3 → Nat) = fun _ => 0 := funext fun a => by fin_cases a <;> rfl

set_option maxHeartbeats 4000000 in

theorem sound_kernel2 (c : Dev nD) (E : Set ℕ) (i : grid2.Coords) (arg1 : Memref sig .tc .vmem S32x200x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S16x1 .f32) (harg5 : arg5.IsWhole) (arg6 : Memref sig .tc .vmem S1x1 .f32) (harg6 : arg6.IsWhole) (arg7 : Memref sig .tc .vmem S32x200x64 .f32) (harg7 : arg7.IsWhole) (arg8 : Memref sig .tc .vmem S32x200x64 .f32) (harg8 : arg8.IsWhole) (arg9 : Memref sig .tc .vmem S32x200 .i32) (harg9 : arg9.IsWhole) (arg10 : Memref sig .tc .vmem S32x128 .f32) (harg10 : arg10.IsWhole)
    (x0 : Vec F S32x200x16 .f32) (x1 x2 x3 : Vec F S1x16 .f32) (x4 : Vec F S16x1 .f32) (x5 : Vec F S1x1 .f32) (x6 x7 : Vec F S32x200x64 .f32) (x8 : Vec F S32x200 .i32) (K : PUnit → sProp 𝕄) :
    iprop((∃ d, owns (c : Thread nD τ) arg10 fullShare d) ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (iprop(owns (c : Thread nD τ) arg10 fullShare (pt2 x0 x1 x2 x3 x4 x5 x6 x7 x8) ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8) -∗ K ⟨⟩))
      ⊢ wp frame (wpE (defs₀ (F := F)) Variants.none c none) E (cc2__score_pool_kernel i arg1 harg1 arg2 harg2 arg3 harg3 arg4 harg4 arg5 harg5 arg6 harg6 arg7 harg7 arg8 harg8 arg9 harg9 arg10 harg10) K := by
  simp only [cc2__score_pool_kernel_eq_skeleton]; unfold cc2__score_pool_kernel_skel
  simp only [k2_part1_eq_skeleton]; unfold k2_part1_skel
  unfold owns
  iintro ⟨⟨%d9, %f9, -, H9⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec
  sl_step
  iapply Hk
  isplitl [H9]
  · iexists _; isplitr
    swap; · iexact H9
    ipureintro
    refine (View.read_writes_eq_canon _ _ _ fun y => ⟨_, List.mem_singleton_self _, View.mem_set_unit_zero (S := S32x128) zero2 inb_S32x128_S32x128_0_0 y⟩).trans
      ((View.canon_unit_zero (S := S32x128) zero2 _ _).trans ?_)
    simp only [View.readAt_eq_ld, View.ld_unit_zero (S := S32x200x16) zero3, View.ld_unit_zero (S := S1x16) zero2,
      View.ld_unit_zero (S := S16x1) zero2, View.ld_unit_zero (S := S1x1) zero2,
      View.ld_unit_zero (S := S32x200x64) zero3, View.ld_unit_zero (S := S32x200) zero2]
    rfl
  sl_close

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => pt2 (iblk2 V c 0 t) (iblk2 V c 1 t) (iblk2 V c 2 t) (iblk2 V c 3 t) (iblk2 V c 4 t)
        (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_9 (c : Dev nD) (t : Fin cfg2.N) :
    (dat2 V c).after 9 t = pt2 (iblk2 V c 0 t) (iblk2 V c 1 t) (iblk2 V c 2 t) (iblk2 V c 3 t) (iblk2 V c 4 t)
      (iblk2 V c 5 t) (iblk2 V c 6 t) (iblk2 V c 7 t) (iblk2 V c 8 t) := by dsimp only [dat2]

theorem before2 (c : Dev nD) (t : Fin cfg2.N) (w : Fin cfg2.W) (hw : (cfg2.win w).isOut = false) (d) :
    (dat2 V c).before w t d = (dat2 V c).after w t := by
  fin_cases w <;> first
    | exact (dat2 V c).before_in_eq_fetched _ rfl (fun _ => rfl) (fun _ _ _ => rfl) (fun _ => rfl) t d
    | cases hw

set_option maxHeartbeats 1000000 in

theorem body_obligation2 (c : Dev nD) :
    BodyObligation (dat2 (F := F) V c) (defs₀ (F := F)) Variants.none () Set.univ := fun t => by
  rw [bigSep_W2, bigSep_W2]
  dsimp only
  simp (disch := exact rfl) only [before2]
  rw [show (dat2 V c).Φ t.succ = (dat2 V c).Φ t.castSucc from rfl, show (dat2 V c).owesAt () t.succ = (dat2 V c).owesAt () t.castSucc from rfl,
    show (dat2 V c).after 9 t = pt2 ((dat2 V c).after 0 t) ((dat2 V c).after 1 t) ((dat2 V c).after 2 t) ((dat2 V c).after 3 t) ((dat2 V c).after 4 t) ((dat2 V c).after 5 t) ((dat2 V c).after 6 t) ((dat2 V c).after 7 t) ((dat2 V c).after 8 t) from by dsimp only [dat2]]
  show _ ⊢ wp _ _ _ (bodyAt2 t) _
  unfold bodyAt2
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ _ _ _ _ _ _ _ _ _ _)
  iframe
  isplitl [H9]; · iexists _; iexact H9
  iintro ⟨H9, H0, H1, H2, H3, H4, H5, H6, H7, H8⟩
  iframe

theorem hin2 (c : Dev nD) : Pipeline.ΦA spec2 c ⊢ ((dat2 V c).Φ 0 : sProp 𝕄) := .rfl

theorem hout2 (c : Dev nD) : (dat2 V c).Φ (Fin.last cfg2.N) ⊢ (Pipeline.ΦA spec2 c : sProp 𝕄) := .rfl

end Cert.Kernel.Fr
-- ==== Proof.K.R3Pt.lean ====
import proofs.«421617_j66314295050867_4_alg».proof.Proof.Gen.Kernel.Skeleton

noncomputable section

namespace Cert.Kernel.Fr

open Idealize.ShloMosaic Idealize.SL.Sem
open Cert.Kernel Cert.Kernel.Gen

variable {F : FTy → Type} [FloatOps F]

def pt3_col (interest : Vec F S1024x128 .f32) (ti tc : Vec F S1024x64 .f32)
    (w1 : Vec F S256x128 .f32) (b1 : Vec F S1x128 .f32) (w2 : Vec F S128x64 .f32)
    (b2 : Vec F S1x64 .f32) (w3 : Vec F S64x1 .f32) : FVec F S1024x1 .f32 :=
  k3_pay4 interest ti tc w1 b1 w2 b2 w3

def pt3_logit (interest : Vec F S1024x128 .f32) (ti tc : Vec F S1024x64 .f32)
    (w1 : Vec F S256x128 .f32) (b1 : Vec F S1x128 .f32) (w2 : Vec F S128x64 .f32)
    (b2 : Vec F S1x64 .f32) (w3 : Vec F S64x1 .f32) (b3 : Vec F S1x1 .f32) : FVec F S1024 .f32 :=
  k3_pay1 (pt3_col interest ti tc w1 b1 w2 b2 w3) (k3_pay5 b3)

def pt3_pred (interest : Vec F S1024x128 .f32) (ti tc : Vec F S1024x64 .f32)
    (w1 : Vec F S256x128 .f32) (b1 : Vec F S1x128 .f32) (w2 : Vec F S128x64 .f32)
    (b2 : Vec F S1x64 .f32) (w3 : Vec F S64x1 .f32) (b3 : Vec F S1x1 .f32) : FVec F S1024 .f32 :=
  k3_pay3 (pt3_col interest ti tc w1 b1 w2 b2 w3) (k3_pay5 b3)

def pt3_loss (interest : Vec F S1024x128 .f32) (ti tc : Vec F S1024x64 .f32)
    (w1 : Vec F S256x128 .f32) (b1 : Vec F S1x128 .f32) (w2 : Vec F S128x64 .f32)
    (b2 : Vec F S1x64 .f32) (w3 : Vec F S64x1 .f32) (b3 : Vec F S1x1 .f32)
    (label : Vec F S1024 .i32) : FVec F S1x1 .f32 :=
  k3_pay2 (pt3_col interest ti tc w1 b1 w2 b2 w3) (k3_pay5 b3) label

end Cert.Kernel.Fr

end
-- ==== Proof.K.R3.lean ====
import proofs.«421617_j66314295050867_4_alg».proof.Proof.Gen.Kernel.Launch
import proofs.«421617_j66314295050867_4_alg».proof.Proof.Gen.Kernel.Skeleton
import proofs.«421617_j66314295050867_4_alg».proof.Proof.Gen.Kernel.Points
import proofs.«421617_j66314295050867_4_alg».proof.Proof.K.R3Pt
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem hz1 : (![0] : Fin 1 → Nat) = fun _ => 0 := funext fun a => by fin_cases a; rfl
private theorem hz2 : (![0, 0] : Fin 2 → Nat) = fun _ => 0 := funext fun a => by fin_cases a <;> rfl

abbrev r3_i : Rect S1024x128 := Rect.unit (s := S1024x128) ![0, 0] S1024x128.size inb_S1024x128_S1024x128_0_0
abbrev r3_e : Rect S1024x64 := Rect.unit (s := S1024x64) ![0, 0] S1024x64.size inb_S1024x64_S1024x64_0_0
abbrev r3_l : Rect S1024 := Rect.unit (s := S1024) ![0] S1024.size inb_S1024_S1024_0
abbrev r3_w1 : Rect S256x128 := Rect.unit (s := S256x128) ![0, 0] S256x128.size inb_S256x128_S256x128_0_0
abbrev r3_b1 : Rect S1x128 := Rect.unit (s := S1x128) ![0, 0] S1x128.size inb_S1x128_S1x128_0_0
abbrev r3_w2 : Rect S128x64 := Rect.unit (s := S128x64) ![0, 0] S128x64.size inb_S128x64_S128x64_0_0
abbrev r3_b2 : Rect S1x64 := Rect.unit (s := S1x64) ![0, 0] S1x64.size inb_S1x64_S1x64_0_0
abbrev r3_w3 : Rect S64x1 := Rect.unit (s := S64x1) ![0, 0] S64x1.size inb_S64x1_S64x1_0_0
abbrev r3_s : Rect S1x1 := Rect.unit (s := S1x1) ![0, 0] S1x1.size inb_S1x1_S1x1_0_0

def out3_10 (x0 : Vec F S1024x128 .f32) (x1 x2 : Vec F S1024x64 .f32) (x4 : Vec F S256x128 .f32) (x5 : Vec F S1x128 .f32)
    (x6 : Vec F S128x64 .f32) (x7 : Vec F S1x64 .f32) (x8 : Vec F S64x1 .f32) (x9 : Vec F S1x1 .f32) : Vec F S1024 .f32 :=
  View.canon [⟨r3_l, k3_pay3 (k3_pay4 (View.ld x0 r3_i) (View.ld x1 r3_e) (View.ld x2 r3_e) (View.ld x4 r3_w1) (View.ld x5 r3_b1)
    (View.ld x6 r3_w2) (View.ld x7 r3_b2) (View.ld x8 r3_w3)) (k3_pay5 (View.ld x9 r3_s))⟩]

def out3_11 (x0 : Vec F S1024x128 .f32) (x1 x2 : Vec F S1024x64 .f32) (x3 : Vec F S1024 .i32) (x4 : Vec F S256x128 .f32) (x5 : Vec F S1x128 .f32)
    (x6 : Vec F S128x64 .f32) (x7 : Vec F S1x64 .f32) (x8 : Vec F S64x1 .f32) (x9 : Vec F S1x1 .f32) : Vec F S1x1 .f32 :=
  View.canon [⟨r3_s, k3_pay2 (k3_pay4 (View.ld x0 r3_i) (View.ld x1 r3_e) (View.ld x2 r3_e) (View.ld x4 r3_w1) (View.ld x5 r3_b1)
    (View.ld x6 r3_w2) (View.ld x7 r3_b2) (View.ld x8 r3_w3)) (k3_pay5 (View.ld x9 r3_s)) (View.ld x3 r3_l)⟩]

theorem out3_10_eq (x0 : Vec F S1024x128 .f32) (x1 x2 : Vec F S1024x64 .f32) (x4 : Vec F S256x128 .f32) (x5 : Vec F S1x128 .f32)
    (x6 : Vec F S128x64 .f32) (x7 : Vec F S1x64 .f32) (x8 : Vec F S64x1 .f32) (x9 : Vec F S1x1 .f32) :
    out3_10 x0 x1 x2 x4 x5 x6 x7 x8 x9 = pt3_pred x0 x1 x2 x4 x5 x6 x7 x8 x9 := by
  unfold out3_10 pt3_pred pt3_col
  rw [View.canon_unit_zero (S := S1024) hz1, View.ld_unit_zero (S := S1024x128) hz2, View.ld_unit_zero (S := S1024x64) hz2,
    View.ld_unit_zero (S := S1024x64) hz2, View.ld_unit_zero (S := S256x128) hz2, View.ld_unit_zero (S := S1x128) hz2,
    View.ld_unit_zero (S := S128x64) hz2, View.ld_unit_zero (S := S1x64) hz2, View.ld_unit_zero (S := S64x1) hz2,
    View.ld_unit_zero (S := S1x1) hz2]

theorem out3_11_eq (x0 : Vec F S1024x128 .f32) (x1 x2 : Vec F S1024x64 .f32) (x3 : Vec F S1024 .i32) (x4 : Vec F S256x128 .f32) (x5 : Vec F S1x128 .f32)
    (x6 : Vec F S128x64 .f32) (x7 : Vec F S1x64 .f32) (x8 : Vec F S64x1 .f32) (x9 : Vec F S1x1 .f32) :
    out3_11 x0 x1 x2 x3 x4 x5 x6 x7 x8 x9 = pt3_loss x0 x1 x2 x4 x5 x6 x7 x8 x9 x3 := by
  unfold out3_11 pt3_loss pt3_col
  rw [View.canon_unit_zero (S := S1x1) hz2, View.ld_unit_zero (S := S1024x128) hz2, View.ld_unit_zero (S := S1024x64) hz2,
    View.ld_unit_zero (S := S1024x64) hz2, View.ld_unit_zero (S := S256x128) hz2, View.ld_unit_zero (S := S1x128) hz2,
    View.ld_unit_zero (S := S128x64) hz2, View.ld_unit_zero (S := S1x64) hz2, View.ld_unit_zero (S := S64x1) hz2,
    View.ld_unit_zero (S := S1x1) hz2, View.ld_unit_zero (S := S1024) hz1]

set_option maxHeartbeats 4000000 in

theorem sound_kernel3 (c : Dev nD) (E : Set ℕ) (i : grid3.Coords)
    (arg1 : Memref sig .tc .vmem S1024x128 .f32) (harg1 : arg1.IsWhole) (arg2 : Memref sig .tc .vmem S1024x64 .f32) (harg2 : arg2.IsWhole)
    (arg3 : Memref sig .tc .vmem S1024x64 .f32) (harg3 : arg3.IsWhole) (arg4 : Memref sig .tc .vmem S1024 .i32) (harg4 : arg4.IsWhole)
    (arg5 : Memref sig .tc .vmem S256x128 .f32) (harg5 : arg5.IsWhole) (arg6 : Memref sig .tc .vmem S1x128 .f32) (harg6 : arg6.IsWhole)
    (arg7 : Memref sig .tc .vmem S128x64 .f32) (harg7 : arg7.IsWhole) (arg8 : Memref sig .tc .vmem S1x64 .f32) (harg8 : arg8.IsWhole)
    (arg9 : Memref sig .tc .vmem S64x1 .f32) (harg9 : arg9.IsWhole) (arg10 : Memref sig .tc .vmem S1x1 .f32) (harg10 : arg10.IsWhole)
    (arg11 : Memref sig .tc .vmem S1024 .f32) (harg11 : arg11.IsWhole) (arg12 : Memref sig .tc .vmem S1x1 .f32) (harg12 : arg12.IsWhole)
    (x0 : Vec F S1024x128 .f32) (x1 x2 : Vec F S1024x64 .f32) (x3 : Vec F S1024 .i32) (x4 : Vec F S256x128 .f32) (x5 : Vec F S1x128 .f32)
    (x6 : Vec F S128x64 .f32) (x7 : Vec F S1x64 .f32) (x8 : Vec F S64x1 .f32) (x9 : Vec F S1x1 .f32) (K : PUnit → sProp 𝕄) :
    iprop((∃ d, owns (c : Thread nD τ) arg11 fullShare d) ∗ (∃ d, owns (c : Thread nD τ) arg12 fullShare d) ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (iprop(owns (c : Thread nD τ) arg11 fullShare (pt3_pred x0 x1 x2 x4 x5 x6 x7 x8 x9) ∗ owns (c : Thread nD τ) arg12 fullShare (pt3_loss x0 x1 x2 x4 x5 x6 x7 x8 x9 x3) ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9) -∗ K ⟨⟩))
      ⊢ wp frame (wpE (defs₀ (F := F)) Variants.none c none) E
          (cc3__final_kernel i arg1 harg1 arg2 harg2 arg3 harg3 arg4 harg4 arg5 harg5 arg6 harg6 arg7 harg7 arg8 harg8 arg9 harg9 arg10 harg10 arg11 harg11 arg12 harg12) K := by
  rw [← out3_10_eq, ← out3_11_eq]
  simp only [cc3__final_kernel_eq_skeleton]; unfold cc3__final_kernel_skel
  unfold owns
  iintro ⟨⟨%d10, %f10, -, H10⟩, ⟨%d11, %f11, -, H11⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, Hk⟩
  subst hf0 hf1 hf2 hf3 hf4 hf5 hf6 hf7 hf8 hf9
  sl_exec
  sl_step
  iapply Hk
  isplitl [H10]
  · iexists _; isplitr
    swap; · iexact H10
    ipureintro
    exact View.read_writes_eq_canon _ _ _ (fun y => ⟨_, List.mem_singleton_self _, View.mem_set_unit_zero (S := S1024) hz1 inb_S1024_S1024_0 y⟩)
  isplitl [H11]
  · iexists _; isplitr
    swap; · iexact H11
    ipureintro
    exact View.read_writes_eq_canon _ _ _ (fun y => ⟨_, List.mem_singleton_self _, View.mem_set_unit_zero (S := S1x1) hz2 inb_S1x1_S1x1_0_0 y⟩)
  sl_close

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => pt3_pred (iblk3 V c 0 t) (iblk3 V c 1 t) (iblk3 V c 2 t) (iblk3 V c 4 t) (iblk3 V c 5 t) (iblk3 V c 6 t)
        (iblk3 V c 7 t) (iblk3 V c 8 t) (iblk3 V c 9 t)
    | ⟨11, _⟩ => pt3_loss (iblk3 V c 0 t) (iblk3 V c 1 t) (iblk3 V c 2 t) (iblk3 V c 4 t) (iblk3 V c 5 t) (iblk3 V c 6 t)
        (iblk3 V c 7 t) (iblk3 V c 8 t) (iblk3 V c 9 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_10 (c : Dev nD) (t : Fin cfg3.N) :
    (dat3 V c).after 10 t = pt3_pred (iblk3 V c 0 t) (iblk3 V c 1 t) (iblk3 V c 2 t) (iblk3 V c 4 t) (iblk3 V c 5 t) (iblk3 V c 6 t)
      (iblk3 V c 7 t) (iblk3 V c 8 t) (iblk3 V c 9 t) := by dsimp only [dat3]
theorem after3_11 (c : Dev nD) (t : Fin cfg3.N) :
    (dat3 V c).after 11 t = pt3_loss (iblk3 V c 0 t) (iblk3 V c 1 t) (iblk3 V c 2 t) (iblk3 V c 4 t) (iblk3 V c 5 t) (iblk3 V c 6 t)
      (iblk3 V c 7 t) (iblk3 V c 8 t) (iblk3 V c 9 t) (iblk3 V c 3 t) := by dsimp only [dat3]

theorem before3 (c : Dev nD) (t : Fin cfg3.N) (w : Fin cfg3.W) (hw : (cfg3.win w).isOut = false) (d) :
    (dat3 V c).before w t d = (dat3 V c).after w t := by
  fin_cases w <;> first
    | exact absurd hw (by decide)
    | exact (dat3 V c).before_in_eq_fetched _ rfl (fun _ => rfl) (fun _ _ _ => rfl) (fun _ => rfl) t d

set_option maxHeartbeats 1000000 in

theorem body_obligation3 (c : Dev nD) : BodyObligation (dat3 (F := F) V c) (defs₀ (F := F)) Variants.none () Set.univ := fun t => by
  rw [bigSep_W3, bigSep_W3]
  dsimp only
  simp (disch := exact rfl) only [before3]
  rw [show (dat3 V c).Φ t.succ = (dat3 V c).Φ t.castSucc from rfl, show (dat3 V c).owesAt () t.succ = (dat3 V c).owesAt () t.castSucc from rfl,
    show (dat3 V c).after 10 t = pt3_pred ((dat3 V c).after 0 t) ((dat3 V c).after 1 t) ((dat3 V c).after 2 t) ((dat3 V c).after 4 t) ((dat3 V c).after 5 t) ((dat3 V c).after 6 t) ((dat3 V c).after 7 t) ((dat3 V c).after 8 t) ((dat3 V c).after 9 t) from by dsimp only [dat3],
    show (dat3 V c).after 11 t = pt3_loss ((dat3 V c).after 0 t) ((dat3 V c).after 1 t) ((dat3 V c).after 2 t) ((dat3 V c).after 4 t) ((dat3 V c).after 5 t) ((dat3 V c).after 6 t) ((dat3 V c).after 7 t) ((dat3 V c).after 8 t) ((dat3 V c).after 9 t) ((dat3 V c).after 3 t) from by dsimp only [dat3]]
  show _ ⊢ wp _ _ _ (bodyAt3 t) _
  unfold bodyAt3
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩⟩
  iapply (sound_kernel3 c Set.univ _ _ _ _ _ _ _ _ _ _ _ _ _ _ _ _ _ _ _ _ _ _ _ _ _ _ _ _ _ _ _ _ _ _ _ _)
  iframe
  isplitl [H10]; · iexists _; iexact H10
  isplitl [H11]; · iexists _; iexact H11
  iintro ⟨H10, H11, H0, H1, H2, H3, H4, H5, H6, H7, H8, H9⟩
  iframe

theorem hin3 (c : Dev nD) : Pipeline.ΦA spec3 c ⊢ (dat3 (F := F) V c).Φ 0 := .rfl
theorem hout3 (c : Dev nD) : (dat3 (F := F) V c).Φ (Fin.last cfg3.N) ⊢ Pipeline.ΦA spec3 c := .rfl

end Cert.Kernel.Fr

end
-- ==== Proof.K.Run.lean ====
import proofs.«421617_j66314295050867_4_alg».proof.Proof.Gen.Kernel.Regions
import proofs.«421617_j66314295050867_4_alg».proof.Proof.K.R0
import proofs.«421617_j66314295050867_4_alg».proof.Proof.K.R1
import proofs.«421617_j66314295050867_4_alg».proof.Proof.K.R2
import proofs.«421617_j66314295050867_4_alg».proof.Proof.K.R3
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 4096

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 (c : Dev nD) : Valuation τ sig (Elt F) := fun b => m (c, b)

abbrev W1 (c : Dev nD) : Valuation τ sig (Elt F) := StableHlo.after Gen.hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N

abbrev W3 (c : Dev nD) : Valuation τ sig (Elt F) := StableHlo.after Gen.hostOps1 (W2 m c)

abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N

abbrev W5 (c : Dev nD) : Valuation τ sig (Elt F) := StableHlo.after Gen.hostOps2 (W4 m c)

abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N

abbrev V6 : (c : Dev nD) → (b : Ref sig .tc) → Buf (Elt F) ((c : Thread nD τ).loc b) := fun c b => W6 m c b

def W7 (c : Dev nD) : Valuation τ sig (Elt F) :=
  Pipeline.withArrays spec3 c (W6 m c) fun w => (dat3 (V6 m) c).arrAt w cfg3.N

abbrev W8 (c : Dev nD) : Valuation τ sig (Elt F) := StableHlo.after Gen.hostOps4 (W7 m c)

theorem withArrays_keep {cfg : Cfg sig Λ₀} {c : Dev nD} (dat : Dat τ (Elt F) Unit ℕ (UR sig nD τ) ℕ cfg c)
    (hinj : Function.Injective (Pipeline.arrRef cfg.spec)) (W : Valuation τ sig (Elt F))
    (hA : ∀ w, dat.A w = W (Proc.devRef .tc (Pipeline.arrRef cfg.spec w))) (n : ℕ)
    (b : Ref sig .tc) (hb : ∀ w, Pipeline.arrRef cfg.spec w = b → (cfg.win w).isOut = false) :
    Pipeline.withArrays cfg.spec c W (fun w => dat.arrAt w n) (Proc.devRef .tc b) = W (Proc.devRef .tc b) := by
  by_cases h : ∃ w, Pipeline.arrRef cfg.spec w = b
  · obtain ⟨w, rfl⟩ := h
    rw [Pipeline.withArrays_arr cfg.spec hinj c _ _ w, dat.arrAt_in w (hb w rfl) n, hA]
  · exact Pipeline.withArrays_of_ne cfg.spec c _ _ b fun w e => h ⟨w, e⟩

theorem ins0 : ∀ w : Fin cfg0.W, Pipeline.arrRef spec0 w ∉ ([main_v42_0, main_v42_1, main_v42_2] : List (Ref sig .tc)) →
    (cfg0.win w).isOut = false := by decide

theorem ins1 : ∀ w : Fin cfg1.W, Pipeline.arrRef spec1 w ∉ ([main_v51_0, main_v51_1, main_v51_2] : List (Ref sig .tc)) →
    (cfg1.win w).isOut = false := by decide

theorem ins2 : ∀ w : Fin cfg2.W, Pipeline.arrRef spec2 w ∉ ([main_v60] : List (Ref sig .tc)) →
    (cfg2.win w).isOut = false := by decide

theorem ins3 : ∀ w : Fin cfg3.W, Pipeline.arrRef spec3 w ∉ ([main_v61_0, main_v61_1] : List (Ref sig .tc)) →
    (cfg3.win w).isOut = false := by decide

theorem W1_of (c : Dev nD) (r : Ref sig .tc) (h : r ∉ Gen.hostOps0_W) : W1 m c r = W0 m c r :=
  StableHlo.after_of_writes_sub Gen.hostOps0 _ Gen.hostOps0_writes h

theorem W2_arr (c : Dev nD) (w : Fin cfg0.W) :
    W2 m c (Proc.devRef .tc (Pipeline.arrRef spec0 w)) = (dat0 (V1 m) c).arrAt w cfg0.N := by
  unfold W2; exact Pipeline.withArrays_arr spec0 Gen.launch0.win.arr_inj c _ _ w
theorem W2_of (c : Dev nD) (r : Ref sig .tc) (h : r ∉ ([main_v42_0, main_v42_1, main_v42_2] : List (Ref sig .tc))) :
    W2 m c r = W1 m c r := by
  unfold W2
  exact withArrays_keep (dat0 (V1 m) c) Gen.launch0.win.arr_inj (W1 m c) (A_eq0 (V1 m) c) cfg0.N r
    fun w e => ins0 w (e ▸ h)

theorem W3_of (c : Dev nD) (r : Ref sig .tc) (h : r ∉ Gen.hostOps1_W) : W3 m c r = W2 m c r :=
  StableHlo.after_of_writes_sub Gen.hostOps1 _ Gen.hostOps1_writes h

theorem W4_arr (c : Dev nD) (w : Fin cfg1.W) :
    W4 m c (Proc.devRef .tc (Pipeline.arrRef spec1 w)) = (dat1 (V3 m) c).arrAt w cfg1.N := by
  unfold W4; exact Pipeline.withArrays_arr spec1 Gen.launch1.win.arr_inj c _ _ w
theorem W4_of (c : Dev nD) (r : Ref sig .tc) (h : r ∉ ([main_v51_0, main_v51_1, main_v51_2] : List (Ref sig .tc))) :
    W4 m c r = W3 m c r := by
  unfold W4
  exact withArrays_keep (dat1 (V3 m) c) Gen.launch1.win.arr_inj (W3 m c) (A_eq1 (V3 m) c) cfg1.N r
    fun w e => ins1 w (e ▸ h)

theorem W5_of (c : Dev nD) (r : Ref sig .tc) (h : r ∉ Gen.hostOps2_W) : W5 m c r = W4 m c r :=
  StableHlo.after_of_writes_sub Gen.hostOps2 _ Gen.hostOps2_writes h

theorem W6_arr (c : Dev nD) (w : Fin cfg2.W) :
    W6 m c (Proc.devRef .tc (Pipeline.arrRef spec2 w)) = (dat2 (V5 m) c).arrAt w cfg2.N := by
  unfold W6; exact Pipeline.withArrays_arr spec2 Gen.launch2.win.arr_inj c _ _ w
theorem W6_of (c : Dev nD) (r : Ref sig .tc) (h : r ∉ ([main_v60] : List (Ref sig .tc))) :
    W6 m c r = W5 m c r := by
  unfold W6
  exact withArrays_keep (dat2 (V5 m) c) Gen.launch2.win.arr_inj (W5 m c) (A_eq2 (V5 m) c) cfg2.N r
    fun w e => ins2 w (e ▸ h)

theorem W7_arr (c : Dev nD) (w : Fin cfg3.W) :
    W7 m c (Proc.devRef .tc (Pipeline.arrRef spec3 w)) = (dat3 (V6 m) c).arrAt w cfg3.N := by
  unfold W7; exact Pipeline.withArrays_arr spec3 Gen.launch3.win.arr_inj c _ _ w
theorem W7_of (c : Dev nD) (r : Ref sig .tc) (h : r ∉ ([main_v61_0, main_v61_1] : List (Ref sig .tc))) :
    W7 m c r = W6 m c r := by
  unfold W7
  exact withArrays_keep (dat3 (V6 m) c) Gen.launch3.win.arr_inj (W6 m c) (A_eq3 (V6 m) c) cfg3.N r
    fun w e => ins3 w (e ▸ h)

theorem W8_of (c : Dev nD) (r : Ref sig .tc) (h : r ∉ Gen.hostOps4_W) : W8 m c r = W7 m c r :=
  StableHlo.after_of_writes_sub Gen.hostOps4 _ Gen.hostOps4_writes h

abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20]

theorem arg_untouched : ∀ r ∈ argRefs,
    r ∉ Gen.hostOps0_W ∧ r ∉ ([main_v42_0, main_v42_1, main_v42_2] : List (Ref sig .tc)) ∧ r ∉ Gen.hostOps1_W
      ∧ r ∉ ([main_v51_0, main_v51_1, main_v51_2] : List (Ref sig .tc)) ∧ r ∉ Gen.hostOps2_W
      ∧ r ∉ ([main_v60] : List (Ref sig .tc)) ∧ r ∉ ([main_v61_0, main_v61_1] : List (Ref sig .tc)) ∧ r ∉ Gen.hostOps4_W := by
  decide

theorem W8_arg (c : Dev nD) (r : Ref sig .tc) (hr : r ∈ argRefs) : W8 m c r = m ((c : Thread nD τ).loc r) := by
  obtain ⟨h1, h2, h3, h4, h5, h6, h7, h8⟩ := arg_untouched r hr
  exact (W8_of m c r h8).trans <| (W7_of m c r h7).trans <| (W6_of m c r h6).trans <| (W5_of m c r h5).trans <|
    (W4_of m c r h4).trans <| (W3_of m c r h3).trans <| (W2_of m c r h2).trans <| (W1_of m c r h1).trans rfl

theorem W8_main_v61_0 (c : Dev nD) : W8 m c main_v61_0 = (dat3 (V6 m) c).arrAt 10 cfg3.N :=
  (W8_of m c main_v61_0 (by decide)).trans (W7_arr m c 10)

theorem W7_main_v61_1 (c : Dev nD) : W7 m c main_v61_1 = (dat3 (V6 m) c).arrAt 11 cfg3.N := W7_arr m c 11

theorem W8_main_v62 (c : Dev nD) :
    W8 m c main_v62 = fun i => shapeCast S_ (W7 m c main_v61_1) Facts₀.shapeCasts_S1x1_S_ i := by
  have h := StableHlo.reshape_result (τ := τ) (Val := Elt F) main_v61_1 main_v62 rfl Facts₀.shapeCasts_S1x1_S_
    ⟨by decide, rfl⟩ ⟨by decide, rfl⟩ (W7 m c)
  exact h

abbrev 𝒱₀ : Variants := Variants.none

abbrev Lp : GSem nD τ sig → Finset Unit := fun _ => ∅
abbrev lvl : GSem nD τ sig → Unit → ℕ := fun _ _ => 0

abbrev Rest (c : Dev nD) : sProp 𝕄 :=
  iprop((∃ r, prngReg c r) ∗ ∃ W, owes (c : Thread nD τ) (0 : CellTallies nD τ sig Unit) W)

abbrev At (W : Dev nD → Valuation τ sig (Elt F)) (c : Dev nD) : sProp 𝕄 :=
  iprop(StableHlo.held (c : Thread nD τ) (Pipeline.ucRefs τ sig) (W c) ∗ Rest c)

theorem ΦA_of {gr Wn : Nat} (win : Fin Wn → Pipeline.WinSpec sig gr) (c : Dev nD) (P : sProp 𝕄) :
    (iprop((∃ r, prngReg c r) ∗ P ∗ Pipeline.scopedRest win c) : sProp 𝕄) ⊢ Pipeline.ΦA win c := by
  unfold Pipeline.ΦA
  iintro ⟨Hp, -, Hr⟩
  isplitl [Hr]; · iexact Hr
  iexact Hp

theorem of_ΦA {gr Wn : Nat} (win : Fin Wn → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

theorem entry_of {cfg : Cfg sig Λ₀} {c : Dev nD} (dat : Dat τ (Elt F) Unit ℕ (UR sig nD τ) ℕ cfg c)
    (h0 : dat.owed 0 = 0) (hrec : dat.recorded 0 = Set.univ) (W : Valuation τ sig (Elt F)) (Zr Pf S : sProp 𝕄)
    (hsplit : (StableHlo.held (c : Thread nD τ) (Pipeline.ucRefs τ sig) W : sProp 𝕄) ⊢ iprop(dat.arrays (dat.arrAt · 0) ∗ Zr))
    (hpf : (BI.emp : sProp 𝕄) ⊢ Pf) :
    (iprop(iprop(StableHlo.held (c : Thread nD τ) (Pipeline.ucRefs τ sig) W ∗ Rest c) ∗ S ∗ levAts Lp lvl) : sProp 𝕄)
      ⊢ |={Set.univ}=> iprop(dat.arrays (dat.arrAt · 0) ∗ Pf ∗ dat.owesAt () 0 ∗ (∃ r, prngReg c r) ∗ Zr) := by
  unfold Pipeline.Dat.owesAt Pipeline.owesWithin
  rw [h0]
  iintro ⟨⟨Hub, Hp, HO⟩, -, -⟩
  ihave H := hsplit $$ Hub
  icases H with ⟨Ha, Hz⟩
  imodintro
  isplitl [Ha]; · iexact Ha
  isplitr; · iapply hpf; iempintro
  isplitl [HO]
  · icases HO with ⟨%W', HO⟩; iexists W'; isplitr
    · ipureintro; intro x _; exact Or.inl (hrec ▸ Set.mem_univ x)
    iexact HO
  isplitl [Hp]; · iexact Hp
  iexact Hz

theorem exit_of {cfg : Cfg sig Λ₀} {c : Dev nD} (dat : Dat τ (Elt F) Unit ℕ (UR sig nD τ) ℕ cfg c)
    (hN : dat.owed (Fin.last cfg.N) = 0) (W' : Valuation τ sig (Elt F)) (Zr : sProp 𝕄)
    (Fa : (w : Fin cfg.W) → Buf (Elt F) ((cfg.win w).arr.view.loc (c : Thread nD τ)))
    (hjoin : (iprop(dat.arrays Fa ∗ Zr) : sProp 𝕄) ⊢ StableHlo.held (c : Thread nD τ) (Pipeline.ucRefs τ sig) W') :
    (iprop(dat.arrays Fa ∗ dat.owesAt () (Fin.last cfg.N) ∗ (∃ r, prngReg c r) ∗ Zr) : sProp 𝕄)
      ⊢ |={Set.univ}=> iprop(StableHlo.held (c : Thread nD τ) (Pipeline.ucRefs τ sig) W' ∗ Rest c) := by
  unfold Pipeline.Dat.owesAt Pipeline.owesWithin
  rw [hN]
  iintro ⟨Ha, HO, HY, Hz⟩
  imodintro
  isplitl [Ha Hz]
  · iapply hjoin; isplitl [Ha] <;> iassumption
  isplitl [HY]; · iexact HY
  icases HO with ⟨%W0, -, HO⟩; iexists W0; iexact HO

abbrev V2 : (c : Dev nD) → (b : Ref sig .tc) → Buf (Elt F) ((c : Thread nD τ).loc b) := fun c b => W2 m c b
abbrev V4 : (c : Dev nD) → (b : Ref sig .tc) → Buf (Elt F) ((c : Thread nD τ).loc b) := fun c b => W4 m c b
theorem of_ne {gr Wn : Nat} (win : Fin Wn → Pipeline.WinSpec sig gr) (c : Dev nD) (W : Valuation τ sig (Elt F))
    (A : (w : Fin Wn) → Buf (Elt F) ((win w).arr.view.loc (c : Thread nD τ))) (b : Ref sig .tc)
    (hb : b ∉ Finset.univ.image (Pipeline.arrRef win)) : Pipeline.withArrays win c W A b = W b :=
  Pipeline.withArrays_of_ne win c _ _ b fun w e => hb (Finset.mem_image.mpr ⟨w, Finset.mem_univ _, e⟩)

def pdats : (p : Fin 4) → (c : Dev nD) → Dat τ (Elt F) Unit ℕ (UR sig nD τ) ℕ (Pipeline.pin (pcfgs (F := F)) Gen.adm p) c
  | ⟨0, _⟩ => fun c => dat0 (V1 m) c
  | ⟨1, _⟩ => fun c => dat1 (V3 m) c
  | ⟨2, _⟩ => fun c => dat2 (V5 m) c
  | ⟨3, _⟩ => fun c => dat3 (V6 m) c

set_option backward.isDefEq.respectTransparency.types false in
def rg (p : Fin 4) (lf : Pipeline.LaunchFacts (nD := nD) (τ := τ) cfgs p) (Wi Wo : Dev nD → Valuation τ sig (Elt F))
    (hb : ∀ c, BodyObligation (pdats m p c) (defs₀ (F := F)) 𝒱₀ () Set.univ)
    (hA : ∀ c w, (pdats m p c).A w = Wi c (Proc.devRef .tc (Pipeline.arrRef (cfgs p).spec w)))
    (h0 : ∀ c t, (pdats m p c).owed t = 0) (hq : ∀ c w, (pdats m p c).q w = fullShare)
    (hrec : ∀ c, (pdats m p c).recorded 0 = Set.univ)
    (hi : ∀ c, Pipeline.ΦA (cfgs p).spec c ⊢ ((pdats m p c).Φ 0 : sProp 𝕄))
    (ho : ∀ c, (pdats m p c).Φ (Fin.last (cfgs p).N) ⊢ (Pipeline.ΦA (cfgs p).spec c : sProp 𝕄))
    (harr : ∀ c w, Wo c (Proc.devRef .tc (Pipeline.arrRef (cfgs p).spec w)) = (pdats m p c).arrAt w (cfgs p).N)
    (hne : ∀ c (b : Ref sig .tc), b ∉ Finset.univ.image (Pipeline.arrRef (cfgs p).spec) → Wo c b = Wi c b) :
    Pipeline.RegionSeg (pcfgs (F := F)) Gen.adm (pdats m) () defs₀ 𝒱₀ Lp lvl p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ Lp lvl p h0
  pre := At Wi
  post := At Wo
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := entry_of (pdats m p c) (h0 c 0) (hrec c) (Wi c) _ _ _
    (by
      have h := Pipeline.arrays_of_unscopedBufs (p := p) (pcfgs (F := F)) Gen.adm (pdats m) lf.win lf.arr_whole c
        ((pdats m p c).share_full (hq c)) (fun b => Wi c b) (hA c)
      rwa [Pipeline.unscopedBufs_held] at h)
    (by unfold Pipeline.prefHeld; rw [show (Finset.univ : Finset (Fin 0)) = ∅ from rfl, BI.bigSep_empty])
  hin c := (ΦA_of _ c _).trans (hi c)
  hout c := by rw [Pipeline.ownSems0_none]; exact (ho c).trans (of_ΦA _ c)
  hexit c := exit_of (pdats m p c) (h0 c _) (Wo c) _ _
    (by
      have h := Pipeline.unscopedBufs_of_arrays (p := p) (pcfgs (F := F)) Gen.adm (Ix := Unit) (Name := ℕ) (U := UR sig nD τ) (Lvl := ℕ)
        lf.win lf.arr_whole c (pdats m) ((pdats m p c).share_full (hq c)) (fun b => Wi c b) (fun b => Wo c b)
        ((pdats m p c).arrAt · (cfgs p).N) (fun w => (harr c w).symm) (hne c)
      rwa [Pipeline.unscopedBufs_held] at h)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lp lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

abbrev segs : List (Pipeline.Seg (pcfgs (F := F)) Gen.adm (pdats m) () defs₀ 𝒱₀ Lp lvl) :=
  [ .host (hseg Gen.hostOps0 Gen.hostOps0_sub Gen.hostOps0_fresh (W0 m)),
    .region (rg m 0 Gen.launch0 (W1 m) (W2 m) (body_obligation0 (V1 m)) (A_eq0 (V1 m)) (fun _ _ => rfl) (fun _ _ => rfl) (fun _ => rfl)
      (hin0 (V1 m)) (hout0 (V1 m)) (W2_arr m) fun c b hb => of_ne _ c _ _ b hb),
    .host (hseg Gen.hostOps1 Gen.hostOps1_sub Gen.hostOps1_fresh (W2 m)),
    .region (rg m 1 Gen.launch1 (W3 m) (W4 m) (body_obligation1 (V3 m)) (A_eq1 (V3 m)) (fun _ _ => rfl) (fun _ _ => rfl) (fun _ => rfl)
      (hin1 (V3 m)) (hout1 (V3 m)) (W4_arr m) fun c b hb => of_ne _ c _ _ b hb),
    .host (hseg Gen.hostOps2 Gen.hostOps2_sub Gen.hostOps2_fresh (W4 m)),
    .region (rg m 2 Gen.launch2 (W5 m) (W6 m) (body_obligation2 (V5 m)) (A_eq2 (V5 m)) (fun _ _ => rfl) (fun _ _ => rfl) (fun _ => rfl)
      (hin2 (V5 m)) (hout2 (V5 m)) (W6_arr m) fun c b hb => of_ne _ c _ _ b hb),
    .region (rg m 3 Gen.launch3 (W6 m) (W7 m) (body_obligation3 (V6 m)) (A_eq3 (V6 m)) (fun _ _ => rfl) (fun _ _ => rfl) (fun _ => rfl)
      (hin3 (V6 m)) (hout3 (V6 m)) (W7_arr m) fun c b hb => of_ne _ c _ _ b hb),
    .host (hseg Gen.hostOps4 Gen.hostOps4_sub Gen.hostOps4_fresh (W7 m)) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W8 m c b) :=
  Pipeline.θ_run_regions_kit (pcfgs (F := F)) Gen.adm (pdats m) () Gen.cellOf_inj emb₁ defs₀ 𝒱₀ Lp lvl m ρ main (segs m)
    (fun c Q => by
      rewrite [Gen.main_chain c, Pipeline.Seg.run_eq_chain,
        show (segs m).map Pipeline.Seg.prog = [
          StableHlo.seq Gen.hostOps0,
          Prog.lift (.customCall (Pipeline.entry 0) ()),
          StableHlo.seq Gen.hostOps1,
          Prog.lift (.customCall (Pipeline.entry 1) ()),
          StableHlo.seq Gen.hostOps2,
          Prog.lift (.customCall (Pipeline.entry 2) ()),
          Prog.lift (.customCall (Pipeline.entry 3) ()),
          StableHlo.seq Gen.hostOps4 ] from rfl]
      exact .rfl)
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs Gen.cellOf_inj) (Pipeline.launchToks cfgs Gen.cellOf_inj))
    (hu₀ := by
      rw [ownU_emb₁, BI.bigSep_emp_const]
      iintro Hu; imodintro
      isplitl [Hu]; · iexact Hu
      iempintro)
    (T₀ := At (W0 m))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W8 m c) ∗ Rest c) : sProp 𝕄)
          ⊢ iprop(iprop(StableHlo.held (c : Thread nD τ) (Pipeline.ucRefs τ sig) (W8 m c) ∗ ∃ r, prngReg c r)
              ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach Lp lvl fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W8 m c b)
    (hfin := fun c s' => by
      iintro ⟨⟨Hh, -⟩, HSI⟩
      unfold StableHlo.held
      imodintro
      iapply (pointsTo_read_all (Pipeline.ucRefs τ sig) (fun b => ((c : Thread nD τ).1, b)) (W8 m c) s')
      isplitl [Hh] <;> iassumption)
    (hQ := fun s h => h)

end Cert.Kernel.Fr

end
-- ==== Proof.KI.R0Pt.lean ====
import proofs.«421617_j66314295050867_4_alg».proof.Proof.Gen.KernelIdeal.Skeleton
import Idealize.ShloMosaic.Lib.Pipeline.FrameBody

noncomputable section

namespace Cert.KernelIdeal.Fr

open Idealize.ShloMosaic Idealize.SL.Sem
open Cert.KernelIdeal Cert.KernelIdeal.Gen

variable {F : FTy → Type} [FloatOps F]

def wr0_0 : Rect S512x32 := Rect.unit (s := S512x32) ![0, 0] S64x32.size inb_S512x32_S64x32_0_0
def wr0_1 : Rect S512x32 := Rect.unit (s := S512x32) ![64, 0] S64x32.size inb_S512x32_S64x32_64_0
def wr0_2 : Rect S512x32 := Rect.unit (s := S512x32) ![128, 0] S64x32.size inb_S512x32_S64x32_128_0
def wr0_3 : Rect S512x32 := Rect.unit (s := S512x32) ![192, 0] S64x32.size inb_S512x32_S64x32_192_0
def wr0_4 : Rect S512x32 := Rect.unit (s := S512x32) ![256, 0] S64x32.size inb_S512x32_S64x32_256_0
def wr0_5 : Rect S512x32 := Rect.unit (s := S512x32) ![320, 0] S64x32.size inb_S512x32_S64x32_320_0
def wr0_6 : Rect S512x32 := Rect.unit (s := S512x32) ![384, 0] S64x32.size inb_S512x32_S64x32_384_0
def wr0_7 : Rect S512x32 := Rect.unit (s := S512x32) ![448, 0] S64x32.size inb_S512x32_S64x32_448_0

def pt0_acc (im cm : Vec F S32x200x64 .f32) (ti tc : Vec F S32x64 .f32) (hist : Vec F S32x200 .i32)
    (w : Vec F S512x32 .f32) : FVec F S6400x32 .f32 :=
  k0_pay17 (k0_pay8 hist im) (k0_pay9 hist cm) (k0_pay11 tc) (k0_pay12 hist im ti) (k0_pay13 hist cm tc)
    (k0_pay14 hist im ti) (k0_pay16 ti (View.ld w (Rect.unit (s := S512x32) ![0, 0] S64x32.size inb_S512x32_S64x32_0_0)))
    (View.ld w (Rect.unit (s := S512x32) ![64, 0] S64x32.size inb_S512x32_S64x32_64_0))
    (View.ld w (Rect.unit (s := S512x32) ![128, 0] S64x32.size inb_S512x32_S64x32_128_0))
    (View.ld w (Rect.unit (s := S512x32) ![192, 0] S64x32.size inb_S512x32_S64x32_192_0))
    (View.ld w (Rect.unit (s := S512x32) ![256, 0] S64x32.size inb_S512x32_S64x32_256_0))
    (View.ld w (Rect.unit (s := S512x32) ![320, 0] S64x32.size inb_S512x32_S64x32_320_0))
    (View.ld w (Rect.unit (s := S512x32) ![384, 0] S64x32.size inb_S512x32_S64x32_384_0))

def pt0_h (im cm : Vec F S32x200x64 .f32) (ti tc : Vec F S32x64 .f32) (hist : Vec F S32x200 .i32)
    (w : Vec F S512x32 .f32) (b : Vec F S1x32 .f32) : FVec F S32x200x32 .f32 :=
  k0_pay2 (k0_pay15 hist cm tc) (pt0_acc im cm ti tc hist w)
    (View.ld w (Rect.unit (s := S512x32) ![448, 0] S64x32.size inb_S512x32_S64x32_448_0)) b

def pt0_s (im cm : Vec F S32x200x64 .f32) (ti tc : Vec F S32x64 .f32) (hist : Vec F S32x200 .i32)
    (w : Vec F S512x32 .f32) (b : Vec F S1x32 .f32) (acc : Vec F S1x32 .f32) : FVec F S1x32 .f32 :=
  k0_pay3 (k0_pay15 hist cm tc) (pt0_acc im cm ti tc hist w)
    (View.ld w (Rect.unit (s := S512x32) ![448, 0] S64x32.size inb_S512x32_S64x32_448_0)) b acc

def pt0_q (im cm : Vec F S32x200x64 .f32) (ti tc : Vec F S32x64 .f32) (hist : Vec F S32x200 .i32)
    (w : Vec F S512x32 .f32) (b : Vec F S1x32 .f32) (acc : Vec F S1x32 .f32) : FVec F S1x32 .f32 :=
  k0_pay4 (k0_pay15 hist cm tc) (pt0_acc im cm ti tc hist w)
    (View.ld w (Rect.unit (s := S512x32) ![448, 0] S64x32.size inb_S512x32_S64x32_448_0)) b acc

def pt0_s0 : FVec F S1x32 .f32 := k0_pay5 (F := F)

def pt0_q0 : FVec F S1x32 .f32 := k0_pay6 (F := F)

end Cert.KernelIdeal.Fr

end
-- ==== Proof.KI.Whole.lean ====
import Idealize.ShloMosaic.Lib.Pipeline.FrameBody
import Idealize.ShloMosaic.Lib.Pipeline.Value

noncomputable section

namespace Cert.KernelIdeal.Fr

open Idealize.ShloMosaic

theorem readAt_unit_zero {sig' : RefSig} {κ : Kind} {sp : Space} {Val : EltTy → Type} {S : Shape} {e : EltTy}
    (v : View sig' κ sp S e) {off : Fin S.rank → ℕ} (h : off = fun _ => 0) (inb : ∀ a, off a + S.size a ≤ S.size a)
    (f : v.ty.Contents Val) : v.readAt Val (Rect.unit off S.size inb).toLoadRect f = v.read Val f :=
  (View.readAt_eq_ld v f _).trans (View.ld_unit_zero h inb _)

theorem read_writes_unit_zero {sig' : RefSig} {κ : Kind} {sp : Space} {Val : EltTy → Type} [∀ e, Nonempty (Val e)] {S : Shape} {e : EltTy}
    (v : View sig' κ sp S e) {off : Fin S.rank → ℕ} (h : off = fun _ => 0) (inb : ∀ a, off a + S.size a ≤ S.size a)
    (f : v.ty.Contents Val) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

theorem hz2 : (![0, 0] : Fin 2 → ℕ) = fun _ => 0 := by funext a; fin_cases a <;> rfl
theorem hz3 : (![0, 0, 0] : Fin 3 → ℕ) = fun _ => 0 := by funext a; fin_cases a <;> rfl

end Cert.KernelIdeal.Fr

end
-- ==== Proof.KI.R0.Runs.lean ====
import proofs.«421617_j66314295050867_4_alg».proof.Proof.Gen.KernelIdeal.Launch
import proofs.«421617_j66314295050867_4_alg».proof.Proof.Gen.KernelIdeal.Skeleton
import proofs.«421617_j66314295050867_4_alg».proof.Proof.Gen.KernelIdeal.Points
import proofs.«421617_j66314295050867_4_alg».proof.Proof.KI.R0Pt
import proofs.«421617_j66314295050867_4_alg».proof.Proof.KI.Whole
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1

theorem hcond0_1 : ∀ t : Fin cfg0.N, cond0_1 (grid0.coords t) ↔ t.val = 31 :=
  (by decide +kernel : ∀ t : Fin grid0.N, cond0_1 (grid0.coords t) ↔ t.val = 31)

variable (c : Dev nD) (E : Set ℕ) (i : grid0.Coords) (arg1 : Memref sig .tc .vmem S32x200x64 .f32) (harg1 : arg1.IsWhole) (arg2 : Memref sig .tc .vmem S32x200x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S32x200 .i32) (harg5 : arg5.IsWhole) (arg6 : Memref sig .tc .vmem S512x32 .f32) (harg6 : arg6.IsWhole) (arg7 : Memref sig .tc .vmem S1x32 .f32) (harg7 : arg7.IsWhole) (arg8 : Memref sig .tc .vmem S32x200x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole)

set_option maxHeartbeats 4000000 in

theorem kernelRun0_A
    (hc0 : cond0_0 i) (hc1 : ¬cond0_1 i)
    (x1 x2 : Vec F S32x200x64 .f32) (x3 x4 : Vec F S32x64 .f32) (x5 : Vec F S32x200 .i32) (x6 : Vec F S512x32 .f32) (x7 : Vec F S1x32 .f32) (K : PUnit → sProp 𝕄) :
    iprop(owns c arg1 fullShare x1 ∗ owns c arg2 fullShare x2 ∗ owns c arg3 fullShare x3
        ∗ owns c arg4 fullShare x4 ∗ owns c arg5 fullShare x5 ∗ owns c arg6 fullShare x6
        ∗ owns c arg7 fullShare x7 ∗ (∃ d, owns c arg8 fullShare d)
        ∗ (∃ d, owns c arg11 fullShare d) ∗ (∃ d, owns c arg12 fullShare d)
        ∗ (iprop(owns c arg1 fullShare x1 ∗ owns c arg2 fullShare x2 ∗ owns c arg3 fullShare x3
        ∗ owns c arg4 fullShare x4 ∗ owns c arg5 fullShare x5 ∗ owns c arg6 fullShare x6
        ∗ owns c arg7 fullShare x7 ∗ owns c arg8 fullShare (pt0_h x1 x2 x3 x4 x5 x6 x7)
            ∗ owns c arg11 fullShare (pt0_s x1 x2 x3 x4 x5 x6 x7 pt0_s0) ∗ owns c arg12 fullShare (pt0_q x1 x2 x3 x4 x5 x6 x7 pt0_q0)) -∗ K ⟨⟩))
      ⊢ wp frame (wpE (defs₀ (F := F)) Variants.none c none) E (cc0__dice_h0_kernel i arg1 harg1 arg2 harg2 arg3 harg3 arg4 harg4 arg5 harg5 arg6 harg6 arg7 harg7 arg8 harg8 arg9 harg9 arg10 harg10 arg11 harg11 arg12 harg12) K := by
  simp only [cc0__dice_h0_kernel_eq_skeleton]; unfold cc0__dice_h0_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
  subst hf1 hf2 hf3 hf4 hf5 hf6 hf7
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; iexists _; isplitr; swap; iexact H8; rotate_left
  isplitl [HS0]; iexists _; isplitr; swap; iexact HS0; rotate_left
  iexists _; isplitr; swap; iexact HS1
  all_goals
    ipureintro
    first | rw [read_writes_unit_zero _ hz3] | rw [read_writes_unit_zero _ hz2]
    try unfold kernelRun0_A.sl.v94 kernelRun0_A.sl.HS0_1
    try unfold kernelRun0_A.sl.v101 kernelRun0_A.sl.HS1_1
    unfold kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
    simp only [pt0_h, pt0_s, pt0_q, pt0_s0, pt0_q0, pt0_acc, readAt_unit_zero (S := S32x200x64) _ hz3, readAt_unit_zero (S := S32x64) _ hz2, readAt_unit_zero (S := S32x200) _ hz2, readAt_unit_zero (S := S1x32) _ hz2, View.readCov_unit_zero (S := S1x32) _ hz2, View.readAt_eq_ld]

set_option maxHeartbeats 4000000 in

theorem kernelRun0_B
    (hc0 : ¬cond0_0 i) (hc1 : ¬cond0_1 i)
    (x1 x2 : Vec F S32x200x64 .f32) (x3 x4 : Vec F S32x64 .f32) (x5 : Vec F S32x200 .i32) (x6 : Vec F S512x32 .f32) (x7 : Vec F S1x32 .f32)
    (xs0 xs1 : Vec F S1x32 .f32) (K : PUnit → sProp 𝕄) :
    iprop(owns c arg1 fullShare x1 ∗ owns c arg2 fullShare x2 ∗ owns c arg3 fullShare x3
        ∗ owns c arg4 fullShare x4 ∗ owns c arg5 fullShare x5 ∗ owns c arg6 fullShare x6
        ∗ owns c arg7 fullShare x7 ∗ (∃ d, owns c arg8 fullShare d)
        ∗ owns c arg11 fullShare xs0 ∗ owns c arg12 fullShare xs1
        ∗ (iprop(owns c arg1 fullShare x1 ∗ owns c arg2 fullShare x2 ∗ owns c arg3 fullShare x3
            ∗ owns c arg4 fullShare x4 ∗ owns c arg5 fullShare x5 ∗ owns c arg6 fullShare x6
            ∗ owns c arg7 fullShare x7 ∗ owns c arg8 fullShare (pt0_h x1 x2 x3 x4 x5 x6 x7)
            ∗ owns c arg11 fullShare (pt0_s x1 x2 x3 x4 x5 x6 x7 xs0) ∗ owns c arg12 fullShare (pt0_q x1 x2 x3 x4 x5 x6 x7 xs1)) -∗ K ⟨⟩))
      ⊢ wp frame (wpE (defs₀ (F := F)) Variants.none c none) E (cc0__dice_h0_kernel i arg1 harg1 arg2 harg2 arg3 harg3 arg4 harg4 arg5 harg5 arg6 harg6 arg7 harg7 arg8 harg8 arg9 harg9 arg10 harg10 arg11 harg11 arg12 harg12) K := by
  simp only [cc0__dice_h0_kernel_eq_skeleton]; unfold cc0__dice_h0_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
  subst hf1 hf2 hf3 hf4 hf5 hf6 hf7 hfs0 hfs1
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; iexists _; isplitr; swap; iexact H8; rotate_left
  isplitl [HS0]; iexists _; isplitr; swap; iexact HS0; rotate_left
  iexists _; isplitr; swap; iexact HS1
  all_goals
    ipureintro
    first | rw [read_writes_unit_zero _ hz3] | rw [read_writes_unit_zero _ hz2]
    unfold kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r
    simp only [pt0_h, pt0_s, pt0_q, pt0_s0, pt0_q0, pt0_acc, readAt_unit_zero (S := S32x200x64) _ hz3, readAt_unit_zero (S := S32x64) _ hz2, readAt_unit_zero (S := S32x200) _ hz2, readAt_unit_zero (S := S1x32) _ hz2, View.readCov_unit_zero (S := S1x32) _ hz2, View.readAt_eq_ld]

set_option maxHeartbeats 4000000 in

theorem kernelRun0_C
    (hc0 : ¬cond0_0 i) (hc1 : cond0_1 i)
    (x1 x2 : Vec F S32x200x64 .f32) (x3 x4 : Vec F S32x64 .f32) (x5 : Vec F S32x200 .i32) (x6 : Vec F S512x32 .f32) (x7 : Vec F S1x32 .f32) (xs0 xs1 : Vec F S1x32 .f32) (K : PUnit → sProp 𝕄) :
    iprop(owns c arg1 fullShare x1 ∗ owns c arg2 fullShare x2 ∗ owns c arg3 fullShare x3
        ∗ owns c arg4 fullShare x4 ∗ owns c arg5 fullShare x5 ∗ owns c arg6 fullShare x6
        ∗ owns c arg7 fullShare x7 ∗ (∃ d, owns c arg8 fullShare d)
        ∗ (∃ d, owns c arg9 fullShare d) ∗ (∃ d, owns c arg10 fullShare d)
        ∗ owns c arg11 fullShare xs0 ∗ owns c arg12 fullShare xs1
        ∗ (iprop(owns c arg1 fullShare x1 ∗ owns c arg2 fullShare x2 ∗ owns c arg3 fullShare x3
        ∗ owns c arg4 fullShare x4 ∗ owns c arg5 fullShare x5 ∗ owns c arg6 fullShare x6
        ∗ owns c arg7 fullShare x7 ∗ owns c arg8 fullShare (pt0_h x1 x2 x3 x4 x5 x6 x7)
            ∗ owns c arg9 fullShare (pt0_s x1 x2 x3 x4 x5 x6 x7 xs0) ∗ owns c arg10 fullShare (pt0_q x1 x2 x3 x4 x5 x6 x7 xs1)
            ∗ owns c arg11 fullShare (pt0_s x1 x2 x3 x4 x5 x6 x7 xs0) ∗ owns c arg12 fullShare (pt0_q x1 x2 x3 x4 x5 x6 x7 xs1)) -∗ K ⟨⟩))
      ⊢ wp frame (wpE (defs₀ (F := F)) Variants.none c none) E (cc0__dice_h0_kernel i arg1 harg1 arg2 harg2 arg3 harg3 arg4 harg4 arg5 harg5 arg6 harg6 arg7 harg7 arg8 harg8 arg9 harg9 arg10 harg10 arg11 harg11 arg12 harg12) K := by
  simp only [cc0__dice_h0_kernel_eq_skeleton]; unfold cc0__dice_h0_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
  subst hf1 hf2 hf3 hf4 hf5 hf6 hf7 hfs0 hfs1
  sl_exec (disch := first | exact hc0 | exact hc1)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; iexists _; isplitr; swap; iexact H8; rotate_left
  isplitl [H9]; iexists _; isplitr; swap; iexact H9; rotate_left
  isplitl [H10]; iexists _; isplitr; swap; iexact H10; rotate_left
  isplitl [HS0]; iexists _; isplitr; swap; iexact HS0; rotate_left
  iexists _; isplitr; swap; iexact HS1
  all_goals
    ipureintro
    try unfold kernelRun0_C.sl.HS0_1
    try unfold kernelRun0_C.sl.HS1_1
    first | rw [read_writes_unit_zero _ hz3] | rw [read_writes_unit_zero _ hz2]
    try unfold kernelRun0_C.sl.v112 kernelRun0_C.sl.HS0_1
    try unfold kernelRun0_C.sl.v114 kernelRun0_C.sl.HS1_1
    unfold kernelRun0_C.sl.r_8 kernelRun0_C.sl.r_7 kernelRun0_C.sl.r_6 kernelRun0_C.sl.r_5 kernelRun0_C.sl.r_4 kernelRun0_C.sl.r_3 kernelRun0_C.sl.r_2 kernelRun0_C.sl.r_1 kernelRun0_C.sl.r
    simp only [pt0_h, pt0_s, pt0_q, pt0_s0, pt0_q0, pt0_acc, readAt_unit_zero (S := S32x200x64) _ hz3, readAt_unit_zero (S := S32x64) _ hz2, readAt_unit_zero (S := S32x200) _ hz2, readAt_unit_zero (S := S1x32) _ hz2, View.readCov_unit_zero (S := S1x32) _ hz2, View.readAt_eq_ld]

end Cert.KernelIdeal.Fr

end
-- ==== Proof.KI.R0.lean ====
import proofs.«421617_j66314295050867_4_alg».proof.Proof.KI.R0.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem idle0_89 : ∀ t : Fin cfg0.N, ¬cond0_1 (grid0.coords t) →
    (idle0 8 (grid0.coords t) = true ∧ (win0 8).flush t = false) ∧ idle0 9 (grid0.coords t) = true ∧ (win0 9).flush t = false := by decide +kernel
theorem live0_89 : ∀ t : Fin cfg0.N, cond0_1 (grid0.coords t) → idle0 8 (grid0.coords t) = false ∧ idle0 9 (grid0.coords t) = false := by decide +kernel

abbrev scM0_0 : Memref sig .tc .vmem S1x32 .f32 := Memref.whole cc0_scratch0
abbrev scM0_1 : Memref sig .tc .vmem S1x32 .f32 := Memref.whole cc0_scratch1

abbrev rest0 (c : Dev nD) : sProp 𝕄 :=
  Pipeline.scopedRestBut (Ix := Unit) (Name := ℕ) (U := UR sig nD τ) (Lvl := ℕ) (Val := Elt F) spec0 c [cc0_scratch0, cc0_scratch1]

theorem PhiA0_eq (c : Dev nD) :
    (Pipeline.ΦA spec0 c : sProp 𝕄)
      = iprop(iprop(iprop((∃ d, owns c scM0_0 fullShare d) ∗ (∃ d, owns c scM0_1 fullShare d)) ∗ rest0 (F := F) c) ∗ (∃ r, prngReg c r)) := by
  unfold Pipeline.ΦA; rw [scopedRest0_split]; simp only [scM0_0, scM0_1, owns_whole]; try rfl

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def ptAt0 (c : Dev nD) (t : Fin cfg0.N) (a : Vec F S1x32 .f32 × Vec F S1x32 .f32) : Vec F S1x32 .f32 × Vec F S1x32 .f32 :=
  (pt0_s (iblk0 V c 0 t) (iblk0 V c 1 t) (iblk0 V c 2 t) (iblk0 V c 3 t) (iblk0 V c 4 t) (iblk0 V c 5 t) (iblk0 V c 6 t) a.1,
    pt0_q (iblk0 V c 0 t) (iblk0 V c 1 t) (iblk0 V c 2 t) (iblk0 V c 3 t) (iblk0 V c 4 t) (iblk0 V c 5 t) (iblk0 V c 6 t) a.2)

def sAt0 (c : Dev nD) : (n : ℕ) → n < cfg0.N → Vec F S1x32 .f32 × Vec F S1x32 .f32
  | 0, h => ptAt0 V c ⟨0, h⟩ (pt0_s0, pt0_q0)
  | n + 1, h => ptAt0 V c ⟨n + 1, h⟩ (sAt0 c n (Nat.lt_of_succ_lt h))

theorem sAt0_zero (c : Dev nD) (h : 0 < cfg0.N) :
    sAt0 V c 0 h = (pt0_s (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (iblk0 V c 6 ⟨0, h⟩) pt0_s0, pt0_q (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (iblk0 V c 6 ⟨0, h⟩) pt0_q0) := rfl

theorem sAt0_succ (c : Dev nD) (n : ℕ) (h : n + 1 < cfg0.N) :
    sAt0 V c (n + 1) h = (pt0_s (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (sAt0 V c n (Nat.lt_of_succ_lt h)).1,
      pt0_q (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (sAt0 V c n (Nat.lt_of_succ_lt h)).2) := rfl

def PhiS0 (c : Dev nD) : (n : ℕ) → n ≤ cfg0.N → sProp 𝕄
  | 0, _ => Pipeline.ΦA spec0 c
  | n + 1, hn => iprop(iprop(iprop(owns c scM0_0 fullShare (sAt0 V c n hn).1 ∗ owns c scM0_1 fullShare (sAt0 V c n hn).2) ∗ rest0 (F := F) c) ∗ (∃ r, prngReg c r))

theorem PhiS0_succ (c : Dev nD) (n : ℕ) (hn : n < cfg0.N) :
    PhiS0 V c (n + 1) hn = iprop(iprop(iprop(owns c scM0_0 fullShare (sAt0 V c n hn).1 ∗ owns c scM0_1 fullShare (sAt0 V c n hn).2) ∗ rest0 (F := F) c) ∗ (∃ r, prngReg c r)) := rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => pt0_h (iblk0 V c 0 t) (iblk0 V c 1 t) (iblk0 V c 2 t) (iblk0 V c 3 t) (iblk0 V c 4 t) (iblk0 V c 5 t) (iblk0 V c 6 t)
    | ⟨8, _⟩ => (sAt0 V c t.val t.isLt).1
    | ⟨9, _⟩ => (sAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem after0_7 (c : Dev nD) (t : Fin cfg0.N) : (dat0 V c).after 7 t = pt0_h (iblk0 V c 0 t) (iblk0 V c 1 t) (iblk0 V c 2 t) (iblk0 V c 3 t) (iblk0 V c 4 t) (iblk0 V c 5 t) (iblk0 V c 6 t) := rfl
theorem after0_8 (c : Dev nD) (t : Fin cfg0.N) : (dat0 V c).after 8 t = (sAt0 V c t.val t.isLt).1 := rfl
theorem after0_9 (c : Dev nD) (t : Fin cfg0.N) : (dat0 V c).after 9 t = (sAt0 V c t.val t.isLt).2 := rfl

theorem before0 (c : Dev nD) (t : Fin cfg0.N) : ∀ (w : Fin cfg0.W) (_ : w.val < 7) (d), (dat0 V c).before w t d = (dat0 V c).fetched w t d
  | ⟨0, _⟩, _, d | ⟨1, _⟩, _, d | ⟨2, _⟩, _, d | ⟨3, _⟩, _, d | ⟨4, _⟩, _, d | ⟨5, _⟩, _, d | ⟨6, _⟩, _, d =>
    (dat0 V c).before_in_eq_fetched _ rfl (fun _ => rfl) (fun _ _ _ => rfl) (fun _ => rfl) t d
  | ⟨n + 7, _⟩, h, _ => absurd h (Nat.not_lt.mpr (Nat.le_add_left 7 n))

set_option maxHeartbeats 4800000 in

theorem body_obligation0 (c : Dev nD) : BodyObligation (dat0 (F := F) V c) (defs₀ (F := F)) Variants.none () Set.univ := fun t => by
  rw [bigSep_W0, bigSep_W0]
  have hb := before0 V c t
  simp only [hb 0 (by decide), hb 1 (by decide), hb 2 (by decide), hb 3 (by decide), hb 4 (by decide), hb 5 (by decide), hb 6 (by decide)]
  change _ ⊢ wp _ _ _ (bodyAt0 t) _
  unfold bodyAt0
  rw [show (dat0 V c).Φ t.succ = _ from PhiS0_succ V c t.val t.isLt, show (dat0 V c).owesAt () t.succ = (dat0 V c).owesAt () t.castSucc from rfl]
  obtain ⟨n, hn⟩ := t
  cases n with
  | zero =>
    have hc1 : ¬cond0_1 (grid0.coords ⟨0, hn⟩) := fun h => absurd ((hcond0_1 _).mp h) (by decide : 0 ≠ 31)
    obtain ⟨⟨i7, f7⟩, i8, f8⟩ := idle0_89 _ hc1
    simp only [i7, f7, i8, f8]
    rw [show (dat0 V c).Φ (Fin.castSucc ⟨0, hn⟩) = _ from PhiA0_eq c]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (kernelRun0_A c Set.univ _ _ _ _ _ _ _ _ _ _ _ _ _ _ _ _ _ _ _ _ _ _ _ _ _ ((hcond0_0 ⟨0, hn⟩).mpr rfl) hc1 _ _ _ _ _ _ _ _)
    iframe
    isplitl [H7]; · iexists _; iexact H7
    iintro ⟨H0, H1, H2, H3, H4, H5, H6, H7, HS0, HS1⟩
    isplitl [HS0 HS1]
    · isplitl [HS0]; · iexact HS0
      iexact HS1
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  | succ n =>
    have hc0 : ¬cond0_0 (grid0.coords ⟨n + 1, hn⟩) := fun h => absurd ((hcond0_0 _).mp h) n.succ_ne_zero
    rw [show (dat0 V c).Φ (Fin.castSucc ⟨n + 1, hn⟩) = _ from PhiS0_succ V c n _]
    by_cases hc1 : cond0_1 (grid0.coords ⟨n + 1, hn⟩)
    · obtain ⟨l7, l8⟩ := live0_89 _ hc1
      simp only [l7, l8]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (kernelRun0_C c Set.univ _ _ _ _ _ _ _ _ _ _ _ _ _ _ _ _ _ _ _ _ _ _ _ _ _ hc0 hc1 _ _ _ _ _ _ _ _ _ _)
      iframe
      isplitl [H7]; · iexists _; iexact H7
      isplitl [H8]; · iexists _; iexact H8
      isplitl [H9]; · iexists _; iexact H9
      iintro ⟨H0, H1, H2, H3, H4, H5, H6, H7, H8, H9, HS0, HS1⟩
      isplitl [HS0 HS1]
      · isplitl [HS0]; · iexact HS0
        iexact HS1
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · obtain ⟨⟨i7, f7⟩, i8, f8⟩ := idle0_89 _ hc1
      simp only [i7, f7, i8, f8]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (kernelRun0_B c Set.univ _ _ _ _ _ _ _ _ _ _ _ _ _ _ _ _ _ _ _ _ _ _ _ _ _ hc0 hc1 _ _ _ _ _ _ _ _ _ _)
      iframe
      isplitl [H7]; · iexists _; iexact H7
      iintro ⟨H0, H1, H2, H3, H4, H5, H6, H7, HS0, HS1⟩
      isplitl [HS0 HS1]
      · isplitl [HS0]; · iexact HS0
        iexact HS1
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

theorem hin0 (c : Dev nD) : Pipeline.ΦA spec0 c ⊢ (dat0 V c).Φ 0 := Idealize.SL.BI.Entails.refl _

theorem hout0 (c : Dev nD) : (dat0 V c).Φ (Fin.last cfg0.N) ⊢ Pipeline.ΦA spec0 c := by
  rw [show (dat0 V c).Φ (Fin.last cfg0.N) = _ from PhiS0_succ V c 31 (by decide), PhiA0_eq]
  iintro ⟨⟨⟨HS0, HS1⟩, Hr⟩, Hg⟩
  iframe
  isplitl [HS0]
  · iexists _; iexact HS0
  iexists _; iexact HS1

end Region

end Cert.KernelIdeal.Fr

end
-- ==== Proof.KI.R1Pt.lean ====
import proofs.«421617_j66314295050867_4_alg».proof.Proof.Gen.KernelIdeal.Skeleton

noncomputable section

namespace Cert.KernelIdeal.Fr

open Idealize.ShloMosaic Idealize.SL.Sem Cert.KernelIdeal.Gen

variable {F : FTy → Type} [FloatOps F]

def pt1_m (h0 : Vec F S32x200x32 .f32) (mu var al : Vec F S1x32 .f32) (w : Vec F S32x16 .f32)
    (b : Vec F S1x16 .f32) : FVec F S6400x16 .f32 :=
  k1_pay5 h0 mu var al w b

def pt1_h (h0 : Vec F S32x200x32 .f32) (mu var al : Vec F S1x32 .f32) (w : Vec F S32x16 .f32)
    (b : Vec F S1x16 .f32) : FVec F S32x200x16 .f32 :=
  k1_pay6 h0 mu var al w b

def pt1_s (h0 : Vec F S32x200x32 .f32) (mu var al : Vec F S1x32 .f32) (w : Vec F S32x16 .f32)
    (b : Vec F S1x16 .f32) (acc : Vec F S1x16 .f32) : FVec F S1x16 .f32 :=
  k1_pay1 (k1_pay5 h0 mu var al w b) acc

def pt1_q (h0 : Vec F S32x200x32 .f32) (mu var al : Vec F S1x32 .f32) (w : Vec F S32x16 .f32)
    (b : Vec F S1x16 .f32) (acc : Vec F S1x16 .f32) : FVec F S1x16 .f32 :=
  k1_pay2 (k1_pay5 h0 mu var al w b) acc

def pt1_s0 : FVec F S1x16 .f32 := k1_pay3 (F := F)

def pt1_q0 : FVec F S1x16 .f32 := k1_pay4 (F := F)

end Cert.KernelIdeal.Fr
-- ==== Proof.KI.R1.Runs.lean ====
import proofs.«421617_j66314295050867_4_alg».proof.Proof.Gen.KernelIdeal.Launch
import proofs.«421617_j66314295050867_4_alg».proof.Proof.Gen.KernelIdeal.Skeleton
import proofs.«421617_j66314295050867_4_alg».proof.Proof.Gen.KernelIdeal.Points
import proofs.«421617_j66314295050867_4_alg».proof.Proof.KI.R1Pt
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1

theorem hcond1_1 : ∀ t : Fin cfg1.N, cond1_1 (grid1.coords t) ↔ t.val = 31 :=
  (by decide +kernel : ∀ t : Fin grid1.N, cond1_1 (grid1.coords t) ↔ t.val = 31)

theorem zeros2_1 : (![0, 0] : Fin 2 → Nat) = fun _ => 0 := funext fun a => by fin_cases a <;> rfl
theorem zeros3_1 : (![0, 0, 0] : Fin 3 → Nat) = fun _ => 0 := funext fun a => by fin_cases a <;> rfl

theorem readAt_unit_zero1 {Val : EltTy → Type} {sg : RefSig} {κ : Kind} {sp : Space} {S : Shape} {e : EltTy}
    (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld]; exact View.ld_unit_zero h inb _

theorem read_writes_cons_unit_zero1 {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

variable (c : Dev nD) (E : Set ℕ) (i : grid1.Coords) (arg1 : Memref sig .tc .vmem S32x200x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S32x16 .f32) (harg5 : arg5.IsWhole) (arg6 : Memref sig .tc .vmem S1x16 .f32) (harg6 : arg6.IsWhole) (arg7 : Memref sig .tc .vmem S32x200x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S1x16 .f32) (harg11 : arg11.IsWhole)

set_option maxHeartbeats 4000000 in

theorem run1_A
    (hc0 : cond1_0 i) (hc1 : ¬cond1_1 i) (x0 : Vec F S32x200x32 .f32) (x1 x2 x3 : Vec F S1x32 .f32) (x4 : Vec F S32x16 .f32) (x5 : Vec F S1x16 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare x5
        ∗ (∃ d, owns c arg7 fullShare d)
        ∗ (∃ d, owns c arg10 fullShare d) ∗ (∃ d, owns c arg11 fullShare d)
        ∗ (iprop(owns c arg1 fullShare x0 ∗ owns c arg2 fullShare x1 ∗ owns c arg3 fullShare x2
        ∗ owns c arg4 fullShare x3 ∗ owns c arg5 fullShare x4 ∗ owns c arg6 fullShare x5
            ∗ owns c arg7 fullShare (pt1_h x0 x1 x2 x3 x4 x5)
            ∗ owns c arg10 fullShare (pt1_s x0 x1 x2 x3 x4 x5 pt1_s0)
            ∗ owns c arg11 fullShare (pt1_q x0 x1 x2 x3 x4 x5 pt1_q0)) -∗ K ⟨⟩))
      ⊢ wp frame (wpE (defs₀ (F := F)) Variants.none c none) E (cc1__dice_h1_kernel i arg1 harg1 arg2 harg2 arg3 harg3 arg4 harg4 arg5 harg5 arg6 harg6 arg7 harg7 arg8 harg8 arg9 harg9 arg10 harg10 arg11 harg11) K := by
  simp only [cc1__dice_h1_kernel_eq_skeleton]; unfold cc1__dice_h1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%e0, %g0, -, HS0⟩, ⟨%e1, %g1, -, HS1⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]; iexists _; isplitr; swap; iexact H6; rotate_left
  isplitl [HS0]; iexists _; isplitr; swap; iexact HS0; rotate_left
  iexists _; isplitr; swap; iexact HS1
  all_goals
    ipureintro
    first | rw [read_writes_cons_unit_zero1 (S := S32x200x16) _ _ zeros3_1] | rw [read_writes_cons_unit_zero1 (S := S1x16) _ _ zeros2_1]
    try unfold run1_A.sl.v41 run1_A.sl.HS0_1
    try unfold run1_A.sl.v48 run1_A.sl.HS1_1
    simp only [readAt_unit_zero1 (S := S32x200x32) _ _ zeros3_1, readAt_unit_zero1 (S := S1x32) _ _ zeros2_1, readAt_unit_zero1 (S := S32x16) _ _ zeros2_1, readAt_unit_zero1 (S := S1x16) _ _ zeros2_1, View.readCov_unit_zero (S := S1x16) _ zeros2_1] <;> rfl

set_option maxHeartbeats 4000000 in

theorem run1_B
    (hc0 : ¬cond1_0 i) (hc1 : ¬cond1_1 i) (x0 : Vec F S32x200x32 .f32) (x1 x2 x3 : Vec F S1x32 .f32) (x4 : Vec F S32x16 .f32) (x5 : Vec F S1x16 .f32)
    (a0 a1 : Vec F S1x16 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare x5
        ∗ (∃ d, owns c arg7 fullShare d)
        ∗ owns c arg10 fullShare a0 ∗ owns c arg11 fullShare a1
        ∗ (iprop(owns c arg1 fullShare x0 ∗ owns c arg2 fullShare x1 ∗ owns c arg3 fullShare x2
        ∗ owns c arg4 fullShare x3 ∗ owns c arg5 fullShare x4 ∗ owns c arg6 fullShare x5
            ∗ owns c arg7 fullShare (pt1_h x0 x1 x2 x3 x4 x5)
            ∗ owns c arg10 fullShare (pt1_s x0 x1 x2 x3 x4 x5 a0)
            ∗ owns c arg11 fullShare (pt1_q x0 x1 x2 x3 x4 x5 a1)) -∗ K ⟨⟩))
      ⊢ wp frame (wpE (defs₀ (F := F)) Variants.none c none) E (cc1__dice_h1_kernel i arg1 harg1 arg2 harg2 arg3 harg3 arg4 harg4 arg5 harg5 arg6 harg6 arg7 harg7 arg8 harg8 arg9 harg9 arg10 harg10 arg11 harg11) K := by
  simp only [cc1__dice_h1_kernel_eq_skeleton]; unfold cc1__dice_h1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%g0, %hg0, HS0⟩, ⟨%g1, %hg1, HS1⟩, Hk⟩
  subst hf0 hf1 hf2 hf3 hf4 hf5 hg0 hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]; iexists _; isplitr; swap; iexact H6; rotate_left
  isplitl [HS0]; iexists _; isplitr; swap; iexact HS0; rotate_left
  iexists _; isplitr; swap; iexact HS1
  all_goals
    ipureintro
    first | rw [read_writes_cons_unit_zero1 (S := S32x200x16) _ _ zeros3_1] | rw [read_writes_cons_unit_zero1 (S := S1x16) _ _ zeros2_1]
    simp only [readAt_unit_zero1 (S := S32x200x32) _ _ zeros3_1, readAt_unit_zero1 (S := S1x32) _ _ zeros2_1, readAt_unit_zero1 (S := S32x16) _ _ zeros2_1, readAt_unit_zero1 (S := S1x16) _ _ zeros2_1, View.readCov_unit_zero (S := S1x16) _ zeros2_1] <;> rfl

set_option maxHeartbeats 4000000 in

theorem run1_C
    (hc0 : ¬cond1_0 i) (hc1 : cond1_1 i) (x0 : Vec F S32x200x32 .f32) (x1 x2 x3 : Vec F S1x32 .f32) (x4 : Vec F S32x16 .f32) (x5 : Vec F S1x16 .f32)
    (a0 a1 : Vec F S1x16 .f32) (K : PUnit → sProp 𝕄) :
    iprop(owns c arg1 fullShare x0 ∗ owns c arg2 fullShare x1 ∗ owns c arg3 fullShare x2
        ∗ owns c arg4 fullShare x3 ∗ owns c arg5 fullShare x4 ∗ owns c arg6 fullShare x5
        ∗ (∃ d, owns c arg7 fullShare d) ∗ (∃ d, owns c arg8 fullShare d) ∗ (∃ d, owns c arg9 fullShare d)
        ∗ owns c arg10 fullShare a0 ∗ owns c arg11 fullShare a1
        ∗ (iprop(owns c arg1 fullShare x0 ∗ owns c arg2 fullShare x1 ∗ owns c arg3 fullShare x2
        ∗ owns c arg4 fullShare x3 ∗ owns c arg5 fullShare x4 ∗ owns c arg6 fullShare x5
            ∗ owns c arg7 fullShare (pt1_h x0 x1 x2 x3 x4 x5)
            ∗ owns c arg8 fullShare (pt1_s x0 x1 x2 x3 x4 x5 a0)
            ∗ owns c arg9 fullShare (pt1_q x0 x1 x2 x3 x4 x5 a1)
            ∗ owns c arg10 fullShare (pt1_s x0 x1 x2 x3 x4 x5 a0)
            ∗ owns c arg11 fullShare (pt1_q x0 x1 x2 x3 x4 x5 a1)) -∗ K ⟨⟩))
      ⊢ wp frame (wpE (defs₀ (F := F)) Variants.none c none) E (cc1__dice_h1_kernel i arg1 harg1 arg2 harg2 arg3 harg3 arg4 harg4 arg5 harg5 arg6 harg6 arg7 harg7 arg8 harg8 arg9 harg9 arg10 harg10 arg11 harg11) K := by
  simp only [cc1__dice_h1_kernel_eq_skeleton]; unfold cc1__dice_h1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%g0, %hg0, HS0⟩, ⟨%g1, %hg1, HS1⟩, Hk⟩
  subst hf0 hf1 hf2 hf3 hf4 hf5 hg0 hg1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]; iexists _; isplitr; swap; iexact H6; rotate_left
  isplitl [H7]; iexists _; isplitr; swap; iexact H7; rotate_left
  isplitl [H8]; iexists _; isplitr; swap; iexact H8; rotate_left
  isplitl [HS0]; iexists _; isplitr; swap; iexact HS0; rotate_left
  iexists _; isplitr; swap; iexact HS1
  all_goals
    ipureintro
    try unfold run1_C.sl.HS0_1
    try unfold run1_C.sl.HS1_1
    first | rw [read_writes_cons_unit_zero1 (S := S32x200x16) _ _ zeros3_1] | rw [read_writes_cons_unit_zero1 (S := S1x16) _ _ zeros2_1]
    try unfold run1_C.sl.v59 run1_C.sl.HS0_1
    try unfold run1_C.sl.v61 run1_C.sl.HS1_1
    simp only [readAt_unit_zero1 (S := S32x200x32) _ _ zeros3_1, readAt_unit_zero1 (S := S1x32) _ _ zeros2_1, readAt_unit_zero1 (S := S32x16) _ _ zeros2_1, readAt_unit_zero1 (S := S1x16) _ _ zeros2_1, View.readCov_unit_zero (S := S1x16) _ zeros2_1] <;> rfl

end Cert.KernelIdeal.Fr

end
-- ==== Proof.KI.R1.lean ====
import proofs.«421617_j66314295050867_4_alg».proof.Proof.KI.R1.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem idle1_78 : ∀ t : Fin cfg1.N, ¬cond1_1 (grid1.coords t) →
    (idle1 7 (grid1.coords t) = true ∧ (win1 7).flush t = false) ∧ idle1 8 (grid1.coords t) = true ∧ (win1 8).flush t = false := by decide +kernel
theorem live1_78 : ∀ t : Fin cfg1.N, cond1_1 (grid1.coords t) → idle1 7 (grid1.coords t) = false ∧ idle1 8 (grid1.coords t) = false := by decide +kernel

abbrev scM1_0 : Memref sig .tc .vmem S1x16 .f32 := Memref.whole cc1_scratch0
abbrev scM1_1 : Memref sig .tc .vmem S1x16 .f32 := Memref.whole cc1_scratch1

abbrev rest1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns c scM1_0 fullShare d) ∗ (∃ d, owns c scM1_1 fullShare d)) ∗ rest1 (F := F) c) ∗ (∃ r, prngReg c r)) := by
  unfold Pipeline.ΦA; rw [scopedRest1_split]; simp only [scM1_0, scM1_1, owns_whole]; try rfl

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def ptAt1 (c : Dev nD) (t : Fin cfg1.N) (a : Vec F S1x16 .f32 × Vec F S1x16 .f32) : Vec F S1x16 .f32 × Vec F S1x16 .f32 :=
  (pt1_s (iblk1 V c 0 t) (iblk1 V c 1 t) (iblk1 V c 2 t) (iblk1 V c 3 t) (iblk1 V c 4 t) (iblk1 V c 5 t) a.1,
    pt1_q (iblk1 V c 0 t) (iblk1 V c 1 t) (iblk1 V c 2 t) (iblk1 V c 3 t) (iblk1 V c 4 t) (iblk1 V c 5 t) a.2)

def sAt1 (c : Dev nD) : (n : ℕ) → n < cfg1.N → Vec F S1x16 .f32 × Vec F S1x16 .f32
  | 0, h => ptAt1 V c ⟨0, h⟩ (pt1_s0, pt1_q0)
  | n + 1, h => ptAt1 V c ⟨n + 1, h⟩ (sAt1 c n (Nat.lt_of_succ_lt h))

theorem sAt1_zero (c : Dev nD) (h : 0 < cfg1.N) :
    sAt1 V c 0 h = (pt1_s (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) pt1_s0, pt1_q (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) pt1_q0) := rfl

theorem sAt1_succ (c : Dev nD) (n : ℕ) (h : n + 1 < cfg1.N) :
    sAt1 V c (n + 1) h = (pt1_s (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (sAt1 V c n (Nat.lt_of_succ_lt h)).1,
      pt1_q (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (sAt1 V c n (Nat.lt_of_succ_lt h)).2) := rfl

def PhiS1 (c : Dev nD) : (n : ℕ) → n ≤ cfg1.N → sProp 𝕄
  | 0, _ => Pipeline.ΦA spec1 c
  | n + 1, hn => iprop(iprop(iprop(owns c scM1_0 fullShare (sAt1 V c n hn).1 ∗ owns c scM1_1 fullShare (sAt1 V c n hn).2) ∗ rest1 (F := F) c) ∗ (∃ r, prngReg c r))

theorem PhiS1_succ (c : Dev nD) (n : ℕ) (hn : n < cfg1.N) :
    PhiS1 V c (n + 1) hn = iprop(iprop(iprop(owns c scM1_0 fullShare (sAt1 V c n hn).1 ∗ owns c scM1_1 fullShare (sAt1 V c n hn).2) ∗ rest1 (F := F) c) ∗ (∃ r, prngReg c r)) := rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => pt1_h (iblk1 V c 0 t) (iblk1 V c 1 t) (iblk1 V c 2 t) (iblk1 V c 3 t) (iblk1 V c 4 t) (iblk1 V c 5 t)
    | ⟨7, _⟩ => (sAt1 V c t.val t.isLt).1
    | ⟨8, _⟩ => (sAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_6 (c : Dev nD) (t : Fin cfg1.N) : (dat1 V c).after 6 t = pt1_h (iblk1 V c 0 t) (iblk1 V c 1 t) (iblk1 V c 2 t) (iblk1 V c 3 t) (iblk1 V c 4 t) (iblk1 V c 5 t) := rfl
theorem after1_7 (c : Dev nD) (t : Fin cfg1.N) : (dat1 V c).after 7 t = (sAt1 V c t.val t.isLt).1 := rfl
theorem after1_8 (c : Dev nD) (t : Fin cfg1.N) : (dat1 V c).after 8 t = (sAt1 V c t.val t.isLt).2 := rfl

theorem before1 (c : Dev nD) (t : Fin cfg1.N) : ∀ (w : Fin cfg1.W) (_ : w.val < 6) (d), (dat1 V c).before w t d = (dat1 V c).fetched w t d
  | ⟨0, _⟩, _, d | ⟨1, _⟩, _, d | ⟨2, _⟩, _, d | ⟨3, _⟩, _, d | ⟨4, _⟩, _, d | ⟨5, _⟩, _, d =>
    (dat1 V c).before_in_eq_fetched _ rfl (fun _ => rfl) (fun _ _ _ => rfl) (fun _ => rfl) t d
  | ⟨n + 6, _⟩, h, _ => absurd h (Nat.not_lt.mpr (Nat.le_add_left 6 n))

set_option maxHeartbeats 4800000 in

theorem body_obligation1 (c : Dev nD) : BodyObligation (dat1 (F := F) V c) (defs₀ (F := F)) Variants.none () Set.univ := fun t => by
  rw [bigSep_W1, bigSep_W1]
  have hb := before1 V c t
  simp only [hb 0 (by decide), hb 1 (by decide), hb 2 (by decide), hb 3 (by decide), hb 4 (by decide), hb 5 (by decide)]
  change _ ⊢ wp _ _ _ (bodyAt1 t) _
  unfold bodyAt1
  rw [show (dat1 V c).Φ t.succ = _ from PhiS1_succ V c t.val t.isLt, show (dat1 V c).owesAt () t.succ = (dat1 V c).owesAt () t.castSucc from rfl]
  obtain ⟨n, hn⟩ := t
  cases n with
  | zero =>
    have hc1 : ¬cond1_1 (grid1.coords ⟨0, hn⟩) := fun h => absurd ((hcond1_1 _).mp h) (by decide : 0 ≠ 31)
    obtain ⟨⟨i7, f7⟩, i8, f8⟩ := idle1_78 _ hc1
    simp only [i7, f7, i8, f8]
    rw [show (dat1 V c).Φ (Fin.castSucc ⟨0, hn⟩) = _ from PhiA1_eq c]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, H7, H8⟩
    iapply (run1_A c Set.univ _ _ _ _ _ _ _ _ _ _ _ _ _ _ _ _ _ _ _ _ _ _ _ ((hcond1_0 ⟨0, hn⟩).mpr rfl) hc1 _ _ _ _ _ _ _)
    iframe
    isplitl [H6]; · iexists _; iexact H6
    iintro ⟨H0, H1, H2, H3, H4, H5, H6, HS0, HS1⟩
    isplitl [HS0 HS1]
    · isplitl [HS0]; · iexact HS0
      iexact HS1
    isplitl [H0]; · iexact H0
    isplitl [H1]; · iexact H1
    isplitl [H2]; · iexact H2
    isplitl [H3]; · iexact H3
    isplitl [H4]; · iexact H4
    isplitl [H5]; · iexact H5
    iexact H6
  | succ n =>
    have hc0 : ¬cond1_0 (grid1.coords ⟨n + 1, hn⟩) := fun h => absurd ((hcond1_0 _).mp h) n.succ_ne_zero
    rw [show (dat1 V c).Φ (Fin.castSucc ⟨n + 1, hn⟩) = _ from PhiS1_succ V c n _]
    by_cases hc1 : cond1_1 (grid1.coords ⟨n + 1, hn⟩)
    · obtain ⟨l7, l8⟩ := live1_78 _ hc1
      simp only [l7, l8]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run1_C c Set.univ _ _ _ _ _ _ _ _ _ _ _ _ _ _ _ _ _ _ _ _ _ _ _ hc0 hc1 _ _ _ _ _ _ _ _ _)
      iframe
      isplitl [H6]; · iexists _; iexact H6
      isplitl [H7]; · iexists _; iexact H7
      isplitl [H8]; · iexists _; iexact H8
      iintro ⟨H0, H1, H2, H3, H4, H5, H6, H7, H8, HS0, HS1⟩
      isplitl [HS0 HS1]
      · isplitl [HS0]; · iexact HS0
        iexact HS1
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · obtain ⟨⟨i7, f7⟩, i8, f8⟩ := idle1_78 _ hc1
      simp only [i7, f7, i8, f8]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, H7, H8⟩
      iapply (run1_B c Set.univ _ _ _ _ _ _ _ _ _ _ _ _ _ _ _ _ _ _ _ _ _ _ _ hc0 hc1 _ _ _ _ _ _ _ _ _)
      iframe
      isplitl [H6]; · iexists _; iexact H6
      iintro ⟨H0, H1, H2, H3, H4, H5, H6, HS0, HS1⟩
      isplitl [HS0 HS1]
      · isplitl [HS0]; · iexact HS0
        iexact HS1
      isplitl [H0]; · iexact H0
      isplitl [H1]; · iexact H1
      isplitl [H2]; · iexact H2
      isplitl [H3]; · iexact H3
      isplitl [H4]; · iexact H4
      isplitl [H5]; · iexact H5
      iexact H6

theorem hin1 (c : Dev nD) : Pipeline.ΦA spec1 c ⊢ (dat1 V c).Φ 0 := Idealize.SL.BI.Entails.refl _

theorem hout1 (c : Dev nD) : (dat1 V c).Φ (Fin.last cfg1.N) ⊢ Pipeline.ΦA spec1 c := by
  rw [show (dat1 V c).Φ (Fin.last cfg1.N) = _ from PhiS1_succ V c 31 (by decide), PhiA1_eq]
  iintro ⟨⟨⟨HS0, HS1⟩, Hr⟩, Hg⟩
  iframe
  isplitl [HS0]
  · iexists _; iexact HS0
  iexists _; iexact HS1

end Region

end Cert.KernelIdeal.Fr

end
-- ==== Proof.KI.R2Pt.lean ====
import proofs.«421617_j66314295050867_4_alg».proof.Proof.Gen.KernelIdeal.Skeleton

noncomputable section

namespace Cert.KernelIdeal.Fr

open Idealize.ShloMosaic Idealize.SL.Sem Cert.KernelIdeal.Gen

variable {F : FTy → Type} [FloatOps F]

def pt2_score (h1 : Vec F S32x200x16 .f32) (mu var al : Vec F S1x16 .f32) (w : Vec F S16x1 .f32)
    (b : Vec F S1x1 .f32) : FVec F S32x200x1 .f32 :=
  k2_pay2 h1 mu var al w b

def pt2_mask (hist : Vec F S32x200 .i32) : IVec S32x200 1 :=
  k2_pay3 (F := F) hist

def pt2 (h1 : Vec F S32x200x16 .f32) (mu var al : Vec F S1x16 .f32) (w : Vec F S16x1 .f32)
    (b : Vec F S1x1 .f32) (im cm : Vec F S32x200x64 .f32) (hist : Vec F S32x200 .i32) :
    FVec F S32x128 .f32 :=
  k2_pay1 (k2_pay2 h1 mu var al w b) (k2_pay3 (F := F) hist) im cm

theorem pt2_eq (h1 : Vec F S32x200x16 .f32) (mu var al : Vec F S1x16 .f32) (w : Vec F S16x1 .f32)
    (b : Vec F S1x1 .f32) (im cm : Vec F S32x200x64 .f32) (hist : Vec F S32x200 .i32) :
    pt2 h1 mu var al w b im cm hist = k2_pay1 (pt2_score h1 mu var al w b) (pt2_mask hist) im cm := rfl

end Cert.KernelIdeal.Fr
-- ==== Proof.KI.R2.lean ====
import proofs.«421617_j66314295050867_4_alg».proof.Proof.Gen.KernelIdeal.Launch
import proofs.«421617_j66314295050867_4_alg».proof.Proof.Gen.KernelIdeal.Skeleton
import proofs.«421617_j66314295050867_4_alg».proof.Proof.Gen.KernelIdeal.Points
import proofs.«421617_j66314295050867_4_alg».proof.Proof.KI.R2Pt
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

theorem zero2 : (![0, 0] : Fin 2 → Nat) = fun _ => 0 := funext fun a => by fin_cases a <;> rfl
theorem zero3 : (![0, 0, 0] : Fin 3 → Nat) = fun _ => 0 := funext fun a => by fin_cases a <;> rfl

set_option maxHeartbeats 4000000 in

theorem sound_kernel2 (c : Dev nD) (E : Set ℕ) (i : grid2.Coords) (arg1 : Memref sig .tc .vmem S32x200x16 .f32) (harg1 : arg1.IsWhole) (arg2 : Memref sig .tc .vmem S1x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S16x1 .f32) (harg5 : arg5.IsWhole) (arg6 : Memref sig .tc .vmem S1x1 .f32) (harg6 : arg6.IsWhole) (arg7 : Memref sig .tc .vmem S32x200x64 .f32) (harg7 : arg7.IsWhole) (arg8 : Memref sig .tc .vmem S32x200x64 .f32) (harg8 : arg8.IsWhole) (arg9 : Memref sig .tc .vmem S32x200 .i32) (harg9 : arg9.IsWhole) (arg10 : Memref sig .tc .vmem S32x128 .f32) (harg10 : arg10.IsWhole)
    (x0 : Vec F S32x200x16 .f32) (x1 x2 x3 : Vec F S1x16 .f32) (x4 : Vec F S16x1 .f32) (x5 : Vec F S1x1 .f32) (x6 x7 : Vec F S32x200x64 .f32) (x8 : Vec F S32x200 .i32) (K : PUnit → sProp 𝕄) :
    iprop((∃ d, owns (c : Thread nD τ) arg10 fullShare d) ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (iprop(owns (c : Thread nD τ) arg10 fullShare (pt2 x0 x1 x2 x3 x4 x5 x6 x7 x8) ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8) -∗ K ⟨⟩))
      ⊢ wp frame (wpE (defs₀ (F := F)) Variants.none c none) E (cc2__score_pool_kernel i arg1 harg1 arg2 harg2 arg3 harg3 arg4 harg4 arg5 harg5 arg6 harg6 arg7 harg7 arg8 harg8 arg9 harg9 arg10 harg10) K := by
  simp only [cc2__score_pool_kernel_eq_skeleton]; unfold cc2__score_pool_kernel_skel
  simp only [k2_part1_eq_skeleton]; unfold k2_part1_skel
  unfold owns
  iintro ⟨⟨%d9, %f9, -, H9⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec
  sl_step
  iapply Hk
  isplitl [H9]
  · iexists _; isplitr
    swap; · iexact H9
    ipureintro
    refine (View.read_writes_eq_canon _ _ _ fun y => ⟨_, List.mem_singleton_self _, View.mem_set_unit_zero (S := S32x128) zero2 inb_S32x128_S32x128_0_0 y⟩).trans
      ((View.canon_unit_zero (S := S32x128) zero2 _ _).trans ?_)
    simp only [View.readAt_eq_ld, View.ld_unit_zero (S := S32x200x16) zero3, View.ld_unit_zero (S := S1x16) zero2,
      View.ld_unit_zero (S := S16x1) zero2, View.ld_unit_zero (S := S1x1) zero2,
      View.ld_unit_zero (S := S32x200x64) zero3, View.ld_unit_zero (S := S32x200) zero2]
    rfl
  sl_close

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => pt2 (iblk2 V c 0 t) (iblk2 V c 1 t) (iblk2 V c 2 t) (iblk2 V c 3 t) (iblk2 V c 4 t)
        (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_9 (c : Dev nD) (t : Fin cfg2.N) :
    (dat2 V c).after 9 t = pt2 (iblk2 V c 0 t) (iblk2 V c 1 t) (iblk2 V c 2 t) (iblk2 V c 3 t) (iblk2 V c 4 t)
      (iblk2 V c 5 t) (iblk2 V c 6 t) (iblk2 V c 7 t) (iblk2 V c 8 t) := by dsimp only [dat2]

theorem before2 (c : Dev nD) (t : Fin cfg2.N) (w : Fin cfg2.W) (hw : (cfg2.win w).isOut = false) (d) :
    (dat2 V c).before w t d = (dat2 V c).after w t := by
  fin_cases w <;> first
    | exact (dat2 V c).before_in_eq_fetched _ rfl (fun _ => rfl) (fun _ _ _ => rfl) (fun _ => rfl) t d
    | cases hw

set_option maxHeartbeats 1000000 in

theorem body_obligation2 (c : Dev nD) :
    BodyObligation (dat2 (F := F) V c) (defs₀ (F := F)) Variants.none () Set.univ := fun t => by
  rw [bigSep_W2, bigSep_W2]
  dsimp only
  simp (disch := exact rfl) only [before2]
  rw [show (dat2 V c).Φ t.succ = (dat2 V c).Φ t.castSucc from rfl, show (dat2 V c).owesAt () t.succ = (dat2 V c).owesAt () t.castSucc from rfl,
    show (dat2 V c).after 9 t = pt2 ((dat2 V c).after 0 t) ((dat2 V c).after 1 t) ((dat2 V c).after 2 t) ((dat2 V c).after 3 t) ((dat2 V c).after 4 t) ((dat2 V c).after 5 t) ((dat2 V c).after 6 t) ((dat2 V c).after 7 t) ((dat2 V c).after 8 t) from by dsimp only [dat2]]
  show _ ⊢ wp _ _ _ (bodyAt2 t) _
  unfold bodyAt2
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ _ _ _ _ _ _ _ _ _ _)
  iframe
  isplitl [H9]; · iexists _; iexact H9
  iintro ⟨H9, H0, H1, H2, H3, H4, H5, H6, H7, H8⟩
  iframe

theorem hin2 (c : Dev nD) : Pipeline.ΦA spec2 c ⊢ ((dat2 V c).Φ 0 : sProp 𝕄) := .rfl

theorem hout2 (c : Dev nD) : (dat2 V c).Φ (Fin.last cfg2.N) ⊢ (Pipeline.ΦA spec2 c : sProp 𝕄) := .rfl

end Cert.KernelIdeal.Fr
-- ==== Proof.KI.R3Pt.lean ====
import proofs.«421617_j66314295050867_4_alg».proof.Proof.Gen.KernelIdeal.Skeleton

noncomputable section

namespace Cert.KernelIdeal.Fr

open Idealize.ShloMosaic Idealize.SL.Sem
open Cert.KernelIdeal Cert.KernelIdeal.Gen

variable {F : FTy → Type} [FloatOps F]

def pt3_col (interest : Vec F S1024x128 .f32) (ti tc : Vec F S1024x64 .f32)
    (w1 : Vec F S256x128 .f32) (b1 : Vec F S1x128 .f32) (w2 : Vec F S128x64 .f32)
    (b2 : Vec F S1x64 .f32) (w3 : Vec F S64x1 .f32) : FVec F S1024x1 .f32 :=
  k3_pay4 interest ti tc w1 b1 w2 b2 w3

def pt3_logit (interest : Vec F S1024x128 .f32) (ti tc : Vec F S1024x64 .f32)
    (w1 : Vec F S256x128 .f32) (b1 : Vec F S1x128 .f32) (w2 : Vec F S128x64 .f32)
    (b2 : Vec F S1x64 .f32) (w3 : Vec F S64x1 .f32) (b3 : Vec F S1x1 .f32) : FVec F S1024 .f32 :=
  k3_pay1 (pt3_col interest ti tc w1 b1 w2 b2 w3) (k3_pay5 b3)

def pt3_pred (interest : Vec F S1024x128 .f32) (ti tc : Vec F S1024x64 .f32)
    (w1 : Vec F S256x128 .f32) (b1 : Vec F S1x128 .f32) (w2 : Vec F S128x64 .f32)
    (b2 : Vec F S1x64 .f32) (w3 : Vec F S64x1 .f32) (b3 : Vec F S1x1 .f32) : FVec F S1024 .f32 :=
  k3_pay3 (pt3_col interest ti tc w1 b1 w2 b2 w3) (k3_pay5 b3)

def pt3_loss (interest : Vec F S1024x128 .f32) (ti tc : Vec F S1024x64 .f32)
    (w1 : Vec F S256x128 .f32) (b1 : Vec F S1x128 .f32) (w2 : Vec F S128x64 .f32)
    (b2 : Vec F S1x64 .f32) (w3 : Vec F S64x1 .f32) (b3 : Vec F S1x1 .f32)
    (label : Vec F S1024 .i32) : FVec F S1x1 .f32 :=
  k3_pay2 (pt3_col interest ti tc w1 b1 w2 b2 w3) (k3_pay5 b3) label

end Cert.KernelIdeal.Fr

end
-- ==== Proof.KI.R3.lean ====
import proofs.«421617_j66314295050867_4_alg».proof.Proof.Gen.KernelIdeal.Launch
import proofs.«421617_j66314295050867_4_alg».proof.Proof.Gen.KernelIdeal.Skeleton
import proofs.«421617_j66314295050867_4_alg».proof.Proof.Gen.KernelIdeal.Points
import proofs.«421617_j66314295050867_4_alg».proof.Proof.KI.R3Pt
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem hz1 : (![0] : Fin 1 → Nat) = fun _ => 0 := funext fun a => by fin_cases a; rfl
private theorem hz2 : (![0, 0] : Fin 2 → Nat) = fun _ => 0 := funext fun a => by fin_cases a <;> rfl

abbrev r3_i : Rect S1024x128 := Rect.unit (s := S1024x128) ![0, 0] S1024x128.size inb_S1024x128_S1024x128_0_0
abbrev r3_e : Rect S1024x64 := Rect.unit (s := S1024x64) ![0, 0] S1024x64.size inb_S1024x64_S1024x64_0_0
abbrev r3_l : Rect S1024 := Rect.unit (s := S1024) ![0] S1024.size inb_S1024_S1024_0
abbrev r3_w1 : Rect S256x128 := Rect.unit (s := S256x128) ![0, 0] S256x128.size inb_S256x128_S256x128_0_0
abbrev r3_b1 : Rect S1x128 := Rect.unit (s := S1x128) ![0, 0] S1x128.size inb_S1x128_S1x128_0_0
abbrev r3_w2 : Rect S128x64 := Rect.unit (s := S128x64) ![0, 0] S128x64.size inb_S128x64_S128x64_0_0
abbrev r3_b2 : Rect S1x64 := Rect.unit (s := S1x64) ![0, 0] S1x64.size inb_S1x64_S1x64_0_0
abbrev r3_w3 : Rect S64x1 := Rect.unit (s := S64x1) ![0, 0] S64x1.size inb_S64x1_S64x1_0_0
abbrev r3_s : Rect S1x1 := Rect.unit (s := S1x1) ![0, 0] S1x1.size inb_S1x1_S1x1_0_0

def out3_10 (x0 : Vec F S1024x128 .f32) (x1 x2 : Vec F S1024x64 .f32) (x4 : Vec F S256x128 .f32) (x5 : Vec F S1x128 .f32)
    (x6 : Vec F S128x64 .f32) (x7 : Vec F S1x64 .f32) (x8 : Vec F S64x1 .f32) (x9 : Vec F S1x1 .f32) : Vec F S1024 .f32 :=
  View.canon [⟨r3_l, k3_pay3 (k3_pay4 (View.ld x0 r3_i) (View.ld x1 r3_e) (View.ld x2 r3_e) (View.ld x4 r3_w1) (View.ld x5 r3_b1)
    (View.ld x6 r3_w2) (View.ld x7 r3_b2) (View.ld x8 r3_w3)) (k3_pay5 (View.ld x9 r3_s))⟩]

def out3_11 (x0 : Vec F S1024x128 .f32) (x1 x2 : Vec F S1024x64 .f32) (x3 : Vec F S1024 .i32) (x4 : Vec F S256x128 .f32) (x5 : Vec F S1x128 .f32)
    (x6 : Vec F S128x64 .f32) (x7 : Vec F S1x64 .f32) (x8 : Vec F S64x1 .f32) (x9 : Vec F S1x1 .f32) : Vec F S1x1 .f32 :=
  View.canon [⟨r3_s, k3_pay2 (k3_pay4 (View.ld x0 r3_i) (View.ld x1 r3_e) (View.ld x2 r3_e) (View.ld x4 r3_w1) (View.ld x5 r3_b1)
    (View.ld x6 r3_w2) (View.ld x7 r3_b2) (View.ld x8 r3_w3)) (k3_pay5 (View.ld x9 r3_s)) (View.ld x3 r3_l)⟩]

theorem out3_10_eq (x0 : Vec F S1024x128 .f32) (x1 x2 : Vec F S1024x64 .f32) (x4 : Vec F S256x128 .f32) (x5 : Vec F S1x128 .f32)
    (x6 : Vec F S128x64 .f32) (x7 : Vec F S1x64 .f32) (x8 : Vec F S64x1 .f32) (x9 : Vec F S1x1 .f32) :
    out3_10 x0 x1 x2 x4 x5 x6 x7 x8 x9 = pt3_pred x0 x1 x2 x4 x5 x6 x7 x8 x9 := by
  unfold out3_10 pt3_pred pt3_col
  rw [View.canon_unit_zero (S := S1024) hz1, View.ld_unit_zero (S := S1024x128) hz2, View.ld_unit_zero (S := S1024x64) hz2,
    View.ld_unit_zero (S := S1024x64) hz2, View.ld_unit_zero (S := S256x128) hz2, View.ld_unit_zero (S := S1x128) hz2,
    View.ld_unit_zero (S := S128x64) hz2, View.ld_unit_zero (S := S1x64) hz2, View.ld_unit_zero (S := S64x1) hz2,
    View.ld_unit_zero (S := S1x1) hz2]

theorem out3_11_eq (x0 : Vec F S1024x128 .f32) (x1 x2 : Vec F S1024x64 .f32) (x3 : Vec F S1024 .i32) (x4 : Vec F S256x128 .f32) (x5 : Vec F S1x128 .f32)
    (x6 : Vec F S128x64 .f32) (x7 : Vec F S1x64 .f32) (x8 : Vec F S64x1 .f32) (x9 : Vec F S1x1 .f32) :
    out3_11 x0 x1 x2 x3 x4 x5 x6 x7 x8 x9 = pt3_loss x0 x1 x2 x4 x5 x6 x7 x8 x9 x3 := by
  unfold out3_11 pt3_loss pt3_col
  rw [View.canon_unit_zero (S := S1x1) hz2, View.ld_unit_zero (S := S1024x128) hz2, View.ld_unit_zero (S := S1024x64) hz2,
    View.ld_unit_zero (S := S1024x64) hz2, View.ld_unit_zero (S := S256x128) hz2, View.ld_unit_zero (S := S1x128) hz2,
    View.ld_unit_zero (S := S128x64) hz2, View.ld_unit_zero (S := S1x64) hz2, View.ld_unit_zero (S := S64x1) hz2,
    View.ld_unit_zero (S := S1x1) hz2, View.ld_unit_zero (S := S1024) hz1]

set_option maxHeartbeats 4000000 in

theorem sound_kernel3 (c : Dev nD) (E : Set ℕ) (i : grid3.Coords)
    (arg1 : Memref sig .tc .vmem S1024x128 .f32) (harg1 : arg1.IsWhole) (arg2 : Memref sig .tc .vmem S1024x64 .f32) (harg2 : arg2.IsWhole)
    (arg3 : Memref sig .tc .vmem S1024x64 .f32) (harg3 : arg3.IsWhole) (arg4 : Memref sig .tc .vmem S1024 .i32) (harg4 : arg4.IsWhole)
    (arg5 : Memref sig .tc .vmem S256x128 .f32) (harg5 : arg5.IsWhole) (arg6 : Memref sig .tc .vmem S1x128 .f32) (harg6 : arg6.IsWhole)
    (arg7 : Memref sig .tc .vmem S128x64 .f32) (harg7 : arg7.IsWhole) (arg8 : Memref sig .tc .vmem S1x64 .f32) (harg8 : arg8.IsWhole)
    (arg9 : Memref sig .tc .vmem S64x1 .f32) (harg9 : arg9.IsWhole) (arg10 : Memref sig .tc .vmem S1x1 .f32) (harg10 : arg10.IsWhole)
    (arg11 : Memref sig .tc .vmem S1024 .f32) (harg11 : arg11.IsWhole) (arg12 : Memref sig .tc .vmem S1x1 .f32) (harg12 : arg12.IsWhole)
    (x0 : Vec F S1024x128 .f32) (x1 x2 : Vec F S1024x64 .f32) (x3 : Vec F S1024 .i32) (x4 : Vec F S256x128 .f32) (x5 : Vec F S1x128 .f32)
    (x6 : Vec F S128x64 .f32) (x7 : Vec F S1x64 .f32) (x8 : Vec F S64x1 .f32) (x9 : Vec F S1x1 .f32) (K : PUnit → sProp 𝕄) :
    iprop((∃ d, owns (c : Thread nD τ) arg11 fullShare d) ∗ (∃ d, owns (c : Thread nD τ) arg12 fullShare d) ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (iprop(owns (c : Thread nD τ) arg11 fullShare (pt3_pred x0 x1 x2 x4 x5 x6 x7 x8 x9) ∗ owns (c : Thread nD τ) arg12 fullShare (pt3_loss x0 x1 x2 x4 x5 x6 x7 x8 x9 x3) ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9) -∗ K ⟨⟩))
      ⊢ wp frame (wpE (defs₀ (F := F)) Variants.none c none) E
          (cc3__final_kernel i arg1 harg1 arg2 harg2 arg3 harg3 arg4 harg4 arg5 harg5 arg6 harg6 arg7 harg7 arg8 harg8 arg9 harg9 arg10 harg10 arg11 harg11 arg12 harg12) K := by
  rw [← out3_10_eq, ← out3_11_eq]
  simp only [cc3__final_kernel_eq_skeleton]; unfold cc3__final_kernel_skel
  unfold owns
  iintro ⟨⟨%d10, %f10, -, H10⟩, ⟨%d11, %f11, -, H11⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, Hk⟩
  subst hf0 hf1 hf2 hf3 hf4 hf5 hf6 hf7 hf8 hf9
  sl_exec
  sl_step
  iapply Hk
  isplitl [H10]
  · iexists _; isplitr
    swap; · iexact H10
    ipureintro
    exact View.read_writes_eq_canon _ _ _ (fun y => ⟨_, List.mem_singleton_self _, View.mem_set_unit_zero (S := S1024) hz1 inb_S1024_S1024_0 y⟩)
  isplitl [H11]
  · iexists _; isplitr
    swap; · iexact H11
    ipureintro
    exact View.read_writes_eq_canon _ _ _ (fun y => ⟨_, List.mem_singleton_self _, View.mem_set_unit_zero (S := S1x1) hz2 inb_S1x1_S1x1_0_0 y⟩)
  sl_close

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => pt3_pred (iblk3 V c 0 t) (iblk3 V c 1 t) (iblk3 V c 2 t) (iblk3 V c 4 t) (iblk3 V c 5 t) (iblk3 V c 6 t)
        (iblk3 V c 7 t) (iblk3 V c 8 t) (iblk3 V c 9 t)
    | ⟨11, _⟩ => pt3_loss (iblk3 V c 0 t) (iblk3 V c 1 t) (iblk3 V c 2 t) (iblk3 V c 4 t) (iblk3 V c 5 t) (iblk3 V c 6 t)
        (iblk3 V c 7 t) (iblk3 V c 8 t) (iblk3 V c 9 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_10 (c : Dev nD) (t : Fin cfg3.N) :
    (dat3 V c).after 10 t = pt3_pred (iblk3 V c 0 t) (iblk3 V c 1 t) (iblk3 V c 2 t) (iblk3 V c 4 t) (iblk3 V c 5 t) (iblk3 V c 6 t)
      (iblk3 V c 7 t) (iblk3 V c 8 t) (iblk3 V c 9 t) := by dsimp only [dat3]
theorem after3_11 (c : Dev nD) (t : Fin cfg3.N) :
    (dat3 V c).after 11 t = pt3_loss (iblk3 V c 0 t) (iblk3 V c 1 t) (iblk3 V c 2 t) (iblk3 V c 4 t) (iblk3 V c 5 t) (iblk3 V c 6 t)
      (iblk3 V c 7 t) (iblk3 V c 8 t) (iblk3 V c 9 t) (iblk3 V c 3 t) := by dsimp only [dat3]

theorem before3 (c : Dev nD) (t : Fin cfg3.N) (w : Fin cfg3.W) (hw : (cfg3.win w).isOut = false) (d) :
    (dat3 V c).before w t d = (dat3 V c).after w t := by
  fin_cases w <;> first
    | exact absurd hw (by decide)
    | exact (dat3 V c).before_in_eq_fetched _ rfl (fun _ => rfl) (fun _ _ _ => rfl) (fun _ => rfl) t d

set_option maxHeartbeats 1000000 in

theorem body_obligation3 (c : Dev nD) : BodyObligation (dat3 (F := F) V c) (defs₀ (F := F)) Variants.none () Set.univ := fun t => by
  rw [bigSep_W3, bigSep_W3]
  dsimp only
  simp (disch := exact rfl) only [before3]
  rw [show (dat3 V c).Φ t.succ = (dat3 V c).Φ t.castSucc from rfl, show (dat3 V c).owesAt () t.succ = (dat3 V c).owesAt () t.castSucc from rfl,
    show (dat3 V c).after 10 t = pt3_pred ((dat3 V c).after 0 t) ((dat3 V c).after 1 t) ((dat3 V c).after 2 t) ((dat3 V c).after 4 t) ((dat3 V c).after 5 t) ((dat3 V c).after 6 t) ((dat3 V c).after 7 t) ((dat3 V c).after 8 t) ((dat3 V c).after 9 t) from by dsimp only [dat3],
    show (dat3 V c).after 11 t = pt3_loss ((dat3 V c).after 0 t) ((dat3 V c).after 1 t) ((dat3 V c).after 2 t) ((dat3 V c).after 4 t) ((dat3 V c).after 5 t) ((dat3 V c).after 6 t) ((dat3 V c).after 7 t) ((dat3 V c).after 8 t) ((dat3 V c).after 9 t) ((dat3 V c).after 3 t) from by dsimp only [dat3]]
  show _ ⊢ wp _ _ _ (bodyAt3 t) _
  unfold bodyAt3
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩⟩
  iapply (sound_kernel3 c Set.univ _ _ _ _ _ _ _ _ _ _ _ _ _ _ _ _ _ _ _ _ _ _ _ _ _ _ _ _ _ _ _ _ _ _ _ _)
  iframe
  isplitl [H10]; · iexists _; iexact H10
  isplitl [H11]; · iexists _; iexact H11
  iintro ⟨H10, H11, H0, H1, H2, H3, H4, H5, H6, H7, H8, H9⟩
  iframe

theorem hin3 (c : Dev nD) : Pipeline.ΦA spec3 c ⊢ (dat3 (F := F) V c).Φ 0 := .rfl
theorem hout3 (c : Dev nD) : (dat3 (F := F) V c).Φ (Fin.last cfg3.N) ⊢ Pipeline.ΦA spec3 c := .rfl

end Cert.KernelIdeal.Fr

end
-- ==== Proof.KI.Run.lean ====
import proofs.«421617_j66314295050867_4_alg».proof.Proof.Gen.KernelIdeal.Regions
import proofs.«421617_j66314295050867_4_alg».proof.Proof.KI.R0
import proofs.«421617_j66314295050867_4_alg».proof.Proof.KI.R1
import proofs.«421617_j66314295050867_4_alg».proof.Proof.KI.R2
import proofs.«421617_j66314295050867_4_alg».proof.Proof.KI.R3
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 4096

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 (c : Dev nD) : Valuation τ sig (Elt F) := fun b => m (c, b)

abbrev W1 (c : Dev nD) : Valuation τ sig (Elt F) := StableHlo.after Gen.hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N

abbrev W3 (c : Dev nD) : Valuation τ sig (Elt F) := StableHlo.after Gen.hostOps1 (W2 m c)

abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N

abbrev W5 (c : Dev nD) : Valuation τ sig (Elt F) := StableHlo.after Gen.hostOps2 (W4 m c)

abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N

abbrev V6 : (c : Dev nD) → (b : Ref sig .tc) → Buf (Elt F) ((c : Thread nD τ).loc b) := fun c b => W6 m c b

def W7 (c : Dev nD) : Valuation τ sig (Elt F) :=
  Pipeline.withArrays spec3 c (W6 m c) fun w => (dat3 (V6 m) c).arrAt w cfg3.N

abbrev W8 (c : Dev nD) : Valuation τ sig (Elt F) := StableHlo.after Gen.hostOps4 (W7 m c)

theorem withArrays_keep {cfg : Cfg sig Λ₀} {c : Dev nD} (dat : Dat τ (Elt F) Unit ℕ (UR sig nD τ) ℕ cfg c)
    (hinj : Function.Injective (Pipeline.arrRef cfg.spec)) (W : Valuation τ sig (Elt F))
    (hA : ∀ w, dat.A w = W (Proc.devRef .tc (Pipeline.arrRef cfg.spec w))) (n : ℕ)
    (b : Ref sig .tc) (hb : ∀ w, Pipeline.arrRef cfg.spec w = b → (cfg.win w).isOut = false) :
    Pipeline.withArrays cfg.spec c W (fun w => dat.arrAt w n) (Proc.devRef .tc b) = W (Proc.devRef .tc b) := by
  by_cases h : ∃ w, Pipeline.arrRef cfg.spec w = b
  · obtain ⟨w, rfl⟩ := h
    rw [Pipeline.withArrays_arr cfg.spec hinj c _ _ w, dat.arrAt_in w (hb w rfl) n, hA]
  · exact Pipeline.withArrays_of_ne cfg.spec c _ _ b fun w e => h ⟨w, e⟩

theorem ins0 : ∀ w : Fin cfg0.W, Pipeline.arrRef spec0 w ∉ ([main_v42_0, main_v42_1, main_v42_2] : List (Ref sig .tc)) →
    (cfg0.win w).isOut = false := by decide

theorem ins1 : ∀ w : Fin cfg1.W, Pipeline.arrRef spec1 w ∉ ([main_v51_0, main_v51_1, main_v51_2] : List (Ref sig .tc)) →
    (cfg1.win w).isOut = false := by decide

theorem ins2 : ∀ w : Fin cfg2.W, Pipeline.arrRef spec2 w ∉ ([main_v60] : List (Ref sig .tc)) →
    (cfg2.win w).isOut = false := by decide

theorem ins3 : ∀ w : Fin cfg3.W, Pipeline.arrRef spec3 w ∉ ([main_v61_0, main_v61_1] : List (Ref sig .tc)) →
    (cfg3.win w).isOut = false := by decide

theorem W1_of (c : Dev nD) (r : Ref sig .tc) (h : r ∉ Gen.hostOps0_W) : W1 m c r = W0 m c r :=
  StableHlo.after_of_writes_sub Gen.hostOps0 _ Gen.hostOps0_writes h

theorem W2_arr (c : Dev nD) (w : Fin cfg0.W) :
    W2 m c (Proc.devRef .tc (Pipeline.arrRef spec0 w)) = (dat0 (V1 m) c).arrAt w cfg0.N := by
  unfold W2; exact Pipeline.withArrays_arr spec0 Gen.launch0.win.arr_inj c _ _ w
theorem W2_of (c : Dev nD) (r : Ref sig .tc) (h : r ∉ ([main_v42_0, main_v42_1, main_v42_2] : List (Ref sig .tc))) :
    W2 m c r = W1 m c r := by
  unfold W2
  exact withArrays_keep (dat0 (V1 m) c) Gen.launch0.win.arr_inj (W1 m c) (A_eq0 (V1 m) c) cfg0.N r
    fun w e => ins0 w (e ▸ h)

theorem W3_of (c : Dev nD) (r : Ref sig .tc) (h : r ∉ Gen.hostOps1_W) : W3 m c r = W2 m c r :=
  StableHlo.after_of_writes_sub Gen.hostOps1 _ Gen.hostOps1_writes h

theorem W4_arr (c : Dev nD) (w : Fin cfg1.W) :
    W4 m c (Proc.devRef .tc (Pipeline.arrRef spec1 w)) = (dat1 (V3 m) c).arrAt w cfg1.N := by
  unfold W4; exact Pipeline.withArrays_arr spec1 Gen.launch1.win.arr_inj c _ _ w
theorem W4_of (c : Dev nD) (r : Ref sig .tc) (h : r ∉ ([main_v51_0, main_v51_1, main_v51_2] : List (Ref sig .tc))) :
    W4 m c r = W3 m c r := by
  unfold W4
  exact withArrays_keep (dat1 (V3 m) c) Gen.launch1.win.arr_inj (W3 m c) (A_eq1 (V3 m) c) cfg1.N r
    fun w e => ins1 w (e ▸ h)

theorem W5_of (c : Dev nD) (r : Ref sig .tc) (h : r ∉ Gen.hostOps2_W) : W5 m c r = W4 m c r :=
  StableHlo.after_of_writes_sub Gen.hostOps2 _ Gen.hostOps2_writes h

theorem W6_arr (c : Dev nD) (w : Fin cfg2.W) :
    W6 m c (Proc.devRef .tc (Pipeline.arrRef spec2 w)) = (dat2 (V5 m) c).arrAt w cfg2.N := by
  unfold W6; exact Pipeline.withArrays_arr spec2 Gen.launch2.win.arr_inj c _ _ w
theorem W6_of (c : Dev nD) (r : Ref sig .tc) (h : r ∉ ([main_v60] : List (Ref sig .tc))) :
    W6 m c r = W5 m c r := by
  unfold W6
  exact withArrays_keep (dat2 (V5 m) c) Gen.launch2.win.arr_inj (W5 m c) (A_eq2 (V5 m) c) cfg2.N r
    fun w e => ins2 w (e ▸ h)

theorem W7_arr (c : Dev nD) (w : Fin cfg3.W) :
    W7 m c (Proc.devRef .tc (Pipeline.arrRef spec3 w)) = (dat3 (V6 m) c).arrAt w cfg3.N := by
  unfold W7; exact Pipeline.withArrays_arr spec3 Gen.launch3.win.arr_inj c _ _ w
theorem W7_of (c : Dev nD) (r : Ref sig .tc) (h : r ∉ ([main_v61_0, main_v61_1] : List (Ref sig .tc))) :
    W7 m c r = W6 m c r := by
  unfold W7
  exact withArrays_keep (dat3 (V6 m) c) Gen.launch3.win.arr_inj (W6 m c) (A_eq3 (V6 m) c) cfg3.N r
    fun w e => ins3 w (e ▸ h)

theorem W8_of (c : Dev nD) (r : Ref sig .tc) (h : r ∉ Gen.hostOps4_W) : W8 m c r = W7 m c r :=
  StableHlo.after_of_writes_sub Gen.hostOps4 _ Gen.hostOps4_writes h

abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20]

theorem arg_untouched : ∀ r ∈ argRefs,
    r ∉ Gen.hostOps0_W ∧ r ∉ ([main_v42_0, main_v42_1, main_v42_2] : List (Ref sig .tc)) ∧ r ∉ Gen.hostOps1_W
      ∧ r ∉ ([main_v51_0, main_v51_1, main_v51_2] : List (Ref sig .tc)) ∧ r ∉ Gen.hostOps2_W
      ∧ r ∉ ([main_v60] : List (Ref sig .tc)) ∧ r ∉ ([main_v61_0, main_v61_1] : List (Ref sig .tc)) ∧ r ∉ Gen.hostOps4_W := by
  decide

theorem W8_arg (c : Dev nD) (r : Ref sig .tc) (hr : r ∈ argRefs) : W8 m c r = m ((c : Thread nD τ).loc r) := by
  obtain ⟨h1, h2, h3, h4, h5, h6, h7, h8⟩ := arg_untouched r hr
  exact (W8_of m c r h8).trans <| (W7_of m c r h7).trans <| (W6_of m c r h6).trans <| (W5_of m c r h5).trans <|
    (W4_of m c r h4).trans <| (W3_of m c r h3).trans <| (W2_of m c r h2).trans <| (W1_of m c r h1).trans rfl

theorem W8_main_v61_0 (c : Dev nD) : W8 m c main_v61_0 = (dat3 (V6 m) c).arrAt 10 cfg3.N :=
  (W8_of m c main_v61_0 (by decide)).trans (W7_arr m c 10)

theorem W7_main_v61_1 (c : Dev nD) : W7 m c main_v61_1 = (dat3 (V6 m) c).arrAt 11 cfg3.N := W7_arr m c 11

theorem W8_main_v62 (c : Dev nD) :
    W8 m c main_v62 = fun i => shapeCast S_ (W7 m c main_v61_1) Facts₀.shapeCasts_S1x1_S_ i := by
  have h := StableHlo.reshape_result (τ := τ) (Val := Elt F) main_v61_1 main_v62 rfl Facts₀.shapeCasts_S1x1_S_
    ⟨by decide, rfl⟩ ⟨by decide, rfl⟩ (W7 m c)
  exact h

abbrev 𝒱₀ : Variants := Variants.none

abbrev Lp : GSem nD τ sig → Finset Unit := fun _ => ∅
abbrev lvl : GSem nD τ sig → Unit → ℕ := fun _ _ => 0

abbrev Rest (c : Dev nD) : sProp 𝕄 :=
  iprop((∃ r, prngReg c r) ∗ ∃ W, owes (c : Thread nD τ) (0 : CellTallies nD τ sig Unit) W)

abbrev At (W : Dev nD → Valuation τ sig (Elt F)) (c : Dev nD) : sProp 𝕄 :=
  iprop(StableHlo.held (c : Thread nD τ) (Pipeline.ucRefs τ sig) (W c) ∗ Rest c)

theorem ΦA_of {gr Wn : Nat} (win : Fin Wn → Pipeline.WinSpec sig gr) (c : Dev nD) (P : sProp 𝕄) :
    (iprop((∃ r, prngReg c r) ∗ P ∗ Pipeline.scopedRest win c) : sProp 𝕄) ⊢ Pipeline.ΦA win c := by
  unfold Pipeline.ΦA
  iintro ⟨Hp, -, Hr⟩
  isplitl [Hr]; · iexact Hr
  iexact Hp

theorem of_ΦA {gr Wn : Nat} (win : Fin Wn → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

theorem entry_of {cfg : Cfg sig Λ₀} {c : Dev nD} (dat : Dat τ (Elt F) Unit ℕ (UR sig nD τ) ℕ cfg c)
    (h0 : dat.owed 0 = 0) (hrec : dat.recorded 0 = Set.univ) (W : Valuation τ sig (Elt F)) (Zr Pf S : sProp 𝕄)
    (hsplit : (StableHlo.held (c : Thread nD τ) (Pipeline.ucRefs τ sig) W : sProp 𝕄) ⊢ iprop(dat.arrays (dat.arrAt · 0) ∗ Zr))
    (hpf : (BI.emp : sProp 𝕄) ⊢ Pf) :
    (iprop(iprop(StableHlo.held (c : Thread nD τ) (Pipeline.ucRefs τ sig) W ∗ Rest c) ∗ S ∗ levAts Lp lvl) : sProp 𝕄)
      ⊢ |={Set.univ}=> iprop(dat.arrays (dat.arrAt · 0) ∗ Pf ∗ dat.owesAt () 0 ∗ (∃ r, prngReg c r) ∗ Zr) := by
  unfold Pipeline.Dat.owesAt Pipeline.owesWithin
  rw [h0]
  iintro ⟨⟨Hub, Hp, HO⟩, -, -⟩
  ihave H := hsplit $$ Hub
  icases H with ⟨Ha, Hz⟩
  imodintro
  isplitl [Ha]; · iexact Ha
  isplitr; · iapply hpf; iempintro
  isplitl [HO]
  · icases HO with ⟨%W', HO⟩; iexists W'; isplitr
    · ipureintro; intro x _; exact Or.inl (hrec ▸ Set.mem_univ x)
    iexact HO
  isplitl [Hp]; · iexact Hp
  iexact Hz

theorem exit_of {cfg : Cfg sig Λ₀} {c : Dev nD} (dat : Dat τ (Elt F) Unit ℕ (UR sig nD τ) ℕ cfg c)
    (hN : dat.owed (Fin.last cfg.N) = 0) (W' : Valuation τ sig (Elt F)) (Zr : sProp 𝕄)
    (Fa : (w : Fin cfg.W) → Buf (Elt F) ((cfg.win w).arr.view.loc (c : Thread nD τ)))
    (hjoin : (iprop(dat.arrays Fa ∗ Zr) : sProp 𝕄) ⊢ StableHlo.held (c : Thread nD τ) (Pipeline.ucRefs τ sig) W') :
    (iprop(dat.arrays Fa ∗ dat.owesAt () (Fin.last cfg.N) ∗ (∃ r, prngReg c r) ∗ Zr) : sProp 𝕄)
      ⊢ |={Set.univ}=> iprop(StableHlo.held (c : Thread nD τ) (Pipeline.ucRefs τ sig) W' ∗ Rest c) := by
  unfold Pipeline.Dat.owesAt Pipeline.owesWithin
  rw [hN]
  iintro ⟨Ha, HO, HY, Hz⟩
  imodintro
  isplitl [Ha Hz]
  · iapply hjoin; isplitl [Ha] <;> iassumption
  isplitl [HY]; · iexact HY
  icases HO with ⟨%W0, -, HO⟩; iexists W0; iexact HO

abbrev V2 : (c : Dev nD) → (b : Ref sig .tc) → Buf (Elt F) ((c : Thread nD τ).loc b) := fun c b => W2 m c b
abbrev V4 : (c : Dev nD) → (b : Ref sig .tc) → Buf (Elt F) ((c : Thread nD τ).loc b) := fun c b => W4 m c b
theorem of_ne {gr Wn : Nat} (win : Fin Wn → Pipeline.WinSpec sig gr) (c : Dev nD) (W : Valuation τ sig (Elt F))
    (A : (w : Fin Wn) → Buf (Elt F) ((win w).arr.view.loc (c : Thread nD τ))) (b : Ref sig .tc)
    (hb : b ∉ Finset.univ.image (Pipeline.arrRef win)) : Pipeline.withArrays win c W A b = W b :=
  Pipeline.withArrays_of_ne win c _ _ b fun w e => hb (Finset.mem_image.mpr ⟨w, Finset.mem_univ _, e⟩)

def pdats : (p : Fin 4) → (c : Dev nD) → Dat τ (Elt F) Unit ℕ (UR sig nD τ) ℕ (Pipeline.pin (pcfgs (F := F)) Gen.adm p) c
  | ⟨0, _⟩ => fun c => dat0 (V1 m) c
  | ⟨1, _⟩ => fun c => dat1 (V3 m) c
  | ⟨2, _⟩ => fun c => dat2 (V5 m) c
  | ⟨3, _⟩ => fun c => dat3 (V6 m) c

set_option backward.isDefEq.respectTransparency.types false in
def rg (p : Fin 4) (lf : Pipeline.LaunchFacts (nD := nD) (τ := τ) cfgs p) (Wi Wo : Dev nD → Valuation τ sig (Elt F))
    (hb : ∀ c, BodyObligation (pdats m p c) (defs₀ (F := F)) 𝒱₀ () Set.univ)
    (hA : ∀ c w, (pdats m p c).A w = Wi c (Proc.devRef .tc (Pipeline.arrRef (cfgs p).spec w)))
    (h0 : ∀ c t, (pdats m p c).owed t = 0) (hq : ∀ c w, (pdats m p c).q w = fullShare)
    (hrec : ∀ c, (pdats m p c).recorded 0 = Set.univ)
    (hi : ∀ c, Pipeline.ΦA (cfgs p).spec c ⊢ ((pdats m p c).Φ 0 : sProp 𝕄))
    (ho : ∀ c, (pdats m p c).Φ (Fin.last (cfgs p).N) ⊢ (Pipeline.ΦA (cfgs p).spec c : sProp 𝕄))
    (harr : ∀ c w, Wo c (Proc.devRef .tc (Pipeline.arrRef (cfgs p).spec w)) = (pdats m p c).arrAt w (cfgs p).N)
    (hne : ∀ c (b : Ref sig .tc), b ∉ Finset.univ.image (Pipeline.arrRef (cfgs p).spec) → Wo c b = Wi c b) :
    Pipeline.RegionSeg (pcfgs (F := F)) Gen.adm (pdats m) () defs₀ 𝒱₀ Lp lvl p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ Lp lvl p h0
  pre := At Wi
  post := At Wo
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := entry_of (pdats m p c) (h0 c 0) (hrec c) (Wi c) _ _ _
    (by
      have h := Pipeline.arrays_of_unscopedBufs (p := p) (pcfgs (F := F)) Gen.adm (pdats m) lf.win lf.arr_whole c
        ((pdats m p c).share_full (hq c)) (fun b => Wi c b) (hA c)
      rwa [Pipeline.unscopedBufs_held] at h)
    (by unfold Pipeline.prefHeld; rw [show (Finset.univ : Finset (Fin 0)) = ∅ from rfl, BI.bigSep_empty])
  hin c := (ΦA_of _ c _).trans (hi c)
  hout c := by rw [Pipeline.ownSems0_none]; exact (ho c).trans (of_ΦA _ c)
  hexit c := exit_of (pdats m p c) (h0 c _) (Wo c) _ _
    (by
      have h := Pipeline.unscopedBufs_of_arrays (p := p) (pcfgs (F := F)) Gen.adm (Ix := Unit) (Name := ℕ) (U := UR sig nD τ) (Lvl := ℕ)
        lf.win lf.arr_whole c (pdats m) ((pdats m p c).share_full (hq c)) (fun b => Wi c b) (fun b => Wo c b)
        ((pdats m p c).arrAt · (cfgs p).N) (fun w => (harr c w).symm) (hne c)
      rwa [Pipeline.unscopedBufs_held] at h)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lp lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

abbrev segs : List (Pipeline.Seg (pcfgs (F := F)) Gen.adm (pdats m) () defs₀ 𝒱₀ Lp lvl) :=
  [ .host (hseg Gen.hostOps0 Gen.hostOps0_sub Gen.hostOps0_fresh (W0 m)),
    .region (rg m 0 Gen.launch0 (W1 m) (W2 m) (body_obligation0 (V1 m)) (A_eq0 (V1 m)) (fun _ _ => rfl) (fun _ _ => rfl) (fun _ => rfl)
      (hin0 (V1 m)) (hout0 (V1 m)) (W2_arr m) fun c b hb => of_ne _ c _ _ b hb),
    .host (hseg Gen.hostOps1 Gen.hostOps1_sub Gen.hostOps1_fresh (W2 m)),
    .region (rg m 1 Gen.launch1 (W3 m) (W4 m) (body_obligation1 (V3 m)) (A_eq1 (V3 m)) (fun _ _ => rfl) (fun _ _ => rfl) (fun _ => rfl)
      (hin1 (V3 m)) (hout1 (V3 m)) (W4_arr m) fun c b hb => of_ne _ c _ _ b hb),
    .host (hseg Gen.hostOps2 Gen.hostOps2_sub Gen.hostOps2_fresh (W4 m)),
    .region (rg m 2 Gen.launch2 (W5 m) (W6 m) (body_obligation2 (V5 m)) (A_eq2 (V5 m)) (fun _ _ => rfl) (fun _ _ => rfl) (fun _ => rfl)
      (hin2 (V5 m)) (hout2 (V5 m)) (W6_arr m) fun c b hb => of_ne _ c _ _ b hb),
    .region (rg m 3 Gen.launch3 (W6 m) (W7 m) (body_obligation3 (V6 m)) (A_eq3 (V6 m)) (fun _ _ => rfl) (fun _ _ => rfl) (fun _ => rfl)
      (hin3 (V6 m)) (hout3 (V6 m)) (W7_arr m) fun c b hb => of_ne _ c _ _ b hb),
    .host (hseg Gen.hostOps4 Gen.hostOps4_sub Gen.hostOps4_fresh (W7 m)) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W8 m c b) :=
  Pipeline.θ_run_regions_kit (pcfgs (F := F)) Gen.adm (pdats m) () Gen.cellOf_inj emb₁ defs₀ 𝒱₀ Lp lvl m ρ main (segs m)
    (fun c Q => by
      rewrite [Gen.main_chain c, Pipeline.Seg.run_eq_chain,
        show (segs m).map Pipeline.Seg.prog = [
          StableHlo.seq Gen.hostOps0,
          Prog.lift (.customCall (Pipeline.entry 0) ()),
          StableHlo.seq Gen.hostOps1,
          Prog.lift (.customCall (Pipeline.entry 1) ()),
          StableHlo.seq Gen.hostOps2,
          Prog.lift (.customCall (Pipeline.entry 2) ()),
          Prog.lift (.customCall (Pipeline.entry 3) ()),
          StableHlo.seq Gen.hostOps4 ] from rfl]
      exact .rfl)
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs Gen.cellOf_inj) (Pipeline.launchToks cfgs Gen.cellOf_inj))
    (hu₀ := by
      rw [ownU_emb₁, BI.bigSep_emp_const]
      iintro Hu; imodintro
      isplitl [Hu]; · iexact Hu
      iempintro)
    (T₀ := At (W0 m))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W8 m c) ∗ Rest c) : sProp 𝕄)
          ⊢ iprop(iprop(StableHlo.held (c : Thread nD τ) (Pipeline.ucRefs τ sig) (W8 m c) ∗ ∃ r, prngReg c r)
              ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach Lp lvl fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W8 m c b)
    (hfin := fun c s' => by
      iintro ⟨⟨Hh, -⟩, HSI⟩
      unfold StableHlo.held
      imodintro
      iapply (pointsTo_read_all (Pipeline.ucRefs τ sig) (fun b => ((c : Thread nD τ).1, b)) (W8 m c) s')
      isplitl [Hh] <;> iassumption)
    (hQ := fun s h => h)

end Cert.KernelIdeal.Fr

end
-- ==== Proof.RefRead.lean ====
import proofs.«421617_j66314295050867_4_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

variable (x0 x1 : (⟨S1024x200, .i32⟩ : BufTy).Contents (Elt F)) (x2 x3 x4 : (⟨S1024, .i32⟩ : BufTy).Contents (Elt F)) (x5 : (⟨S1000000x64, .f32⟩ : BufTy).Contents (Elt F)) (x6 : (⟨S10000x64, .f32⟩ : BufTy).Contents (Elt F))
  (x7 : (⟨S32x512, .f32⟩ : BufTy).Contents (Elt F)) (x8 x9 : (⟨S32, .f32⟩ : BufTy).Contents (Elt F)) (x10 : (⟨S16x32, .f32⟩ : BufTy).Contents (Elt F)) (x11 x12 : (⟨S16, .f32⟩ : BufTy).Contents (Elt F)) (x13 : (⟨S1x16, .f32⟩ : BufTy).Contents (Elt F))
  (x14 : (⟨S1, .f32⟩ : BufTy).Contents (Elt F)) (x15 : (⟨S128x256, .f32⟩ : BufTy).Contents (Elt F)) (x16 : (⟨S128, .f32⟩ : BufTy).Contents (Elt F)) (x17 : (⟨S64x128, .f32⟩ : BufTy).Contents (Elt F)) (x18 : (⟨S64, .f32⟩ : BufTy).Contents (Elt F))
  (x19 : (⟨S1x64, .f32⟩ : BufTy).Contents (Elt F)) (x20 : (⟨S1, .f32⟩ : BufTy).Contents (Elt F))

variable (z0 z1 : (⟨S1024x200, .i32⟩ : BufTy).Contents (Elt Ideal)) (z2 z3 z4 : (⟨S1024, .i32⟩ : BufTy).Contents (Elt Ideal)) (z5 : (⟨S1000000x64, .f32⟩ : BufTy).Contents (Elt Ideal)) (z6 : (⟨S10000x64, .f32⟩ : BufTy).Contents (Elt Ideal))
  (z7 : (⟨S32x512, .f32⟩ : BufTy).Contents (Elt Ideal)) (z8 z9 : (⟨S32, .f32⟩ : BufTy).Contents (Elt Ideal)) (z10 : (⟨S16x32, .f32⟩ : BufTy).Contents (Elt Ideal)) (z11 z12 : (⟨S16, .f32⟩ : BufTy).Contents (Elt Ideal)) (z13 : (⟨S1x16, .f32⟩ : BufTy).Contents (Elt Ideal))
  (z14 : (⟨S1, .f32⟩ : BufTy).Contents (Elt Ideal)) (z15 : (⟨S128x256, .f32⟩ : BufTy).Contents (Elt Ideal)) (z16 : (⟨S128, .f32⟩ : BufTy).Contents (Elt Ideal)) (z17 : (⟨S64x128, .f32⟩ : BufTy).Contents (Elt Ideal)) (z18 : (⟨S64, .f32⟩ : BufTy).Contents (Elt Ideal))
  (z19 : (⟨S1x64, .f32⟩ : BufTy).Contents (Elt Ideal)) (z20 : (⟨S1, .f32⟩ : BufTy).Contents (Elt Ideal))

def val_main_c : (⟨S_, .i32⟩ : BufTy).Contents (Elt F) :=
  constantI S_ 32 0#32

def val_main_v0 : (⟨S1024, .i32⟩ : BufTy).Contents (Elt F) :=
  broadcastInDim S1024 ![] bcast_S_S1024 (val_main_c (F := F))

def val_main_v1 : (⟨S1024, .i1⟩ : BufTy).Contents (Elt F) :=
  cmpi .slt (x2) (val_main_v0 (F := F))

def val_main_c_0 : (⟨S_, .i32⟩ : BufTy).Contents (Elt F) :=
  constantI S_ 32 1000000#32

def val_main_v2 : (⟨S1024, .i32⟩ : BufTy).Contents (Elt F) :=
  broadcastInDim S1024 ![] bcast_S_S1024 (val_main_c_0 (F := F))

def val_main_v3 : (⟨S1024, .i32⟩ : BufTy).Contents (Elt F) :=
  addi (x2) (val_main_v2 (F := F))

def val_main_v4 : (⟨S1024, .i32⟩ : BufTy).Contents (Elt F) :=
  select (val_main_v1 x2) (val_main_v3 x2) (x2)

def val_main_v5 : (⟨S1024x1, .i32⟩ : BufTy).Contents (Elt F) :=
  broadcastInDim S1024x1 ![0] bcast_S1024_S1024x1_0 (val_main_v4 x2)

def val_main_v6 : (⟨S1024x64, .f32⟩ : BufTy).Contents (Elt F) :=
  Host.gather gather_S1000000x64_S1024x1_S1024x64_1_0_n_n_0_1_164 (x5) (val_main_v5 x2)

def val_main_c_1 : (⟨S_, .i32⟩ : BufTy).Contents (Elt F) :=
  constantI S_ 32 0#32

def val_main_v7 : (⟨S1024, .i32⟩ : BufTy).Contents (Elt F) :=
  broadcastInDim S1024 ![] bcast_S_S1024 (val_main_c_1 (F := F))

def val_main_v8 : (⟨S1024, .i1⟩ : BufTy).Contents (Elt F) :=
  cmpi .slt (x3) (val_main_v7 (F := F))

def val_main_c_2 : (⟨S_, .i32⟩ : BufTy).Contents (Elt F) :=
  constantI S_ 32 10000#32

def val_main_v9 : (⟨S1024, .i32⟩ : BufTy).Contents (Elt F) :=
  broadcastInDim S1024 ![] bcast_S_S1024 (val_main_c_2 (F := F))

def val_main_v10 : (⟨S1024, .i32⟩ : BufTy).Contents (Elt F) :=
  addi (x3) (val_main_v9 (F := F))

def val_main_v11 : (⟨S1024, .i32⟩ : BufTy).Contents (Elt F) :=
  select (val_main_v8 x3) (val_main_v10 x3) (x3)

def val_main_v12 : (⟨S1024x1, .i32⟩ : BufTy).Contents (Elt F) :=
  broadcastInDim S1024x1 ![0] bcast_S1024_S1024x1_0 (val_main_v11 x3)

def val_main_v13 : (⟨S1024x64, .f32⟩ : BufTy).Contents (Elt F) :=
  Host.gather gather_S10000x64_S1024x1_S1024x64_1_0_n_n_0_1_164 (x6) (val_main_v12 x3)

def val_main_c_3 : (⟨S_, .i32⟩ : BufTy).Contents (Elt F) :=
  constantI S_ 32 0#32

theorem val_main_c_3_apply (i : S_.Idx) :
    val_main_c_3 (F := F) i = 0#32 := rfl

def val_main_v14 : (⟨S1024x200, .i32⟩ : BufTy).Contents (Elt F) :=
  broadcastInDim S1024x200 ![] bcast_S_S1024x200 (val_main_c_3 (F := F))

abbrev idx_main_v14 (i : S1024x200.Idx) : S_.Idx := fun a => a.elim0

theorem val_main_v14_apply (i : S1024x200.Idx) :
    val_main_v14 (F := F) i = val_main_c_3 (F := F) (idx_main_v14 i) := by
  unfold val_main_v14
  generalize val_main_c_3 (F := F) = y
  exact broadcastInDim_apply _ bcast_S_S1024x200 y i (idx_main_v14 i) (fun a => a.elim0)

def val_main_v15 : (⟨S1024x200, .i1⟩ : BufTy).Contents (Elt F) :=
  cmpi .sgt (x0) (val_main_v14 (F := F))

theorem val_main_v15_apply (i : S1024x200.Idx) :
    val_main_v15 x0 i = IntOp.cmpi .sgt (x0 i) (val_main_v14 (F := F) i) := rfl

def val_main_v16 : (⟨S1024x200, .f32⟩ : BufTy).Contents (Elt F) :=
  uitofp .f32 (val_main_v15 x0)

theorem val_main_v16_apply (i : S1024x200.Idx) :
    val_main_v16 x0 i = FloatOps.uitofp .f32 (val_main_v15 x0 i) := rfl

def val_main_v17 : (⟨S1024x200x1, .f32⟩ : BufTy).Contents (Elt F) :=
  broadcastInDim S1024x200x1 ![0, 1] bcast_S1024x200_S1024x200x1_0_1 (val_main_v16 x0)

abbrev idx_main_v17 (i : S1024x200x1.Idx) : S1024x200.Idx := fun a => match a with
  | ⟨0, _⟩ => ⟨(i 0).val, (i 0).isLt⟩
  | ⟨1, _⟩ => ⟨(i 1).val, (i 1).isLt⟩

theorem val_main_v17_apply (i : S1024x200x1.Idx) :
    val_main_v17 x0 i = val_main_v16 x0 (idx_main_v17 i) := by
  unfold val_main_v17
  generalize val_main_v16 x0 = y
  exact broadcastInDim_apply _ bcast_S1024x200_S1024x200x1_0_1 y i (idx_main_v17 i) (fun a => match a with
    | ⟨0, _⟩ => by show (i 0).val = if (1024 : Nat) = 1 then 0 else (i 0).val; rw [if_neg (by decide)]
    | ⟨1, _⟩ => by show (i 1).val = if (200 : Nat) = 1 then 0 else (i 1).val; rw [if_neg (by decide)])

def val_main_c_4 : (⟨S_, .i32⟩ : BufTy).Contents (Elt F) :=
  constantI S_ 32 0#32

def val_main_v18 : (⟨S1024x200, .i32⟩ : BufTy).Contents (Elt F) :=
  broadcastInDim S1024x200 ![] bcast_S_S1024x200 (val_main_c_4 (F := F))

def val_main_v19 : (⟨S1024x200, .i1⟩ : BufTy).Contents (Elt F) :=
  cmpi .slt (x0) (val_main_v18 (F := F))

def val_main_c_5 : (⟨S_, .i32⟩ : BufTy).Contents (Elt F) :=
  constantI S_ 32 1000000#32

def val_main_v20 : (⟨S1024x200, .i32⟩ : BufTy).Contents (Elt F) :=
  broadcastInDim S1024x200 ![] bcast_S_S1024x200 (val_main_c_5 (F := F))

def val_main_v21 : (⟨S1024x200, .i32⟩ : BufTy).Contents (Elt F) :=
  addi (x0) (val_main_v20 (F := F))

def val_main_v22 : (⟨S1024x200, .i32⟩ : BufTy).Contents (Elt F) :=
  select (val_main_v19 x0) (val_main_v21 x0) (x0)

def val_main_v23 : (⟨S1024x200x1, .i32⟩ : BufTy).Contents (Elt F) :=
  broadcastInDim S1024x200x1 ![0, 1] bcast_S1024x200_S1024x200x1_0_1 (val_main_v22 x0)

def val_main_v24 : (⟨S1024x200x64, .f32⟩ : BufTy).Contents (Elt F) :=
  Host.gather gather_S1000000x64_S1024x200x1_S1024x200x64_2_0_n_n_0_2_164 (x5) (val_main_v23 x0)

def val_main_v25 : (⟨S1024x200x64, .f32⟩ : BufTy).Contents (Elt F) :=
  broadcastInDim S1024x200x64 ![0, 1, 2] bcast_S1024x200x1_S1024x200x64_0_1_2 (val_main_v17 x0)

abbrev idx_main_v25 (i : S1024x200x64.Idx) : S1024x200x1.Idx := fun a => match a with
  | ⟨0, _⟩ => ⟨(i 0).val, (i 0).isLt⟩
  | ⟨1, _⟩ => ⟨(i 1).val, (i 1).isLt⟩
  | ⟨2, _⟩ => ⟨0, Nat.one_pos⟩

theorem val_main_v25_apply (i : S1024x200x64.Idx) :
    val_main_v25 x0 i = val_main_v17 x0 (idx_main_v25 i) := by
  unfold val_main_v25
  generalize val_main_v17 x0 = y
  exact broadcastInDim_apply _ bcast_S1024x200x1_S1024x200x64_0_1_2 y i (idx_main_v25 i) (fun a => match a with
    | ⟨0, _⟩ => by show (i 0).val = if (1024 : Nat) = 1 then 0 else (i 0).val; rw [if_neg (by decide)]
    | ⟨1, _⟩ => by show (i 1).val = if (200 : Nat) = 1 then 0 else (i 1).val; rw [if_neg (by decide)]
    | ⟨2, _⟩ => by show 0 = if (1 : Nat) = 1 then 0 else (i 2).val; rw [if_pos rfl])

def val_main_v26 : (⟨S1024x200x64, .f32⟩ : BufTy).Contents (Elt F) :=
  mulf (val_main_v24 x0 x5) (val_main_v25 x0)

theorem val_main_v26_apply (i : S1024x200x64.Idx) :
    val_main_v26 x0 x5 i = FloatOps.mulf (val_main_v24 x0 x5 i) (val_main_v25 x0 i) := rfl

def val_main_c_6 : (⟨S_, .i32⟩ : BufTy).Contents (Elt F) :=
  constantI S_ 32 0#32

def val_main_v27 : (⟨S1024x200, .i32⟩ : BufTy).Contents (Elt F) :=
  broadcastInDim S1024x200 ![] bcast_S_S1024x200 (val_main_c_6 (F := F))

def val_main_v28 : (⟨S1024x200, .i1⟩ : BufTy).Contents (Elt F) :=
  cmpi .slt (x1) (val_main_v27 (F := F))

def val_main_c_7 : (⟨S_, .i32⟩ : BufTy).Contents (Elt F) :=
  constantI S_ 32 10000#32

def val_main_v29 : (⟨S1024x200, .i32⟩ : BufTy).Contents (Elt F) :=
  broadcastInDim S1024x200 ![] bcast_S_S1024x200 (val_main_c_7 (F := F))

def val_main_v30 : (⟨S1024x200, .i32⟩ : BufTy).Contents (Elt F) :=
  addi (x1) (val_main_v29 (F := F))

def val_main_v31 : (⟨S1024x200, .i32⟩ : BufTy).Contents (Elt F) :=
  select (val_main_v28 x1) (val_main_v30 x1) (x1)

def val_main_v32 : (⟨S1024x200x1, .i32⟩ : BufTy).Contents (Elt F) :=
  broadcastInDim S1024x200x1 ![0, 1] bcast_S1024x200_S1024x200x1_0_1 (val_main_v31 x1)

def val_main_v33 : (⟨S1024x200x64, .f32⟩ : BufTy).Contents (Elt F) :=
  Host.gather gather_S10000x64_S1024x200x1_S1024x200x64_2_0_n_n_0_2_164 (x6) (val_main_v32 x1)

def val_main_v34 : (⟨S1024x200x64, .f32⟩ : BufTy).Contents (Elt F) :=
  broadcastInDim S1024x200x64 ![0, 1, 2] bcast_S1024x200x1_S1024x200x64_0_1_2 (val_main_v17 x0)

abbrev idx_main_v34 (i : S1024x200x64.Idx) : S1024x200x1.Idx := fun a => match a with
  | ⟨0, _⟩ => ⟨(i 0).val, (i 0).isLt⟩
  | ⟨1, _⟩ => ⟨(i 1).val, (i 1).isLt⟩
  | ⟨2, _⟩ => ⟨0, Nat.one_pos⟩

theorem val_main_v34_apply (i : S1024x200x64.Idx) :
    val_main_v34 x0 i = val_main_v17 x0 (idx_main_v34 i) := by
  unfold val_main_v34
  generalize val_main_v17 x0 = y
  exact broadcastInDim_apply _ bcast_S1024x200x1_S1024x200x64_0_1_2 y i (idx_main_v34 i) (fun a => match a with
    | ⟨0, _⟩ => by show (i 0).val = if (1024 : Nat) = 1 then 0 else (i 0).val; rw [if_neg (by decide)]
    | ⟨1, _⟩ => by show (i 1).val = if (200 : Nat) = 1 then 0 else (i 1).val; rw [if_neg (by decide)]
    | ⟨2, _⟩ => by show 0 = if (1 : Nat) = 1 then 0 else (i 2).val; rw [if_pos rfl])

def val_main_v35 : (⟨S1024x200x64, .f32⟩ : BufTy).Contents (Elt F) :=
  mulf (val_main_v33 x1 x6) (val_main_v34 x0)

theorem val_main_v35_apply (i : S1024x200x64.Idx) :
    val_main_v35 x0 x1 x6 i = FloatOps.mulf (val_main_v33 x1 x6 i) (val_main_v34 x0 i) := rfl

def val_main_v36 : (⟨S1024x200x128, .f32⟩ : BufTy).Contents (Elt F) :=
  concatenate S1024x200x128 2 [⟨S1024x200x64, (val_main_v26 x0 x5)⟩, ⟨S1024x200x64, (val_main_v35 x0 x1 x6)⟩] concatenates_S1024x200x64_S1024x200x64_S1024x200x128_d2

def val_main_v37 : (⟨S1024x128, .f32⟩ : BufTy).Contents (Elt F) :=
  concatenate S1024x128 1 [⟨S1024x64, (val_main_v6 x2 x5)⟩, ⟨S1024x64, (val_main_v13 x3 x6)⟩] concatenates_S1024x64_S1024x64_S1024x128_d1

def val_main_v38 : (⟨S1024x1x128, .f32⟩ : BufTy).Contents (Elt F) :=
  broadcastInDim S1024x1x128 ![0, 2] bcast_S1024x128_S1024x1x128_0_2 (val_main_v37 x2 x3 x5 x6)

abbrev idx_main_v38 (i : S1024x1x128.Idx) : S1024x128.Idx := fun a => match a with
  | ⟨0, _⟩ => ⟨(i 0).val, (i 0).isLt⟩
  | ⟨1, _⟩ => ⟨(i 2).val, (i 2).isLt⟩

theorem val_main_v38_apply (i : S1024x1x128.Idx) :
    val_main_v38 x2 x3 x5 x6 i = val_main_v37 x2 x3 x5 x6 (idx_main_v38 i) := by
  unfold val_main_v38
  generalize val_main_v37 x2 x3 x5 x6 = y
  exact broadcastInDim_apply _ bcast_S1024x128_S1024x1x128_0_2 y i (idx_main_v38 i) (fun a => match a with
    | ⟨0, _⟩ => by show (i 0).val = if (1024 : Nat) = 1 then 0 else (i 0).val; rw [if_neg (by decide)]
    | ⟨1, _⟩ => by show (i 2).val = if (128 : Nat) = 1 then 0 else (i 2).val; rw [if_neg (by decide)])

def val_main_v39 : (⟨S1024x200x128, .f32⟩ : BufTy).Contents (Elt F) :=
  broadcastInDim S1024x200x128 ![0, 1, 2] bcast_S1024x1x128_S1024x200x128_0_1_2 (val_main_v38 x2 x3 x5 x6)

abbrev idx_main_v39 (i : S1024x200x128.Idx) : S1024x1x128.Idx := fun a => match a with
  | ⟨0, _⟩ => ⟨(i 0).val, (i 0).isLt⟩
  | ⟨1, _⟩ => ⟨0, Nat.one_pos⟩
  | ⟨2, _⟩ => ⟨(i 2).val, (i 2).isLt⟩

theorem val_main_v39_apply (i : S1024x200x128.Idx) :
    val_main_v39 x2 x3 x5 x6 i = val_main_v38 x2 x3 x5 x6 (idx_main_v39 i) := by
  unfold val_main_v39
  generalize val_main_v38 x2 x3 x5 x6 = y
  exact broadcastInDim_apply _ bcast_S1024x1x128_S1024x200x128_0_1_2 y i (idx_main_v39 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show (i 2).val = if (128 : Nat) = 1 then 0 else (i 2).val; rw [if_neg (by decide)])

def val_main_v40 : (⟨S1024x200x128, .f32⟩ : BufTy).Contents (Elt F) :=
  subf (val_main_v39 x2 x3 x5 x6) (val_main_v36 x0 x1 x5 x6)

theorem val_main_v40_apply (i : S1024x200x128.Idx) :
    val_main_v40 x0 x1 x2 x3 x5 x6 i = FloatOps.subf (val_main_v39 x2 x3 x5 x6 i) (val_main_v36 x0 x1 x5 x6 i) := rfl

def val_main_v41 : (⟨S1024x200x128, .f32⟩ : BufTy).Contents (Elt F) :=
  mulf (val_main_v39 x2 x3 x5 x6) (val_main_v36 x0 x1 x5 x6)

theorem val_main_v41_apply (i : S1024x200x128.Idx) :
    val_main_v41 x0 x1 x2 x3 x5 x6 i = FloatOps.mulf (val_main_v39 x2 x3 x5 x6 i) (val_main_v36 x0 x1 x5 x6 i) := rfl

def val_main_v42 : (⟨S1024x200x512, .f32⟩ : BufTy).Contents (Elt F) :=
  concatenate S1024x200x512 2 [⟨S1024x200x128, (val_main_v39 x2 x3 x5 x6)⟩, ⟨S1024x200x128, (val_main_v36 x0 x1 x5 x6)⟩, ⟨S1024x200x128, (val_main_v40 x0 x1 x2 x3 x5 x6)⟩, ⟨S1024x200x128, (val_main_v41 x0 x1 x2 x3 x5 x6)⟩] concatenates_S1024x200x128_S1024x200x128_S1024x200x128_S1024x200x128_S1024x200x512_d2

def val_main_v43 : (⟨S204800x512, .f32⟩ : BufTy).Contents (Elt F) :=
  shapeCast _ (val_main_v42 x0 x1 x2 x3 x5 x6) shapeCasts_S1024x200x512_S204800x512

abbrev idx_main_v43 (i : S204800x512.Idx) : S1024x200x512.Idx := fun a => match a with
  | ⟨0, _⟩ => ⟨((i 0).val * 512 + (i 1).val) / 102400, by have h0 : (i 0).val < 204800 := (i 0).isLt; have h1 : (i 1).val < 512 := (i 1).isLt; show ((i 0).val * 512 + (i 1).val) / 102400 < 1024; omega⟩
  | ⟨1, _⟩ => ⟨((i 0).val * 512 + (i 1).val) / 512 % 200, by have h0 : (i 0).val < 204800 := (i 0).isLt; have h1 : (i 1).val < 512 := (i 1).isLt; show ((i 0).val * 512 + (i 1).val) / 512 % 200 < 200; omega⟩
  | ⟨2, _⟩ => ⟨((i 0).val * 512 + (i 1).val) % 512, by have h0 : (i 0).val < 204800 := (i 0).isLt; have h1 : (i 1).val < 512 := (i 1).isLt; show ((i 0).val * 512 + (i 1).val) % 512 < 512; omega⟩

theorem val_main_v43_apply (i : S204800x512.Idx) :
    val_main_v43 x0 x1 x2 x3 x5 x6 i = val_main_v42 x0 x1 x2 x3 x5 x6 (idx_main_v43 i) := by
  unfold val_main_v43
  generalize val_main_v42 x0 x1 x2 x3 x5 x6 = y
  exact shapeCast_apply y shapeCasts_S1024x200x512_S204800x512 i (idx_main_v43 i)
    (by rewrite [Shape.rowMajor_val_three, Shape.rowMajor_val_two]; have h0 : (i 0).val < 204800 := (i 0).isLt; have h1 : (i 1).val < 512 := (i 1).isLt; show (((i 0).val * 512 + (i 1).val) / 102400 * 200 + ((i 0).val * 512 + (i 1).val) / 512 % 200) * 512 + ((i 0).val * 512 + (i 1).val) % 512 = (i 0).val * 512 + (i 1).val; omega)

def val_main_v44 : (⟨S512x32, .f32⟩ : BufTy).Contents (Elt F) :=
  transpose S512x32 [1, 0] (x7) transposes_S32x512_S512x32_1_0

abbrev idx_main_v44 (i : S512x32.Idx) : S32x512.Idx := fun a => match a with
  | ⟨0, _⟩ => ⟨(i 1).val, (i 1).isLt⟩
  | ⟨1, _⟩ => ⟨(i 0).val, (i 0).isLt⟩

theorem val_main_v44_apply (i : S512x32.Idx) :
    val_main_v44 x7 i = x7 (idx_main_v44 i) := by
  unfold val_main_v44
  exact transpose_apply [1, 0] x7 transposes_S32x512_S512x32_1_0 i (idx_main_v44 i) (fun b => match b with
    | ⟨0, _⟩ => rfl
    | ⟨1, _⟩ => rfl)

def val_main_v45 : (⟨S204800x32, .f32⟩ : BufTy).Contents (Elt F) :=
  Host.dotGeneral dot_S204800x512_S512x32_S204800x32_1_0_0_1_n_n none (val_main_v43 x0 x1 x2 x3 x5 x6) (val_main_v44 x7)

theorem lhs_main_v45_0 (i : S204800x32.Idx) (q : dot_S204800x512_S512x32_S204800x32_1_0_0_1_n_n.contr.Idx) :
    (dot_S204800x512_S512x32_S204800x32_1_0_0_1_n_n.lhsIdx i q 0).val = (i 0).val := by
  unfold DotDims.lhsIdx
  rw [dif_neg (show ¬(0 : Fin S204800x512.rank) ∈ dot_S204800x512_S512x32_S204800x32_1_0_0_1_n_n.lhsBatch by decide), dif_pos (show (0 : Fin S204800x512.rank) ∈ dot_S204800x512_S512x32_S204800x32_1_0_0_1_n_n.lhsNonContracting by decide)]
  rfl

theorem lhs_main_v45_1 (i : S204800x32.Idx) (q : dot_S204800x512_S512x32_S204800x32_1_0_0_1_n_n.contr.Idx) :
    (dot_S204800x512_S512x32_S204800x32_1_0_0_1_n_n.lhsIdx i q 1).val = (q ⟨0, by decide⟩).val :=
  dot_S204800x512_S512x32_S204800x32_1_0_0_1_n_n.lhsIdx_val_of_single rfl i q

theorem rhs_main_v45_0 (i : S204800x32.Idx) (q : dot_S204800x512_S512x32_S204800x32_1_0_0_1_n_n.contr.Idx) :
    (dot_S204800x512_S512x32_S204800x32_1_0_0_1_n_n.rhsIdx i q 0).val = (q ⟨0, by decide⟩).val :=
  dot_S204800x512_S512x32_S204800x32_1_0_0_1_n_n.rhsIdx_val_of_single rfl i q

theorem rhs_main_v45_1 (i : S204800x32.Idx) (q : dot_S204800x512_S512x32_S204800x32_1_0_0_1_n_n.contr.Idx) :
    (dot_S204800x512_S512x32_S204800x32_1_0_0_1_n_n.rhsIdx i q 1).val = (i 1).val := by
  unfold DotDims.rhsIdx
  rw [dif_neg (show ¬(1 : Fin S512x32.rank) ∈ dot_S204800x512_S512x32_S204800x32_1_0_0_1_n_n.rhsBatch by decide), dif_pos (show (1 : Fin S512x32.rank) ∈ dot_S204800x512_S512x32_S204800x32_1_0_0_1_n_n.rhsNonContracting by decide)]
  rfl

abbrev lidx_main_v45 (i : S204800x32.Idx) (k : Fin 512) : S204800x512.Idx := fun a => match a with
  | ⟨0, _⟩ => ⟨(i 0).val, (i 0).isLt⟩
  | ⟨1, _⟩ => ⟨k.val, k.isLt⟩

abbrev ridx_main_v45 (i : S204800x32.Idx) (k : Fin 512) : S512x32.Idx := fun a => match a with
  | ⟨0, _⟩ => ⟨k.val, k.isLt⟩
  | ⟨1, _⟩ => ⟨(i 1).val, (i 1).isLt⟩

theorem val_main_v45_apply (i : S204800x32.Idx) :
    val_main_v45 z0 z1 z2 z3 z5 z6 z7 i = ∑ k : Fin 512, (val_main_v43 z0 z1 z2 z3 z5 z6) (lidx_main_v45 i k) * (val_main_v44 z7) (ridx_main_v45 i k) := by
  unfold val_main_v45
  generalize val_main_v43 z0 z1 z2 z3 z5 z6 = y0
  generalize val_main_v44 z7 = y1
  simp only [Host.dotGeneral]
  rw [Ideal.dotGeneral_apply, ← Equiv.sum_comp (ValueIdx.contrEquiv1 dot_S204800x512_S512x32_S204800x32_1_0_0_1_n_n 512 rfl rfl).symm]
  refine Finset.sum_congr rfl fun k _ => ?_
  have hk := ValueIdx.contrEquiv1_symm_val dot_S204800x512_S512x32_S204800x32_1_0_0_1_n_n 512 rfl rfl k
  have el : dot_S204800x512_S512x32_S204800x32_1_0_0_1_n_n.lhsIdx i ((ValueIdx.contrEquiv1 dot_S204800x512_S512x32_S204800x32_1_0_0_1_n_n 512 rfl rfl).symm k) = lidx_main_v45 i k := funext fun a => Fin.ext (by
    match a with
    | ⟨0, _⟩ => exact lhs_main_v45_0 _ _
    | ⟨1, _⟩ => exact (lhs_main_v45_1 _ _).trans hk)
  have er : dot_S204800x512_S512x32_S204800x32_1_0_0_1_n_n.rhsIdx i ((ValueIdx.contrEquiv1 dot_S204800x512_S512x32_S204800x32_1_0_0_1_n_n 512 rfl rfl).symm k) = ridx_main_v45 i k := funext fun a => Fin.ext (by
    match a with
    | ⟨0, _⟩ => exact (rhs_main_v45_0 _ _).trans hk
    | ⟨1, _⟩ => exact rhs_main_v45_1 _ _)
  rw [el, er]

def val_main_v46 : (⟨S1x32, .f32⟩ : BufTy).Contents (Elt F) :=
  broadcastInDim S1x32 ![1] bcast_S32_S1x32_1 (x8)

abbrev idx_main_v46 (i : S1x32.Idx) : S32.Idx := fun a => match a with
  | ⟨0, _⟩ => ⟨(i 1).val, (i 1).isLt⟩

theorem val_main_v46_apply (i : S1x32.Idx) :
    val_main_v46 x8 i = x8 (idx_main_v46 i) := by
  unfold val_main_v46
  exact broadcastInDim_apply _ bcast_S32_S1x32_1 x8 i (idx_main_v46 i) (fun a => match a with
    | ⟨0, _⟩ => by show (i 1).val = if (32 : Nat) = 1 then 0 else (i 1).val; rw [if_neg (by decide)])

def val_main_v47 : (⟨S204800x32, .f32⟩ : BufTy).Contents (Elt F) :=
  broadcastInDim S204800x32 ![0, 1] bcast_S1x32_S204800x32_0_1 (val_main_v46 x8)

abbrev idx_main_v47 (i : S204800x32.Idx) : S1x32.Idx := fun a => match a with
  | ⟨0, _⟩ => ⟨0, Nat.one_pos⟩
  | ⟨1, _⟩ => ⟨(i 1).val, (i 1).isLt⟩

theorem val_main_v47_apply (i : S204800x32.Idx) :
    val_main_v47 x8 i = val_main_v46 x8 (idx_main_v47 i) := by
  unfold val_main_v47
  generalize val_main_v46 x8 = y
  exact broadcastInDim_apply _ bcast_S1x32_S204800x32_0_1 y i (idx_main_v47 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

def val_main_v48 : (⟨S204800x32, .f32⟩ : BufTy).Contents (Elt F) :=
  addf (val_main_v45 x0 x1 x2 x3 x5 x6 x7) (val_main_v47 x8)

theorem val_main_v48_apply (i : S204800x32.Idx) :
    val_main_v48 x0 x1 x2 x3 x5 x6 x7 x8 i = FloatOps.addf (val_main_v45 x0 x1 x2 x3 x5 x6 x7 i) (val_main_v47 x8 i) := rfl

def val_main_cst : (⟨S_, .f32⟩ : BufTy).Contents (Elt F) :=
  constant S_ .f32 0x00000000#32

theorem val_main_cst_apply (i : S_.Idx) :
    val_main_cst (F := F) i = FloatOps.ofBits .f32 0x00000000#32 := rfl

def val_main_v49 : (⟨S32, .f32⟩ : BufTy).Contents (Elt F) :=
  Host.reduceAdd (val_main_v48 x0 x1 x2 x3 x5 x6 x7 x8) (val_main_cst (F := F)) reducesTo_S204800x32_S32_d0 h_S_

abbrev idx_main_v49 (i : S32.Idx) (k : Fin 204800) : S204800x32.Idx := fun a => match a with
  | ⟨0, _⟩ => ⟨k.val, k.isLt⟩
  | ⟨1, _⟩ => ⟨(i 0).val, (i 0).isLt⟩

theorem val_main_v49_apply (i : S32.Idx) :
    val_main_v49 z0 z1 z2 z3 z5 z6 z7 z8 i = (val_main_cst (F := Ideal)) (Shape.Idx.first h_S_) + ∑ k : Fin 204800, (val_main_v48 z0 z1 z2 z3 z5 z6 z7 z8) (idx_main_v49 i k) := by
  unfold val_main_v49
  generalize val_main_v48 z0 z1 z2 z3 z5 z6 z7 z8 = y0
  simp only [Host.reduceAdd, Ideal.hostReduceAdd_def]
  rw [Ideal.hostReduceAdd_single reducesTo_S204800x32_S32_d0 (by decide)]
  refine congrArg (_ + ·) (Finset.sum_congr rfl fun k _ => ?_)
  exact congrArg y0 (funext fun a => Fin.ext (by match a with | ⟨0, _⟩ => rfl | ⟨1, _⟩ => rfl))

def val_main_v50 : (⟨S1x32, .f32⟩ : BufTy).Contents (Elt F) :=
  broadcastInDim S1x32 ![1] bcast_S32_S1x32_1 (val_main_v49 x0 x1 x2 x3 x5 x6 x7 x8)

abbrev idx_main_v50 (i : S1x32.Idx) : S32.Idx := fun a => match a with
  | ⟨0, _⟩ => ⟨(i 1).val, (i 1).isLt⟩

theorem val_main_v50_apply (i : S1x32.Idx) :
    val_main_v50 x0 x1 x2 x3 x5 x6 x7 x8 i = val_main_v49 x0 x1 x2 x3 x5 x6 x7 x8 (idx_main_v50 i) := by
  unfold val_main_v50
  generalize val_main_v49 x0 x1 x2 x3 x5 x6 x7 x8 = y
  exact broadcastInDim_apply _ bcast_S32_S1x32_1 y i (idx_main_v50 i) (fun a => match a with
    | ⟨0, _⟩ => by show (i 1).val = if (32 : Nat) = 1 then 0 else (i 1).val; rw [if_neg (by decide)])

def val_main_cst_8 : (⟨S_, .f32⟩ : BufTy).Contents (Elt F) :=
  constant S_ .f32 0x48480000#32

theorem val_main_cst_8_apply (i : S_.Idx) :
    val_main_cst_8 (F := F) i = FloatOps.ofBits .f32 0x48480000#32 := rfl

def val_main_v51 : (⟨S1x32, .f32⟩ : BufTy).Contents (Elt F) :=
  broadcastInDim S1x32 ![] bcast_S_S1x32 (val_main_cst_8 (F := F))

abbrev idx_main_v51 (i : S1x32.Idx) : S_.Idx := fun a => a.elim0

theorem val_main_v51_apply (i : S1x32.Idx) :
    val_main_v51 (F := F) i = val_main_cst_8 (F := F) (idx_main_v51 i) := by
  unfold val_main_v51
  generalize val_main_cst_8 (F := F) = y
  exact broadcastInDim_apply _ bcast_S_S1x32 y i (idx_main_v51 i) (fun a => a.elim0)

def val_main_v52 : (⟨S1x32, .f32⟩ : BufTy).Contents (Elt F) :=
  Host.divf (val_main_v50 x0 x1 x2 x3 x5 x6 x7 x8) (val_main_v51 (F := F))

theorem val_main_v52_apply (i : S1x32.Idx) :
    val_main_v52 x0 x1 x2 x3 x5 x6 x7 x8 i = FloatOps.hostDivf (val_main_v50 x0 x1 x2 x3 x5 x6 x7 x8 i) (val_main_v51 (F := F) i) := rfl

def val_main_v53 : (⟨S204800x32, .f32⟩ : BufTy).Contents (Elt F) :=
  broadcastInDim S204800x32 ![0, 1] bcast_S1x32_S204800x32_0_1 (val_main_v52 x0 x1 x2 x3 x5 x6 x7 x8)

abbrev idx_main_v53 (i : S204800x32.Idx) : S1x32.Idx := fun a => match a with
  | ⟨0, _⟩ => ⟨0, Nat.one_pos⟩
  | ⟨1, _⟩ => ⟨(i 1).val, (i 1).isLt⟩

theorem val_main_v53_apply (i : S204800x32.Idx) :
    val_main_v53 x0 x1 x2 x3 x5 x6 x7 x8 i = val_main_v52 x0 x1 x2 x3 x5 x6 x7 x8 (idx_main_v53 i) := by
  unfold val_main_v53
  generalize val_main_v52 x0 x1 x2 x3 x5 x6 x7 x8 = y
  exact broadcastInDim_apply _ bcast_S1x32_S204800x32_0_1 y i (idx_main_v53 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

def val_main_v54 : (⟨S204800x32, .f32⟩ : BufTy).Contents (Elt F) :=
  subf (val_main_v48 x0 x1 x2 x3 x5 x6 x7 x8) (val_main_v53 x0 x1 x2 x3 x5 x6 x7 x8)

theorem val_main_v54_apply (i : S204800x32.Idx) :
    val_main_v54 x0 x1 x2 x3 x5 x6 x7 x8 i = FloatOps.subf (val_main_v48 x0 x1 x2 x3 x5 x6 x7 x8 i) (val_main_v53 x0 x1 x2 x3 x5 x6 x7 x8 i) := rfl

def val_main_v55 : (⟨S204800x32, .f32⟩ : BufTy).Contents (Elt F) :=
  mulf (val_main_v54 x0 x1 x2 x3 x5 x6 x7 x8) (val_main_v54 x0 x1 x2 x3 x5 x6 x7 x8)

theorem val_main_v55_apply (i : S204800x32.Idx) :
    val_main_v55 x0 x1 x2 x3 x5 x6 x7 x8 i = FloatOps.mulf (val_main_v54 x0 x1 x2 x3 x5 x6 x7 x8 i) (val_main_v54 x0 x1 x2 x3 x5 x6 x7 x8 i) := rfl

def val_main_cst_9 : (⟨S_, .f32⟩ : BufTy).Contents (Elt F) :=
  constant S_ .f32 0x00000000#32

theorem val_main_cst_9_apply (i : S_.Idx) :
    val_main_cst_9 (F := F) i = FloatOps.ofBits .f32 0x00000000#32 := rfl

def val_main_v56 : (⟨S32, .f32⟩ : BufTy).Contents (Elt F) :=
  Host.reduceAdd (val_main_v55 x0 x1 x2 x3 x5 x6 x7 x8) (val_main_cst_9 (F := F)) reducesTo_S204800x32_S32_d0 h_S_

abbrev idx_main_v56 (i : S32.Idx) (k : Fin 204800) : S204800x32.Idx := fun a => match a with
  | ⟨0, _⟩ => ⟨k.val, k.isLt⟩
  | ⟨1, _⟩ => ⟨(i 0).val, (i 0).isLt⟩

theorem val_main_v56_apply (i : S32.Idx) :
    val_main_v56 z0 z1 z2 z3 z5 z6 z7 z8 i = (val_main_cst_9 (F := Ideal)) (Shape.Idx.first h_S_) + ∑ k : Fin 204800, (val_main_v55 z0 z1 z2 z3 z5 z6 z7 z8) (idx_main_v56 i k) := by
  unfold val_main_v56
  generalize val_main_v55 z0 z1 z2 z3 z5 z6 z7 z8 = y0
  simp only [Host.reduceAdd, Ideal.hostReduceAdd_def]
  rw [Ideal.hostReduceAdd_single reducesTo_S204800x32_S32_d0 (by decide)]
  refine congrArg (_ + ·) (Finset.sum_congr rfl fun k _ => ?_)
  exact congrArg y0 (funext fun a => Fin.ext (by match a with | ⟨0, _⟩ => rfl | ⟨1, _⟩ => rfl))

def val_main_v57 : (⟨S1x32, .f32⟩ : BufTy).Contents (Elt F) :=
  broadcastInDim S1x32 ![1] bcast_S32_S1x32_1 (val_main_v56 x0 x1 x2 x3 x5 x6 x7 x8)

abbrev idx_main_v57 (i : S1x32.Idx) : S32.Idx := fun a => match a with
  | ⟨0, _⟩ => ⟨(i 1).val, (i 1).isLt⟩

theorem val_main_v57_apply (i : S1x32.Idx) :
    val_main_v57 x0 x1 x2 x3 x5 x6 x7 x8 i = val_main_v56 x0 x1 x2 x3 x5 x6 x7 x8 (idx_main_v57 i) := by
  unfold val_main_v57
  generalize val_main_v56 x0 x1 x2 x3 x5 x6 x7 x8 = y
  exact broadcastInDim_apply _ bcast_S32_S1x32_1 y i (idx_main_v57 i) (fun a => match a with
    | ⟨0, _⟩ => by show (i 1).val = if (32 : Nat) = 1 then 0 else (i 1).val; rw [if_neg (by decide)])

def val_main_cst_10 : (⟨S_, .f32⟩ : BufTy).Contents (Elt F) :=
  constant S_ .f32 0x48480000#32

theorem val_main_cst_10_apply (i : S_.Idx) :
    val_main_cst_10 (F := F) i = FloatOps.ofBits .f32 0x48480000#32 := rfl

def val_main_v58 : (⟨S1x32, .f32⟩ : BufTy).Contents (Elt F) :=
  broadcastInDim S1x32 ![] bcast_S_S1x32 (val_main_cst_10 (F := F))

abbrev idx_main_v58 (i : S1x32.Idx) : S_.Idx := fun a => a.elim0

theorem val_main_v58_apply (i : S1x32.Idx) :
    val_main_v58 (F := F) i = val_main_cst_10 (F := F) (idx_main_v58 i) := by
  unfold val_main_v58
  generalize val_main_cst_10 (F := F) = y
  exact broadcastInDim_apply _ bcast_S_S1x32 y i (idx_main_v58 i) (fun a => a.elim0)

def val_main_v59 : (⟨S1x32, .f32⟩ : BufTy).Contents (Elt F) :=
  Host.divf (val_main_v57 x0 x1 x2 x3 x5 x6 x7 x8) (val_main_v58 (F := F))

theorem val_main_v59_apply (i : S1x32.Idx) :
    val_main_v59 x0 x1 x2 x3 x5 x6 x7 x8 i = FloatOps.hostDivf (val_main_v57 x0 x1 x2 x3 x5 x6 x7 x8 i) (val_main_v58 (F := F) i) := rfl

def val_main_v60 : (⟨S204800x32, .f32⟩ : BufTy).Contents (Elt F) :=
  broadcastInDim S204800x32 ![0, 1] bcast_S1x32_S204800x32_0_1 (val_main_v52 x0 x1 x2 x3 x5 x6 x7 x8)

abbrev idx_main_v60 (i : S204800x32.Idx) : S1x32.Idx := fun a => match a with
  | ⟨0, _⟩ => ⟨0, Nat.one_pos⟩
  | ⟨1, _⟩ => ⟨(i 1).val, (i 1).isLt⟩

theorem val_main_v60_apply (i : S204800x32.Idx) :
    val_main_v60 x0 x1 x2 x3 x5 x6 x7 x8 i = val_main_v52 x0 x1 x2 x3 x5 x6 x7 x8 (idx_main_v60 i) := by
  unfold val_main_v60
  generalize val_main_v52 x0 x1 x2 x3 x5 x6 x7 x8 = y
  exact broadcastInDim_apply _ bcast_S1x32_S204800x32_0_1 y i (idx_main_v60 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

def val_main_v61 : (⟨S204800x32, .f32⟩ : BufTy).Contents (Elt F) :=
  subf (val_main_v48 x0 x1 x2 x3 x5 x6 x7 x8) (val_main_v60 x0 x1 x2 x3 x5 x6 x7 x8)

theorem val_main_v61_apply (i : S204800x32.Idx) :
    val_main_v61 x0 x1 x2 x3 x5 x6 x7 x8 i = FloatOps.subf (val_main_v48 x0 x1 x2 x3 x5 x6 x7 x8 i) (val_main_v60 x0 x1 x2 x3 x5 x6 x7 x8 i) := rfl

def val_main_cst_11 : (⟨S_, .f32⟩ : BufTy).Contents (Elt F) :=
  constant S_ .f32 0x3089705F#32

theorem val_main_cst_11_apply (i : S_.Idx) :
    val_main_cst_11 (F := F) i = FloatOps.ofBits .f32 0x3089705F#32 := rfl

def val_main_v62 : (⟨S1x32, .f32⟩ : BufTy).Contents (Elt F) :=
  broadcastInDim S1x32 ![] bcast_S_S1x32 (val_main_cst_11 (F := F))

abbrev idx_main_v62 (i : S1x32.Idx) : S_.Idx := fun a => a.elim0

theorem val_main_v62_apply (i : S1x32.Idx) :
    val_main_v62 (F := F) i = val_main_cst_11 (F := F) (idx_main_v62 i) := by
  unfold val_main_v62
  generalize val_main_cst_11 (F := F) = y
  exact broadcastInDim_apply _ bcast_S_S1x32 y i (idx_main_v62 i) (fun a => a.elim0)

def val_main_v63 : (⟨S1x32, .f32⟩ : BufTy).Contents (Elt F) :=
  addf (val_main_v59 x0 x1 x2 x3 x5 x6 x7 x8) (val_main_v62 (F := F))

theorem val_main_v63_apply (i : S1x32.Idx) :
    val_main_v63 x0 x1 x2 x3 x5 x6 x7 x8 i = FloatOps.addf (val_main_v59 x0 x1 x2 x3 x5 x6 x7 x8 i) (val_main_v62 (F := F) i) := rfl

def val_main_v64 : (⟨S1x32, .f32⟩ : BufTy).Contents (Elt F) :=
  Host.rsqrt (val_main_v63 x0 x1 x2 x3 x5 x6 x7 x8)

theorem val_main_v64_apply (i : S1x32.Idx) :
    val_main_v64 x0 x1 x2 x3 x5 x6 x7 x8 i = FloatOps.hostUnary .rsqrt (val_main_v63 x0 x1 x2 x3 x5 x6 x7 x8 i) := rfl

def val_main_v65 : (⟨S204800x32, .f32⟩ : BufTy).Contents (Elt F) :=
  broadcastInDim S204800x32 ![0, 1] bcast_S1x32_S204800x32_0_1 (val_main_v64 x0 x1 x2 x3 x5 x6 x7 x8)

abbrev idx_main_v65 (i : S204800x32.Idx) : S1x32.Idx := fun a => match a with
  | ⟨0, _⟩ => ⟨0, Nat.one_pos⟩
  | ⟨1, _⟩ => ⟨(i 1).val, (i 1).isLt⟩

theorem val_main_v65_apply (i : S204800x32.Idx) :
    val_main_v65 x0 x1 x2 x3 x5 x6 x7 x8 i = val_main_v64 x0 x1 x2 x3 x5 x6 x7 x8 (idx_main_v65 i) := by
  unfold val_main_v65
  generalize val_main_v64 x0 x1 x2 x3 x5 x6 x7 x8 = y
  exact broadcastInDim_apply _ bcast_S1x32_S204800x32_0_1 y i (idx_main_v65 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

def val_main_v66 : (⟨S204800x32, .f32⟩ : BufTy).Contents (Elt F) :=
  mulf (val_main_v61 x0 x1 x2 x3 x5 x6 x7 x8) (val_main_v65 x0 x1 x2 x3 x5 x6 x7 x8)

theorem val_main_v66_apply (i : S204800x32.Idx) :
    val_main_v66 x0 x1 x2 x3 x5 x6 x7 x8 i = FloatOps.mulf (val_main_v61 x0 x1 x2 x3 x5 x6 x7 x8 i) (val_main_v65 x0 x1 x2 x3 x5 x6 x7 x8 i) := rfl

def val_main_v67 : (⟨S204800x32, .f32⟩ : BufTy).Contents (Elt F) :=
  Host.negf (val_main_v66 x0 x1 x2 x3 x5 x6 x7 x8)

theorem val_main_v67_apply (i : S204800x32.Idx) :
    val_main_v67 x0 x1 x2 x3 x5 x6 x7 x8 i = FloatOps.hostNegf (val_main_v66 x0 x1 x2 x3 x5 x6 x7 x8 i) := rfl

def val_main_v68 : (⟨S204800x32, .f32⟩ : BufTy).Contents (Elt F) :=
  Host.exp (val_main_v67 x0 x1 x2 x3 x5 x6 x7 x8)

theorem val_main_v68_apply (i : S204800x32.Idx) :
    val_main_v68 x0 x1 x2 x3 x5 x6 x7 x8 i = FloatOps.hostUnary .exp (val_main_v67 x0 x1 x2 x3 x5 x6 x7 x8 i) := rfl

def val_main_cst_12 : (⟨S_, .f32⟩ : BufTy).Contents (Elt F) :=
  constant S_ .f32 0x3F800000#32

theorem val_main_cst_12_apply (i : S_.Idx) :
    val_main_cst_12 (F := F) i = FloatOps.ofBits .f32 0x3F800000#32 := rfl

def val_main_v69 : (⟨S204800x32, .f32⟩ : BufTy).Contents (Elt F) :=
  broadcastInDim S204800x32 ![] bcast_S_S204800x32 (val_main_cst_12 (F := F))

abbrev idx_main_v69 (i : S204800x32.Idx) : S_.Idx := fun a => a.elim0

theorem val_main_v69_apply (i : S204800x32.Idx) :
    val_main_v69 (F := F) i = val_main_cst_12 (F := F) (idx_main_v69 i) := by
  unfold val_main_v69
  generalize val_main_cst_12 (F := F) = y
  exact broadcastInDim_apply _ bcast_S_S204800x32 y i (idx_main_v69 i) (fun a => a.elim0)

def val_main_v70 : (⟨S204800x32, .f32⟩ : BufTy).Contents (Elt F) :=
  addf (val_main_v69 (F := F)) (val_main_v68 x0 x1 x2 x3 x5 x6 x7 x8)

theorem val_main_v70_apply (i : S204800x32.Idx) :
    val_main_v70 x0 x1 x2 x3 x5 x6 x7 x8 i = FloatOps.addf (val_main_v69 (F := F) i) (val_main_v68 x0 x1 x2 x3 x5 x6 x7 x8 i) := rfl

def val_main_cst_13 : (⟨S_, .f32⟩ : BufTy).Contents (Elt F) :=
  constant S_ .f32 0x3F800000#32

theorem val_main_cst_13_apply (i : S_.Idx) :
    val_main_cst_13 (F := F) i = FloatOps.ofBits .f32 0x3F800000#32 := rfl

def val_main_v71 : (⟨S204800x32, .f32⟩ : BufTy).Contents (Elt F) :=
  broadcastInDim S204800x32 ![] bcast_S_S204800x32 (val_main_cst_13 (F := F))

abbrev idx_main_v71 (i : S204800x32.Idx) : S_.Idx := fun a => a.elim0

theorem val_main_v71_apply (i : S204800x32.Idx) :
    val_main_v71 (F := F) i = val_main_cst_13 (F := F) (idx_main_v71 i) := by
  unfold val_main_v71
  generalize val_main_cst_13 (F := F) = y
  exact broadcastInDim_apply _ bcast_S_S204800x32 y i (idx_main_v71 i) (fun a => a.elim0)

def val_main_v72 : (⟨S204800x32, .f32⟩ : BufTy).Contents (Elt F) :=
  Host.divf (val_main_v71 (F := F)) (val_main_v70 x0 x1 x2 x3 x5 x6 x7 x8)

theorem val_main_v72_apply (i : S204800x32.Idx) :
    val_main_v72 x0 x1 x2 x3 x5 x6 x7 x8 i = FloatOps.hostDivf (val_main_v71 (F := F) i) (val_main_v70 x0 x1 x2 x3 x5 x6 x7 x8 i) := rfl

def val_main_v73 : (⟨S204800x32, .f32⟩ : BufTy).Contents (Elt F) :=
  mulf (val_main_v72 x0 x1 x2 x3 x5 x6 x7 x8) (val_main_v48 x0 x1 x2 x3 x5 x6 x7 x8)

theorem val_main_v73_apply (i : S204800x32.Idx) :
    val_main_v73 x0 x1 x2 x3 x5 x6 x7 x8 i = FloatOps.mulf (val_main_v72 x0 x1 x2 x3 x5 x6 x7 x8 i) (val_main_v48 x0 x1 x2 x3 x5 x6 x7 x8 i) := rfl

def val_main_cst_14 : (⟨S_, .f32⟩ : BufTy).Contents (Elt F) :=
  constant S_ .f32 0x3F800000#32

theorem val_main_cst_14_apply (i : S_.Idx) :
    val_main_cst_14 (F := F) i = FloatOps.ofBits .f32 0x3F800000#32 := rfl

def val_main_v74 : (⟨S204800x32, .f32⟩ : BufTy).Contents (Elt F) :=
  broadcastInDim S204800x32 ![] bcast_S_S204800x32 (val_main_cst_14 (F := F))

abbrev idx_main_v74 (i : S204800x32.Idx) : S_.Idx := fun a => a.elim0

theorem val_main_v74_apply (i : S204800x32.Idx) :
    val_main_v74 (F := F) i = val_main_cst_14 (F := F) (idx_main_v74 i) := by
  unfold val_main_v74
  generalize val_main_cst_14 (F := F) = y
  exact broadcastInDim_apply _ bcast_S_S204800x32 y i (idx_main_v74 i) (fun a => a.elim0)

def val_main_v75 : (⟨S204800x32, .f32⟩ : BufTy).Contents (Elt F) :=
  subf (val_main_v74 (F := F)) (val_main_v72 x0 x1 x2 x3 x5 x6 x7 x8)

theorem val_main_v75_apply (i : S204800x32.Idx) :
    val_main_v75 x0 x1 x2 x3 x5 x6 x7 x8 i = FloatOps.subf (val_main_v74 (F := F) i) (val_main_v72 x0 x1 x2 x3 x5 x6 x7 x8 i) := rfl

def val_main_v76 : (⟨S1x32, .f32⟩ : BufTy).Contents (Elt F) :=
  broadcastInDim S1x32 ![1] bcast_S32_S1x32_1 (x9)

abbrev idx_main_v76 (i : S1x32.Idx) : S32.Idx := fun a => match a with
  | ⟨0, _⟩ => ⟨(i 1).val, (i 1).isLt⟩

theorem val_main_v76_apply (i : S1x32.Idx) :
    val_main_v76 x9 i = x9 (idx_main_v76 i) := by
  unfold val_main_v76
  exact broadcastInDim_apply _ bcast_S32_S1x32_1 x9 i (idx_main_v76 i) (fun a => match a with
    | ⟨0, _⟩ => by show (i 1).val = if (32 : Nat) = 1 then 0 else (i 1).val; rw [if_neg (by decide)])

def val_main_v77 : (⟨S204800x32, .f32⟩ : BufTy).Contents (Elt F) :=
  broadcastInDim S204800x32 ![0, 1] bcast_S1x32_S204800x32_0_1 (val_main_v76 x9)

abbrev idx_main_v77 (i : S204800x32.Idx) : S1x32.Idx := fun a => match a with
  | ⟨0, _⟩ => ⟨0, Nat.one_pos⟩
  | ⟨1, _⟩ => ⟨(i 1).val, (i 1).isLt⟩

theorem val_main_v77_apply (i : S204800x32.Idx) :
    val_main_v77 x9 i = val_main_v76 x9 (idx_main_v77 i) := by
  unfold val_main_v77
  generalize val_main_v76 x9 = y
  exact broadcastInDim_apply _ bcast_S1x32_S204800x32_0_1 y i (idx_main_v77 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

def val_main_v78 : (⟨S204800x32, .f32⟩ : BufTy).Contents (Elt F) :=
  mulf (val_main_v77 x9) (val_main_v75 x0 x1 x2 x3 x5 x6 x7 x8)

theorem val_main_v78_apply (i : S204800x32.Idx) :
    val_main_v78 x0 x1 x2 x3 x5 x6 x7 x8 x9 i = FloatOps.mulf (val_main_v77 x9 i) (val_main_v75 x0 x1 x2 x3 x5 x6 x7 x8 i) := rfl

def val_main_v79 : (⟨S204800x32, .f32⟩ : BufTy).Contents (Elt F) :=
  mulf (val_main_v78 x0 x1 x2 x3 x5 x6 x7 x8 x9) (val_main_v48 x0 x1 x2 x3 x5 x6 x7 x8)

theorem val_main_v79_apply (i : S204800x32.Idx) :
    val_main_v79 x0 x1 x2 x3 x5 x6 x7 x8 x9 i = FloatOps.mulf (val_main_v78 x0 x1 x2 x3 x5 x6 x7 x8 x9 i) (val_main_v48 x0 x1 x2 x3 x5 x6 x7 x8 i) := rfl

def val_main_v80 : (⟨S204800x32, .f32⟩ : BufTy).Contents (Elt F) :=
  addf (val_main_v73 x0 x1 x2 x3 x5 x6 x7 x8) (val_main_v79 x0 x1 x2 x3 x5 x6 x7 x8 x9)

theorem val_main_v80_apply (i : S204800x32.Idx) :
    val_main_v80 x0 x1 x2 x3 x5 x6 x7 x8 x9 i = FloatOps.addf (val_main_v73 x0 x1 x2 x3 x5 x6 x7 x8 i) (val_main_v79 x0 x1 x2 x3 x5 x6 x7 x8 x9 i) := rfl

def val_main_v81 : (⟨S32x16, .f32⟩ : BufTy).Contents (Elt F) :=
  transpose S32x16 [1, 0] (x10) transposes_S16x32_S32x16_1_0

abbrev idx_main_v81 (i : S32x16.Idx) : S16x32.Idx := fun a => match a with
  | ⟨0, _⟩ => ⟨(i 1).val, (i 1).isLt⟩
  | ⟨1, _⟩ => ⟨(i 0).val, (i 0).isLt⟩

theorem val_main_v81_apply (i : S32x16.Idx) :
    val_main_v81 x10 i = x10 (idx_main_v81 i) := by
  unfold val_main_v81
  exact transpose_apply [1, 0] x10 transposes_S16x32_S32x16_1_0 i (idx_main_v81 i) (fun b => match b with
    | ⟨0, _⟩ => rfl
    | ⟨1, _⟩ => rfl)

def val_main_v82 : (⟨S204800x16, .f32⟩ : BufTy).Contents (Elt F) :=
  Host.dotGeneral dot_S204800x32_S32x16_S204800x16_1_0_0_1_n_n none (val_main_v80 x0 x1 x2 x3 x5 x6 x7 x8 x9) (val_main_v81 x10)

theorem lhs_main_v82_0 (i : S204800x16.Idx) (q : dot_S204800x32_S32x16_S204800x16_1_0_0_1_n_n.contr.Idx) :
    (dot_S204800x32_S32x16_S204800x16_1_0_0_1_n_n.lhsIdx i q 0).val = (i 0).val := by
  unfold DotDims.lhsIdx
  rw [dif_neg (show ¬(0 : Fin S204800x32.rank) ∈ dot_S204800x32_S32x16_S204800x16_1_0_0_1_n_n.lhsBatch by decide), dif_pos (show (0 : Fin S204800x32.rank) ∈ dot_S204800x32_S32x16_S204800x16_1_0_0_1_n_n.lhsNonContracting by decide)]
  rfl

theorem lhs_main_v82_1 (i : S204800x16.Idx) (q : dot_S204800x32_S32x16_S204800x16_1_0_0_1_n_n.contr.Idx) :
    (dot_S204800x32_S32x16_S204800x16_1_0_0_1_n_n.lhsIdx i q 1).val = (q ⟨0, by decide⟩).val :=
  dot_S204800x32_S32x16_S204800x16_1_0_0_1_n_n.lhsIdx_val_of_single rfl i q

theorem rhs_main_v82_0 (i : S204800x16.Idx) (q : dot_S204800x32_S32x16_S204800x16_1_0_0_1_n_n.contr.Idx) :
    (dot_S204800x32_S32x16_S204800x16_1_0_0_1_n_n.rhsIdx i q 0).val = (q ⟨0, by decide⟩).val :=
  dot_S204800x32_S32x16_S204800x16_1_0_0_1_n_n.rhsIdx_val_of_single rfl i q

theorem rhs_main_v82_1 (i : S204800x16.Idx) (q : dot_S204800x32_S32x16_S204800x16_1_0_0_1_n_n.contr.Idx) :
    (dot_S204800x32_S32x16_S204800x16_1_0_0_1_n_n.rhsIdx i q 1).val = (i 1).val := by
  unfold DotDims.rhsIdx
  rw [dif_neg (show ¬(1 : Fin S32x16.rank) ∈ dot_S204800x32_S32x16_S204800x16_1_0_0_1_n_n.rhsBatch by decide), dif_pos (show (1 : Fin S32x16.rank) ∈ dot_S204800x32_S32x16_S204800x16_1_0_0_1_n_n.rhsNonContracting by decide)]
  rfl

abbrev lidx_main_v82 (i : S204800x16.Idx) (k : Fin 32) : S204800x32.Idx := fun a => match a with
  | ⟨0, _⟩ => ⟨(i 0).val, (i 0).isLt⟩
  | ⟨1, _⟩ => ⟨k.val, k.isLt⟩

abbrev ridx_main_v82 (i : S204800x16.Idx) (k : Fin 32) : S32x16.Idx := fun a => match a with
  | ⟨0, _⟩ => ⟨k.val, k.isLt⟩
  | ⟨1, _⟩ => ⟨(i 1).val, (i 1).isLt⟩

theorem val_main_v82_apply (i : S204800x16.Idx) :
    val_main_v82 z0 z1 z2 z3 z5 z6 z7 z8 z9 z10 i = ∑ k : Fin 32, (val_main_v80 z0 z1 z2 z3 z5 z6 z7 z8 z9) (lidx_main_v82 i k) * (val_main_v81 z10) (ridx_main_v82 i k) := by
  unfold val_main_v82
  generalize val_main_v80 z0 z1 z2 z3 z5 z6 z7 z8 z9 = y0
  generalize val_main_v81 z10 = y1
  simp only [Host.dotGeneral]
  rw [Ideal.dotGeneral_apply, ← Equiv.sum_comp (ValueIdx.contrEquiv1 dot_S204800x32_S32x16_S204800x16_1_0_0_1_n_n 32 rfl rfl).symm]
  refine Finset.sum_congr rfl fun k _ => ?_
  have hk := ValueIdx.contrEquiv1_symm_val dot_S204800x32_S32x16_S204800x16_1_0_0_1_n_n 32 rfl rfl k
  have el : dot_S204800x32_S32x16_S204800x16_1_0_0_1_n_n.lhsIdx i ((ValueIdx.contrEquiv1 dot_S204800x32_S32x16_S204800x16_1_0_0_1_n_n 32 rfl rfl).symm k) = lidx_main_v82 i k := funext fun a => Fin.ext (by
    match a with
    | ⟨0, _⟩ => exact lhs_main_v82_0 _ _
    | ⟨1, _⟩ => exact (lhs_main_v82_1 _ _).trans hk)
  have er : dot_S204800x32_S32x16_S204800x16_1_0_0_1_n_n.rhsIdx i ((ValueIdx.contrEquiv1 dot_S204800x32_S32x16_S204800x16_1_0_0_1_n_n 32 rfl rfl).symm k) = ridx_main_v82 i k := funext fun a => Fin.ext (by
    match a with
    | ⟨0, _⟩ => exact (rhs_main_v82_0 _ _).trans hk
    | ⟨1, _⟩ => exact rhs_main_v82_1 _ _)
  rw [el, er]

def val_main_v83 : (⟨S1x16, .f32⟩ : BufTy).Contents (Elt F) :=
  broadcastInDim S1x16 ![1] bcast_S16_S1x16_1 (x11)

abbrev idx_main_v83 (i : S1x16.Idx) : S16.Idx := fun a => match a with
  | ⟨0, _⟩ => ⟨(i 1).val, (i 1).isLt⟩

theorem val_main_v83_apply (i : S1x16.Idx) :
    val_main_v83 x11 i = x11 (idx_main_v83 i) := by
  unfold val_main_v83
  exact broadcastInDim_apply _ bcast_S16_S1x16_1 x11 i (idx_main_v83 i) (fun a => match a with
    | ⟨0, _⟩ => by show (i 1).val = if (16 : Nat) = 1 then 0 else (i 1).val; rw [if_neg (by decide)])

def val_main_v84 : (⟨S204800x16, .f32⟩ : BufTy).Contents (Elt F) :=
  broadcastInDim S204800x16 ![0, 1] bcast_S1x16_S204800x16_0_1 (val_main_v83 x11)

abbrev idx_main_v84 (i : S204800x16.Idx) : S1x16.Idx := fun a => match a with
  | ⟨0, _⟩ => ⟨0, Nat.one_pos⟩
  | ⟨1, _⟩ => ⟨(i 1).val, (i 1).isLt⟩

theorem val_main_v84_apply (i : S204800x16.Idx) :
    val_main_v84 x11 i = val_main_v83 x11 (idx_main_v84 i) := by
  unfold val_main_v84
  generalize val_main_v83 x11 = y
  exact broadcastInDim_apply _ bcast_S1x16_S204800x16_0_1 y i (idx_main_v84 i) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])

def val_main_v85 : (⟨S204800x16, .f32⟩ : BufTy).Contents (Elt F) :=
  addf (val_main_v82 x0 x1 x2 x3 x5 x6 x7 x8 x9 x10) (val_main_v84 x11)

theorem val_main_v85_apply (i : S204800x16.Idx) :
    val_main_v85 x0 x1 x2 x3 x5 x6 x7 x8 x9 x10 x11 i = FloatOps.addf (val_main_v82 x0 x1 x2 x3 x5 x6 x7 x8 x9 x10 i) (val_main_v84 x11 i) := rfl

def val_main_cst_15 : (⟨S_, .f32⟩ : BufTy).Contents (Elt F) :=
  constant S_ .f32 0x00000000#32

theorem val_main_cst_15_apply (i : S_.Idx) :
    val_main_cst_15 (F := F) i = FloatOps.ofBits .f32 0x00000000#32 := rfl

def val_main_v86 : (⟨S16, .f32⟩ : BufTy).Contents (Elt F) :=
  Host.reduceAdd (val_main_v85 x0 x1 x2 x3 x5 x6 x7 x8 x9 x10 x11) (val_main_cst_15 (F := F)) reducesTo_S204800x16_S16_d0 h_S_

abbrev idx_main_v86 (i : S16.Idx) (k : Fin 204800) : S204800x16.Idx := fun a => match a with
  | ⟨0, _⟩ => ⟨k.val, k.isLt⟩
  | ⟨1, _⟩ => ⟨(i 0).val, (i 0).isLt⟩

theorem val_main_v86_apply (i : S16.Idx) :
    val_main_v86 z0 z1 z2 z3 z5 z6 z7 z8 z9 z10 z11 i = (val_main_cst_15 (F := Ideal)) (Shape.Idx.first h_S_) + ∑ k : Fin 204800, (val_main_v85 z0 z1 z2 z3 z5 z6 z7 z8 z9 z10 z11) (idx_main_v86 i k) := by
  unfold val_main_v86
  generalize val_main_v85 z0 z1 z2 z3 z5 z6 z7 z8 z9 z10 z11 = y0
  simp only [Host.reduceAdd, Ideal.hostReduceAdd_def]
  rw [Ideal.hostReduceAdd_single reducesTo_S204800x16_S16_d0 (by decide)]
  refine congrArg (_ + ·) (Finset.sum_congr rfl fun k _ => ?_)
  exact congrArg y0 (funext fun a => Fin.ext (by match a with | ⟨0, _⟩ => rfl | ⟨1, _⟩ => rfl))

def val_main_v87 : (⟨S1x16, .f32⟩ : BufTy).Contents (Elt F) :=
  broadcastInDim S1x16 ![1] bcast_S16_S1x16_1 (val_main_v86 x0 x1 x2 x3 x5 x6 x7 x8 x9 x10 x11)

abbrev idx_main_v87 (i : S1x16.Idx) : S16.Idx := fun a => match a with
  | ⟨0, _⟩ => ⟨(i 1).val, (i 1).isLt⟩

theorem val_main_v87_apply (i : S1x16.Idx) :
    val_main_v87 x0 x1 x2 x3 x5 x6 x7 x8 x9 x10 x11 i = val_main_v86 x0 x1 x2 x3 x5 x6 x7 x8 x9 x10 x11 (idx_main_v87 i) := by
  unfold val_main_v87
  generalize val_main_v86 x0 x1 x2 x3 x5 x6 x7 x8 x9 x10 x11 = y
  exact broadcastInDim_apply _ bcast_S16_S1x16_1 y i (idx_main_v87 i) (fun a => match a with
    | ⟨0, _⟩ => by show (i 1).val = if (16 : Nat) = 1 then 0 else (i 1).val; rw [if_neg (by decide)])

def val_main_cst_16 : (⟨S_, .f32⟩ : BufTy).Contents (Elt F) :=
  constant S_ .f32 0x48480000#32

theorem val_main_cst_16_apply (i : S_.Idx) :
    val_main_cst_16 (F := F) i = FloatOps.ofBits .f32 0x48480000#32 := rfl

def val_main_v88 : (⟨S1x16, .f32⟩ : BufTy).Contents (Elt F) :=
  broadcastInDim S1x16 ![] bcast_S_S1x16 (val_main_cst_16 (F := F))

abbrev idx_main_v88 (i : S1x16.Idx) : S_.Idx := fun a => a.elim0

theorem val_main_v88_apply (i : S1x16.Idx) :
    val_main_v88 (F := F) i = val_main_cst_16 (F := F) (idx_main_v88 i) := by
  unfold val_main_v88
  generalize val_main_cst_16 (F := F) = y
  exact broadcastInDim_apply _ bcast_S_S1x16 y i (idx_main_v88 i) (fun a => a.elim0)

def val_main_v89 : (⟨S1x16, .f32⟩ : BufTy).Contents (Elt F) :=
  Host.divf (val_main_v87 x0 x1 x2 x3 x5 x6 x7 x8 x9 x10 x11) (val_main_v88 (F := F))

theorem val_main_v89_apply (i : S1x16.Idx) :
    val_main_v89 x0 x1 x2 x3 x5 x6 x7 x8 x9 x10 x11 i = FloatOps.hostDivf (val_main_v87 x0 x1 x2 x3 x5 x6 x7 x8 x9 x10 x11 i) (val_main_v88 (F := F) i) := rfl

def val_main_v90 : (⟨S204800x16, .f32⟩ : BufTy).Contents (Elt F) :=
  broadcastInDim S204800x16 ![0, 1] bcast_S1x16_S204800x16_0_1 (val_main_v89 x0 x1 x2 x3 x5 x6 x7 x8 x9 x10 x11)

abbrev idx_main_v90 (i : S204800x16.Idx) : S1x16.Idx := fun a => match a with
  | ⟨0, _⟩ => ⟨0, Nat.one_pos⟩
  | ⟨1, _⟩ => ⟨(i 1).val, (i 1).isLt⟩

theorem val_main_v90_apply (i : S204800x16.Idx) :
    val_main_v90 x0 x1 x2 x3 x5 x6 x7 x8 x9 x10 x11 i = val_main_v89 x0 x1 x2 x3 x5 x6 x7 x8 x9 x10 x11 (idx_main_v90 i) := by
  unfold val_main_v90
  generalize val_main_v89 x0 x1 x2 x3 x5 x6 x7 x8 x9 x10 x11 = y
  exact broadcastInDim_apply _ bcast_S1x16_S204800x16_0_1 y i (idx_main_v90 i) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])

def val_main_v91 : (⟨S204800x16, .f32⟩ : BufTy).Contents (Elt F) :=
  subf (val_main_v85 x0 x1 x2 x3 x5 x6 x7 x8 x9 x10 x11) (val_main_v90 x0 x1 x2 x3 x5 x6 x7 x8 x9 x10 x11)

theorem val_main_v91_apply (i : S204800x16.Idx) :
    val_main_v91 x0 x1 x2 x3 x5 x6 x7 x8 x9 x10 x11 i = FloatOps.subf (val_main_v85 x0 x1 x2 x3 x5 x6 x7 x8 x9 x10 x11 i) (val_main_v90 x0 x1 x2 x3 x5 x6 x7 x8 x9 x10 x11 i) := rfl

def val_main_v92 : (⟨S204800x16, .f32⟩ : BufTy).Contents (Elt F) :=
  mulf (val_main_v91 x0 x1 x2 x3 x5 x6 x7 x8 x9 x10 x11) (val_main_v91 x0 x1 x2 x3 x5 x6 x7 x8 x9 x10 x11)

theorem val_main_v92_apply (i : S204800x16.Idx) :
    val_main_v92 x0 x1 x2 x3 x5 x6 x7 x8 x9 x10 x11 i = FloatOps.mulf (val_main_v91 x0 x1 x2 x3 x5 x6 x7 x8 x9 x10 x11 i) (val_main_v91 x0 x1 x2 x3 x5 x6 x7 x8 x9 x10 x11 i) := rfl

def val_main_cst_17 : (⟨S_, .f32⟩ : BufTy).Contents (Elt F) :=
  constant S_ .f32 0x00000000#32

theorem val_main_cst_17_apply (i : S_.Idx) :
    val_main_cst_17 (F := F) i = FloatOps.ofBits .f32 0x00000000#32 := rfl

def val_main_v93 : (⟨S16, .f32⟩ : BufTy).Contents (Elt F) :=
  Host.reduceAdd (val_main_v92 x0 x1 x2 x3 x5 x6 x7 x8 x9 x10 x11) (val_main_cst_17 (F := F)) reducesTo_S204800x16_S16_d0 h_S_

abbrev idx_main_v93 (i : S16.Idx) (k : Fin 204800) : S204800x16.Idx := fun a => match a with
  | ⟨0, _⟩ => ⟨k.val, k.isLt⟩
  | ⟨1, _⟩ => ⟨(i 0).val, (i 0).isLt⟩

theorem val_main_v93_apply (i : S16.Idx) :
    val_main_v93 z0 z1 z2 z3 z5 z6 z7 z8 z9 z10 z11 i = (val_main_cst_17 (F := Ideal)) (Shape.Idx.first h_S_) + ∑ k : Fin 204800, (val_main_v92 z0 z1 z2 z3 z5 z6 z7 z8 z9 z10 z11) (idx_main_v93 i k) := by
  unfold val_main_v93
  generalize val_main_v92 z0 z1 z2 z3 z5 z6 z7 z8 z9 z10 z11 = y0
  simp only [Host.reduceAdd, Ideal.hostReduceAdd_def]
  rw [Ideal.hostReduceAdd_single reducesTo_S204800x16_S16_d0 (by decide)]
  refine congrArg (_ + ·) (Finset.sum_congr rfl fun k _ => ?_)
  exact congrArg y0 (funext fun a => Fin.ext (by match a with | ⟨0, _⟩ => rfl | ⟨1, _⟩ => rfl))

def val_main_v94 : (⟨S1x16, .f32⟩ : BufTy).Contents (Elt F) :=
  broadcastInDim S1x16 ![1] bcast_S16_S1x16_1 (val_main_v93 x0 x1 x2 x3 x5 x6 x7 x8 x9 x10 x11)

abbrev idx_main_v94 (i : S1x16.Idx) : S16.Idx := fun a => match a with
  | ⟨0, _⟩ => ⟨(i 1).val, (i 1).isLt⟩

theorem val_main_v94_apply (i : S1x16.Idx) :
    val_main_v94 x0 x1 x2 x3 x5 x6 x7 x8 x9 x10 x11 i = val_main_v93 x0 x1 x2 x3 x5 x6 x7 x8 x9 x10 x11 (idx_main_v94 i) := by
  unfold val_main_v94
  generalize val_main_v93 x0 x1 x2 x3 x5 x6 x7 x8 x9 x10 x11 = y
  exact broadcastInDim_apply _ bcast_S16_S1x16_1 y i (idx_main_v94 i) (fun a => match a with
    | ⟨0, _⟩ => by show (i 1).val = if (16 : Nat) = 1 then 0 else (i 1).val; rw [if_neg (by decide)])

def val_main_cst_18 : (⟨S_, .f32⟩ : BufTy).Contents (Elt F) :=
  constant S_ .f32 0x48480000#32

theorem val_main_cst_18_apply (i : S_.Idx) :
    val_main_cst_18 (F := F) i = FloatOps.ofBits .f32 0x48480000#32 := rfl

def val_main_v95 : (⟨S1x16, .f32⟩ : BufTy).Contents (Elt F) :=
  broadcastInDim S1x16 ![] bcast_S_S1x16 (val_main_cst_18 (F := F))

abbrev idx_main_v95 (i : S1x16.Idx) : S_.Idx := fun a => a.elim0

theorem val_main_v95_apply (i : S1x16.Idx) :
    val_main_v95 (F := F) i = val_main_cst_18 (F := F) (idx_main_v95 i) := by
  unfold val_main_v95
  generalize val_main_cst_18 (F := F) = y
  exact broadcastInDim_apply _ bcast_S_S1x16 y i (idx_main_v95 i) (fun a => a.elim0)

def val_main_v96 : (⟨S1x16, .f32⟩ : BufTy).Contents (Elt F) :=
  Host.divf (val_main_v94 x0 x1 x2 x3 x5 x6 x7 x8 x9 x10 x11) (val_main_v95 (F := F))

theorem val_main_v96_apply (i : S1x16.Idx) :
    val_main_v96 x0 x1 x2 x3 x5 x6 x7 x8 x9 x10 x11 i = FloatOps.hostDivf (val_main_v94 x0 x1 x2 x3 x5 x6 x7 x8 x9 x10 x11 i) (val_main_v95 (F := F) i) := rfl

def val_main_v97 : (⟨S204800x16, .f32⟩ : BufTy).Contents (Elt F) :=
  broadcastInDim S204800x16 ![0, 1] bcast_S1x16_S204800x16_0_1 (val_main_v89 x0 x1 x2 x3 x5 x6 x7 x8 x9 x10 x11)

abbrev idx_main_v97 (i : S204800x16.Idx) : S1x16.Idx := fun a => match a with
  | ⟨0, _⟩ => ⟨0, Nat.one_pos⟩
  | ⟨1, _⟩ => ⟨(i 1).val, (i 1).isLt⟩

theorem val_main_v97_apply (i : S204800x16.Idx) :
    val_main_v97 x0 x1 x2 x3 x5 x6 x7 x8 x9 x10 x11 i = val_main_v89 x0 x1 x2 x3 x5 x6 x7 x8 x9 x10 x11 (idx_main_v97 i) := by
  unfold val_main_v97
  generalize val_main_v89 x0 x1 x2 x3 x5 x6 x7 x8 x9 x10 x11 = y
  exact broadcastInDim_apply _ bcast_S1x16_S204800x16_0_1 y i (idx_main_v97 i) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])

def val_main_v98 : (⟨S204800x16, .f32⟩ : BufTy).Contents (Elt F) :=
  subf (val_main_v85 x0 x1 x2 x3 x5 x6 x7 x8 x9 x10 x11) (val_main_v97 x0 x1 x2 x3 x5 x6 x7 x8 x9 x10 x11)

theorem val_main_v98_apply (i : S204800x16.Idx) :
    val_main_v98 x0 x1 x2 x3 x5 x6 x7 x8 x9 x10 x11 i = FloatOps.subf (val_main_v85 x0 x1 x2 x3 x5 x6 x7 x8 x9 x10 x11 i) (val_main_v97 x0 x1 x2 x3 x5 x6 x7 x8 x9 x10 x11 i) := rfl

def val_main_cst_19 : (⟨S_, .f32⟩ : BufTy).Contents (Elt F) :=
  constant S_ .f32 0x3089705F#32

def val_main_v99 : (⟨S1x16, .f32⟩ : BufTy).Contents (Elt F) :=
  broadcastInDim S1x16 ![] bcast_S_S1x16 (val_main_cst_19 (F := F))

abbrev idx_main_v99 (i : S1x16.Idx) : S_.Idx := fun a => a.elim0

theorem val_main_v99_apply (i : S1x16.Idx) :
    val_main_v99 (F := F) i = val_main_cst_19 (F := F) (idx_main_v99 i) := by
  unfold val_main_v99
  generalize val_main_cst_19 (F := F) = y
  exact broadcastInDim_apply _ bcast_S_S1x16 y i (idx_main_v99 i) (fun a => a.elim0)

def val_main_v100 : (⟨S1x16, .f32⟩ : BufTy).Contents (Elt F) :=
  addf (val_main_v96 x0 x1 x2 x3 x5 x6 x7 x8 x9 x10 x11) (val_main_v99 (F := F))

theorem val_main_v100_apply (i : S1x16.Idx) :
    val_main_v100 x0 x1 x2 x3 x5 x6 x7 x8 x9 x10 x11 i = FloatOps.addf (val_main_v96 x0 x1 x2 x3 x5 x6 x7 x8 x9 x10 x11 i) (val_main_v99 (F := F) i) := rfl

def val_main_v101 : (⟨S1x16, .f32⟩ : BufTy).Contents (Elt F) :=
  Host.rsqrt (val_main_v100 x0 x1 x2 x3 x5 x6 x7 x8 x9 x10 x11)

theorem val_main_v101_apply (i : S1x16.Idx) :
    val_main_v101 x0 x1 x2 x3 x5 x6 x7 x8 x9 x10 x11 i = FloatOps.hostUnary .rsqrt (val_main_v100 x0 x1 x2 x3 x5 x6 x7 x8 x9 x10 x11 i) := rfl

def val_main_v102 : (⟨S204800x16, .f32⟩ : BufTy).Contents (Elt F) :=
  broadcastInDim S204800x16 ![0, 1] bcast_S1x16_S204800x16_0_1 (val_main_v101 x0 x1 x2 x3 x5 x6 x7 x8 x9 x10 x11)

abbrev idx_main_v102 (i : S204800x16.Idx) : S1x16.Idx := fun a => match a with
  | ⟨0, _⟩ => ⟨0, Nat.one_pos⟩
  | ⟨1, _⟩ => ⟨(i 1).val, (i 1).isLt⟩

theorem val_main_v102_apply (i : S204800x16.Idx) :
    val_main_v102 x0 x1 x2 x3 x5 x6 x7 x8 x9 x10 x11 i = val_main_v101 x0 x1 x2 x3 x5 x6 x7 x8 x9 x10 x11 (idx_main_v102 i) := by
  unfold val_main_v102
  generalize val_main_v101 x0 x1 x2 x3 x5 x6 x7 x8 x9 x10 x11 = y
  exact broadcastInDim_apply _ bcast_S1x16_S204800x16_0_1 y i (idx_main_v102 i) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])

def val_main_v103 : (⟨S204800x16, .f32⟩ : BufTy).Contents (Elt F) :=
  mulf (val_main_v98 x0 x1 x2 x3 x5 x6 x7 x8 x9 x10 x11) (val_main_v102 x0 x1 x2 x3 x5 x6 x7 x8 x9 x10 x11)

theorem val_main_v103_apply (i : S204800x16.Idx) :
    val_main_v103 x0 x1 x2 x3 x5 x6 x7 x8 x9 x10 x11 i = FloatOps.mulf (val_main_v98 x0 x1 x2 x3 x5 x6 x7 x8 x9 x10 x11 i) (val_main_v102 x0 x1 x2 x3 x5 x6 x7 x8 x9 x10 x11 i) := rfl

def val_main_v104 : (⟨S204800x16, .f32⟩ : BufTy).Contents (Elt F) :=
  Host.negf (val_main_v103 x0 x1 x2 x3 x5 x6 x7 x8 x9 x10 x11)

theorem val_main_v104_apply (i : S204800x16.Idx) :
    val_main_v104 x0 x1 x2 x3 x5 x6 x7 x8 x9 x10 x11 i = FloatOps.hostNegf (val_main_v103 x0 x1 x2 x3 x5 x6 x7 x8 x9 x10 x11 i) := rfl

def val_main_v105 : (⟨S204800x16, .f32⟩ : BufTy).Contents (Elt F) :=
  Host.exp (val_main_v104 x0 x1 x2 x3 x5 x6 x7 x8 x9 x10 x11)

theorem val_main_v105_apply (i : S204800x16.Idx) :
    val_main_v105 x0 x1 x2 x3 x5 x6 x7 x8 x9 x10 x11 i = FloatOps.hostUnary .exp (val_main_v104 x0 x1 x2 x3 x5 x6 x7 x8 x9 x10 x11 i) := rfl

def val_main_cst_20 : (⟨S_, .f32⟩ : BufTy).Contents (Elt F) :=
  constant S_ .f32 0x3F800000#32

def val_main_v106 : (⟨S204800x16, .f32⟩ : BufTy).Contents (Elt F) :=
  broadcastInDim S204800x16 ![] bcast_S_S204800x16 (val_main_cst_20 (F := F))

abbrev idx_main_v106 (i : S204800x16.Idx) : S_.Idx := fun a => a.elim0

theorem val_main_v106_apply (i : S204800x16.Idx) :
    val_main_v106 (F := F) i = val_main_cst_20 (F := F) (idx_main_v106 i) := by
  unfold val_main_v106
  generalize val_main_cst_20 (F := F) = y
  exact broadcastInDim_apply _ bcast_S_S204800x16 y i (idx_main_v106 i) (fun a => a.elim0)

def val_main_v107 : (⟨S204800x16, .f32⟩ : BufTy).Contents (Elt F) :=
  addf (val_main_v106 (F := F)) (val_main_v105 x0 x1 x2 x3 x5 x6 x7 x8 x9 x10 x11)

theorem val_main_v107_apply (i : S204800x16.Idx) :
    val_main_v107 x0 x1 x2 x3 x5 x6 x7 x8 x9 x10 x11 i = FloatOps.addf (val_main_v106 (F := F) i) (val_main_v105 x0 x1 x2 x3 x5 x6 x7 x8 x9 x10 x11 i) := rfl

def val_main_cst_21 : (⟨S_, .f32⟩ : BufTy).Contents (Elt F) :=
  constant S_ .f32 0x3F800000#32

def val_main_v108 : (⟨S204800x16, .f32⟩ : BufTy).Contents (Elt F) :=
  broadcastInDim S204800x16 ![] bcast_S_S204800x16 (val_main_cst_21 (F := F))

abbrev idx_main_v108 (i : S204800x16.Idx) : S_.Idx := fun a => a.elim0

theorem val_main_v108_apply (i : S204800x16.Idx) :
    val_main_v108 (F := F) i = val_main_cst_21 (F := F) (idx_main_v108 i) := by
  unfold val_main_v108
  generalize val_main_cst_21 (F := F) = y
  exact broadcastInDim_apply _ bcast_S_S204800x16 y i (idx_main_v108 i) (fun a => a.elim0)

def val_main_v109 : (⟨S204800x16, .f32⟩ : BufTy).Contents (Elt F) :=
  Host.divf (val_main_v108 (F := F)) (val_main_v107 x0 x1 x2 x3 x5 x6 x7 x8 x9 x10 x11)

theorem val_main_v109_apply (i : S204800x16.Idx) :
    val_main_v109 x0 x1 x2 x3 x5 x6 x7 x8 x9 x10 x11 i = FloatOps.hostDivf (val_main_v108 (F := F) i) (val_main_v107 x0 x1 x2 x3 x5 x6 x7 x8 x9 x10 x11 i) := rfl

def val_main_v110 : (⟨S204800x16, .f32⟩ : BufTy).Contents (Elt F) :=
  mulf (val_main_v109 x0 x1 x2 x3 x5 x6 x7 x8 x9 x10 x11) (val_main_v85 x0 x1 x2 x3 x5 x6 x7 x8 x9 x10 x11)

theorem val_main_v110_apply (i : S204800x16.Idx) :
    val_main_v110 x0 x1 x2 x3 x5 x6 x7 x8 x9 x10 x11 i = FloatOps.mulf (val_main_v109 x0 x1 x2 x3 x5 x6 x7 x8 x9 x10 x11 i) (val_main_v85 x0 x1 x2 x3 x5 x6 x7 x8 x9 x10 x11 i) := rfl

def val_main_cst_22 : (⟨S_, .f32⟩ : BufTy).Contents (Elt F) :=
  constant S_ .f32 0x3F800000#32

def val_main_v111 : (⟨S204800x16, .f32⟩ : BufTy).Contents (Elt F) :=
  broadcastInDim S204800x16 ![] bcast_S_S204800x16 (val_main_cst_22 (F := F))

abbrev idx_main_v111 (i : S204800x16.Idx) : S_.Idx := fun a => a.elim0

theorem val_main_v111_apply (i : S204800x16.Idx) :
    val_main_v111 (F := F) i = val_main_cst_22 (F := F) (idx_main_v111 i) := by
  unfold val_main_v111
  generalize val_main_cst_22 (F := F) = y
  exact broadcastInDim_apply _ bcast_S_S204800x16 y i (idx_main_v111 i) (fun a => a.elim0)

def val_main_v112 : (⟨S204800x16, .f32⟩ : BufTy).Contents (Elt F) :=
  subf (val_main_v111 (F := F)) (val_main_v109 x0 x1 x2 x3 x5 x6 x7 x8 x9 x10 x11)

theorem val_main_v112_apply (i : S204800x16.Idx) :
    val_main_v112 x0 x1 x2 x3 x5 x6 x7 x8 x9 x10 x11 i = FloatOps.subf (val_main_v111 (F := F) i) (val_main_v109 x0 x1 x2 x3 x5 x6 x7 x8 x9 x10 x11 i) := rfl

def val_main_v113 : (⟨S1x16, .f32⟩ : BufTy).Contents (Elt F) :=
  broadcastInDim S1x16 ![1] bcast_S16_S1x16_1 (x12)

abbrev idx_main_v113 (i : S1x16.Idx) : S16.Idx := fun a => match a with
  | ⟨0, _⟩ => ⟨(i 1).val, (i 1).isLt⟩

theorem val_main_v113_apply (i : S1x16.Idx) :
    val_main_v113 x12 i = x12 (idx_main_v113 i) := by
  unfold val_main_v113
  exact broadcastInDim_apply _ bcast_S16_S1x16_1 x12 i (idx_main_v113 i) (fun a => match a with
    | ⟨0, _⟩ => by show (i 1).val = if (16 : Nat) = 1 then 0 else (i 1).val; rw [if_neg (by decide)])

def val_main_v114 : (⟨S204800x16, .f32⟩ : BufTy).Contents (Elt F) :=
  broadcastInDim S204800x16 ![0, 1] bcast_S1x16_S204800x16_0_1 (val_main_v113 x12)

abbrev idx_main_v114 (i : S204800x16.Idx) : S1x16.Idx := fun a => match a with
  | ⟨0, _⟩ => ⟨0, Nat.one_pos⟩
  | ⟨1, _⟩ => ⟨(i 1).val, (i 1).isLt⟩

theorem val_main_v114_apply (i : S204800x16.Idx) :
    val_main_v114 x12 i = val_main_v113 x12 (idx_main_v114 i) := by
  unfold val_main_v114
  generalize val_main_v113 x12 = y
  exact broadcastInDim_apply _ bcast_S1x16_S204800x16_0_1 y i (idx_main_v114 i) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])

def val_main_v115 : (⟨S204800x16, .f32⟩ : BufTy).Contents (Elt F) :=
  mulf (val_main_v114 x12) (val_main_v112 x0 x1 x2 x3 x5 x6 x7 x8 x9 x10 x11)

theorem val_main_v115_apply (i : S204800x16.Idx) :
    val_main_v115 x0 x1 x2 x3 x5 x6 x7 x8 x9 x10 x11 x12 i = FloatOps.mulf (val_main_v114 x12 i) (val_main_v112 x0 x1 x2 x3 x5 x6 x7 x8 x9 x10 x11 i) := rfl

def val_main_v116 : (⟨S204800x16, .f32⟩ : BufTy).Contents (Elt F) :=
  mulf (val_main_v115 x0 x1 x2 x3 x5 x6 x7 x8 x9 x10 x11 x12) (val_main_v85 x0 x1 x2 x3 x5 x6 x7 x8 x9 x10 x11)

theorem val_main_v116_apply (i : S204800x16.Idx) :
    val_main_v116 x0 x1 x2 x3 x5 x6 x7 x8 x9 x10 x11 x12 i = FloatOps.mulf (val_main_v115 x0 x1 x2 x3 x5 x6 x7 x8 x9 x10 x11 x12 i) (val_main_v85 x0 x1 x2 x3 x5 x6 x7 x8 x9 x10 x11 i) := rfl

def val_main_v117 : (⟨S204800x16, .f32⟩ : BufTy).Contents (Elt F) :=
  addf (val_main_v110 x0 x1 x2 x3 x5 x6 x7 x8 x9 x10 x11) (val_main_v116 x0 x1 x2 x3 x5 x6 x7 x8 x9 x10 x11 x12)

theorem val_main_v117_apply (i : S204800x16.Idx) :
    val_main_v117 x0 x1 x2 x3 x5 x6 x7 x8 x9 x10 x11 x12 i = FloatOps.addf (val_main_v110 x0 x1 x2 x3 x5 x6 x7 x8 x9 x10 x11 i) (val_main_v116 x0 x1 x2 x3 x5 x6 x7 x8 x9 x10 x11 x12 i) := rfl

def val_main_v118 : (⟨S16x1, .f32⟩ : BufTy).Contents (Elt F) :=
  transpose S16x1 [1, 0] (x13) transposes_S1x16_S16x1_1_0

def val_main_v119 : (⟨S204800x1, .f32⟩ : BufTy).Contents (Elt F) :=
  Host.dotGeneral dot_S204800x16_S16x1_S204800x1_1_0_0_1_n_n none (val_main_v117 x0 x1 x2 x3 x5 x6 x7 x8 x9 x10 x11 x12) (val_main_v118 x13)

theorem lhs_main_v119_0 (i : S204800x1.Idx) (q : dot_S204800x16_S16x1_S204800x1_1_0_0_1_n_n.contr.Idx) :
    (dot_S204800x16_S16x1_S204800x1_1_0_0_1_n_n.lhsIdx i q 0).val = (i 0).val := by
  unfold DotDims.lhsIdx
  rw [dif_neg (show ¬(0 : Fin S204800x16.rank) ∈ dot_S204800x16_S16x1_S204800x1_1_0_0_1_n_n.lhsBatch by decide), dif_pos (show (0 : Fin S204800x16.rank) ∈ dot_S204800x16_S16x1_S204800x1_1_0_0_1_n_n.lhsNonContracting by decide)]
  rfl

theorem lhs_main_v119_1 (i : S204800x1.Idx) (q : dot_S204800x16_S16x1_S204800x1_1_0_0_1_n_n.contr.Idx) :
    (dot_S204800x16_S16x1_S204800x1_1_0_0_1_n_n.lhsIdx i q 1).val = (q ⟨0, by decide⟩).val :=
  dot_S204800x16_S16x1_S204800x1_1_0_0_1_n_n.lhsIdx_val_of_single rfl i q

theorem rhs_main_v119_0 (i : S204800x1.Idx) (q : dot_S204800x16_S16x1_S204800x1_1_0_0_1_n_n.contr.Idx) :
    (dot_S204800x16_S16x1_S204800x1_1_0_0_1_n_n.rhsIdx i q 0).val = (q ⟨0, by decide⟩).val :=
  dot_S204800x16_S16x1_S204800x1_1_0_0_1_n_n.rhsIdx_val_of_single rfl i q

theorem rhs_main_v119_1 (i : S204800x1.Idx) (q : dot_S204800x16_S16x1_S204800x1_1_0_0_1_n_n.contr.Idx) :
    (dot_S204800x16_S16x1_S204800x1_1_0_0_1_n_n.rhsIdx i q 1).val = (i 1).val := by
  unfold DotDims.rhsIdx
  rw [dif_neg (show ¬(1 : Fin S16x1.rank) ∈ dot_S204800x16_S16x1_S204800x1_1_0_0_1_n_n.rhsBatch by decide), dif_pos (show (1 : Fin S16x1.rank) ∈ dot_S204800x16_S16x1_S204800x1_1_0_0_1_n_n.rhsNonContracting by decide)]
  rfl

abbrev lidx_main_v119 (i : S204800x1.Idx) (k : Fin 16) : S204800x16.Idx := fun a => match a with
  | ⟨0, _⟩ => ⟨(i 0).val, (i 0).isLt⟩
  | ⟨1, _⟩ => ⟨k.val, k.isLt⟩

abbrev ridx_main_v119 (i : S204800x1.Idx) (k : Fin 16) : S16x1.Idx := fun a => match a with
  | ⟨0, _⟩ => ⟨k.val, k.isLt⟩
  | ⟨1, _⟩ => ⟨(i 1).val, (i 1).isLt⟩

theorem val_main_v119_apply (i : S204800x1.Idx) :
    val_main_v119 z0 z1 z2 z3 z5 z6 z7 z8 z9 z10 z11 z12 z13 i = ∑ k : Fin 16, (val_main_v117 z0 z1 z2 z3 z5 z6 z7 z8 z9 z10 z11 z12) (lidx_main_v119 i k) * (val_main_v118 z13) (ridx_main_v119 i k) := by
  unfold val_main_v119
  generalize val_main_v117 z0 z1 z2 z3 z5 z6 z7 z8 z9 z10 z11 z12 = y0
  generalize val_main_v118 z13 = y1
  simp only [Host.dotGeneral]
  rw [Ideal.dotGeneral_apply, ← Equiv.sum_comp (ValueIdx.contrEquiv1 dot_S204800x16_S16x1_S204800x1_1_0_0_1_n_n 16 rfl rfl).symm]
  refine Finset.sum_congr rfl fun k _ => ?_
  have hk := ValueIdx.contrEquiv1_symm_val dot_S204800x16_S16x1_S204800x1_1_0_0_1_n_n 16 rfl rfl k
  have el : dot_S204800x16_S16x1_S204800x1_1_0_0_1_n_n.lhsIdx i ((ValueIdx.contrEquiv1 dot_S204800x16_S16x1_S204800x1_1_0_0_1_n_n 16 rfl rfl).symm k) = lidx_main_v119 i k := funext fun a => Fin.ext (by
    match a with
    | ⟨0, _⟩ => exact lhs_main_v119_0 _ _
    | ⟨1, _⟩ => exact (lhs_main_v119_1 _ _).trans hk)
  have er : dot_S204800x16_S16x1_S204800x1_1_0_0_1_n_n.rhsIdx i ((ValueIdx.contrEquiv1 dot_S204800x16_S16x1_S204800x1_1_0_0_1_n_n 16 rfl rfl).symm k) = ridx_main_v119 i k := funext fun a => Fin.ext (by
    match a with
    | ⟨0, _⟩ => exact (rhs_main_v119_0 _ _).trans hk
    | ⟨1, _⟩ => exact rhs_main_v119_1 _ _)
  rw [el, er]

def val_main_v120 : (⟨S1x1, .f32⟩ : BufTy).Contents (Elt F) :=
  broadcastInDim S1x1 ![1] bcast_S1_S1x1_1 (x14)

abbrev idx_main_v120 (i : S1x1.Idx) : S1.Idx := fun a => match a with
  | ⟨0, _⟩ => ⟨0, Nat.one_pos⟩

theorem val_main_v120_apply (i : S1x1.Idx) :
    val_main_v120 x14 i = x14 (idx_main_v120 i) := by
  unfold val_main_v120
  exact broadcastInDim_apply _ bcast_S1_S1x1_1 x14 i (idx_main_v120 i) (fun a => match a with
    | ⟨0, _⟩ => by show 0 = if (1 : Nat) = 1 then 0 else (i 1).val; rw [if_pos rfl])

def val_main_v121 : (⟨S204800x1, .f32⟩ : BufTy).Contents (Elt F) :=
  broadcastInDim S204800x1 ![0, 1] bcast_S1x1_S204800x1_0_1 (val_main_v120 x14)

abbrev idx_main_v121 (i : S204800x1.Idx) : S1x1.Idx := fun a => match a with
  | ⟨0, _⟩ => ⟨0, Nat.one_pos⟩
  | ⟨1, _⟩ => ⟨0, Nat.one_pos⟩

theorem val_main_v121_apply (i : S204800x1.Idx) :
    val_main_v121 x14 i = val_main_v120 x14 (idx_main_v121 i) := by
  unfold val_main_v121
  generalize val_main_v120 x14 = y
  exact broadcastInDim_apply _ bcast_S1x1_S204800x1_0_1 y i (idx_main_v121 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v122 : (⟨S204800x1, .f32⟩ : BufTy).Contents (Elt F) :=
  addf (val_main_v119 x0 x1 x2 x3 x5 x6 x7 x8 x9 x10 x11 x12 x13) (val_main_v121 x14)

theorem val_main_v122_apply (i : S204800x1.Idx) :
    val_main_v122 x0 x1 x2 x3 x5 x6 x7 x8 x9 x10 x11 x12 x13 x14 i = FloatOps.addf (val_main_v119 x0 x1 x2 x3 x5 x6 x7 x8 x9 x10 x11 x12 x13 i) (val_main_v121 x14 i) := rfl

def val_main_v123 : (⟨S1024x200x1, .f32⟩ : BufTy).Contents (Elt F) :=
  shapeCast _ (val_main_v122 x0 x1 x2 x3 x5 x6 x7 x8 x9 x10 x11 x12 x13 x14) shapeCasts_S204800x1_S1024x200x1

abbrev idx_main_v123 (i : S1024x200x1.Idx) : S204800x1.Idx := fun a => match a with
  | ⟨0, _⟩ => ⟨(((i 0).val * 200 + (i 1).val) * 1 + (i 2).val) / 1, by have h0 : (i 0).val < 1024 := (i 0).isLt; have h1 : (i 1).val < 200 := (i 1).isLt; have h2 : (i 2).val < 1 := (i 2).isLt; show (((i 0).val * 200 + (i 1).val) * 1 + (i 2).val) / 1 < 204800; omega⟩
  | ⟨1, _⟩ => ⟨0, Nat.one_pos⟩

theorem val_main_v123_apply (i : S1024x200x1.Idx) :
    val_main_v123 x0 x1 x2 x3 x5 x6 x7 x8 x9 x10 x11 x12 x13 x14 i = val_main_v122 x0 x1 x2 x3 x5 x6 x7 x8 x9 x10 x11 x12 x13 x14 (idx_main_v123 i) := by
  unfold val_main_v123
  generalize val_main_v122 x0 x1 x2 x3 x5 x6 x7 x8 x9 x10 x11 x12 x13 x14 = y
  exact shapeCast_apply y shapeCasts_S204800x1_S1024x200x1 i (idx_main_v123 i)
    (by rewrite [Shape.rowMajor_val_two, Shape.rowMajor_val_three]; have h0 : (i 0).val < 1024 := (i 0).isLt; have h1 : (i 1).val < 200 := (i 1).isLt; have h2 : (i 2).val < 1 := (i 2).isLt; show (((i 0).val * 200 + (i 1).val) * 1 + (i 2).val) / 1 * 1 + 0 = ((i 0).val * 200 + (i 1).val) * 1 + (i 2).val; omega)

def val_main_cst_23 : (⟨S_, .f32⟩ : BufTy).Contents (Elt F) :=
  constant S_ .f32 0x3F800000#32

def val_main_v124 : (⟨S1024x200x1, .f32⟩ : BufTy).Contents (Elt F) :=
  broadcastInDim S1024x200x1 ![] bcast_S_S1024x200x1 (val_main_cst_23 (F := F))

abbrev idx_main_v124 (i : S1024x200x1.Idx) : S_.Idx := fun a => a.elim0

theorem val_main_v124_apply (i : S1024x200x1.Idx) :
    val_main_v124 (F := F) i = val_main_cst_23 (F := F) (idx_main_v124 i) := by
  unfold val_main_v124
  generalize val_main_cst_23 (F := F) = y
  exact broadcastInDim_apply _ bcast_S_S1024x200x1 y i (idx_main_v124 i) (fun a => a.elim0)

def val_main_v125 : (⟨S1024x200x1, .f32⟩ : BufTy).Contents (Elt F) :=
  subf (val_main_v124 (F := F)) (val_main_v17 x0)

theorem val_main_v125_apply (i : S1024x200x1.Idx) :
    val_main_v125 x0 i = FloatOps.subf (val_main_v124 (F := F) i) (val_main_v17 x0 i) := rfl

def val_main_cst_24 : (⟨S_, .f32⟩ : BufTy).Contents (Elt F) :=
  constant S_ .f32 0x4E6E6B28#32

def val_main_v126 : (⟨S1024x200x1, .f32⟩ : BufTy).Contents (Elt F) :=
  broadcastInDim S1024x200x1 ![] bcast_S_S1024x200x1 (val_main_cst_24 (F := F))

abbrev idx_main_v126 (i : S1024x200x1.Idx) : S_.Idx := fun a => a.elim0

theorem val_main_v126_apply (i : S1024x200x1.Idx) :
    val_main_v126 (F := F) i = val_main_cst_24 (F := F) (idx_main_v126 i) := by
  unfold val_main_v126
  generalize val_main_cst_24 (F := F) = y
  exact broadcastInDim_apply _ bcast_S_S1024x200x1 y i (idx_main_v126 i) (fun a => a.elim0)

def val_main_v127 : (⟨S1024x200x1, .f32⟩ : BufTy).Contents (Elt F) :=
  mulf (val_main_v125 x0) (val_main_v126 (F := F))

theorem val_main_v127_apply (i : S1024x200x1.Idx) :
    val_main_v127 x0 i = FloatOps.mulf (val_main_v125 x0 i) (val_main_v126 (F := F) i) := rfl

def val_main_v128 : (⟨S1024x200x1, .f32⟩ : BufTy).Contents (Elt F) :=
  subf (val_main_v123 x0 x1 x2 x3 x5 x6 x7 x8 x9 x10 x11 x12 x13 x14) (val_main_v127 x0)

theorem val_main_v128_apply (i : S1024x200x1.Idx) :
    val_main_v128 x0 x1 x2 x3 x5 x6 x7 x8 x9 x10 x11 x12 x13 x14 i = FloatOps.subf (val_main_v123 x0 x1 x2 x3 x5 x6 x7 x8 x9 x10 x11 x12 x13 x14 i) (val_main_v127 x0 i) := rfl

def val_main_cst_25 : (⟨S_, .f32⟩ : BufTy).Contents (Elt F) :=
  constant S_ .f32 0xFF800000#32

def val_main_v129 : (⟨S1024x1, .f32⟩ : BufTy).Contents (Elt F) :=
  Host.reduce FloatOps.maximumf (val_main_v128 x0 x1 x2 x3 x5 x6 x7 x8 x9 x10 x11 x12 x13 x14) (val_main_cst_25 (F := F)) reducesTo_S1024x200x1_S1024x1_d1 h_S_

def val_main_cst_26 : (⟨S_, .f32⟩ : BufTy).Contents (Elt F) :=
  constant S_ .f32 0xFF800000#32

def val_main_v130 : (⟨S1024x1, .f32⟩ : BufTy).Contents (Elt F) :=
  broadcastInDim S1024x1 ![] bcast_S_S1024x1 (val_main_cst_26 (F := F))

abbrev idx_main_v130 (i : S1024x1.Idx) : S_.Idx := fun a => a.elim0

theorem val_main_v130_apply (i : S1024x1.Idx) :
    val_main_v130 (F := F) i = val_main_cst_26 (F := F) (idx_main_v130 i) := by
  unfold val_main_v130
  generalize val_main_cst_26 (F := F) = y
  exact broadcastInDim_apply _ bcast_S_S1024x1 y i (idx_main_v130 i) (fun a => a.elim0)

def val_main_v131 : (⟨S1024x1, .f32⟩ : BufTy).Contents (Elt F) :=
  maximumf (val_main_v130 (F := F)) (val_main_v129 x0 x1 x2 x3 x5 x6 x7 x8 x9 x10 x11 x12 x13 x14)

theorem val_main_v131_apply (i : S1024x1.Idx) :
    val_main_v131 x0 x1 x2 x3 x5 x6 x7 x8 x9 x10 x11 x12 x13 x14 i = FloatOps.maximumf (val_main_v130 (F := F) i) (val_main_v129 x0 x1 x2 x3 x5 x6 x7 x8 x9 x10 x11 x12 x13 x14 i) := rfl

def val_main_v132 : (⟨S1024x1x1, .f32⟩ : BufTy).Contents (Elt F) :=
  broadcastInDim S1024x1x1 ![0, 2] bcast_S1024x1_S1024x1x1_0_2 (val_main_v131 x0 x1 x2 x3 x5 x6 x7 x8 x9 x10 x11 x12 x13 x14)

abbrev idx_main_v132 (i : S1024x1x1.Idx) : S1024x1.Idx := fun a => match a with
  | ⟨0, _⟩ => ⟨(i 0).val, (i 0).isLt⟩
  | ⟨1, _⟩ => ⟨0, Nat.one_pos⟩

theorem val_main_v132_apply (i : S1024x1x1.Idx) :
    val_main_v132 x0 x1 x2 x3 x5 x6 x7 x8 x9 x10 x11 x12 x13 x14 i = val_main_v131 x0 x1 x2 x3 x5 x6 x7 x8 x9 x10 x11 x12 x13 x14 (idx_main_v132 i) := by
  unfold val_main_v132
  generalize val_main_v131 x0 x1 x2 x3 x5 x6 x7 x8 x9 x10 x11 x12 x13 x14 = y
  exact broadcastInDim_apply _ bcast_S1024x1_S1024x1x1_0_2 y i (idx_main_v132 i) (fun a => match a with
    | ⟨0, _⟩ => by show (i 0).val = if (1024 : Nat) = 1 then 0 else (i 0).val; rw [if_neg (by decide)]
    | ⟨1, _⟩ => by show 0 = if (1 : Nat) = 1 then 0 else (i 2).val; rw [if_pos rfl])

def val_main_v133 : (⟨S1024x200x1, .f32⟩ : BufTy).Contents (Elt F) :=
  broadcastInDim S1024x200x1 ![0, 1, 2] bcast_S1024x1x1_S1024x200x1_0_1_2 (val_main_v132 x0 x1 x2 x3 x5 x6 x7 x8 x9 x10 x11 x12 x13 x14)

abbrev idx_main_v133 (i : S1024x200x1.Idx) : S1024x1x1.Idx := fun a => match a with
  | ⟨0, _⟩ => ⟨(i 0).val, (i 0).isLt⟩
  | ⟨1, _⟩ => ⟨0, Nat.one_pos⟩
  | ⟨2, _⟩ => ⟨0, Nat.one_pos⟩

theorem val_main_v133_apply (i : S1024x200x1.Idx) :
    val_main_v133 x0 x1 x2 x3 x5 x6 x7 x8 x9 x10 x11 x12 x13 x14 i = val_main_v132 x0 x1 x2 x3 x5 x6 x7 x8 x9 x10 x11 x12 x13 x14 (idx_main_v133 i) := by
  unfold val_main_v133
  generalize val_main_v132 x0 x1 x2 x3 x5 x6 x7 x8 x9 x10 x11 x12 x13 x14 = y
  exact broadcastInDim_apply _ bcast_S1024x1x1_S1024x200x1_0_1_2 y i (idx_main_v133 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

def val_main_v134 : (⟨S1024x200x1, .f32⟩ : BufTy).Contents (Elt F) :=
  subf (val_main_v128 x0 x1 x2 x3 x5 x6 x7 x8 x9 x10 x11 x12 x13 x14) (val_main_v133 x0 x1 x2 x3 x5 x6 x7 x8 x9 x10 x11 x12 x13 x14)

theorem val_main_v134_apply (i : S1024x200x1.Idx) :
    val_main_v134 x0 x1 x2 x3 x5 x6 x7 x8 x9 x10 x11 x12 x13 x14 i = FloatOps.subf (val_main_v128 x0 x1 x2 x3 x5 x6 x7 x8 x9 x10 x11 x12 x13 x14 i) (val_main_v133 x0 x1 x2 x3 x5 x6 x7 x8 x9 x10 x11 x12 x13 x14 i) := rfl

def val_main_v135 : (⟨S1024x200x1, .f32⟩ : BufTy).Contents (Elt F) :=
  Host.exp (val_main_v134 x0 x1 x2 x3 x5 x6 x7 x8 x9 x10 x11 x12 x13 x14)

theorem val_main_v135_apply (i : S1024x200x1.Idx) :
    val_main_v135 x0 x1 x2 x3 x5 x6 x7 x8 x9 x10 x11 x12 x13 x14 i = FloatOps.hostUnary .exp (val_main_v134 x0 x1 x2 x3 x5 x6 x7 x8 x9 x10 x11 x12 x13 x14 i) := rfl

def val_main_cst_27 : (⟨S_, .f32⟩ : BufTy).Contents (Elt F) :=
  constant S_ .f32 0x00000000#32

def val_main_v136 : (⟨S1024x1, .f32⟩ : BufTy).Contents (Elt F) :=
  Host.reduceAdd (val_main_v135 x0 x1 x2 x3 x5 x6 x7 x8 x9 x10 x11 x12 x13 x14) (val_main_cst_27 (F := F)) reducesTo_S1024x200x1_S1024x1_d1 h_S_

abbrev idx_main_v136 (i : S1024x1.Idx) (k : Fin 200) : S1024x200x1.Idx := fun a => match a with
  | ⟨0, _⟩ => ⟨(i 0).val, (i 0).isLt⟩
  | ⟨1, _⟩ => ⟨k.val, k.isLt⟩
  | ⟨2, _⟩ => ⟨(i 1).val, (i 1).isLt⟩

theorem val_main_v136_apply (i : S1024x1.Idx) :
    val_main_v136 z0 z1 z2 z3 z5 z6 z7 z8 z9 z10 z11 z12 z13 z14 i = (val_main_cst_27 (F := Ideal)) (Shape.Idx.first h_S_) + ∑ k : Fin 200, (val_main_v135 z0 z1 z2 z3 z5 z6 z7 z8 z9 z10 z11 z12 z13 z14) (idx_main_v136 i k) := by
  unfold val_main_v136
  generalize val_main_v135 z0 z1 z2 z3 z5 z6 z7 z8 z9 z10 z11 z12 z13 z14 = y0
  simp only [Host.reduceAdd, Ideal.hostReduceAdd_def]
  rw [Ideal.hostReduceAdd_single reducesTo_S1024x200x1_S1024x1_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v137 : (⟨S1024x1x1, .f32⟩ : BufTy).Contents (Elt F) :=
  broadcastInDim S1024x1x1 ![0, 2] bcast_S1024x1_S1024x1x1_0_2 (val_main_v136 x0 x1 x2 x3 x5 x6 x7 x8 x9 x10 x11 x12 x13 x14)

abbrev idx_main_v137 (i : S1024x1x1.Idx) : S1024x1.Idx := fun a => match a with
  | ⟨0, _⟩ => ⟨(i 0).val, (i 0).isLt⟩
  | ⟨1, _⟩ => ⟨0, Nat.one_pos⟩

theorem val_main_v137_apply (i : S1024x1x1.Idx) :
    val_main_v137 x0 x1 x2 x3 x5 x6 x7 x8 x9 x10 x11 x12 x13 x14 i = val_main_v136 x0 x1 x2 x3 x5 x6 x7 x8 x9 x10 x11 x12 x13 x14 (idx_main_v137 i) := by
  unfold val_main_v137
  generalize val_main_v136 x0 x1 x2 x3 x5 x6 x7 x8 x9 x10 x11 x12 x13 x14 = y
  exact broadcastInDim_apply _ bcast_S1024x1_S1024x1x1_0_2 y i (idx_main_v137 i) (fun a => match a with
    | ⟨0, _⟩ => by show (i 0).val = if (1024 : Nat) = 1 then 0 else (i 0).val; rw [if_neg (by decide)]
    | ⟨1, _⟩ => by show 0 = if (1 : Nat) = 1 then 0 else (i 2).val; rw [if_pos rfl])

def val_main_v138 : (⟨S1024x200x1, .f32⟩ : BufTy).Contents (Elt F) :=
  broadcastInDim S1024x200x1 ![0, 1, 2] bcast_S1024x1x1_S1024x200x1_0_1_2 (val_main_v137 x0 x1 x2 x3 x5 x6 x7 x8 x9 x10 x11 x12 x13 x14)

abbrev idx_main_v138 (i : S1024x200x1.Idx) : S1024x1x1.Idx := fun a => match a with
  | ⟨0, _⟩ => ⟨(i 0).val, (i 0).isLt⟩
  | ⟨1, _⟩ => ⟨0, Nat.one_pos⟩
  | ⟨2, _⟩ => ⟨0, Nat.one_pos⟩

theorem val_main_v138_apply (i : S1024x200x1.Idx) :
    val_main_v138 x0 x1 x2 x3 x5 x6 x7 x8 x9 x10 x11 x12 x13 x14 i = val_main_v137 x0 x1 x2 x3 x5 x6 x7 x8 x9 x10 x11 x12 x13 x14 (idx_main_v138 i) := by
  unfold val_main_v138
  generalize val_main_v137 x0 x1 x2 x3 x5 x6 x7 x8 x9 x10 x11 x12 x13 x14 = y
  exact broadcastInDim_apply _ bcast_S1024x1x1_S1024x200x1_0_1_2 y i (idx_main_v138 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

def val_main_v139 : (⟨S1024x200x1, .f32⟩ : BufTy).Contents (Elt F) :=
  Host.divf (val_main_v135 x0 x1 x2 x3 x5 x6 x7 x8 x9 x10 x11 x12 x13 x14) (val_main_v138 x0 x1 x2 x3 x5 x6 x7 x8 x9 x10 x11 x12 x13 x14)

theorem val_main_v139_apply (i : S1024x200x1.Idx) :
    val_main_v139 x0 x1 x2 x3 x5 x6 x7 x8 x9 x10 x11 x12 x13 x14 i = FloatOps.hostDivf (val_main_v135 x0 x1 x2 x3 x5 x6 x7 x8 x9 x10 x11 x12 x13 x14 i) (val_main_v138 x0 x1 x2 x3 x5 x6 x7 x8 x9 x10 x11 x12 x13 x14 i) := rfl

def val_main_v140 : (⟨S1024x200x128, .f32⟩ : BufTy).Contents (Elt F) :=
  broadcastInDim S1024x200x128 ![0, 1, 2] bcast_S1024x200x1_S1024x200x128_0_1_2 (val_main_v139 x0 x1 x2 x3 x5 x6 x7 x8 x9 x10 x11 x12 x13 x14)

abbrev idx_main_v140 (i : S1024x200x128.Idx) : S1024x200x1.Idx := fun a => match a with
  | ⟨0, _⟩ => ⟨(i 0).val, (i 0).isLt⟩
  | ⟨1, _⟩ => ⟨(i 1).val, (i 1).isLt⟩
  | ⟨2, _⟩ => ⟨0, Nat.one_pos⟩

theorem val_main_v140_apply (i : S1024x200x128.Idx) :
    val_main_v140 x0 x1 x2 x3 x5 x6 x7 x8 x9 x10 x11 x12 x13 x14 i = val_main_v139 x0 x1 x2 x3 x5 x6 x7 x8 x9 x10 x11 x12 x13 x14 (idx_main_v140 i) := by
  unfold val_main_v140
  generalize val_main_v139 x0 x1 x2 x3 x5 x6 x7 x8 x9 x10 x11 x12 x13 x14 = y
  exact broadcastInDim_apply _ bcast_S1024x200x1_S1024x200x128_0_1_2 y i (idx_main_v140 i) (fun a => match a with
    | ⟨0, _⟩ => by show (i 0).val = if (1024 : Nat) = 1 then 0 else (i 0).val; rw [if_neg (by decide)]
    | ⟨1, _⟩ => by show (i 1).val = if (200 : Nat) = 1 then 0 else (i 1).val; rw [if_neg (by decide)]
    | ⟨2, _⟩ => by show 0 = if (1 : Nat) = 1 then 0 else (i 2).val; rw [if_pos rfl])

def val_main_v141 : (⟨S1024x200x128, .f32⟩ : BufTy).Contents (Elt F) :=
  mulf (val_main_v36 x0 x1 x5 x6) (val_main_v140 x0 x1 x2 x3 x5 x6 x7 x8 x9 x10 x11 x12 x13 x14)

theorem val_main_v141_apply (i : S1024x200x128.Idx) :
    val_main_v141 x0 x1 x2 x3 x5 x6 x7 x8 x9 x10 x11 x12 x13 x14 i = FloatOps.mulf (val_main_v36 x0 x1 x5 x6 i) (val_main_v140 x0 x1 x2 x3 x5 x6 x7 x8 x9 x10 x11 x12 x13 x14 i) := rfl

def val_main_cst_28 : (⟨S_, .f32⟩ : BufTy).Contents (Elt F) :=
  constant S_ .f32 0x00000000#32

def val_main_v142 : (⟨S1024x128, .f32⟩ : BufTy).Contents (Elt F) :=
  Host.reduceAdd (val_main_v141 x0 x1 x2 x3 x5 x6 x7 x8 x9 x10 x11 x12 x13 x14) (val_main_cst_28 (F := F)) reducesTo_S1024x200x128_S1024x128_d1 h_S_

abbrev idx_main_v142 (i : S1024x128.Idx) (k : Fin 200) : S1024x200x128.Idx := fun a => match a with
  | ⟨0, _⟩ => ⟨(i 0).val, (i 0).isLt⟩
  | ⟨1, _⟩ => ⟨k.val, k.isLt⟩
  | ⟨2, _⟩ => ⟨(i 1).val, (i 1).isLt⟩

theorem val_main_v142_apply (i : S1024x128.Idx) :
    val_main_v142 z0 z1 z2 z3 z5 z6 z7 z8 z9 z10 z11 z12 z13 z14 i = (val_main_cst_28 (F := Ideal)) (Shape.Idx.first h_S_) + ∑ k : Fin 200, (val_main_v141 z0 z1 z2 z3 z5 z6 z7 z8 z9 z10 z11 z12 z13 z14) (idx_main_v142 i k) := by
  unfold val_main_v142
  generalize val_main_v141 z0 z1 z2 z3 z5 z6 z7 z8 z9 z10 z11 z12 z13 z14 = y0
  simp only [Host.reduceAdd, Ideal.hostReduceAdd_def]
  rw [Ideal.hostReduceAdd_single reducesTo_S1024x200x128_S1024x128_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v143 : (⟨S1024x256, .f32⟩ : BufTy).Contents (Elt F) :=
  concatenate S1024x256 1 [⟨S1024x128, (val_main_v142 x0 x1 x2 x3 x5 x6 x7 x8 x9 x10 x11 x12 x13 x14)⟩, ⟨S1024x64, (val_main_v6 x2 x5)⟩, ⟨S1024x64, (val_main_v13 x3 x6)⟩] concatenates_S1024x128_S1024x64_S1024x64_S1024x256_d1

def val_main_v144 : (⟨S256x128, .f32⟩ : BufTy).Contents (Elt F) :=
  transpose S256x128 [1, 0] (x15) transposes_S128x256_S256x128_1_0

def val_main_v145 : (⟨S1024x128, .f32⟩ : BufTy).Contents (Elt F) :=
  Host.dotGeneral dot_S1024x256_S256x128_S1024x128_1_0_0_1_n_n none (val_main_v143 x0 x1 x2 x3 x5 x6 x7 x8 x9 x10 x11 x12 x13 x14) (val_main_v144 x15)

def val_main_v146 : (⟨S1x128, .f32⟩ : BufTy).Contents (Elt F) :=
  broadcastInDim S1x128 ![1] bcast_S128_S1x128_1 (x16)

abbrev idx_main_v146 (i : S1x128.Idx) : S128.Idx := fun a => match a with
  | ⟨0, _⟩ => ⟨(i 1).val, (i 1).isLt⟩

theorem val_main_v146_apply (i : S1x128.Idx) :
    val_main_v146 x16 i = x16 (idx_main_v146 i) := by
  unfold val_main_v146
  exact broadcastInDim_apply _ bcast_S128_S1x128_1 x16 i (idx_main_v146 i) (fun a => match a with
    | ⟨0, _⟩ => by show (i 1).val = if (128 : Nat) = 1 then 0 else (i 1).val; rw [if_neg (by decide)])

def val_main_v147 : (⟨S1024x128, .f32⟩ : BufTy).Contents (Elt F) :=
  broadcastInDim S1024x128 ![0, 1] bcast_S1x128_S1024x128_0_1 (val_main_v146 x16)

def val_main_v148 : (⟨S1024x128, .f32⟩ : BufTy).Contents (Elt F) :=
  addf (val_main_v145 x0 x1 x2 x3 x5 x6 x7 x8 x9 x10 x11 x12 x13 x14 x15) (val_main_v147 x16)

def val_main_call0_cst : (⟨S_, .f32⟩ : BufTy).Contents (Elt F) :=
  constant S_ .f32 0x00000000#32

def val_main_call0_v0 : (⟨S1024x128, .f32⟩ : BufTy).Contents (Elt F) :=
  broadcastInDim S1024x128 ![] bcast_S_S1024x128 (val_main_call0_cst (F := F))

def val_main_v149 : (⟨S1024x128, .f32⟩ : BufTy).Contents (Elt F) :=
  maximumf (val_main_v148 x0 x1 x2 x3 x5 x6 x7 x8 x9 x10 x11 x12 x13 x14 x15 x16) (val_main_call0_v0 (F := F))

def val_main_v150 : (⟨S128x64, .f32⟩ : BufTy).Contents (Elt F) :=
  transpose S128x64 [1, 0] (x17) transposes_S64x128_S128x64_1_0

def val_main_v151 : (⟨S1024x64, .f32⟩ : BufTy).Contents (Elt F) :=
  Host.dotGeneral dot_S1024x128_S128x64_S1024x64_1_0_0_1_n_n none (val_main_v149 x0 x1 x2 x3 x5 x6 x7 x8 x9 x10 x11 x12 x13 x14 x15 x16) (val_main_v150 x17)

def val_main_v152 : (⟨S1x64, .f32⟩ : BufTy).Contents (Elt F) :=
  broadcastInDim S1x64 ![1] bcast_S64_S1x64_1 (x18)

abbrev idx_main_v152 (i : S1x64.Idx) : S64.Idx := fun a => match a with
  | ⟨0, _⟩ => ⟨(i 1).val, (i 1).isLt⟩

theorem val_main_v152_apply (i : S1x64.Idx) :
    val_main_v152 x18 i = x18 (idx_main_v152 i) := by
  unfold val_main_v152
  exact broadcastInDim_apply _ bcast_S64_S1x64_1 x18 i (idx_main_v152 i) (fun a => match a with
    | ⟨0, _⟩ => by show (i 1).val = if (64 : Nat) = 1 then 0 else (i 1).val; rw [if_neg (by decide)])

def val_main_v153 : (⟨S1024x64, .f32⟩ : BufTy).Contents (Elt F) :=
  broadcastInDim S1024x64 ![0, 1] bcast_S1x64_S1024x64_0_1 (val_main_v152 x18)

def val_main_v154 : (⟨S1024x64, .f32⟩ : BufTy).Contents (Elt F) :=
  addf (val_main_v151 x0 x1 x2 x3 x5 x6 x7 x8 x9 x10 x11 x12 x13 x14 x15 x16 x17) (val_main_v153 x18)

def val_main_call1_cst : (⟨S_, .f32⟩ : BufTy).Contents (Elt F) :=
  constant S_ .f32 0x00000000#32

def val_main_call1_v0 : (⟨S1024x64, .f32⟩ : BufTy).Contents (Elt F) :=
  broadcastInDim S1024x64 ![] bcast_S_S1024x64 (val_main_call1_cst (F := F))

def val_main_v155 : (⟨S1024x64, .f32⟩ : BufTy).Contents (Elt F) :=
  maximumf (val_main_v154 x0 x1 x2 x3 x5 x6 x7 x8 x9 x10 x11 x12 x13 x14 x15 x16 x17 x18) (val_main_call1_v0 (F := F))

def val_main_v156 : (⟨S64x1, .f32⟩ : BufTy).Contents (Elt F) :=
  transpose S64x1 [1, 0] (x19) transposes_S1x64_S64x1_1_0

def val_main_v157 : (⟨S1024x1, .f32⟩ : BufTy).Contents (Elt F) :=
  Host.dotGeneral dot_S1024x64_S64x1_S1024x1_1_0_0_1_n_n none (val_main_v155 x0 x1 x2 x3 x5 x6 x7 x8 x9 x10 x11 x12 x13 x14 x15 x16 x17 x18) (val_main_v156 x19)

def val_main_v158 : (⟨S1x1, .f32⟩ : BufTy).Contents (Elt F) :=
  broadcastInDim S1x1 ![1] bcast_S1_S1x1_1 (x20)

abbrev idx_main_v158 (i : S1x1.Idx) : S1.Idx := fun a => match a with
  | ⟨0, _⟩ => ⟨0, Nat.one_pos⟩

theorem val_main_v158_apply (i : S1x1.Idx) :
    val_main_v158 x20 i = x20 (idx_main_v158 i) := by
  unfold val_main_v158
  exact broadcastInDim_apply _ bcast_S1_S1x1_1 x20 i (idx_main_v158 i) (fun a => match a with
    | ⟨0, _⟩ => by show 0 = if (1 : Nat) = 1 then 0 else (i 1).val; rw [if_pos rfl])

def val_main_v159 : (⟨S1024x1, .f32⟩ : BufTy).Contents (Elt F) :=
  broadcastInDim S1024x1 ![0, 1] bcast_S1x1_S1024x1_0_1 (val_main_v158 x20)

def val_main_v160 : (⟨S1024x1, .f32⟩ : BufTy).Contents (Elt F) :=
  addf (val_main_v157 x0 x1 x2 x3 x5 x6 x7 x8 x9 x10 x11 x12 x13 x14 x15 x16 x17 x18 x19) (val_main_v159 x20)

def val_main_v161 : (⟨S1024, .f32⟩ : BufTy).Contents (Elt F) :=
  shapeCast _ (val_main_v160 x0 x1 x2 x3 x5 x6 x7 x8 x9 x10 x11 x12 x13 x14 x15 x16 x17 x18 x19 x20) shapeCasts_S1024x1_S1024

def val_main_v162 : (⟨S1024, .f32⟩ : BufTy).Contents (Elt F) :=
  sitofp .f32 (x4)

theorem val_main_v162_apply (i : S1024.Idx) :
    val_main_v162 x4 i = FloatOps.sitofp .f32 (x4 i) := rfl

def val_main_cst_29 : (⟨S_, .f32⟩ : BufTy).Contents (Elt F) :=
  constant S_ .f32 0x00000000#32

theorem val_main_cst_29_apply (i : S_.Idx) :
    val_main_cst_29 (F := F) i = FloatOps.ofBits .f32 0x00000000#32 := rfl

def val_main_v163 : (⟨S1024, .f32⟩ : BufTy).Contents (Elt F) :=
  broadcastInDim S1024 ![] bcast_S_S1024 (val_main_cst_29 (F := F))

abbrev idx_main_v163 (i : S1024.Idx) : S_.Idx := fun a => a.elim0

theorem val_main_v163_apply (i : S1024.Idx) :
    val_main_v163 (F := F) i = val_main_cst_29 (F := F) (idx_main_v163 i) := by
  unfold val_main_v163
  generalize val_main_cst_29 (F := F) = y
  exact broadcastInDim_apply _ bcast_S_S1024 y i (idx_main_v163 i) (fun a => a.elim0)

def val_main_v164 : (⟨S1024, .f32⟩ : BufTy).Contents (Elt F) :=
  maximumf (val_main_v161 x0 x1 x2 x3 x5 x6 x7 x8 x9 x10 x11 x12 x13 x14 x15 x16 x17 x18 x19 x20) (val_main_v163 (F := F))

theorem val_main_v164_apply (i : S1024.Idx) :
    val_main_v164 x0 x1 x2 x3 x5 x6 x7 x8 x9 x10 x11 x12 x13 x14 x15 x16 x17 x18 x19 x20 i = FloatOps.maximumf (val_main_v161 x0 x1 x2 x3 x5 x6 x7 x8 x9 x10 x11 x12 x13 x14 x15 x16 x17 x18 x19 x20 i) (val_main_v163 (F := F) i) := rfl

def val_main_v165 : (⟨S1024, .f32⟩ : BufTy).Contents (Elt F) :=
  mulf (val_main_v161 x0 x1 x2 x3 x5 x6 x7 x8 x9 x10 x11 x12 x13 x14 x15 x16 x17 x18 x19 x20) (val_main_v162 x4)

theorem val_main_v165_apply (i : S1024.Idx) :
    val_main_v165 x0 x1 x2 x3 x4 x5 x6 x7 x8 x9 x10 x11 x12 x13 x14 x15 x16 x17 x18 x19 x20 i = FloatOps.mulf (val_main_v161 x0 x1 x2 x3 x5 x6 x7 x8 x9 x10 x11 x12 x13 x14 x15 x16 x17 x18 x19 x20 i) (val_main_v162 x4 i) := rfl

def val_main_v166 : (⟨S1024, .f32⟩ : BufTy).Contents (Elt F) :=
  subf (val_main_v164 x0 x1 x2 x3 x5 x6 x7 x8 x9 x10 x11 x12 x13 x14 x15 x16 x17 x18 x19 x20) (val_main_v165 x0 x1 x2 x3 x4 x5 x6 x7 x8 x9 x10 x11 x12 x13 x14 x15 x16 x17 x18 x19 x20)

theorem val_main_v166_apply (i : S1024.Idx) :
    val_main_v166 x0 x1 x2 x3 x4 x5 x6 x7 x8 x9 x10 x11 x12 x13 x14 x15 x16 x17 x18 x19 x20 i = FloatOps.subf (val_main_v164 x0 x1 x2 x3 x5 x6 x7 x8 x9 x10 x11 x12 x13 x14 x15 x16 x17 x18 x19 x20 i) (val_main_v165 x0 x1 x2 x3 x4 x5 x6 x7 x8 x9 x10 x11 x12 x13 x14 x15 x16 x17 x18 x19 x20 i) := rfl

def val_main_v167 : (⟨S1024, .f32⟩ : BufTy).Contents (Elt F) :=
  Host.absf (val_main_v161 x0 x1 x2 x3 x5 x6 x7 x8 x9 x10 x11 x12 x13 x14 x15 x16 x17 x18 x19 x20)

theorem val_main_v167_apply (i : S1024.Idx) :
    val_main_v167 x0 x1 x2 x3 x5 x6 x7 x8 x9 x10 x11 x12 x13 x14 x15 x16 x17 x18 x19 x20 i = FloatOps.hostAbsf (val_main_v161 x0 x1 x2 x3 x5 x6 x7 x8 x9 x10 x11 x12 x13 x14 x15 x16 x17 x18 x19 x20 i) := rfl

def val_main_v168 : (⟨S1024, .f32⟩ : BufTy).Contents (Elt F) :=
  Host.negf (val_main_v167 x0 x1 x2 x3 x5 x6 x7 x8 x9 x10 x11 x12 x13 x14 x15 x16 x17 x18 x19 x20)

theorem val_main_v168_apply (i : S1024.Idx) :
    val_main_v168 x0 x1 x2 x3 x5 x6 x7 x8 x9 x10 x11 x12 x13 x14 x15 x16 x17 x18 x19 x20 i = FloatOps.hostNegf (val_main_v167 x0 x1 x2 x3 x5 x6 x7 x8 x9 x10 x11 x12 x13 x14 x15 x16 x17 x18 x19 x20 i) := rfl

def val_main_v169 : (⟨S1024, .f32⟩ : BufTy).Contents (Elt F) :=
  Host.exp (val_main_v168 x0 x1 x2 x3 x5 x6 x7 x8 x9 x10 x11 x12 x13 x14 x15 x16 x17 x18 x19 x20)

theorem val_main_v169_apply (i : S1024.Idx) :
    val_main_v169 x0 x1 x2 x3 x5 x6 x7 x8 x9 x10 x11 x12 x13 x14 x15 x16 x17 x18 x19 x20 i = FloatOps.hostUnary .exp (val_main_v168 x0 x1 x2 x3 x5 x6 x7 x8 x9 x10 x11 x12 x13 x14 x15 x16 x17 x18 x19 x20 i) := rfl

def val_main_v170 : (⟨S1024, .f32⟩ : BufTy).Contents (Elt F) :=
  Host.log1p (val_main_v169 x0 x1 x2 x3 x5 x6 x7 x8 x9 x10 x11 x12 x13 x14 x15 x16 x17 x18 x19 x20)

theorem val_main_v170_apply (i : S1024.Idx) :
    val_main_v170 x0 x1 x2 x3 x5 x6 x7 x8 x9 x10 x11 x12 x13 x14 x15 x16 x17 x18 x19 x20 i = FloatOps.hostUnary .log1p (val_main_v169 x0 x1 x2 x3 x5 x6 x7 x8 x9 x10 x11 x12 x13 x14 x15 x16 x17 x18 x19 x20 i) := rfl

def val_main_v171 : (⟨S1024, .f32⟩ : BufTy).Contents (Elt F) :=
  addf (val_main_v166 x0 x1 x2 x3 x4 x5 x6 x7 x8 x9 x10 x11 x12 x13 x14 x15 x16 x17 x18 x19 x20) (val_main_v170 x0 x1 x2 x3 x5 x6 x7 x8 x9 x10 x11 x12 x13 x14 x15 x16 x17 x18 x19 x20)

theorem val_main_v171_apply (i : S1024.Idx) :
    val_main_v171 x0 x1 x2 x3 x4 x5 x6 x7 x8 x9 x10 x11 x12 x13 x14 x15 x16 x17 x18 x19 x20 i = FloatOps.addf (val_main_v166 x0 x1 x2 x3 x4 x5 x6 x7 x8 x9 x10 x11 x12 x13 x14 x15 x16 x17 x18 x19 x20 i) (val_main_v170 x0 x1 x2 x3 x5 x6 x7 x8 x9 x10 x11 x12 x13 x14 x15 x16 x17 x18 x19 x20 i) := rfl

def val_main_cst_30 : (⟨S_, .f32⟩ : BufTy).Contents (Elt F) :=
  constant S_ .f32 0x00000000#32

theorem val_main_cst_30_apply (i : S_.Idx) :
    val_main_cst_30 (F := F) i = FloatOps.ofBits .f32 0x00000000#32 := rfl

def val_main_v172 : (⟨S_, .f32⟩ : BufTy).Contents (Elt F) :=
  Host.reduceAdd (val_main_v171 x0 x1 x2 x3 x4 x5 x6 x7 x8 x9 x10 x11 x12 x13 x14 x15 x16 x17 x18 x19 x20) (val_main_cst_30 (F := F)) reducesTo_S1024_S_d0 h_S_

theorem val_main_v172_apply (i : S_.Idx) :
    val_main_v172 z0 z1 z2 z3 z4 z5 z6 z7 z8 z9 z10 z11 z12 z13 z14 z15 z16 z17 z18 z19 z20 i = (val_main_cst_30 (F := Ideal)) (Shape.Idx.first h_S_) + ∑ j : S1024.Idx, (val_main_v171 z0 z1 z2 z3 z4 z5 z6 z7 z8 z9 z10 z11 z12 z13 z14 z15 z16 z17 z18 z19 z20) j := by
  unfold val_main_v172
  generalize val_main_v171 z0 z1 z2 z3 z4 z5 z6 z7 z8 z9 z10 z11 z12 z13 z14 z15 z16 z17 z18 z19 z20 = y0
  simp only [Host.reduceAdd, Ideal.hostReduceAdd_def]
  exact Ideal.hostReduceAdd_total reducesTo_S1024_S_d0 (fun b => b.elim0) y0 _ i

def val_main_cst_31 : (⟨S_, .f32⟩ : BufTy).Contents (Elt F) :=
  constant S_ .f32 0x44800000#32

theorem val_main_cst_31_apply (i : S_.Idx) :
    val_main_cst_31 (F := F) i = FloatOps.ofBits .f32 0x44800000#32 := rfl

def val_main_v173 : (⟨S_, .f32⟩ : BufTy).Contents (Elt F) :=
  Host.divf (val_main_v172 x0 x1 x2 x3 x4 x5 x6 x7 x8 x9 x10 x11 x12 x13 x14 x15 x16 x17 x18 x19 x20) (val_main_cst_31 (F := F))

theorem val_main_v173_apply (i : S_.Idx) :
    val_main_v173 x0 x1 x2 x3 x4 x5 x6 x7 x8 x9 x10 x11 x12 x13 x14 x15 x16 x17 x18 x19 x20 i = FloatOps.hostDivf (val_main_v172 x0 x1 x2 x3 x4 x5 x6 x7 x8 x9 x10 x11 x12 x13 x14 x15 x16 x17 x18 x19 x20 i) (val_main_cst_31 (F := F) i) := rfl

def val_main_v174 : (⟨S1024, .f32⟩ : BufTy).Contents (Elt F) :=
  Host.negf (val_main_v161 x0 x1 x2 x3 x5 x6 x7 x8 x9 x10 x11 x12 x13 x14 x15 x16 x17 x18 x19 x20)

theorem val_main_v174_apply (i : S1024.Idx) :
    val_main_v174 x0 x1 x2 x3 x5 x6 x7 x8 x9 x10 x11 x12 x13 x14 x15 x16 x17 x18 x19 x20 i = FloatOps.hostNegf (val_main_v161 x0 x1 x2 x3 x5 x6 x7 x8 x9 x10 x11 x12 x13 x14 x15 x16 x17 x18 x19 x20 i) := rfl

def val_main_v175 : (⟨S1024, .f32⟩ : BufTy).Contents (Elt F) :=
  Host.exp (val_main_v174 x0 x1 x2 x3 x5 x6 x7 x8 x9 x10 x11 x12 x13 x14 x15 x16 x17 x18 x19 x20)

theorem val_main_v175_apply (i : S1024.Idx) :
    val_main_v175 x0 x1 x2 x3 x5 x6 x7 x8 x9 x10 x11 x12 x13 x14 x15 x16 x17 x18 x19 x20 i = FloatOps.hostUnary .exp (val_main_v174 x0 x1 x2 x3 x5 x6 x7 x8 x9 x10 x11 x12 x13 x14 x15 x16 x17 x18 x19 x20 i) := rfl

def val_main_cst_32 : (⟨S_, .f32⟩ : BufTy).Contents (Elt F) :=
  constant S_ .f32 0x3F800000#32

theorem val_main_cst_32_apply (i : S_.Idx) :
    val_main_cst_32 (F := F) i = FloatOps.ofBits .f32 0x3F800000#32 := rfl

def val_main_v176 : (⟨S1024, .f32⟩ : BufTy).Contents (Elt F) :=
  broadcastInDim S1024 ![] bcast_S_S1024 (val_main_cst_32 (F := F))

abbrev idx_main_v176 (i : S1024.Idx) : S_.Idx := fun a => a.elim0

theorem val_main_v176_apply (i : S1024.Idx) :
    val_main_v176 (F := F) i = val_main_cst_32 (F := F) (idx_main_v176 i) := by
  unfold val_main_v176
  generalize val_main_cst_32 (F := F) = y
  exact broadcastInDim_apply _ bcast_S_S1024 y i (idx_main_v176 i) (fun a => a.elim0)

def val_main_v177 : (⟨S1024, .f32⟩ : BufTy).Contents (Elt F) :=
  addf (val_main_v176 (F := F)) (val_main_v175 x0 x1 x2 x3 x5 x6 x7 x8 x9 x10 x11 x12 x13 x14 x15 x16 x17 x18 x19 x20)

theorem val_main_v177_apply (i : S1024.Idx) :
    val_main_v177 x0 x1 x2 x3 x5 x6 x7 x8 x9 x10 x11 x12 x13 x14 x15 x16 x17 x18 x19 x20 i = FloatOps.addf (val_main_v176 (F := F) i) (val_main_v175 x0 x1 x2 x3 x5 x6 x7 x8 x9 x10 x11 x12 x13 x14 x15 x16 x17 x18 x19 x20 i) := rfl

def val_main_cst_33 : (⟨S_, .f32⟩ : BufTy).Contents (Elt F) :=
  constant S_ .f32 0x3F800000#32

theorem val_main_cst_33_apply (i : S_.Idx) :
    val_main_cst_33 (F := F) i = FloatOps.ofBits .f32 0x3F800000#32 := rfl

def val_main_v178 : (⟨S1024, .f32⟩ : BufTy).Contents (Elt F) :=
  broadcastInDim S1024 ![] bcast_S_S1024 (val_main_cst_33 (F := F))

abbrev idx_main_v178 (i : S1024.Idx) : S_.Idx := fun a => a.elim0

theorem val_main_v178_apply (i : S1024.Idx) :
    val_main_v178 (F := F) i = val_main_cst_33 (F := F) (idx_main_v178 i) := by
  unfold val_main_v178
  generalize val_main_cst_33 (F := F) = y
  exact broadcastInDim_apply _ bcast_S_S1024 y i (idx_main_v178 i) (fun a => a.elim0)

def val_main_v179 : (⟨S1024, .f32⟩ : BufTy).Contents (Elt F) :=
  Host.divf (val_main_v178 (F := F)) (val_main_v177 x0 x1 x2 x3 x5 x6 x7 x8 x9 x10 x11 x12 x13 x14 x15 x16 x17 x18 x19 x20)

theorem val_main_v179_apply (i : S1024.Idx) :
    val_main_v179 x0 x1 x2 x3 x5 x6 x7 x8 x9 x10 x11 x12 x13 x14 x15 x16 x17 x18 x19 x20 i = FloatOps.hostDivf (val_main_v178 (F := F) i) (val_main_v177 x0 x1 x2 x3 x5 x6 x7 x8 x9 x10 x11 x12 x13 x14 x15 x16 x17 x18 x19 x20 i) := rfl

end Cert.ReferenceIdeal.ReadP

end
-- ==== Proof.KI.HostPrefix.lean ====
import proofs.«421617_j66314295050867_4_alg».proof.Proof.RefRead
import proofs.«421617_j66314295050867_4_alg».proof.Proof.Gen.KernelIdeal.Regions
import Idealize.ShloMosaic.Lib.StableHlo.Run
import Idealize.ShloMosaic.Lib.ValueLayout
import Idealize.ShloMosaic.Lib.ValueIdx

noncomputable section

namespace Cert.KernelIdeal.Chain

open Cert.KernelIdeal Cert.KernelIdeal.Gen Idealize.ShloMosaic Idealize.ShloMosaic.TcCoe Idealize.SL.Sem Idealize.ShloMosaic.StableHlo
open Idealize.ShloMosaic.ValueIdx Cert.ReferenceIdeal

variable {F : FTy → Type} [FloatOps F]
variable (m : (ℓ : Loc nD τ sig) → Buf (Elt F) ℓ) (c : Dev nD)

theorem pre_v6 : Gen.V1 m c (Proc.devRef .tc main_v6) = ReadP.val_main_v6 (F := F) (m ((c.tc : Thread nD τ).loc main_arg2)) (m ((c.tc : Thread nD τ).loc main_arg5)) := by
  after_results_simp <;> rfl

theorem pre_v13 : Gen.V1 m c (Proc.devRef .tc main_v13) = ReadP.val_main_v13 (F := F) (m ((c.tc : Thread nD τ).loc main_arg3)) (m ((c.tc : Thread nD τ).loc main_arg6)) := by
  after_results_simp <;> rfl

theorem pre_v20 : Gen.V1 m c (Proc.devRef .tc main_v20) = ReadP.val_main_v24 (F := F) (m ((c.tc : Thread nD τ).loc main_arg0)) (m ((c.tc : Thread nD τ).loc main_arg5)) := by
  after_results_simp <;> rfl

theorem pre_v27 : Gen.V1 m c (Proc.devRef .tc main_v27) = ReadP.val_main_v33 (F := F) (m ((c.tc : Thread nD τ).loc main_arg1)) (m ((c.tc : Thread nD τ).loc main_arg6)) := by
  after_results_simp <;> rfl

theorem pre_v28 : Gen.V1 m c (Proc.devRef .tc main_v28) = ReadP.val_main_v44 (F := F) (m ((c.tc : Thread nD τ).loc main_arg7)) := by
  after_results_simp <;> rfl

theorem pre_v29 : Gen.V1 m c (Proc.devRef .tc main_v29) = ReadP.val_main_v81 (F := F) (m ((c.tc : Thread nD τ).loc main_arg10)) := by
  after_results_simp <;> rfl

theorem pre_v30 : Gen.V1 m c (Proc.devRef .tc main_v30) = ReadP.val_main_v118 (F := F) (m ((c.tc : Thread nD τ).loc main_arg13)) := by
  after_results_simp <;> rfl

theorem pre_v31 : Gen.V1 m c (Proc.devRef .tc main_v31) = ReadP.val_main_v144 (F := F) (m ((c.tc : Thread nD τ).loc main_arg15)) := by
  after_results_simp <;> rfl

theorem pre_v32 : Gen.V1 m c (Proc.devRef .tc main_v32) = ReadP.val_main_v150 (F := F) (m ((c.tc : Thread nD τ).loc main_arg17)) := by
  after_results_simp <;> rfl

theorem pre_v33 : Gen.V1 m c (Proc.devRef .tc main_v33) = ReadP.val_main_v156 (F := F) (m ((c.tc : Thread nD τ).loc main_arg19)) := by
  after_results_simp <;> rfl

theorem pre_v34 : Gen.V1 m c (Proc.devRef .tc main_v34) = ReadP.val_main_v46 (F := F) (m ((c.tc : Thread nD τ).loc main_arg8)) := by
  have h : Gen.V1 m c (Proc.devRef .tc main_v34) = shapeCast S1x32 (m ((c.tc : Thread nD τ).loc main_arg8)) shapeCasts_S32_S1x32 := by
    after_results_simp <;> rfl
  rw [h]; funext i
  obtain ⟨u, j, rfl⟩ : ∃ (u : Fin 1) (j : Fin 32), i = ix2 u j := ⟨i 0, i 1, eq_ix2 i⟩
  rw [shapeCast_a_1a_apply, ReadP.val_main_v46_apply]
  congr 1; funext a; match a with | ⟨0, _⟩ => exact Fin.ext (by first | rfl | omega)

theorem pre_v35 : Gen.V1 m c (Proc.devRef .tc main_v35) = ReadP.val_main_v76 (F := F) (m ((c.tc : Thread nD τ).loc main_arg9)) := by
  have h : Gen.V1 m c (Proc.devRef .tc main_v35) = shapeCast S1x32 (m ((c.tc : Thread nD τ).loc main_arg9)) shapeCasts_S32_S1x32 := by
    after_results_simp <;> rfl
  rw [h]; funext i
  obtain ⟨u, j, rfl⟩ : ∃ (u : Fin 1) (j : Fin 32), i = ix2 u j := ⟨i 0, i 1, eq_ix2 i⟩
  rw [shapeCast_a_1a_apply, ReadP.val_main_v76_apply]
  congr 1; funext a; match a with | ⟨0, _⟩ => exact Fin.ext (by first | rfl | omega)

theorem pre_v36 : Gen.V1 m c (Proc.devRef .tc main_v36) = ReadP.val_main_v83 (F := F) (m ((c.tc : Thread nD τ).loc main_arg11)) := by
  have h : Gen.V1 m c (Proc.devRef .tc main_v36) = shapeCast S1x16 (m ((c.tc : Thread nD τ).loc main_arg11)) shapeCasts_S16_S1x16 := by
    after_results_simp <;> rfl
  rw [h]; funext i
  obtain ⟨u, j, rfl⟩ : ∃ (u : Fin 1) (j : Fin 16), i = ix2 u j := ⟨i 0, i 1, eq_ix2 i⟩
  rw [shapeCast_a_1a_apply, ReadP.val_main_v83_apply]
  congr 1; funext a; match a with | ⟨0, _⟩ => exact Fin.ext (by first | rfl | omega)

theorem pre_v37 : Gen.V1 m c (Proc.devRef .tc main_v37) = ReadP.val_main_v113 (F := F) (m ((c.tc : Thread nD τ).loc main_arg12)) := by
  have h : Gen.V1 m c (Proc.devRef .tc main_v37) = shapeCast S1x16 (m ((c.tc : Thread nD τ).loc main_arg12)) shapeCasts_S16_S1x16 := by
    after_results_simp <;> rfl
  rw [h]; funext i
  obtain ⟨u, j, rfl⟩ : ∃ (u : Fin 1) (j : Fin 16), i = ix2 u j := ⟨i 0, i 1, eq_ix2 i⟩
  rw [shapeCast_a_1a_apply, ReadP.val_main_v113_apply]
  congr 1; funext a; match a with | ⟨0, _⟩ => exact Fin.ext (by first | rfl | omega)

theorem pre_v38 : Gen.V1 m c (Proc.devRef .tc main_v38) = ReadP.val_main_v120 (F := F) (m ((c.tc : Thread nD τ).loc main_arg14)) := by
  have h : Gen.V1 m c (Proc.devRef .tc main_v38) = shapeCast S1x1 (m ((c.tc : Thread nD τ).loc main_arg14)) shapeCasts_S1_S1x1 := by
    after_results_simp <;> rfl
  rw [h]; funext i
  obtain ⟨u, j, rfl⟩ : ∃ (u : Fin 1) (j : Fin 1), i = ix2 u j := ⟨i 0, i 1, eq_ix2 i⟩
  rw [shapeCast_a_1a_apply, ReadP.val_main_v120_apply]
  congr 1; funext a; match a with | ⟨0, _⟩ => exact Fin.ext (by show (j : ℕ) = 0; have := j.isLt; omega)

theorem pre_v39 : Gen.V1 m c (Proc.devRef .tc main_v39) = ReadP.val_main_v146 (F := F) (m ((c.tc : Thread nD τ).loc main_arg16)) := by
  have h : Gen.V1 m c (Proc.devRef .tc main_v39) = shapeCast S1x128 (m ((c.tc : Thread nD τ).loc main_arg16)) shapeCasts_S128_S1x128 := by
    after_results_simp <;> rfl
  rw [h]; funext i
  obtain ⟨u, j, rfl⟩ : ∃ (u : Fin 1) (j : Fin 128), i = ix2 u j := ⟨i 0, i 1, eq_ix2 i⟩
  rw [shapeCast_a_1a_apply, ReadP.val_main_v146_apply]
  congr 1; funext a; match a with | ⟨0, _⟩ => exact Fin.ext (by first | rfl | omega)

theorem pre_v40 : Gen.V1 m c (Proc.devRef .tc main_v40) = ReadP.val_main_v152 (F := F) (m ((c.tc : Thread nD τ).loc main_arg18)) := by
  have h : Gen.V1 m c (Proc.devRef .tc main_v40) = shapeCast S1x64 (m ((c.tc : Thread nD τ).loc main_arg18)) shapeCasts_S64_S1x64 := by
    after_results_simp <;> rfl
  rw [h]; funext i
  obtain ⟨u, j, rfl⟩ : ∃ (u : Fin 1) (j : Fin 64), i = ix2 u j := ⟨i 0, i 1, eq_ix2 i⟩
  rw [shapeCast_a_1a_apply, ReadP.val_main_v152_apply]
  congr 1; funext a; match a with | ⟨0, _⟩ => exact Fin.ext (by first | rfl | omega)

theorem pre_v41 : Gen.V1 m c (Proc.devRef .tc main_v41) = ReadP.val_main_v158 (F := F) (m ((c.tc : Thread nD τ).loc main_arg20)) := by
  have h : Gen.V1 m c (Proc.devRef .tc main_v41) = shapeCast S1x1 (m ((c.tc : Thread nD τ).loc main_arg20)) shapeCasts_S1_S1x1 := by
    after_results_simp <;> rfl
  rw [h]; funext i
  obtain ⟨u, j, rfl⟩ : ∃ (u : Fin 1) (j : Fin 1), i = ix2 u j := ⟨i 0, i 1, eq_ix2 i⟩
  rw [shapeCast_a_1a_apply, ReadP.val_main_v158_apply]
  congr 1; funext a; match a with | ⟨0, _⟩ => exact Fin.ext (by show (j : ℕ) = 0; have := j.isLt; omega)

end Cert.KernelIdeal.Chain

end
-- ==== Proof.LibBlockSum.lean ====
import Mathlib.Algebra.BigOperators.Fin
import Mathlib.Data.Fintype.BigOperators
import Mathlib.Logic.Equiv.Fin.Basic
import Idealize.ShloMosaic.Lib.Pipeline.Value
import Idealize.ShloMosaic.Lib.ValueIdx

namespace BlockSum

open Finset

theorem block_row_lt {a b : ℕ} (t : Fin a) (r : Fin b) : b * t.val + r.val < a * b := by
  have ht := t.isLt
  have hr := r.isLt
  calc b * t.val + r.val < b * t.val + b := Nat.add_lt_add_left hr _
    _ = b * (t.val + 1) := by rw [Nat.mul_add, Nat.mul_one]
    _ ≤ b * a := Nat.mul_le_mul_left b ht
    _ = a * b := Nat.mul_comm b a

theorem sum_blocks {M : Type*} [AddCommMonoid M] (a b : ℕ) (f : Fin (a * b) → M) :
    ∑ i : Fin (a * b), f i = ∑ t : Fin a, ∑ r : Fin b, f ⟨b * t.val + r.val, block_row_lt t r⟩ := by
  rw [← Equiv.sum_comp finProdFinEquiv f, Fintype.sum_prod_type]
  refine Finset.sum_congr rfl fun t _ => Finset.sum_congr rfl fun r _ => congrArg f (Fin.ext ?_)
  show r.val + b * t.val = b * t.val + r.val
  exact Nat.add_comm _ _

private def term {M : Type*} [AddCommMonoid M] {a : ℕ} (g : Fin a → M) (t : ℕ) : M :=
  if h : t < a then g ⟨t, h⟩ else 0

private theorem term_of_lt {M : Type*} [AddCommMonoid M] {a : ℕ} (g : Fin a → M) (t : ℕ) (h : t < a) :
    term g t = g ⟨t, h⟩ := dif_pos h

private theorem fold_partial {M : Type*} [AddCommMonoid M] (a : ℕ) (acc : (n : ℕ) → n < a → M) (z : M) (g : Fin a → M)
    (h0 : ∀ h : 0 < a, acc 0 h = z + g ⟨0, h⟩)
    (hs : ∀ (n : ℕ) (h : n + 1 < a), acc (n + 1) h = acc n (Nat.lt_of_succ_lt h) + g ⟨n + 1, h⟩) :
    ∀ (n : ℕ) (h : n < a), acc n h = z + ∑ t ∈ Finset.range (n + 1), term g t
  | 0, h => by rw [h0 h, Finset.sum_range_one, term_of_lt g 0 h]
  | n + 1, h => by
    rw [hs n h, fold_partial a acc z g h0 hs n (Nat.lt_of_succ_lt h), Finset.sum_range_succ _ (n + 1), term_of_lt g (n + 1) h,
      add_assoc]

theorem fold_sum {M : Type*} [AddCommMonoid M] (a : ℕ) (acc : (n : ℕ) → n < a → M) (z : M) (g : Fin a → M)
    (h0 : ∀ h : 0 < a, acc 0 h = z + g ⟨0, h⟩)
    (hs : ∀ (n : ℕ) (h : n + 1 < a), acc (n + 1) h = acc n (Nat.lt_of_succ_lt h) + g ⟨n + 1, h⟩)
    (n : ℕ) (h : n < a) (hl : n + 1 = a) : acc n h = z + ∑ t : Fin a, g t := by
  rw [fold_partial a acc z g h0 hs n h, hl, Finset.sum_range]
  exact congrArg (z + ·) (Finset.sum_congr rfl fun t _ => term_of_lt g t.val t.isLt)

theorem fold_blocks {M : Type*} [AddCommMonoid M] {a b N : ℕ} (hN : N = a) (acc : (n : ℕ) → n < N → M) (f : Fin (a * b) → M)
    (g : Fin N → Fin b → M) (hg : ∀ t r, g t r = f ⟨b * t.val + r.val, block_row_lt (t.cast hN) r⟩)
    (h0 : ∀ h, acc 0 h = 0 + ∑ r, g ⟨0, h⟩ r)
    (hs : ∀ n h, acc (n + 1) h = acc n (Nat.lt_of_succ_lt h) + ∑ r, g ⟨n + 1, h⟩ r)
    (n : ℕ) (h : n < N) (hl : n + 1 = N) : acc n h = ∑ i, f i := by
  subst hN
  rw [fold_sum _ acc 0 (fun t => ∑ r, f ⟨b * t.val + r.val, block_row_lt t r⟩)
    (fun h => (h0 h).trans (congrArg (0 + ·) (Finset.sum_congr rfl fun r _ => hg _ r)))
    (fun n h => (hs n h).trans (congrArg (acc n (Nat.lt_of_succ_lt h) + ·) (Finset.sum_congr rfl fun r _ => hg _ r))) n h hl, zero_add]
  exact (sum_blocks _ b f).symm

open Idealize.ShloMosaic Idealize.ShloMosaic.ValueIdx

theorem read_id {S : Shape} {α : Type} (G : S.Idx → α) (e : S.Idx → S.Idx) (h : ∀ j a, (e j a).val = (j a).val) :
    (fun j => G (e j)) = G :=
  funext fun j => congrArg G (funext fun a => Fin.ext (h j a))

theorem emb_row3 {n0 n1 n2 T : ℕ} (ix : Fin 3 → ℕ) (inb) (h0 : ix 0 = T) (h1 : ix 1 = 0) (h2 : ix 2 = 0)
    (p : Fin 32) (l : Fin n1) (k : Fin n2) (q : Fin n0) (hq : q.val = 32 * T + p.val) :
    (Rect.unit (s := ⟨3, ![n0, n1, n2]⟩) (fun a => ix a * (![32, n1, n2] : Fin 3 → ℕ) a) ![32, n1, n2] inb).emb (ix3 p l k)
      = ix3 q l k := by
  funext a; apply Fin.ext; rw [Rect.emb_apply]
  match a with
  | ⟨0, _⟩ => show ix 0 * 32 + 1 * p.val = q.val; omega
  | ⟨1, _⟩ => show ix 1 * n1 + 1 * l.val = l.val; rw [h1]; omega
  | ⟨2, _⟩ => show ix 2 * n2 + 1 * k.val = k.val; rw [h2]; omega

theorem emb_row2 {n0 n1 T : ℕ} (ix : Fin 2 → ℕ) (inb) (h0 : ix 0 = T) (h1 : ix 1 = 0)
    (p : Fin 32) (l : Fin n1) (q : Fin n0) (hq : q.val = 32 * T + p.val) :
    (Rect.unit (s := ⟨2, ![n0, n1]⟩) (fun a => ix a * (![32, n1] : Fin 2 → ℕ) a) ![32, n1] inb).emb (ix2 p l) = ix2 q l := by
  funext a; apply Fin.ext; rw [Rect.emb_apply]
  match a with
  | ⟨0, _⟩ => show ix 0 * 32 + 1 * p.val = q.val; omega
  | ⟨1, _⟩ => show ix 1 * n1 + 1 * l.val = l.val; rw [h1]; omega

theorem mem_of_emb {σ : RefSig} {κ : Kind} {sp : Space} {S : Shape} {e : EltTy} {v : View σ κ sp S e} {y : S.Idx} {i : v.ty.Idx}
    (h : v.emb y = i) : i ∈ v.set := h ▸ v.emb_mem_set y

end BlockSum
-- ==== Proof.KI.R0Arr.lean ====
import proofs.«421617_j66314295050867_4_alg».proof.Proof.KI.R0
import proofs.«421617_j66314295050867_4_alg».proof.Proof.LibBlockSum
import Idealize.ShloMosaic.Lib.Pipeline.Value
import Idealize.ShloMosaic.Lib.ValueIdx

set_option maxRecDepth 16384

noncomputable section

namespace Cert.KernelIdeal.Fr

open BlockSum

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

theorem idx0 : ∀ (t : Fin cfg0.N) (w : Fin cfg0.W) a,
    (cfg0.win w).index t a = if w.val ∈ [0, 1, 2, 3, 4, 7] ∧ a.val = 0 then t.val else 0 :=
  (by decide +kernel : ∀ (t : Fin grid0.N) (w : Fin 10) a, _)

theorem embZ0 (t : Fin cfg0.N) (w : Fin cfg0.W) (hw : w.val ∉ [0, 1, 2, 3, 4, 7]) (j) (a) :
    (((cfg0.win w).rect t).emb j a).val = (j a).val :=
  (cfg0.win w).rect_emb_val_of_index_zero t a ((idx0 t w a).trans (if_neg fun h => hw h.1)) j

theorem arr0_8 (c : Dev nD) (h31 : 31 < cfg0.N) :
    ((dat0 V c).arrAt 8 cfg0.N : S1x32.Idx → Elt F .f32) = (sAt0 V c 31 h31).1 := by
  refine (dat0 V c).arrAt_eq_of_cover 8 ((sAt0 V c 31 h31).1 : S1x32.Idx → Elt F .f32) (fun t hf => ?_)
    (fun i => ⟨⟨31, h31⟩, (flush0_8 _).mpr rfl, mem_of_emb (funext fun a => Fin.ext (embZ0 _ 8 (by decide) i a))⟩)
  have ht : t = ⟨31, h31⟩ := Fin.ext (show t.val = 31 by have := (flush0_8 t).mp hf; have := t.isLt; have hN : cfg0.N = 32 := N_0; omega)
  subst ht
  show (cfg0.win 8).cut (grid0.coords ⟨31, h31⟩) ((dat0 V c).after 8 ⟨31, h31⟩) = _
  rw [after0_8]
  exact (read_id ((sAt0 V c 31 h31).1 : S1x32.Idx → Elt F .f32) _ (embZ0 _ 8 (by decide))).symm

theorem arr0_9 (c : Dev nD) (h31 : 31 < cfg0.N) :
    ((dat0 V c).arrAt 9 cfg0.N : S1x32.Idx → Elt F .f32) = (sAt0 V c 31 h31).2 := by
  refine (dat0 V c).arrAt_eq_of_cover 9 ((sAt0 V c 31 h31).2 : S1x32.Idx → Elt F .f32) (fun t hf => ?_)
    (fun i => ⟨⟨31, h31⟩, (flush0_9 _).mpr rfl, mem_of_emb (funext fun a => Fin.ext (embZ0 _ 9 (by decide) i a))⟩)
  have ht : t = ⟨31, h31⟩ := Fin.ext (show t.val = 31 by have := (flush0_9 t).mp hf; have := t.isLt; have hN : cfg0.N = 32 := N_0; omega)
  subst ht
  show (cfg0.win 9).cut (grid0.coords ⟨31, h31⟩) ((dat0 V c).after 9 ⟨31, h31⟩) = _
  rw [after0_9]
  exact (read_id ((sAt0 V c 31 h31).2 : S1x32.Idx → Elt F .f32) _ (embZ0 _ 9 (by decide))).symm

end Cert.KernelIdeal.Fr

end
-- ==== Proof.KI.R0PtVal.lean ====
import proofs.«421617_j66314295050867_4_alg».proof.Proof.KI.R0Pt
import Idealize.ShloMosaic.Lib.Pipeline.Value
import Idealize.ShloMosaic.Lib.ValueIdx
import Idealize.ShloMosaic.PureOps.Ideal.Laws

noncomputable section

namespace Cert.KernelIdeal.Fr

open Idealize.ShloMosaic Idealize.SL.Sem Idealize.ShloMosaic.ValueIdx
open Cert.KernelIdeal Cert.KernelIdeal.Gen
open scoped BigOperators

def maskOf (x : BitVec 32) : EReal := FloatOps.sitofp (F := Ideal) .f32 ((IntOp.cmpi .sgt x 0#32).setWidth 32)

theorem maskOf_eq_uitofp (x : BitVec 32) :
    maskOf x = FloatOps.uitofp (F := Ideal) .f32 (IntOp.cmpi .sgt x 0#32) := by
  have h : ∀ b : BitVec 1, (b.setWidth 32).toInt = (b.toNat : ℤ) := by decide
  show (((((IntOp.cmpi .sgt x 0#32).setWidth 32).toInt : ℝ)) : EReal) = (((IntOp.cmpi .sgt x 0#32).toNat : ℝ) : EReal)
  rw [h, Int.cast_natCast]

def rowOf (T C I K : Fin 64 → EReal) (m : EReal) (W : Fin 512 → EReal) (β : EReal) : EReal :=
  (∑ d : Fin 64, T d * W ⟨0 + d.val, by omega⟩)
  + (∑ d : Fin 64, C d * W ⟨64 + d.val, by omega⟩)
  + (∑ d : Fin 64, (I d * m) * W ⟨128 + d.val, by omega⟩)
  + (∑ d : Fin 64, (K d * m) * W ⟨192 + d.val, by omega⟩)
  + (∑ d : Fin 64, (T d - I d * m) * W ⟨256 + d.val, by omega⟩)
  + (∑ d : Fin 64, (C d - K d * m) * W ⟨320 + d.val, by omega⟩)
  + (∑ d : Fin 64, (T d * (I d * m)) * W ⟨384 + d.val, by omega⟩)
  + (∑ d : Fin 64, (C d * (K d * m)) * W ⟨448 + d.val, by omega⟩)
  + β

def h0row (im cm : Vec Ideal S32x200x64 .f32) (ti tc : Vec Ideal S32x64 .f32) (hist : Vec Ideal S32x200 .i32)
    (w : Vec Ideal S512x32 .f32) (b : Vec Ideal S1x32 .f32) (a : Fin 32) (l : Fin 200) (j : Fin 32) : EReal :=
  rowOf (fun d => ti (ix2 a d)) (fun d => tc (ix2 a d)) (fun d => im (ix3 a l d)) (fun d => cm (ix3 a l d))
    (maskOf (hist (ix2 a l))) (fun k => w (ix2 k j)) (b (ix2 (0 : Fin 1) j))

private theorem lhs_D0_0 (i : S6400x32.Idx) (q : dot_S6400x64_S64x32_S6400x32_1_0_0_1_n_n.contr.Idx) :
    (dot_S6400x64_S64x32_S6400x32_1_0_0_1_n_n.lhsIdx i q 0).val = (i 0).val := by
  unfold DotDims.lhsIdx
  rw [dif_neg (show ¬(0 : Fin S6400x64.rank) ∈ dot_S6400x64_S64x32_S6400x32_1_0_0_1_n_n.lhsBatch by decide), dif_pos (show (0 : Fin S6400x64.rank) ∈ dot_S6400x64_S64x32_S6400x32_1_0_0_1_n_n.lhsNonContracting by decide)]
  rfl
private theorem lhs_D0_1 (i : S6400x32.Idx) (q : dot_S6400x64_S64x32_S6400x32_1_0_0_1_n_n.contr.Idx) :
    (dot_S6400x64_S64x32_S6400x32_1_0_0_1_n_n.lhsIdx i q 1).val = (q ⟨0, by decide⟩).val :=
  dot_S6400x64_S64x32_S6400x32_1_0_0_1_n_n.lhsIdx_val_of_single rfl i q
private theorem rhs_D0_0 (i : S6400x32.Idx) (q : dot_S6400x64_S64x32_S6400x32_1_0_0_1_n_n.contr.Idx) :
    (dot_S6400x64_S64x32_S6400x32_1_0_0_1_n_n.rhsIdx i q 0).val = (q ⟨0, by decide⟩).val :=
  dot_S6400x64_S64x32_S6400x32_1_0_0_1_n_n.rhsIdx_val_of_single rfl i q
private theorem rhs_D0_1 (i : S6400x32.Idx) (q : dot_S6400x64_S64x32_S6400x32_1_0_0_1_n_n.contr.Idx) :
    (dot_S6400x64_S64x32_S6400x32_1_0_0_1_n_n.rhsIdx i q 1).val = (i 1).val := by
  unfold DotDims.rhsIdx
  rw [dif_neg (show ¬(1 : Fin S64x32.rank) ∈ dot_S6400x64_S64x32_S6400x32_1_0_0_1_n_n.rhsBatch by decide), dif_pos (show (1 : Fin S64x32.rank) ∈ dot_S6400x64_S64x32_S6400x32_1_0_0_1_n_n.rhsNonContracting by decide)]
  rfl

private theorem mm0_apply {φ₁ φ₂ : FTy} (L : FVec Ideal S6400x64 φ₁) (R : FVec Ideal S64x32 φ₂) (r : Fin 6400) (j : Fin 32) :
    matmul dot_S6400x64_S64x32_S6400x32_1_0_0_1_n_n none L R (constant (F := Ideal) S6400x32 .f32 0x00000000#32) (ix2 r j)
      = ∑ d : Fin 64, L (ix2 r d) * R (ix2 d j) := by
  simp only [matmul]
  rw [Ideal.matmul_constant_zero_apply, ← Equiv.sum_comp (ValueIdx.contrEquiv1 dot_S6400x64_S64x32_S6400x32_1_0_0_1_n_n 64 rfl rfl).symm]
  refine Finset.sum_congr rfl fun k _ => ?_
  have hk := ValueIdx.contrEquiv1_symm_val dot_S6400x64_S64x32_S6400x32_1_0_0_1_n_n 64 rfl rfl k
  have el : dot_S6400x64_S64x32_S6400x32_1_0_0_1_n_n.lhsIdx (ix2 r j) ((ValueIdx.contrEquiv1 dot_S6400x64_S64x32_S6400x32_1_0_0_1_n_n 64 rfl rfl).symm k) = ix2 r k := funext fun a => Fin.ext (by
    match a with
    | ⟨0, _⟩ => exact lhs_D0_0 _ _
    | ⟨1, _⟩ => exact (lhs_D0_1 _ _).trans hk)
  have er : dot_S6400x64_S64x32_S6400x32_1_0_0_1_n_n.rhsIdx (ix2 r j) ((ValueIdx.contrEquiv1 dot_S6400x64_S64x32_S6400x32_1_0_0_1_n_n 64 rfl rfl).symm k) = ix2 k j := funext fun a => Fin.ext (by
    match a with
    | ⟨0, _⟩ => exact (rhs_D0_0 _ _).trans hk
    | ⟨1, _⟩ => exact rhs_D0_1 _ _)
  rw [el, er]

private theorem ld_w_apply (w : Vec Ideal S512x32 .f32) (off : Nat) (inb : ∀ a, (![off, 0] : Fin 2 → Nat) a + S64x32.size a ≤ S512x32.size a)
    (d : Fin 64) (j : Fin 32) (h : off + d.val < 512) :
    View.ld w (Rect.unit (s := S512x32) ![off, 0] S64x32.size inb) (ix2 d j) = w (ix2 ⟨off + d.val, h⟩ j) := by
  refine congrArg w (funext fun a => Fin.ext ?_)
  match a with
  | ⟨0, _⟩ => show off + 1 * d.val = off + d.val; omega
  | ⟨1, _⟩ => show 0 + 1 * j.val = j.val; omega

private theorem flat64_apply {α : Type} (X : S32x200x64.Idx → α) (r : Fin 6400) (d : Fin 64) :
    shapeCast S6400x64 X shapeCasts_S32x200x64_S6400x64 (ix2 r d)
      = X (ix3 (⟨r.val / 200, by omega⟩ : Fin 32) (⟨r.val % 200, by omega⟩ : Fin 200) d) := by
  refine shapeCast_apply X shapeCasts_S32x200x64_S6400x64 (ix2 r d) _ ?_
  rewrite [Shape.rowMajor_val_three, Shape.rowMajor_val_two]
  show (r.val / 200 * 200 + r.val % 200) * 64 + d.val = r.val * 64 + d.val
  omega

private theorem piece_apply (X : FVec Ideal S32x200x64 .f32) (w : Vec Ideal S512x32 .f32) (off : Nat)
    (inb : ∀ a, (![off, 0] : Fin 2 → Nat) a + S64x32.size a ≤ S512x32.size a) (hoff : off + 64 ≤ 512) (r : Fin 6400) (j : Fin 32) :
    matmul dot_S6400x64_S64x32_S6400x32_1_0_0_1_n_n none
        (truncf .bf16 (shapeCast S6400x64 X shapeCasts_S32x200x64_S6400x64) bitsLt_bf16_f32)
        (truncf .bf16 (shapeCast S64x32 (View.ld w (Rect.unit (s := S512x32) ![off, 0] S64x32.size inb)) shapeCasts_S64x32_S64x32) bitsLt_bf16_f32)
        (constant (F := Ideal) S6400x32 .f32 0x00000000#32) (ix2 r j)
      = ∑ d : Fin 64, X (ix3 (⟨r.val / 200, by omega⟩ : Fin 32) (⟨r.val % 200, by omega⟩ : Fin 200) d)
          * w (ix2 (⟨off + d.val, by omega⟩ : Fin 512) j) := by
  rw [mm0_apply]
  refine Finset.sum_congr rfl fun d _ => ?_
  refine congrArg₂ (· * ·) ?_ ?_
  · exact flat64_apply X r d
  · refine (congrFun (shapeCast_self (s := S64x32) (View.ld w (Rect.unit (s := S512x32) ![off, 0] S64x32.size inb)) shapeCasts_S64x32_S64x32) (ix2 d j)).trans ?_
    exact ld_w_apply w off inb d j (by omega)

private theorem spread1_apply {α : Type} (M : S32x200x1.Idx → α) (a : Fin 32) (l : Fin 200) (d : Fin 64) :
    broadcastTo S32x200x64 M broadcasts_S32x200x1_S32x200x64 (ix3 a l d) = M (ix3 a l (0 : Fin 1)) := by
  refine broadcastTo_apply M broadcasts_S32x200x1_S32x200x64 (ix3 a l d) _ fun x => ?_
  match x with
  | ⟨0, _⟩ => show a.val = if (32 : Nat) = 1 then 0 else a.val; rw [if_neg (by decide)]
  | ⟨1, _⟩ => show l.val = if (200 : Nat) = 1 then 0 else l.val; rw [if_neg (by decide)]
  | ⟨2, _⟩ => show 0 = if (1 : Nat) = 1 then 0 else d.val; rw [if_pos rfl]

private theorem col1_apply {α : Type} (M : S32x200.Idx → α) (a : Fin 32) (l : Fin 200) :
    shapeCast S32x200x1 M shapeCasts_S32x200_S32x200x1 (ix3 a l (0 : Fin 1)) = M (ix2 a l) := by
  refine shapeCast_apply M shapeCasts_S32x200_S32x200x1 (ix3 a l (0 : Fin 1)) _ ?_
  rewrite [Shape.rowMajor_val_three, Shape.rowMajor_val_two]
  show a.val * 200 + l.val = (a.val * 200 + l.val) * 1 + 0
  omega

private theorem spreadT_apply {α : Type} (T : S32x1x64.Idx → α) (a : Fin 32) (l : Fin 200) (d : Fin 64) :
    broadcastTo S32x200x64 T broadcasts_S32x1x64_S32x200x64 (ix3 a l d) = T (ix3 a (0 : Fin 1) d) := by
  refine broadcastTo_apply T broadcasts_S32x1x64_S32x200x64 (ix3 a l d) _ fun x => ?_
  match x with
  | ⟨0, _⟩ => show a.val = if (32 : Nat) = 1 then 0 else a.val; rw [if_neg (by decide)]
  | ⟨1, _⟩ => show 0 = if (1 : Nat) = 1 then 0 else l.val; rw [if_pos rfl]
  | ⟨2, _⟩ => show d.val = if (64 : Nat) = 1 then 0 else d.val; rw [if_neg (by decide)]

private theorem mid1_apply {α : Type} (T : S32x64.Idx → α) (a : Fin 32) (d : Fin 64) :
    shapeCast S32x1x64 T shapeCasts_S32x64_S32x1x64 (ix3 a (0 : Fin 1) d) = T (ix2 a d) := by
  refine shapeCast_apply T shapeCasts_S32x64_S32x1x64 (ix3 a (0 : Fin 1) d) _ ?_
  rewrite [Shape.rowMajor_val_three, Shape.rowMajor_val_two]
  show a.val * 64 + d.val = (a.val * 1 + 0) * 64 + d.val
  omega

private theorem bias_apply (b : Vec Ideal S1x32 .f32) (r : Fin 6400) (j : Fin 32) :
    broadcastTo S6400x32 (shapeCast S1x32 b shapeCasts_S1x32_S1x32) broadcasts_S1x32_S6400x32 (ix2 r j) = b (ix2 (0 : Fin 1) j) := by
  refine (broadcastTo_apply _ broadcasts_S1x32_S6400x32 (ix2 r j) (ix2 (0 : Fin 1) j) fun x => ?_).trans ?_
  · match x with
    | ⟨0, _⟩ => show 0 = if (1 : Nat) = 1 then 0 else r.val; rw [if_pos rfl]
    | ⟨1, _⟩ => show j.val = if (32 : Nat) = 1 then 0 else j.val; rw [if_neg (by decide)]
  · rw [shapeCast_self]

private theorem row1_apply {α : Type} (X : S32.Idx → α) (j : Fin 32) :
    shapeCast S1x32 X shapeCasts_S32_S1x32 (ix2 (0 : Fin 1) j) = X (ix1 j) := by
  refine shapeCast_apply X shapeCasts_S32_S1x32 (ix2 (0 : Fin 1) j) _ ?_
  rewrite [Shape.rowMajor_val_one, Shape.rowMajor_val_two]
  show j.val = 0 * 32 + j.val
  omega

private theorem unflat32_apply {α : Type} (X : S6400x32.Idx → α) (a : Fin 32) (l : Fin 200) (j : Fin 32) :
    shapeCast S32x200x32 X shapeCasts_S6400x32_S32x200x32 (ix3 a l j) = X (ix2 (⟨200 * a.val + l.val, by omega⟩ : Fin 6400) j) := by
  refine shapeCast_apply X shapeCasts_S6400x32_S32x200x32 (ix3 a l j) _ ?_
  rewrite [Shape.rowMajor_val_three, Shape.rowMajor_val_two]
  show (200 * a.val + l.val) * 32 + j.val = (a.val * 200 + l.val) * 32 + j.val
  omega

private theorem colsum_apply (X : FVec Ideal S6400x32 .f32) (hφ : FKind.Formats .f32)
    (hacc : (0x00000000#32 : BitVec 32) = FKind.add.neutral .f32 hφ) (j : Fin 32) :
    multiReduction (F := Ideal) .add [0] S32 X 0x00000000#32 reduces_S6400x32_S32 hφ hacc (ix1 j) = ∑ r : Fin 6400, X (ix2 r j) := by
  refine (Ideal.multiReduction_add_single X 0x00000000#32 reduces_S6400x32_S32 hφ hacc (ix1 j)).trans ?_
  refine Finset.sum_congr rfl fun r _ => congrArg X (funext fun a => Fin.ext ?_)
  match a with
  | ⟨0, _⟩ => rfl
  | ⟨1, _⟩ => rfl

section Pieces
variable (im cm : Vec Ideal S32x200x64 .f32) (ti tc : Vec Ideal S32x64 .f32) (hist : Vec Ideal S32x200 .i32)

private theorem pay7_apply (a : Fin 32) (l : Fin 200) : k0_pay7 (F := Ideal) hist (ix3 a l (0 : Fin 1)) = maskOf (hist (ix2 a l)) := by
  unfold k0_pay7
  exact col1_apply _ a l

private theorem pay8_apply (a : Fin 32) (l : Fin 200) (d : Fin 64) :
    k0_pay8 (F := Ideal) hist im (ix3 a l d) = im (ix3 a l d) * maskOf (hist (ix2 a l)) := by
  unfold k0_pay8
  show shapeCast S32x200x64 im shapeCasts_S32x200x64_S32x200x64 (ix3 a l d) * broadcastTo S32x200x64 (k0_pay7 (F := Ideal) hist) broadcasts_S32x200x1_S32x200x64 (ix3 a l d) = _
  rw [shapeCast_self, spread1_apply, pay7_apply]

private theorem pay9_apply (a : Fin 32) (l : Fin 200) (d : Fin 64) :
    k0_pay9 (F := Ideal) hist cm (ix3 a l d) = cm (ix3 a l d) * maskOf (hist (ix2 a l)) := by
  unfold k0_pay9
  show shapeCast S32x200x64 cm shapeCasts_S32x200x64_S32x200x64 (ix3 a l d) * broadcastTo S32x200x64 (k0_pay7 (F := Ideal) hist) broadcasts_S32x200x1_S32x200x64 (ix3 a l d) = _
  rw [shapeCast_self, spread1_apply, pay7_apply]

private theorem pay10_apply (a : Fin 32) (l : Fin 200) (d : Fin 64) :
    k0_pay10 (F := Ideal) ti (ix3 a l d) = ti (ix2 a d) := by
  unfold k0_pay10
  show broadcastTo S32x200x64 _ broadcasts_S32x1x64_S32x200x64 (ix3 a l d) = _
  rw [spreadT_apply, shapeCast_self, mid1_apply, shapeCast_self]

private theorem pay11_apply (a : Fin 32) (l : Fin 200) (d : Fin 64) :
    k0_pay11 (F := Ideal) tc (ix3 a l d) = tc (ix2 a d) := by
  unfold k0_pay11
  show broadcastTo S32x200x64 _ broadcasts_S32x1x64_S32x200x64 (ix3 a l d) = _
  rw [spreadT_apply, shapeCast_self, mid1_apply, shapeCast_self]

private theorem pay12_apply (a : Fin 32) (l : Fin 200) (d : Fin 64) :
    k0_pay12 (F := Ideal) hist im ti (ix3 a l d) = ti (ix2 a d) - im (ix3 a l d) * maskOf (hist (ix2 a l)) := by
  unfold k0_pay12
  show k0_pay10 (F := Ideal) ti (ix3 a l d) - k0_pay8 (F := Ideal) hist im (ix3 a l d) = _
  rw [pay10_apply, pay8_apply]

private theorem pay13_apply (a : Fin 32) (l : Fin 200) (d : Fin 64) :
    k0_pay13 (F := Ideal) hist cm tc (ix3 a l d) = tc (ix2 a d) - cm (ix3 a l d) * maskOf (hist (ix2 a l)) := by
  unfold k0_pay13
  show k0_pay11 (F := Ideal) tc (ix3 a l d) - k0_pay9 (F := Ideal) hist cm (ix3 a l d) = _
  rw [pay11_apply, pay9_apply]

private theorem pay14_apply (a : Fin 32) (l : Fin 200) (d : Fin 64) :
    k0_pay14 (F := Ideal) hist im ti (ix3 a l d) = ti (ix2 a d) * (im (ix3 a l d) * maskOf (hist (ix2 a l))) := by
  unfold k0_pay14
  show k0_pay10 (F := Ideal) ti (ix3 a l d) * k0_pay8 (F := Ideal) hist im (ix3 a l d) = _
  rw [pay10_apply, pay8_apply]

private theorem pay15_apply (a : Fin 32) (l : Fin 200) (d : Fin 64) :
    k0_pay15 (F := Ideal) hist cm tc (ix3 a l d) = tc (ix2 a d) * (cm (ix3 a l d) * maskOf (hist (ix2 a l))) := by
  unfold k0_pay15
  show k0_pay11 (F := Ideal) tc (ix3 a l d) * k0_pay9 (F := Ideal) hist cm (ix3 a l d) = _
  rw [pay11_apply, pay9_apply]

end Pieces

section Point
variable (im cm : Vec Ideal S32x200x64 .f32) (ti tc : Vec Ideal S32x64 .f32) (hist : Vec Ideal S32x200 .i32)
  (w : Vec Ideal S512x32 .f32) (b : Vec Ideal S1x32 .f32)

private theorem pay16_apply (r : Fin 6400) (j : Fin 32) :
    k0_pay16 (F := Ideal) ti (View.ld w (Rect.unit (s := S512x32) ![0, 0] S64x32.size inb_S512x32_S64x32_0_0)) (ix2 r j)
      = ∑ d : Fin 64, k0_pay10 (F := Ideal) ti (ix3 (⟨r.val / 200, by omega⟩ : Fin 32) (⟨r.val % 200, by omega⟩ : Fin 200) d)
          * w (ix2 (⟨0 + d.val, by omega⟩ : Fin 512) j) := by
  unfold k0_pay16
  dsimp only
  simp only [ValueIdx.addf_apply]
  rw [piece_apply (k0_pay10 (F := Ideal) ti) w 0 _ (by omega)]
  show Ideal.ofBits .f32 0x00000000#32 + _ = _
  rw [Ideal.ofBits_zero_f32, zero_add]

private theorem pay17_apply (v12 v16 v26 v27 v28 v29 : FVec Ideal S32x200x64 .f32) (v38 : FVec Ideal S6400x32 .f32)
    (r : Fin 6400) (j : Fin 32) :
    k0_pay17 v12 v16 v26 v27 v28 v29 v38
      (View.ld w (Rect.unit (s := S512x32) ![64, 0] S64x32.size inb_S512x32_S64x32_64_0))
      (View.ld w (Rect.unit (s := S512x32) ![128, 0] S64x32.size inb_S512x32_S64x32_128_0))
      (View.ld w (Rect.unit (s := S512x32) ![192, 0] S64x32.size inb_S512x32_S64x32_192_0))
      (View.ld w (Rect.unit (s := S512x32) ![256, 0] S64x32.size inb_S512x32_S64x32_256_0))
      (View.ld w (Rect.unit (s := S512x32) ![320, 0] S64x32.size inb_S512x32_S64x32_320_0))
      (View.ld w (Rect.unit (s := S512x32) ![384, 0] S64x32.size inb_S512x32_S64x32_384_0)) (ix2 r j)
    = v38 (ix2 r j)
      + (∑ d : Fin 64, v26 (ix3 (⟨r.val / 200, by omega⟩ : Fin 32) (⟨r.val % 200, by omega⟩ : Fin 200) d) * w (ix2 (⟨64 + d.val, by omega⟩ : Fin 512) j))
      + (∑ d : Fin 64, v12 (ix3 (⟨r.val / 200, by omega⟩ : Fin 32) (⟨r.val % 200, by omega⟩ : Fin 200) d) * w (ix2 (⟨128 + d.val, by omega⟩ : Fin 512) j))
      + (∑ d : Fin 64, v16 (ix3 (⟨r.val / 200, by omega⟩ : Fin 32) (⟨r.val % 200, by omega⟩ : Fin 200) d) * w (ix2 (⟨192 + d.val, by omega⟩ : Fin 512) j))
      + (∑ d : Fin 64, v27 (ix3 (⟨r.val / 200, by omega⟩ : Fin 32) (⟨r.val % 200, by omega⟩ : Fin 200) d) * w (ix2 (⟨256 + d.val, by omega⟩ : Fin 512) j))
      + (∑ d : Fin 64, v28 (ix3 (⟨r.val / 200, by omega⟩ : Fin 32) (⟨r.val % 200, by omega⟩ : Fin 200) d) * w (ix2 (⟨320 + d.val, by omega⟩ : Fin 512) j))
      + (∑ d : Fin 64, v29 (ix3 (⟨r.val / 200, by omega⟩ : Fin 32) (⟨r.val % 200, by omega⟩ : Fin 200) d) * w (ix2 (⟨384 + d.val, by omega⟩ : Fin 512) j)) := by
  unfold k0_pay17
  dsimp only
  simp only [ValueIdx.addf_apply]
  rw [piece_apply v26 w 64 _ (by omega), piece_apply v12 w 128 _ (by omega), piece_apply v16 w 192 _ (by omega),
    piece_apply v27 w 256 _ (by omega), piece_apply v28 w 320 _ (by omega), piece_apply v29 w 384 _ (by omega)]

def pt0_m {F : FTy → Type} [FloatOps F] (im cm : Vec F S32x200x64 .f32) (ti tc : Vec F S32x64 .f32) (hist : Vec F S32x200 .i32)
    (w : Vec F S512x32 .f32) (b : Vec F S1x32 .f32) : FVec F S6400x32 .f32 :=
  k0_pay1 (k0_pay15 hist cm tc) (pt0_acc im cm ti tc hist w)
    (View.ld w (Rect.unit (s := S512x32) ![448, 0] S64x32.size inb_S512x32_S64x32_448_0)) b

theorem pt0_m_apply (r : Fin 6400) (j : Fin 32) :
    pt0_m im cm ti tc hist w b (ix2 r j)
      = h0row im cm ti tc hist w b (⟨r.val / 200, by omega⟩ : Fin 32) (⟨r.val % 200, by omega⟩ : Fin 200) j := by
  unfold pt0_m k0_pay1
  dsimp only
  simp only [ValueIdx.addf_apply]
  rw [piece_apply (k0_pay15 (F := Ideal) hist cm tc) w 448 _ (by omega), bias_apply]
  unfold pt0_acc
  rw [pay17_apply, pay16_apply]
  simp only [pay8_apply, pay9_apply, pay10_apply, pay11_apply, pay12_apply, pay13_apply, pay14_apply, pay15_apply]
  rfl

theorem pt0_h_apply (a : Fin 32) (l : Fin 200) (j : Fin 32) :
    pt0_h im cm ti tc hist w b (ix3 a l j) = h0row im cm ti tc hist w b a l j := by
  show shapeCast S32x200x32 (pt0_m im cm ti tc hist w b) shapeCasts_S6400x32_S32x200x32 (ix3 a l j) = _
  rw [unflat32_apply, pt0_m_apply]
  have e1 : (200 * a.val + l.val) / 200 = a.val := by omega
  have e2 : (200 * a.val + l.val) % 200 = l.val := by omega
  congr 1
  · exact Fin.ext e1
  · exact Fin.ext e2

theorem pt0_s_apply (acc : Vec Ideal S1x32 .f32) (j : Fin 32) :
    pt0_s im cm ti tc hist w b acc (ix2 (0 : Fin 1) j)
      = acc (ix2 (0 : Fin 1) j) + ∑ r : Fin 6400, pt0_m im cm ti tc hist w b (ix2 r j) := by
  show k0_pay3 _ _ _ _ acc (ix2 (0 : Fin 1) j) = _
  unfold k0_pay3
  dsimp only
  rw [shapeCast_self]
  simp only [ValueIdx.addf_apply]
  rw [row1_apply]
  exact congrArg (acc (ix2 (0 : Fin 1) j) + ·) (colsum_apply (pt0_m im cm ti tc hist w b) _ _ j)

theorem pt0_q_apply (acc : Vec Ideal S1x32 .f32) (j : Fin 32) :
    pt0_q im cm ti tc hist w b acc (ix2 (0 : Fin 1) j)
      = acc (ix2 (0 : Fin 1) j) + ∑ r : Fin 6400, pt0_m im cm ti tc hist w b (ix2 r j) * pt0_m im cm ti tc hist w b (ix2 r j) := by
  show k0_pay4 _ _ _ _ acc (ix2 (0 : Fin 1) j) = _
  unfold k0_pay4
  dsimp only
  rw [shapeCast_self]
  simp only [ValueIdx.addf_apply]
  rw [row1_apply]
  exact congrArg (acc (ix2 (0 : Fin 1) j) + ·) (colsum_apply (mulf (pt0_m im cm ti tc hist w b) (pt0_m im cm ti tc hist w b)) _ _ j)

theorem pt0_s0_apply (j : Fin 32) : pt0_s0 (F := Ideal) (ix2 (0 : Fin 1) j) = 0 := by
  show k0_pay5 (F := Ideal) (ix2 (0 : Fin 1) j) = 0
  unfold k0_pay5
  rw [shapeCast_self]
  show Ideal.ofBits .f32 0x00000000#32 = 0
  exact Ideal.ofBits_zero_f32

theorem pt0_q0_apply (j : Fin 32) : pt0_q0 (F := Ideal) (ix2 (0 : Fin 1) j) = 0 := by
  show k0_pay6 (F := Ideal) (ix2 (0 : Fin 1) j) = 0
  unfold k0_pay6
  rw [shapeCast_self]
  show Ideal.ofBits .f32 0x00000000#32 = 0
  exact Ideal.ofBits_zero_f32

end Point

end Cert.KernelIdeal.Fr
end
-- ==== Proof.KI.R0Ref.lean ====
import proofs.«421617_j66314295050867_4_alg».proof.Proof.RefRead
import proofs.«421617_j66314295050867_4_alg».proof.Proof.KI.R0PtVal

noncomputable section

namespace Cert.ReferenceIdeal.Row0

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP
open Cert.KernelIdeal.Fr (rowOf maskOf maskOf_eq_uitofp)
open scoped BigOperators

theorem sum512 {M : Type*} [AddCommMonoid M] (f : Fin 512 → M) :
    ∑ k : Fin 512, f k
      = (∑ d : Fin 64, f ⟨0 + d.val, by omega⟩) + (∑ d : Fin 64, f ⟨64 + d.val, by omega⟩)
        + (∑ d : Fin 64, f ⟨128 + d.val, by omega⟩) + (∑ d : Fin 64, f ⟨192 + d.val, by omega⟩)
        + (∑ d : Fin 64, f ⟨256 + d.val, by omega⟩) + (∑ d : Fin 64, f ⟨320 + d.val, by omega⟩)
        + (∑ d : Fin 64, f ⟨384 + d.val, by omega⟩) + (∑ d : Fin 64, f ⟨448 + d.val, by omega⟩) := by
  have h := (Equiv.sum_comp (finProdFinEquiv (m := 8) (n := 64)) f).symm
  rw [show (∑ k : Fin 512, f k) = ∑ k : Fin (8 * 64), f k from rfl, h, Fintype.sum_prod_type, Fin.sum_univ_eight]
  have e : ∀ (q : Fin 8) (off : Nat) (ho : off + 64 ≤ 512), 64 * q.val = off →
      (∑ d : Fin 64, f (finProdFinEquiv (q, d))) = ∑ d : Fin 64, f ⟨off + d.val, by omega⟩ := by
    intro q off ho hq
    refine Finset.sum_congr rfl fun d _ => congrArg f (Fin.ext ?_)
    show d.val + 64 * q.val = off + d.val
    omega
  rw [e 0 0 (by omega) rfl, e 1 64 (by omega) rfl, e 2 128 (by omega) rfl, e 3 192 (by omega) rfl,
    e 4 256 (by omega) rfl, e 5 320 (by omega) rfl, e 6 384 (by omega) rfl, e 7 448 (by omega) rfl]

section Stages
variable (x0 x1 : (⟨S1024x200, .i32⟩ : BufTy).Contents (Elt Ideal)) (x2 x3 : (⟨S1024, .i32⟩ : BufTy).Contents (Elt Ideal))
  (x5 : (⟨S1000000x64, .f32⟩ : BufTy).Contents (Elt Ideal)) (x6 : (⟨S10000x64, .f32⟩ : BufTy).Contents (Elt Ideal))
  (x7 : (⟨S32x512, .f32⟩ : BufTy).Contents (Elt Ideal)) (x8 : (⟨S32, .f32⟩ : BufTy).Contents (Elt Ideal))

theorem v25_at (bb : Fin 1024) (l : Fin 200) (d : Fin 64) :
    val_main_v25 (F := Ideal) x0 (ix3 bb l d) = maskOf (x0 (ix2 bb l)) := by
  have e : idx_main_v17 (idx_main_v25 (ix3 bb l d)) = ix2 bb l :=
    funext fun a => by match a with | ⟨0, _⟩ => rfl | ⟨1, _⟩ => rfl
  rw [val_main_v25_apply, val_main_v17_apply, val_main_v16_apply, val_main_v15_apply, val_main_v14_apply, val_main_c_3_apply,
    maskOf_eq_uitofp, e]

theorem v34_at (bb : Fin 1024) (l : Fin 200) (d : Fin 64) :
    val_main_v34 (F := Ideal) x0 (ix3 bb l d) = maskOf (x0 (ix2 bb l)) := by
  have e : idx_main_v17 (idx_main_v34 (ix3 bb l d)) = ix2 bb l :=
    funext fun a => by match a with | ⟨0, _⟩ => rfl | ⟨1, _⟩ => rfl
  rw [val_main_v34_apply, val_main_v17_apply, val_main_v16_apply, val_main_v15_apply, val_main_v14_apply, val_main_c_3_apply,
    maskOf_eq_uitofp, e]

theorem v26_at (bb : Fin 1024) (l : Fin 200) (d : Fin 64) :
    val_main_v26 (F := Ideal) x0 x5 (ix3 bb l d) = val_main_v24 (F := Ideal) x0 x5 (ix3 bb l d) * maskOf (x0 (ix2 bb l)) := by
  rw [val_main_v26_apply, v25_at]; rfl

theorem v35_at (bb : Fin 1024) (l : Fin 200) (d : Fin 64) :
    val_main_v35 (F := Ideal) x0 x1 x6 (ix3 bb l d) = val_main_v33 (F := Ideal) x1 x6 (ix3 bb l d) * maskOf (x0 (ix2 bb l)) := by
  rw [val_main_v35_apply, v34_at]; rfl

theorem v36_lo (bb : Fin 1024) (l : Fin 200) (d : Fin 64) :
    val_main_v36 (F := Ideal) x0 x1 x5 x6 (ix3 bb l (⟨0 + d.val, by omega⟩ : Fin 128))
      = val_main_v24 (F := Ideal) x0 x5 (ix3 bb l d) * maskOf (x0 (ix2 bb l)) := by
  unfold val_main_v36
  refine (concatenate_pair_apply_left 2 _ _ concatenates_S1024x200x64_S1024x200x64_S1024x200x128_d2 _ rfl (ix3 bb l d) fun b => ?_).trans (v26_at x0 x5 bb l d)
  match b with
  | ⟨0, _⟩ => rfl
  | ⟨1, _⟩ => rfl
  | ⟨2, _⟩ => show d.val = 0 + d.val; omega

theorem v36_hi (bb : Fin 1024) (l : Fin 200) (d : Fin 64) :
    val_main_v36 (F := Ideal) x0 x1 x5 x6 (ix3 bb l (⟨64 + d.val, by omega⟩ : Fin 128))
      = val_main_v33 (F := Ideal) x1 x6 (ix3 bb l d) * maskOf (x0 (ix2 bb l)) := by
  unfold val_main_v36
  refine (concatenate_pair_apply_right 2 _ _ concatenates_S1024x200x64_S1024x200x64_S1024x200x128_d2 _ rfl rfl (ix3 bb l d) (fun b hb => ?_) ?_).trans (v35_at x0 x1 x6 bb l d)
  · match b with
    | ⟨0, _⟩ => rfl
    | ⟨1, _⟩ => rfl
    | ⟨2, _⟩ => exact absurd rfl hb
  · show d.val + 64 = 64 + d.val; omega

theorem v37_lo (bb : Fin 1024) (d : Fin 64) :
    val_main_v37 (F := Ideal) x2 x3 x5 x6 (ix2 bb (⟨0 + d.val, by omega⟩ : Fin 128)) = val_main_v6 (F := Ideal) x2 x5 (ix2 bb d) := by
  unfold val_main_v37
  refine concatenate_pair_apply_left 1 _ _ concatenates_S1024x64_S1024x64_S1024x128_d1 _ rfl (ix2 bb d) fun b => ?_
  match b with
  | ⟨0, _⟩ => rfl
  | ⟨1, _⟩ => show d.val = 0 + d.val; omega

theorem v37_hi (bb : Fin 1024) (d : Fin 64) :
    val_main_v37 (F := Ideal) x2 x3 x5 x6 (ix2 bb (⟨64 + d.val, by omega⟩ : Fin 128)) = val_main_v13 (F := Ideal) x3 x6 (ix2 bb d) := by
  unfold val_main_v37
  refine concatenate_pair_apply_right 1 _ _ concatenates_S1024x64_S1024x64_S1024x128_d1 _ rfl rfl (ix2 bb d) (fun b hb => ?_) ?_
  · match b with
    | ⟨0, _⟩ => rfl
    | ⟨1, _⟩ => exact absurd rfl hb
  · show d.val + 64 = 64 + d.val; omega

theorem v39_at (bb : Fin 1024) (l : Fin 200) (k : Fin 128) :
    val_main_v39 (F := Ideal) x2 x3 x5 x6 (ix3 bb l k) = val_main_v37 (F := Ideal) x2 x3 x5 x6 (ix2 bb k) := by
  have e : idx_main_v38 (idx_main_v39 (ix3 bb l k)) = ix2 bb k :=
    funext fun a => by match a with | ⟨0, _⟩ => rfl | ⟨1, _⟩ => rfl
  rw [val_main_v39_apply, val_main_v38_apply, e]

abbrev parts42 : List ((s : Shape) × (s.Idx → EReal)) :=
  [⟨S1024x200x128, val_main_v39 (F := Ideal) x2 x3 x5 x6⟩, ⟨S1024x200x128, val_main_v36 (F := Ideal) x0 x1 x5 x6⟩,
   ⟨S1024x200x128, val_main_v40 (F := Ideal) x0 x1 x2 x3 x5 x6⟩, ⟨S1024x200x128, val_main_v41 (F := Ideal) x0 x1 x2 x3 x5 x6⟩]

theorem v42_at (q : Nat) (hq : q < 4) (X : (⟨S1024x200x128, .f32⟩ : BufTy).Contents (Elt Ideal))
    (hX : (parts42 x0 x1 x2 x3 x5 x6)[q]'(by simpa using hq) = ⟨S1024x200x128, X⟩)
    (bb : Fin 1024) (l : Fin 200) (k : Fin 128) :
    val_main_v42 (F := Ideal) x0 x1 x2 x3 x5 x6 (ix3 bb l (⟨128 * q + k.val, by omega⟩ : Fin 512)) = X (ix3 bb l k) := by
  unfold val_main_v42
  refine concatenate_apply_piece (t := S1024x200x512) 2 (parts42 x0 x1 x2 x3 x5 x6) concatenates_S1024x200x128_S1024x200x128_S1024x200x128_S1024x200x128_S1024x200x512_d2 _
    q (by simpa using hq) S1024x200x128 X hX rfl (128 * q) ?_ (ix3 bb l k) (fun b hb => ?_) rfl
  · interval_cases q <;> rfl
  · match b with
    | ⟨0, _⟩ => rfl
    | ⟨1, _⟩ => rfl
    | ⟨2, _⟩ => exact absurd rfl hb

theorem v43_at (bb : Fin 1024) (l : Fin 200) (k : Fin 512) :
    val_main_v43 (F := Ideal) x0 x1 x2 x3 x5 x6 (ix2 (⟨200 * bb.val + l.val, by omega⟩ : Fin 204800) k)
      = val_main_v42 (F := Ideal) x0 x1 x2 x3 x5 x6 (ix3 bb l k) := by
  rw [val_main_v43_apply]
  refine congrArg _ (funext fun a => Fin.ext ?_)
  have hb := bb.isLt
  have hl := l.isLt
  have hk := k.isLt
  match a with
  | ⟨0, _⟩ => show ((200 * bb.val + l.val) * 512 + k.val) / 102400 = bb.val; omega
  | ⟨1, _⟩ => show ((200 * bb.val + l.val) * 512 + k.val) / 512 % 200 = l.val; omega
  | ⟨2, _⟩ => show ((200 * bb.val + l.val) * 512 + k.val) % 512 = k.val; omega

theorem col_at (q : Nat) (hq : q < 4) (X : (⟨S1024x200x128, .f32⟩ : BufTy).Contents (Elt Ideal))
    (hX : (parts42 x0 x1 x2 x3 x5 x6)[q]'(by simpa using hq) = ⟨S1024x200x128, X⟩)
    (bb : Fin 1024) (l : Fin 200) (off off' : Nat) (ho : off' + 64 ≤ 128) (hoff : off = 128 * q + off') (d : Fin 64) :
    val_main_v43 (F := Ideal) x0 x1 x2 x3 x5 x6 (ix2 (⟨200 * bb.val + l.val, by omega⟩ : Fin 204800) (⟨off + d.val, by omega⟩ : Fin 512))
      = X (ix3 bb l (⟨off' + d.val, by omega⟩ : Fin 128)) := by
  rw [v43_at]
  have e : (⟨off + d.val, by omega⟩ : Fin 512) = ⟨128 * q + (⟨off' + d.val, by omega⟩ : Fin 128).val, by omega⟩ :=
    Fin.ext (by show off + d.val = 128 * q + (off' + d.val); omega)
  exact (congrArg (fun k => val_main_v42 (F := Ideal) x0 x1 x2 x3 x5 x6 (ix3 bb l k)) e).trans
    (v42_at x0 x1 x2 x3 x5 x6 q hq X hX bb l ⟨off' + d.val, by omega⟩)

section Cols
variable (bb : Fin 1024) (l : Fin 200) (d : Fin 64)

theorem col0 : val_main_v43 (F := Ideal) x0 x1 x2 x3 x5 x6 (ix2 (⟨200 * bb.val + l.val, by omega⟩ : Fin 204800) (⟨0 + d.val, by omega⟩ : Fin 512))
    = val_main_v6 (F := Ideal) x2 x5 (ix2 bb d) := by
  rw [col_at x0 x1 x2 x3 x5 x6 0 (by omega) _ rfl bb l 0 0 (by omega) rfl d, v39_at, v37_lo]

theorem col1 : val_main_v43 (F := Ideal) x0 x1 x2 x3 x5 x6 (ix2 (⟨200 * bb.val + l.val, by omega⟩ : Fin 204800) (⟨64 + d.val, by omega⟩ : Fin 512))
    = val_main_v13 (F := Ideal) x3 x6 (ix2 bb d) := by
  rw [col_at x0 x1 x2 x3 x5 x6 0 (by omega) _ rfl bb l 64 64 (by omega) rfl d, v39_at, v37_hi]

theorem col2 : val_main_v43 (F := Ideal) x0 x1 x2 x3 x5 x6 (ix2 (⟨200 * bb.val + l.val, by omega⟩ : Fin 204800) (⟨128 + d.val, by omega⟩ : Fin 512))
    = val_main_v24 (F := Ideal) x0 x5 (ix3 bb l d) * maskOf (x0 (ix2 bb l)) := by
  rw [col_at x0 x1 x2 x3 x5 x6 1 (by omega) _ rfl bb l 128 0 (by omega) rfl d, v36_lo]

theorem col3 : val_main_v43 (F := Ideal) x0 x1 x2 x3 x5 x6 (ix2 (⟨200 * bb.val + l.val, by omega⟩ : Fin 204800) (⟨192 + d.val, by omega⟩ : Fin 512))
    = val_main_v33 (F := Ideal) x1 x6 (ix3 bb l d) * maskOf (x0 (ix2 bb l)) := by
  rw [col_at x0 x1 x2 x3 x5 x6 1 (by omega) _ rfl bb l 192 64 (by omega) rfl d, v36_hi]

theorem col4 : val_main_v43 (F := Ideal) x0 x1 x2 x3 x5 x6 (ix2 (⟨200 * bb.val + l.val, by omega⟩ : Fin 204800) (⟨256 + d.val, by omega⟩ : Fin 512))
    = val_main_v6 (F := Ideal) x2 x5 (ix2 bb d) - val_main_v24 (F := Ideal) x0 x5 (ix3 bb l d) * maskOf (x0 (ix2 bb l)) := by
  rw [col_at x0 x1 x2 x3 x5 x6 2 (by omega) _ rfl bb l 256 0 (by omega) rfl d, val_main_v40_apply, v39_at, v37_lo, v36_lo]; rfl

theorem col5 : val_main_v43 (F := Ideal) x0 x1 x2 x3 x5 x6 (ix2 (⟨200 * bb.val + l.val, by omega⟩ : Fin 204800) (⟨320 + d.val, by omega⟩ : Fin 512))
    = val_main_v13 (F := Ideal) x3 x6 (ix2 bb d) - val_main_v33 (F := Ideal) x1 x6 (ix3 bb l d) * maskOf (x0 (ix2 bb l)) := by
  rw [col_at x0 x1 x2 x3 x5 x6 2 (by omega) _ rfl bb l 320 64 (by omega) rfl d, val_main_v40_apply, v39_at, v37_hi, v36_hi]; rfl

theorem col6 : val_main_v43 (F := Ideal) x0 x1 x2 x3 x5 x6 (ix2 (⟨200 * bb.val + l.val, by omega⟩ : Fin 204800) (⟨384 + d.val, by omega⟩ : Fin 512))
    = val_main_v6 (F := Ideal) x2 x5 (ix2 bb d) * (val_main_v24 (F := Ideal) x0 x5 (ix3 bb l d) * maskOf (x0 (ix2 bb l))) := by
  rw [col_at x0 x1 x2 x3 x5 x6 3 (by omega) _ rfl bb l 384 0 (by omega) rfl d, val_main_v41_apply, v39_at, v37_lo, v36_lo]; rfl

theorem col7 : val_main_v43 (F := Ideal) x0 x1 x2 x3 x5 x6 (ix2 (⟨200 * bb.val + l.val, by omega⟩ : Fin 204800) (⟨448 + d.val, by omega⟩ : Fin 512))
    = val_main_v13 (F := Ideal) x3 x6 (ix2 bb d) * (val_main_v33 (F := Ideal) x1 x6 (ix3 bb l d) * maskOf (x0 (ix2 bb l))) := by
  rw [col_at x0 x1 x2 x3 x5 x6 3 (by omega) _ rfl bb l 448 64 (by omega) rfl d, val_main_v41_apply, v39_at, v37_hi, v36_hi]; rfl

end Cols

theorem v48_row (bb : Fin 1024) (l : Fin 200) (j : Fin 32) :
    val_main_v48 (F := Ideal) x0 x1 x2 x3 x5 x6 x7 x8 (ix2 (⟨200 * bb.val + l.val, by omega⟩ : Fin 204800) j)
      = rowOf (fun d => val_main_v6 (F := Ideal) x2 x5 (ix2 bb d)) (fun d => val_main_v13 (F := Ideal) x3 x6 (ix2 bb d))
          (fun d => val_main_v24 (F := Ideal) x0 x5 (ix3 bb l d)) (fun d => val_main_v33 (F := Ideal) x1 x6 (ix3 bb l d))
          (maskOf (x0 (ix2 bb l))) (fun k => val_main_v44 (F := Ideal) x7 (ix2 k j)) (val_main_v46 (F := Ideal) x8 (ix2 (0 : Fin 1) j)) := by
  have el : ∀ k : Fin 512, lidx_main_v45 (ix2 (⟨200 * bb.val + l.val, by omega⟩ : Fin 204800) j) k = ix2 (⟨200 * bb.val + l.val, by omega⟩ : Fin 204800) k :=
    fun k => funext fun a => by match a with | ⟨0, _⟩ => rfl | ⟨1, _⟩ => rfl
  have er : ∀ k : Fin 512, ridx_main_v45 (ix2 (⟨200 * bb.val + l.val, by omega⟩ : Fin 204800) j) k = ix2 k j :=
    fun k => funext fun a => by match a with | ⟨0, _⟩ => rfl | ⟨1, _⟩ => rfl
  have e47 : idx_main_v47 (ix2 (⟨200 * bb.val + l.val, by omega⟩ : Fin 204800) j) = ix2 (0 : Fin 1) j :=
    funext fun a => by match a with | ⟨0, _⟩ => rfl | ⟨1, _⟩ => rfl
  rw [val_main_v48_apply, val_main_v45_apply, val_main_v47_apply, e47]
  simp only [el, er]
  rw [sum512]
  simp only [col0 x0 x1 x2 x3 x5 x6 bb l, col1 x0 x1 x2 x3 x5 x6 bb l, col2 x0 x1 x2 x3 x5 x6 bb l, col3 x0 x1 x2 x3 x5 x6 bb l,
    col4 x0 x1 x2 x3 x5 x6 bb l, col5 x0 x1 x2 x3 x5 x6 bb l, col6 x0 x1 x2 x3 x5 x6 bb l, col7 x0 x1 x2 x3 x5 x6 bb l]
  rfl

end Stages

end Cert.ReferenceIdeal.Row0
end
-- ==== Proof.KI.R0Val.lean ====
import proofs.«421617_j66314295050867_4_alg».proof.Proof.KI.R0
import proofs.«421617_j66314295050867_4_alg».proof.Proof.KI.R0Arr
import proofs.«421617_j66314295050867_4_alg».proof.Proof.LibBlockSum
import proofs.«421617_j66314295050867_4_alg».proof.Proof.KI.R0PtVal
import proofs.«421617_j66314295050867_4_alg».proof.Proof.KI.R0Ref
import proofs.«421617_j66314295050867_4_alg».proof.Proof.RefRead
import Idealize.ShloMosaic.Lib.Pipeline.Value
import Idealize.ShloMosaic.Lib.ValueIdx

noncomputable section

namespace Cert.KernelIdeal.Fr

open BlockSum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

variable (V : (c : Dev nD) → (b : Ref sig .tc) → Buf (Elt Ideal) ((c : Thread nD τ).loc b))

private abbrev B0 (c : Dev nD) (t : Fin cfg0.N) : Vec Ideal S32x200x64 .f32 := iblk0 V c 0 t
private abbrev B1 (c : Dev nD) (t : Fin cfg0.N) : Vec Ideal S32x200x64 .f32 := iblk0 V c 1 t
private abbrev B2 (c : Dev nD) (t : Fin cfg0.N) : Vec Ideal S32x64 .f32 := iblk0 V c 2 t
private abbrev B3 (c : Dev nD) (t : Fin cfg0.N) : Vec Ideal S32x64 .f32 := iblk0 V c 3 t
private abbrev B4 (c : Dev nD) (t : Fin cfg0.N) : Vec Ideal S32x200 .i32 := iblk0 V c 4 t
private abbrev B5 (c : Dev nD) (t : Fin cfg0.N) : Vec Ideal S512x32 .f32 := iblk0 V c 5 t
private abbrev B6 (c : Dev nD) (t : Fin cfg0.N) : Vec Ideal S1x32 .f32 := iblk0 V c 6 t

section Hyps
variable (c : Dev nD)
  (x0 x1 : (⟨Cert.ReferenceIdeal.S1024x200, .i32⟩ : BufTy).Contents (Elt Ideal))
  (x2 x3 : (⟨Cert.ReferenceIdeal.S1024, .i32⟩ : BufTy).Contents (Elt Ideal))
  (x5 : (⟨Cert.ReferenceIdeal.S1000000x64, .f32⟩ : BufTy).Contents (Elt Ideal))
  (x6 : (⟨Cert.ReferenceIdeal.S10000x64, .f32⟩ : BufTy).Contents (Elt Ideal))
  (x7 : (⟨Cert.ReferenceIdeal.S32x512, .f32⟩ : BufTy).Contents (Elt Ideal))
  (x8 : (⟨Cert.ReferenceIdeal.S32, .f32⟩ : BufTy).Contents (Elt Ideal))

def h0Arr : S1024x200x32.Idx → EReal := fun i =>
  Cert.ReferenceIdeal.ReadP.val_main_v48 (F := Ideal) x0 x1 x2 x3 x5 x6 x7 x8 (ix2 (⟨200 * (i 0).val + (i 1).val, by
      have h0 : (i 0).val < 1024 := (i 0).isLt
      have h1 : (i 1).val < 200 := (i 1).isLt
      omega⟩ : Fin 204800) (⟨(i 2).val, (i 2).isLt⟩ : Fin 32))

variable
  (h20 : V c main_v20 = Cert.ReferenceIdeal.ReadP.val_main_v24 (F := Ideal) x0 x5)
  (h27 : V c main_v27 = Cert.ReferenceIdeal.ReadP.val_main_v33 (F := Ideal) x1 x6)
  (h6 : V c main_v6 = Cert.ReferenceIdeal.ReadP.val_main_v6 (F := Ideal) x2 x5)
  (h13 : V c main_v13 = Cert.ReferenceIdeal.ReadP.val_main_v13 (F := Ideal) x3 x6)
  (h0 : V c main_arg0 = x0)
  (h28 : V c main_v28 = Cert.ReferenceIdeal.ReadP.val_main_v44 (F := Ideal) x7)
  (h34 : V c main_v34 = Cert.ReferenceIdeal.ReadP.val_main_v46 (F := Ideal) x8)

include h20 h27 h6 h13 h0 h28 h34

theorem h0row_at (t : Fin cfg0.N) (a : Fin 32) (l : Fin 200) (j : Fin 32) (bb : Fin 1024) (hbb : bb.val = 32 * t.val + a.val) :
    h0row (B0 V c t) (B1 V c t) (B2 V c t) (B3 V c t) (B4 V c t) (B5 V c t) (B6 V c t) a l j
      = Cert.ReferenceIdeal.ReadP.val_main_v48 (F := Ideal) x0 x1 x2 x3 x5 x6 x7 x8 (ix2 (⟨200 * bb.val + l.val, by omega⟩ : Fin 204800) j) := by
  rw [Cert.ReferenceIdeal.Row0.v48_row]
  unfold h0row
  rw [show (fun d => B2 V c t (ix2 a d)) = _ from funext fun d =>
      (congrArg (V c main_v6) (emb_row2 _ _ (idx0 t 2 (0 : Fin 2)) (idx0 t 2 (1 : Fin 2)) a d bb hbb)).trans (congrFun h6 _),
    show (fun d => B3 V c t (ix2 a d)) = _ from funext fun d =>
      (congrArg (V c main_v13) (emb_row2 _ _ (idx0 t 3 (0 : Fin 2)) (idx0 t 3 (1 : Fin 2)) a d bb hbb)).trans (congrFun h13 _),
    show (fun d => B0 V c t (ix3 a l d)) = _ from funext fun d =>
      (congrArg (V c main_v20) (emb_row3 _ _ (idx0 t 0 (0 : Fin 3)) (idx0 t 0 (1 : Fin 3)) (idx0 t 0 (2 : Fin 3)) a l d bb hbb)).trans
        (congrFun h20 _),
    show (fun d => B1 V c t (ix3 a l d)) = _ from funext fun d =>
      (congrArg (V c main_v27) (emb_row3 _ _ (idx0 t 1 (0 : Fin 3)) (idx0 t 1 (1 : Fin 3)) (idx0 t 1 (2 : Fin 3)) a l d bb hbb)).trans
        (congrFun h27 _),
    show B4 V c t (ix2 a l) = _ from
      (congrArg (V c main_arg0) (emb_row2 _ _ (idx0 t 4 (0 : Fin 2)) (idx0 t 4 (1 : Fin 2)) a l bb hbb)).trans (congrFun h0 _),
    show B5 V c t = _ from (read_id (V c main_v28) _ (embZ0 t 5 (by decide))).trans h28,
    show B6 V c t = _ from (read_id (V c main_v34) _ (embZ0 t 6 (by decide))).trans h34]

private theorem m_at (t : Fin cfg0.N) (r : Fin 6400) (j : Fin 32) :
    pt0_m (B0 V c t) (B1 V c t) (B2 V c t) (B3 V c t) (B4 V c t) (B5 V c t) (B6 V c t) (ix2 r j)
      = Cert.ReferenceIdeal.ReadP.val_main_v48 (F := Ideal) x0 x1 x2 x3 x5 x6 x7 x8
          (ix2 (⟨6400 * t.val + r.val, by have ht : t.val < 32 := lt_of_lt_of_eq t.isLt N_0; omega⟩ : Fin 204800) j) := by
  have ht : t.val < 32 := lt_of_lt_of_eq t.isLt N_0
  rw [pt0_m_apply, h0row_at V c x0 x1 x2 x3 x5 x6 x7 x8 h20 h27 h6 h13 h0 h28 h34 t ⟨r.val / 200, by omega⟩ ⟨r.val % 200, by omega⟩ j
    ⟨32 * t.val + r.val / 200, by omega⟩ rfl]
  refine congrArg (fun i => Cert.ReferenceIdeal.ReadP.val_main_v48 (F := Ideal) x0 x1 x2 x3 x5 x6 x7 x8 (ix2 i j)) (Fin.ext ?_)
  show 200 * (32 * t.val + r.val / 200) + r.val % 200 = 6400 * t.val + r.val
  omega

theorem final0_7 : (dat0 V c).arrAt 7 cfg0.N = h0Arr x0 x1 x2 x3 x5 x6 x7 x8 := by
  refine (dat0 V c).arrAt_eq_of_cover 7 (h0Arr x0 x1 x2 x3 x5 x6 x7 x8) (fun t _ => ?_) fun i => ?_
  · show (cfg0.win 7).cut (grid0.coords t) ((dat0 V c).after 7 t) = _
    rw [after0_7]
    funext y
    obtain ⟨a, l, j, rfl⟩ : ∃ (a : Fin 32) (l : Fin 200) (j : Fin 32), y = ix3 a l j := ⟨y 0, y 1, y 2, eq_ix3 y⟩
    have ht : t.val < 32 := lt_of_lt_of_eq t.isLt N_0
    have hq : 32 * t.val + a.val < 1024 := by have := a.isLt; omega
    rw [View.read_apply, show ((cfg0.win 7).blk t).view.emb (ix3 a l j) = ix3 (⟨32 * t.val + a.val, hq⟩ : Fin 1024) l j from
      emb_row3 _ _ (idx0 t 7 (0 : Fin 3)) (idx0 t 7 (1 : Fin 3)) (idx0 t 7 (2 : Fin 3)) a l j _ rfl]
    show pt0_h (B0 V c t) (B1 V c t) (B2 V c t) (B3 V c t) (B4 V c t) (B5 V c t) (B6 V c t) (ix3 a l j) = h0Arr x0 x1 x2 x3 x5 x6 x7 x8 (ix3 (⟨32 * t.val + a.val, hq⟩ : Fin 1024) l j)
    rw [pt0_h_apply]
    exact h0row_at V c x0 x1 x2 x3 x5 x6 x7 x8 h20 h27 h6 h13 h0 h28 h34 t a l j _ rfl
  · have h0 : (i 0).val < 1024 := (i 0).isLt
    have hN : cfg0.N = 32 := N_0
    obtain ⟨t, ht⟩ : ∃ t : Fin cfg0.N, t.val = (i 0).val / 32 := ⟨⟨_, by omega⟩, rfl⟩
    have e : ((cfg0.win 7).blk t).view.emb (ix3 ⟨(i 0).val % 32, by omega⟩ (i 1) (i 2)) = i :=
      (emb_row3 _ _ (idx0 t 7 (0 : Fin 3)) (idx0 t 7 (1 : Fin 3)) (idx0 t 7 (2 : Fin 3)) _ _ _ (i 0)
        (by show (i 0).val = 32 * t.val + (i 0).val % 32; omega)).trans (eq_ix3 i).symm
    exact ⟨t, flush0_7 t, mem_of_emb e⟩

theorem r0_val :
    (∀ (q : Fin 1024) (l : Fin 200) (k : Fin 32) (r : Fin 204800), r.val = 200 * q.val + l.val →
        ((dat0 V c).arrAt 7 cfg0.N : S1024x200x32.Idx → EReal) (ix3 q l k)
          = Cert.ReferenceIdeal.ReadP.val_main_v48 (F := Ideal) x0 x1 x2 x3 x5 x6 x7 x8 (ix2 r k))
    ∧ (∀ j : Fin 32,
        ((dat0 V c).arrAt 8 cfg0.N : S1x32.Idx → EReal) (ix2 (0 : Fin 1) j)
          = ∑ r : Fin 204800, Cert.ReferenceIdeal.ReadP.val_main_v48 (F := Ideal) x0 x1 x2 x3 x5 x6 x7 x8 (ix2 r j))
    ∧ (∀ j : Fin 32,
        ((dat0 V c).arrAt 9 cfg0.N : S1x32.Idx → EReal) (ix2 (0 : Fin 1) j)
          = ∑ r : Fin 204800, Cert.ReferenceIdeal.ReadP.val_main_v48 (F := Ideal) x0 x1 x2 x3 x5 x6 x7 x8 (ix2 r j)
              * Cert.ReferenceIdeal.ReadP.val_main_v48 (F := Ideal) x0 x1 x2 x3 x5 x6 x7 x8 (ix2 r j)) := by
  have h31 : 31 < cfg0.N := lt_of_lt_of_eq (by decide : 31 < 32) N_0.symm
  have hm := m_at V c x0 x1 x2 x3 x5 x6 x7 x8 h20 h27 h6 h13 h0 h28 h34
  refine ⟨fun q l k r hr => ?_, fun j => ?_, fun j => ?_⟩
  · rw [final0_7 V c x0 x1 x2 x3 x5 x6 x7 x8 h20 h27 h6 h13 h0 h28 h34]
    exact congrArg (fun i : Fin 204800 => Cert.ReferenceIdeal.ReadP.val_main_v48 (F := Ideal) x0 x1 x2 x3 x5 x6 x7 x8 (ix2 i k)) (Fin.ext hr.symm)
  · rw [arr0_8 V c h31]
    exact fold_blocks (a := 32) (b := 6400) N_0 (fun n h => (sAt0 V c n h).1 (ix2 (0 : Fin 1) j)) (fun r => Cert.ReferenceIdeal.ReadP.val_main_v48 (F := Ideal) x0 x1 x2 x3 x5 x6 x7 x8 (ix2 r j))
      (fun t r => pt0_m (B0 V c t) (B1 V c t) (B2 V c t) (B3 V c t) (B4 V c t) (B5 V c t) (B6 V c t) (ix2 r j)) (fun t r => hm t r j)
      (fun h => by
        show (sAt0 V c 0 h).1 (ix2 (0 : Fin 1) j) = _
        rw [sAt0_zero]
        show pt0_s (B0 V c ⟨0, h⟩) (B1 V c ⟨0, h⟩) (B2 V c ⟨0, h⟩) (B3 V c ⟨0, h⟩) (B4 V c ⟨0, h⟩) (B5 V c ⟨0, h⟩) (B6 V c ⟨0, h⟩) (pt0_s0 (F := Ideal)) (ix2 (0 : Fin 1) j) = _
        rw [pt0_s_apply, pt0_s0_apply])
      (fun n h => by
        show (sAt0 V c (n + 1) h).1 (ix2 (0 : Fin 1) j) = _
        rw [sAt0_succ]
        show pt0_s (B0 V c ⟨n + 1, h⟩) (B1 V c ⟨n + 1, h⟩) (B2 V c ⟨n + 1, h⟩) (B3 V c ⟨n + 1, h⟩) (B4 V c ⟨n + 1, h⟩) (B5 V c ⟨n + 1, h⟩) (B6 V c ⟨n + 1, h⟩)
          (sAt0 V c n (Nat.lt_of_succ_lt h)).1 (ix2 (0 : Fin 1) j) = _
        rw [pt0_s_apply]) 31 h31 N_0.symm
  · rw [arr0_9 V c h31]
    exact fold_blocks (a := 32) (b := 6400) N_0 (fun n h => (sAt0 V c n h).2 (ix2 (0 : Fin 1) j)) (fun r => Cert.ReferenceIdeal.ReadP.val_main_v48 (F := Ideal) x0 x1 x2 x3 x5 x6 x7 x8 (ix2 r j) * Cert.ReferenceIdeal.ReadP.val_main_v48 (F := Ideal) x0 x1 x2 x3 x5 x6 x7 x8 (ix2 r j))
      (fun t r => pt0_m (B0 V c t) (B1 V c t) (B2 V c t) (B3 V c t) (B4 V c t) (B5 V c t) (B6 V c t) (ix2 r j) * pt0_m (B0 V c t) (B1 V c t) (B2 V c t) (B3 V c t) (B4 V c t) (B5 V c t) (B6 V c t) (ix2 r j)) (fun t r => by rw [hm t r j])
      (fun h => by
        show (sAt0 V c 0 h).2 (ix2 (0 : Fin 1) j) = _
        rw [sAt0_zero]
        show pt0_q (B0 V c ⟨0, h⟩) (B1 V c ⟨0, h⟩) (B2 V c ⟨0, h⟩) (B3 V c ⟨0, h⟩) (B4 V c ⟨0, h⟩) (B5 V c ⟨0, h⟩) (B6 V c ⟨0, h⟩) (pt0_q0 (F := Ideal)) (ix2 (0 : Fin 1) j) = _
        rw [pt0_q_apply, pt0_q0_apply])
      (fun n h => by
        show (sAt0 V c (n + 1) h).2 (ix2 (0 : Fin 1) j) = _
        rw [sAt0_succ]
        show pt0_q (B0 V c ⟨n + 1, h⟩) (B1 V c ⟨n + 1, h⟩) (B2 V c ⟨n + 1, h⟩) (B3 V c ⟨n + 1, h⟩) (B4 V c ⟨n + 1, h⟩) (B5 V c ⟨n + 1, h⟩) (B6 V c ⟨n + 1, h⟩)
          (sAt0 V c n (Nat.lt_of_succ_lt h)).2 (ix2 (0 : Fin 1) j) = _
        rw [pt0_q_apply]) 31 h31 N_0.symm

end Hyps

end Cert.KernelIdeal.Fr
end
-- ==== Proof.KI.R1PtVal.lean ====
import proofs.«421617_j66314295050867_4_alg».proof.Proof.KI.R1Pt
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Fr

open Idealize.ShloMosaic Idealize.ShloMosaic.ValueIdx Idealize.SL.Sem Cert.KernelIdeal Cert.KernelIdeal.Gen
open scoped BigOperators

def dice (x μ v α : EReal) : EReal :=
  Ideal.logistic ((x - μ) * Ideal.rsqrt (v + Ideal.ofBits .f32 0x3089705F#32)) * x
    + α * (Ideal.ofBits .f32 0x3F800000#32
        - Ideal.logistic ((x - μ) * Ideal.rsqrt (v + Ideal.ofBits .f32 0x3089705F#32))) * x

def lin1 (h0 : Vec Ideal S32x200x32 .f32) (mu var al : Vec Ideal S1x32 .f32) (w : Vec Ideal S32x16 .f32)
    (b : Vec Ideal S1x16 .f32) (p : Fin 32) (l : Fin 200) (j : Fin 16) : EReal :=
  (∑ k : Fin 32, dice (h0 (ix3 p l k)) (mu (ix2 (0 : Fin 1) k)) (var (ix2 (0 : Fin 1) k)) (al (ix2 (0 : Fin 1) k))
      * w (ix2 k j)) + b (ix2 (0 : Fin 1) j)

theorem row_spread1 (v : Vec Ideal S1x32 .f32) (p : Fin 32) (l : Fin 200) (k : Fin 32) :
    broadcastTo S32x200x32 (shapeCast S1x1x32 (shapeCast S1x32 v shapeCasts_S1x32_S1x32) shapeCasts_S1x32_S1x1x32)
        broadcasts_S1x1x32_S32x200x32 (ix3 p l k) = v (ix2 (0 : Fin 1) k) := by
  refine (broadcastTo_apply _ broadcasts_S1x1x32_S32x200x32 (ix3 p l k) (ix3 (0 : Fin 1) (0 : Fin 1) k) fun a => ?_).trans ?_
  · match a with
    | ⟨0, _⟩ => rfl
    | ⟨1, _⟩ => rfl
    | ⟨2, _⟩ => rfl
  · rw [shapeCast_self]
    exact shapeCast_ab_1ab_apply v shapeCasts_S1x32_S1x1x32 (0 : Fin 1) (0 : Fin 1) k

theorem rstd_spread1 (v : Vec Ideal S1x32 .f32) (p : Fin 32) (l : Fin 200) (k : Fin 32) :
    broadcastTo S32x200x32
        (rsqrt (addf (shapeCast S1x1x32 (shapeCast S1x32 v shapeCasts_S1x32_S1x32) shapeCasts_S1x32_S1x1x32)
          (broadcast S1x1x32 (Scalar.ofBits (F := Ideal) .f32 0x3089705F#32))))
        broadcasts_S1x1x32_S32x200x32 (ix3 p l k)
      = Ideal.rsqrt (v (ix2 (0 : Fin 1) k) + Ideal.ofBits .f32 0x3089705F#32) := by
  refine (broadcastTo_apply _ broadcasts_S1x1x32_S32x200x32 (ix3 p l k) (ix3 (0 : Fin 1) (0 : Fin 1) k) fun a => ?_).trans ?_
  · match a with
    | ⟨0, _⟩ => rfl
    | ⟨1, _⟩ => rfl
    | ⟨2, _⟩ => rfl
  · show Ideal.rsqrt (shapeCast S1x1x32 (shapeCast S1x32 v shapeCasts_S1x32_S1x32) shapeCasts_S1x32_S1x1x32
        (ix3 (0 : Fin 1) (0 : Fin 1) k) + Ideal.ofBits .f32 0x3089705F#32) = _
    rw [shapeCast_self, shapeCast_ab_1ab_apply v shapeCasts_S1x32_S1x1x32 (0 : Fin 1) (0 : Fin 1) k]

section Generic
variable {F : FTy → Type} [FloatOps F]

def gatedBlk1 (h0 : Vec F S32x200x32 .f32) (mu var al : Vec F S1x32 .f32) : FVec F S32x200x32 .f32 :=
  have x : FVec F S32x200x32 .f32 := shapeCast S32x200x32 h0 shapeCasts_S32x200x32_S32x200x32
  have m3 : FVec F S1x1x32 .f32 := shapeCast S1x1x32 (shapeCast S1x32 mu shapeCasts_S1x32_S1x32) shapeCasts_S1x32_S1x1x32
  have v3 : FVec F S1x1x32 .f32 := shapeCast S1x1x32 (shapeCast S1x32 var shapeCasts_S1x32_S1x32) shapeCasts_S1x32_S1x1x32
  have a3 : FVec F S1x1x32 .f32 := shapeCast S1x1x32 (shapeCast S1x32 al shapeCasts_S1x32_S1x32) shapeCasts_S1x32_S1x1x32
  have z : FVec F S32x200x32 .f32 :=
    mulf (subf x (broadcastTo S32x200x32 m3 broadcasts_S1x1x32_S32x200x32))
      (broadcastTo S32x200x32 (rsqrt (addf v3 (broadcast S1x1x32 (Scalar.ofBits .f32 0x3089705F#32))))
        broadcasts_S1x1x32_S32x200x32)
  have σ : FVec F S32x200x32 .f32 := logistic z
  addf (mulf σ x)
    (mulf (mulf (broadcastTo S32x200x32 a3 broadcasts_S1x1x32_S32x200x32)
      (subf (broadcast S32x200x32 (Scalar.ofBits .f32 0x3F800000#32)) σ)) x)

theorem pt1_m_eq (h0 : Vec F S32x200x32 .f32) (mu var al : Vec F S1x32 .f32) (w : Vec F S32x16 .f32)
    (b : Vec F S1x16 .f32) :
    pt1_m h0 mu var al w b
      = addf (matmul dot_S6400x32_S32x16_S6400x16_1_0_0_1_n_n none
            (truncf .bf16 (shapeCast S6400x32 (gatedBlk1 h0 mu var al) shapeCasts_S32x200x32_S6400x32) bitsLt_bf16_f32)
            (truncf .bf16 (shapeCast S32x16 w shapeCasts_S32x16_S32x16) bitsLt_bf16_f32)
            (constant S6400x16 .f32 0x00000000#32))
          (broadcastTo S6400x16 (shapeCast S1x16 b shapeCasts_S1x16_S1x16) broadcasts_S1x16_S6400x16) := rfl

end Generic

theorem logistic1_apply {s : Shape} {φ : FTy} (x : FVec Ideal s φ) (i : s.Idx) :
    logistic x i = Ideal.logistic (x i) := rfl

theorem gatedBlk1_apply (h0 : Vec Ideal S32x200x32 .f32) (mu var al : Vec Ideal S1x32 .f32)
    (p : Fin 32) (l : Fin 200) (k : Fin 32) :
    gatedBlk1 h0 mu var al (ix3 p l k)
      = dice (h0 (ix3 p l k)) (mu (ix2 (0 : Fin 1) k)) (var (ix2 (0 : Fin 1) k)) (al (ix2 (0 : Fin 1) k)) := by
  unfold gatedBlk1 dice
  simp only [addf_apply, mulf_apply, subf_apply, broadcast_apply, logistic1_apply]
  rw [row_spread1 mu p l k, row_spread1 al p l k, rstd_spread1 var p l k, shapeCast_self]
  rfl

theorem lhs1_0 (i : S6400x16.Idx) (q : dot_S6400x32_S32x16_S6400x16_1_0_0_1_n_n.contr.Idx) :
    (dot_S6400x32_S32x16_S6400x16_1_0_0_1_n_n.lhsIdx i q 0).val = (i 0).val := by
  unfold DotDims.lhsIdx
  rw [dif_neg (show ¬(0 : Fin S6400x32.rank) ∈ dot_S6400x32_S32x16_S6400x16_1_0_0_1_n_n.lhsBatch by decide), dif_pos (show (0 : Fin S6400x32.rank) ∈ dot_S6400x32_S32x16_S6400x16_1_0_0_1_n_n.lhsNonContracting by decide)]
  rfl
theorem lhs1_1 (i : S6400x16.Idx) (q : dot_S6400x32_S32x16_S6400x16_1_0_0_1_n_n.contr.Idx) :
    (dot_S6400x32_S32x16_S6400x16_1_0_0_1_n_n.lhsIdx i q 1).val = (q ⟨0, by decide⟩).val :=
  dot_S6400x32_S32x16_S6400x16_1_0_0_1_n_n.lhsIdx_val_of_single rfl i q
theorem rhs1_0 (i : S6400x16.Idx) (q : dot_S6400x32_S32x16_S6400x16_1_0_0_1_n_n.contr.Idx) :
    (dot_S6400x32_S32x16_S6400x16_1_0_0_1_n_n.rhsIdx i q 0).val = (q ⟨0, by decide⟩).val :=
  dot_S6400x32_S32x16_S6400x16_1_0_0_1_n_n.rhsIdx_val_of_single rfl i q
theorem rhs1_1 (i : S6400x16.Idx) (q : dot_S6400x32_S32x16_S6400x16_1_0_0_1_n_n.contr.Idx) :
    (dot_S6400x32_S32x16_S6400x16_1_0_0_1_n_n.rhsIdx i q 1).val = (i 1).val := by
  unfold DotDims.rhsIdx
  rw [dif_neg (show ¬(1 : Fin S32x16.rank) ∈ dot_S6400x32_S32x16_S6400x16_1_0_0_1_n_n.rhsBatch by decide), dif_pos (show (1 : Fin S32x16.rank) ∈ dot_S6400x32_S32x16_S6400x16_1_0_0_1_n_n.rhsNonContracting by decide)]
  rfl

theorem prod1_apply (x : FVec Ideal S6400x32 .bf16) (y : FVec Ideal S32x16 .bf16) (r : Fin 6400) (j : Fin 16) :
    matmul dot_S6400x32_S32x16_S6400x16_1_0_0_1_n_n none x y (constant (F := Ideal) S6400x16 .f32 0x00000000#32) (ix2 r j)
      = ∑ k : Fin 32, x (ix2 r k) * y (ix2 k j) := by
  simp only [matmul]
  rw [Ideal.matmul_constant_zero_apply, ← Equiv.sum_comp (ValueIdx.contrEquiv1 dot_S6400x32_S32x16_S6400x16_1_0_0_1_n_n 32 rfl rfl).symm]
  refine Finset.sum_congr rfl fun k _ => ?_
  have hk := ValueIdx.contrEquiv1_symm_val dot_S6400x32_S32x16_S6400x16_1_0_0_1_n_n 32 rfl rfl k
  have el : dot_S6400x32_S32x16_S6400x16_1_0_0_1_n_n.lhsIdx (ix2 r j) ((ValueIdx.contrEquiv1 dot_S6400x32_S32x16_S6400x16_1_0_0_1_n_n 32 rfl rfl).symm k) = ix2 r k := funext fun a => Fin.ext (by
    match a with
    | ⟨0, _⟩ => exact lhs1_0 _ _
    | ⟨1, _⟩ => exact (lhs1_1 _ _).trans hk)
  have er : dot_S6400x32_S32x16_S6400x16_1_0_0_1_n_n.rhsIdx (ix2 r j) ((ValueIdx.contrEquiv1 dot_S6400x32_S32x16_S6400x16_1_0_0_1_n_n 32 rfl rfl).symm k) = ix2 k j := funext fun a => Fin.ext (by
    match a with
    | ⟨0, _⟩ => exact (rhs1_0 _ _).trans hk
    | ⟨1, _⟩ => exact rhs1_1 _ _)
  rw [el, er]

theorem rows1_apply (g : FVec Ideal S32x200x32 .f32) (p : Fin 32) (l : Fin 200) (k : Fin 32)
    (r : Fin 6400) (hr : r.val = 200 * p.val + l.val) :
    shapeCast S6400x32 g shapeCasts_S32x200x32_S6400x32 (ix2 r k) = g (ix3 p l k) :=
  shapeCast_apply g shapeCasts_S32x200x32_S6400x32 (ix2 r k) (ix3 p l k) (by
    rw [Shape.rowMajor_val_three, Shape.rowMajor_val_two]
    show (p.val * 200 + l.val) * 32 + k.val = r.val * 32 + k.val
    rw [hr]; omega)

theorem pt1_m_apply (h0 : Vec Ideal S32x200x32 .f32) (mu var al : Vec Ideal S1x32 .f32) (w : Vec Ideal S32x16 .f32)
    (b : Vec Ideal S1x16 .f32) (p : Fin 32) (l : Fin 200) (j : Fin 16) (r : Fin 6400)
    (hr : r.val = 200 * p.val + l.val) :
    pt1_m h0 mu var al w b (ix2 r j) = lin1 h0 mu var al w b p l j := by
  rw [pt1_m_eq, addf_apply, prod1_apply, broadcastTo_1b_ab_apply]
  simp only [shapeCast_self, truncf_apply]
  unfold lin1
  refine congrArg (· + b (ix2 (0 : Fin 1) j)) (Finset.sum_congr rfl fun k _ => ?_)
  rw [rows1_apply _ p l k r hr, gatedBlk1_apply]

section Generic
variable {F : FTy → Type} [FloatOps F]

theorem pt1_h_eq (h0 : Vec F S32x200x32 .f32) (mu var al : Vec F S1x32 .f32) (w : Vec F S32x16 .f32)
    (b : Vec F S1x16 .f32) :
    pt1_h h0 mu var al w b = shapeCast S32x200x16 (pt1_m h0 mu var al w b) shapeCasts_S6400x16_S32x200x16 := rfl

end Generic

theorem pt1_h_apply (h0 : Vec Ideal S32x200x32 .f32) (mu var al : Vec Ideal S1x32 .f32) (w : Vec Ideal S32x16 .f32)
    (b : Vec Ideal S1x16 .f32) (p : Fin 32) (l : Fin 200) (j : Fin 16) :
    pt1_h h0 mu var al w b (ix3 p l j) = lin1 h0 mu var al w b p l j := by
  have hlt : 200 * p.val + l.val < 6400 := by have := p.isLt; have := l.isLt; omega
  rw [pt1_h_eq]
  refine (shapeCast_apply _ shapeCasts_S6400x16_S32x200x16 (ix3 p l j) (ix2 (⟨200 * p.val + l.val, hlt⟩ : Fin 6400) j) (by
    rw [Shape.rowMajor_val_three, Shape.rowMajor_val_two]
    show (200 * p.val + l.val) * 16 + j.val = (p.val * 200 + l.val) * 16 + j.val
    omega)).trans ?_
  exact pt1_m_apply h0 mu var al w b p l j ⟨200 * p.val + l.val, hlt⟩ rfl

theorem colsum1_apply (x : FVec Ideal S6400x16 .f32) (hφ : FKind.Formats .f32)
    (hacc : (0x00000000#32 : BitVec 32) = FKind.add.neutral .f32 hφ) (j : Fin 16) :
    shapeCast S1x16 (multiReduction .add [0] S16 x 0x00000000#32 reduces_S6400x16_S16 hφ hacc) shapeCasts_S16_S1x16
        (ix2 (0 : Fin 1) j)
      = ∑ r : Fin 6400, x (ix2 r j) := by
  rw [shapeCast_a_1a_apply]
  refine (Ideal.multiReduction_add_single x 0x00000000#32 reduces_S6400x16_S16 hφ hacc (ix1 j)).trans ?_
  refine Finset.sum_congr rfl fun r _ => congrArg x (funext fun a => Fin.ext ?_)
  match a with
  | ⟨0, _⟩ => rfl
  | ⟨1, _⟩ => rfl

theorem pt1_s_apply (h0 : Vec Ideal S32x200x32 .f32) (mu var al : Vec Ideal S1x32 .f32) (w : Vec Ideal S32x16 .f32)
    (b : Vec Ideal S1x16 .f32) (acc : Vec Ideal S1x16 .f32) (j : Fin 16) :
    pt1_s h0 mu var al w b acc (ix2 (0 : Fin 1) j)
      = acc (ix2 (0 : Fin 1) j) + ∑ r : Fin 6400, pt1_m h0 mu var al w b (ix2 r j) := by
  unfold pt1_s k1_pay1
  rw [shapeCast_self, addf_apply]
  exact congrArg (acc (ix2 (0 : Fin 1) j) + ·) (colsum1_apply (k1_pay5 h0 mu var al w b) _ _ j)

theorem pt1_q_apply (h0 : Vec Ideal S32x200x32 .f32) (mu var al : Vec Ideal S1x32 .f32) (w : Vec Ideal S32x16 .f32)
    (b : Vec Ideal S1x16 .f32) (acc : Vec Ideal S1x16 .f32) (j : Fin 16) :
    pt1_q h0 mu var al w b acc (ix2 (0 : Fin 1) j)
      = acc (ix2 (0 : Fin 1) j)
        + ∑ r : Fin 6400, pt1_m h0 mu var al w b (ix2 r j) * pt1_m h0 mu var al w b (ix2 r j) := by
  unfold pt1_q k1_pay2
  rw [shapeCast_self, addf_apply]
  exact congrArg (acc (ix2 (0 : Fin 1) j) + ·)
    (colsum1_apply (mulf (k1_pay5 h0 mu var al w b) (k1_pay5 h0 mu var al w b)) _ _ j)

theorem pt1_s0_apply (j : Fin 16) : pt1_s0 (F := Ideal) (ix2 (0 : Fin 1) j) = 0 := by
  unfold pt1_s0 k1_pay3
  rw [shapeCast_self]
  exact Ideal.ofBits_zero_f32
theorem pt1_q0_apply (j : Fin 16) : pt1_q0 (F := Ideal) (ix2 (0 : Fin 1) j) = 0 := by
  unfold pt1_q0 k1_pay4
  rw [shapeCast_self]
  exact Ideal.ofBits_zero_f32

end Cert.KernelIdeal.Fr
-- ==== Proof.KI.R1RefRow.lean ====
import proofs.«421617_j66314295050867_4_alg».proof.Proof.KI.R1PtVal
import proofs.«421617_j66314295050867_4_alg».proof.Proof.RefRead
import Idealize.ShloMosaic.Lib.IdealHost

noncomputable section

namespace Cert.RefRows

open Idealize.ShloMosaic Idealize.ShloMosaic.ValueIdx Idealize.SL.Sem
open Cert.ReferenceIdeal Cert.ReferenceIdeal.ReadP
open Cert.KernelIdeal.Fr (dice)
open scoped BigOperators

variable (x0 x1 : (⟨S1024x200, .i32⟩ : BufTy).Contents (Elt Ideal)) (x2 x3 : (⟨S1024, .i32⟩ : BufTy).Contents (Elt Ideal))
  (x5 : (⟨S1000000x64, .f32⟩ : BufTy).Contents (Elt Ideal)) (x6 : (⟨S10000x64, .f32⟩ : BufTy).Contents (Elt Ideal))
  (x7 : (⟨S32x512, .f32⟩ : BufTy).Contents (Elt Ideal)) (x8 x9 : (⟨S32, .f32⟩ : BufTy).Contents (Elt Ideal))
  (x10 : (⟨S16x32, .f32⟩ : BufTy).Contents (Elt Ideal)) (x11 : (⟨S16, .f32⟩ : BufTy).Contents (Elt Ideal))

theorem gated_apply (r : Fin 204800) (k : Fin 32) :
    val_main_v80 (F := Ideal) x0 x1 x2 x3 x5 x6 x7 x8 x9 (ix2 r k)
      = dice (val_main_v48 (F := Ideal) x0 x1 x2 x3 x5 x6 x7 x8 (ix2 r k))
          (val_main_v52 (F := Ideal) x0 x1 x2 x3 x5 x6 x7 x8 (ix2 (0 : Fin 1) k))
          (val_main_v59 (F := Ideal) x0 x1 x2 x3 x5 x6 x7 x8 (ix2 (0 : Fin 1) k))
          (val_main_v76 (F := Ideal) x9 (ix2 (0 : Fin 1) k)) := by
  have e60 : idx_main_v60 (ix2 r k) = ix2 (0 : Fin 1) k :=
    funext fun a => Fin.ext (by match a with | ⟨0, _⟩ => rfl | ⟨1, _⟩ => rfl)
  have e65 : idx_main_v65 (ix2 r k) = ix2 (0 : Fin 1) k :=
    funext fun a => Fin.ext (by match a with | ⟨0, _⟩ => rfl | ⟨1, _⟩ => rfl)
  have e77 : idx_main_v77 (ix2 r k) = ix2 (0 : Fin 1) k :=
    funext fun a => Fin.ext (by match a with | ⟨0, _⟩ => rfl | ⟨1, _⟩ => rfl)
  rw [val_main_v80_apply, val_main_v73_apply, val_main_v79_apply, val_main_v78_apply, val_main_v77_apply,
    val_main_v75_apply, val_main_v74_apply, val_main_cst_14_apply, val_main_v72_apply, val_main_v71_apply,
    val_main_cst_13_apply, val_main_v70_apply, val_main_v69_apply, val_main_cst_12_apply, val_main_v68_apply,
    val_main_v67_apply, val_main_v66_apply, val_main_v61_apply, val_main_v60_apply, val_main_v65_apply,
    val_main_v64_apply, val_main_v63_apply, val_main_v62_apply, val_main_cst_11_apply, e60, e65, e77]
  unfold dice Ideal.logistic
  simp only [Ideal.addf_def, Ideal.subf_def, Ideal.mulf_def, Ideal.hostDivf_def, Ideal.hostUnary_rsqrt_def,
    Ideal.hostUnary_exp_def, Ideal.hostNegf_def, Ideal.negf_def, Ideal.ofBits_def, Ideal.ofBits_one_f32]

theorem layer2_apply (r : Fin 204800) (j : Fin 16) :
    val_main_v85 (F := Ideal) x0 x1 x2 x3 x5 x6 x7 x8 x9 x10 x11 (ix2 r j)
      = (∑ k : Fin 32,
          dice (val_main_v48 (F := Ideal) x0 x1 x2 x3 x5 x6 x7 x8 (ix2 r k))
            (val_main_v52 (F := Ideal) x0 x1 x2 x3 x5 x6 x7 x8 (ix2 (0 : Fin 1) k))
            (val_main_v59 (F := Ideal) x0 x1 x2 x3 x5 x6 x7 x8 (ix2 (0 : Fin 1) k))
            (val_main_v76 (F := Ideal) x9 (ix2 (0 : Fin 1) k))
          * val_main_v81 (F := Ideal) x10 (ix2 k j))
        + val_main_v83 (F := Ideal) x11 (ix2 (0 : Fin 1) j) := by
  have e84 : idx_main_v84 (ix2 r j) = ix2 (0 : Fin 1) j :=
    funext fun a => Fin.ext (by match a with | ⟨0, _⟩ => rfl | ⟨1, _⟩ => rfl)
  have el : ∀ k : Fin 32, lidx_main_v82 (ix2 r j) k = ix2 r k := fun k =>
    funext fun a => Fin.ext (by match a with | ⟨0, _⟩ => rfl | ⟨1, _⟩ => rfl)
  have er : ∀ k : Fin 32, ridx_main_v82 (ix2 r j) k = ix2 k j := fun k =>
    funext fun a => Fin.ext (by match a with | ⟨0, _⟩ => rfl | ⟨1, _⟩ => rfl)
  rw [val_main_v85_apply, val_main_v82_apply, val_main_v84_apply, e84, Ideal.addf_def]
  refine congrArg (· + val_main_v83 (F := Ideal) x11 (ix2 (0 : Fin 1) j)) (Finset.sum_congr rfl fun k _ => ?_)
  rw [el k, er k, gated_apply]

end Cert.RefRows
-- ==== Proof.KI.R1Val.lean ====
import proofs.«421617_j66314295050867_4_alg».proof.Proof.KI.R1
import proofs.«421617_j66314295050867_4_alg».proof.Proof.KI.R1PtVal
import proofs.«421617_j66314295050867_4_alg».proof.Proof.KI.R1RefRow
import proofs.«421617_j66314295050867_4_alg».proof.Proof.LibBlockSum
import Idealize.ShloMosaic.Lib.Pipeline.Value

noncomputable section

namespace Cert.KernelIdeal.Fr

open BlockSum

open Cert.KernelIdeal Cert.KernelIdeal.Gen
open Idealize.ShloMosaic Idealize.ShloMosaic.TcCoe Idealize.SL.Sem
open Idealize.ShloMosaic.Pipeline (Dat Cfg Window)

open Idealize.ShloMosaic.ValueIdx
open scoped BigOperators

variable (V : (c : Dev nD) → (b : Ref sig .tc) → Buf (Elt Ideal) ((c : Thread nD τ).loc b))

theorem idx1 : ∀ (t : Fin cfg1.N) (w : Fin cfg1.W) a,
    (cfg1.win w).index t a = if w.val ∈ [0, 6] ∧ a.val = 0 then t.val else 0 :=
  (by decide +kernel : ∀ (t : Fin grid1.N) (w : Fin 9) a, _)

theorem embZ1 (t : Fin cfg1.N) (w : Fin cfg1.W) (hw : w.val ∉ [0, 6]) (j) (a) :
    (((cfg1.win w).rect t).emb j a).val = (j a).val :=
  (cfg1.win w).rect_emb_val_of_index_zero t a ((idx1 t w a).trans (if_neg fun h => hw h.1)) j

theorem arr1_7 (c : Dev nD) (h31 : 31 < cfg1.N) :
    ((dat1 V c).arrAt 7 cfg1.N : S1x16.Idx → EReal) = (sAt1 V c 31 h31).1 := by
  refine (dat1 V c).arrAt_eq_of_cover 7 ((sAt1 V c 31 h31).1 : S1x16.Idx → EReal) (fun t hf => ?_)
    (fun i => ⟨⟨31, h31⟩, (flush1_7 _).mpr rfl, mem_of_emb (funext fun a => Fin.ext (embZ1 _ 7 (by decide) i a))⟩)
  have ht : t = ⟨31, h31⟩ := Fin.ext (show t.val = 31 by have := (flush1_7 t).mp hf; have := t.isLt; have hN : cfg1.N = 32 := N_1; omega)
  subst ht
  show (cfg1.win 7).cut (grid1.coords ⟨31, h31⟩) ((dat1 V c).after 7 ⟨31, h31⟩) = _
  rw [after1_7]
  exact (read_id ((sAt1 V c 31 h31).1 : S1x16.Idx → EReal) _ (embZ1 _ 7 (by decide))).symm

theorem arr1_8 (c : Dev nD) (h31 : 31 < cfg1.N) :
    ((dat1 V c).arrAt 8 cfg1.N : S1x16.Idx → EReal) = (sAt1 V c 31 h31).2 := by
  refine (dat1 V c).arrAt_eq_of_cover 8 ((sAt1 V c 31 h31).2 : S1x16.Idx → EReal) (fun t hf => ?_)
    (fun i => ⟨⟨31, h31⟩, (flush1_8 _).mpr rfl, mem_of_emb (funext fun a => Fin.ext (embZ1 _ 8 (by decide) i a))⟩)
  have ht : t = ⟨31, h31⟩ := Fin.ext (show t.val = 31 by have := (flush1_8 t).mp hf; have := t.isLt; have hN : cfg1.N = 32 := N_1; omega)
  subst ht
  show (cfg1.win 8).cut (grid1.coords ⟨31, h31⟩) ((dat1 V c).after 8 ⟨31, h31⟩) = _
  rw [after1_8]
  exact (read_id ((sAt1 V c 31 h31).2 : S1x16.Idx → EReal) _ (embZ1 _ 8 (by decide))).symm

section Hyps
variable (c : Dev nD)
  (x0 x1 : (⟨Cert.ReferenceIdeal.S1024x200, .i32⟩ : BufTy).Contents (Elt Ideal))
  (x2 x3 : (⟨Cert.ReferenceIdeal.S1024, .i32⟩ : BufTy).Contents (Elt Ideal))
  (x5 : (⟨Cert.ReferenceIdeal.S1000000x64, .f32⟩ : BufTy).Contents (Elt Ideal))
  (x6 : (⟨Cert.ReferenceIdeal.S10000x64, .f32⟩ : BufTy).Contents (Elt Ideal))
  (x7 : (⟨Cert.ReferenceIdeal.S32x512, .f32⟩ : BufTy).Contents (Elt Ideal))
  (x8 x9 : (⟨Cert.ReferenceIdeal.S32, .f32⟩ : BufTy).Contents (Elt Ideal))
  (x10 : (⟨Cert.ReferenceIdeal.S16x32, .f32⟩ : BufTy).Contents (Elt Ideal))
  (x11 : (⟨Cert.ReferenceIdeal.S16, .f32⟩ : BufTy).Contents (Elt Ideal))

local notation "R85" => Cert.ReferenceIdeal.ReadP.val_main_v85 (F := Ideal) x0 x1 x2 x3 x5 x6 x7 x8 x9 x10 x11

def layer2Arr : S1024x200x16.Idx → EReal := fun i =>
  R85 (ix2 (⟨200 * (i 0).val + (i 1).val, by
      have h0 : (i 0).val < 1024 := (i 0).isLt
      have h1 : (i 1).val < 200 := (i 1).isLt
      omega⟩ : Fin 204800) (⟨(i 2).val, (i 2).isLt⟩ : Fin 16))

variable
  (H0 : ∀ (q : Fin 1024) (l : Fin 200) (k : Fin 32) (r : Fin 204800), r.val = 200 * q.val + l.val →
    (V c main_v42_0 : S1024x200x32.Idx → EReal) (ix3 q l k)
      = Cert.ReferenceIdeal.ReadP.val_main_v48 (F := Ideal) x0 x1 x2 x3 x5 x6 x7 x8 (ix2 r k))
  (H1 : (V c main_v44 : S1x32.Idx → EReal) = Cert.ReferenceIdeal.ReadP.val_main_v52 (F := Ideal) x0 x1 x2 x3 x5 x6 x7 x8)
  (H2 : (V c main_v50 : S1x32.Idx → EReal) = Cert.ReferenceIdeal.ReadP.val_main_v59 (F := Ideal) x0 x1 x2 x3 x5 x6 x7 x8)
  (H3 : (V c main_v35 : S1x32.Idx → EReal) = Cert.ReferenceIdeal.ReadP.val_main_v76 (F := Ideal) x9)
  (H4 : (V c main_v29 : S32x16.Idx → EReal) = Cert.ReferenceIdeal.ReadP.val_main_v81 (F := Ideal) x10)
  (H5 : (V c main_v36 : S1x16.Idx → EReal) = Cert.ReferenceIdeal.ReadP.val_main_v83 (F := Ideal) x11)

include H0 H1 H2 H3 H4 H5

theorem point_row1 (t : Fin cfg1.N) (p : Fin 32) (l : Fin 200)
    (j : Fin 16) (r : Fin 204800) (hr : r.val = 200 * (32 * t.val + p.val) + l.val) :
    lin1 (iblk1 V c 0 t) (iblk1 V c 1 t) (iblk1 V c 2 t) (iblk1 V c 3 t) (iblk1 V c 4 t) (iblk1 V c 5 t) p l j = (R85 (ix2 r j) : EReal) := by
  have ht : t.val < 32 := lt_of_lt_of_eq t.isLt N_1
  have hq : 32 * t.val + p.val < 1024 := by have := p.isLt; omega
  rw [Cert.RefRows.layer2_apply]
  unfold lin1
  rw [show iblk1 V c 1 t = _ from (read_id (V c main_v44) _ (embZ1 t 1 (by decide))).trans H1,
    show iblk1 V c 2 t = _ from (read_id (V c main_v50) _ (embZ1 t 2 (by decide))).trans H2,
    show iblk1 V c 3 t = _ from (read_id (V c main_v35) _ (embZ1 t 3 (by decide))).trans H3,
    show iblk1 V c 4 t = _ from (read_id (V c main_v29) _ (embZ1 t 4 (by decide))).trans H4,
    show iblk1 V c 5 t = _ from (read_id (V c main_v36) _ (embZ1 t 5 (by decide))).trans H5]
  refine congrArg (· + Cert.ReferenceIdeal.ReadP.val_main_v83 (F := Ideal) x11 (ix2 (0 : Fin 1) j))
    (Finset.sum_congr rfl fun k _ => ?_)
  rw [show iblk1 V c 0 t (ix3 p l k) = _ from
    (congrArg (V c main_v42_0) (emb_row3 _ _ (idx1 t 0 (0 : Fin 3)) (idx1 t 0 (1 : Fin 3)) (idx1 t 0 (2 : Fin 3)) p l k
      ⟨32 * t.val + p.val, hq⟩ rfl)).trans (H0 ⟨32 * t.val + p.val, hq⟩ l k r hr)]

theorem m1_at (t : Fin cfg1.N) (r : Fin 6400) (j : Fin 16) :
    pt1_m (iblk1 V c 0 t) (iblk1 V c 1 t) (iblk1 V c 2 t) (iblk1 V c 3 t) (iblk1 V c 4 t) (iblk1 V c 5 t) (ix2 r j)
      = (R85 (ix2 (⟨6400 * t.val + r.val, by have ht : t.val < 32 := lt_of_lt_of_eq t.isLt N_1; omega⟩ : Fin 204800) j) : EReal) := by
  have ht : t.val < 32 := lt_of_lt_of_eq t.isLt N_1
  have hr : r.val < 6400 := r.isLt
  rw [pt1_m_apply _ _ _ _ _ _ (⟨r.val / 200, by omega⟩ : Fin 32) (⟨r.val % 200, by omega⟩ : Fin 200) j r
    (by show r.val = 200 * (r.val / 200) + r.val % 200; omega)]
  exact point_row1 V c x0 x1 x2 x3 x5 x6 x7 x8 x9 x10 x11 H0 H1 H2 H3 H4 H5 t _ _ j _
    (by show 6400 * t.val + r.val = 200 * (32 * t.val + r.val / 200) + r.val % 200; omega)

theorem final1_6 : (dat1 V c).arrAt 6 cfg1.N = layer2Arr x0 x1 x2 x3 x5 x6 x7 x8 x9 x10 x11 := by
  refine (dat1 V c).arrAt_eq_of_cover 6 (layer2Arr x0 x1 x2 x3 x5 x6 x7 x8 x9 x10 x11) (fun t _ => ?_) fun i => ?_
  · show (cfg1.win 6).cut (grid1.coords t) ((dat1 V c).after 6 t) = _
    rw [after1_6]
    funext y
    obtain ⟨p, l, j, rfl⟩ : ∃ (p : Fin 32) (l : Fin 200) (j : Fin 16), y = ix3 p l j := ⟨y 0, y 1, y 2, eq_ix3 y⟩
    have ht : t.val < 32 := lt_of_lt_of_eq t.isLt N_1
    have hq : 32 * t.val + p.val < 1024 := by have := p.isLt; omega
    rw [View.read_apply, show ((cfg1.win 6).blk t).view.emb (ix3 p l j) = ix3 (⟨32 * t.val + p.val, hq⟩ : Fin 1024) l j from
      emb_row3 _ _ (idx1 t 6 (0 : Fin 3)) (idx1 t 6 (1 : Fin 3)) (idx1 t 6 (2 : Fin 3)) p l j _ rfl]
    show pt1_h (iblk1 V c 0 t) (iblk1 V c 1 t) (iblk1 V c 2 t) (iblk1 V c 3 t) (iblk1 V c 4 t) (iblk1 V c 5 t) (ix3 p l j)
      = layer2Arr x0 x1 x2 x3 x5 x6 x7 x8 x9 x10 x11 (ix3 (⟨32 * t.val + p.val, hq⟩ : Fin 1024) l j)
    rw [pt1_h_apply]
    exact point_row1 V c x0 x1 x2 x3 x5 x6 x7 x8 x9 x10 x11 H0 H1 H2 H3 H4 H5 t p l j _ rfl
  · have h0 : (i 0).val < 1024 := (i 0).isLt
    have hN : cfg1.N = 32 := N_1
    obtain ⟨t, ht⟩ : ∃ t : Fin cfg1.N, t.val = (i 0).val / 32 := ⟨⟨_, by omega⟩, rfl⟩
    have e : ((cfg1.win 6).blk t).view.emb (ix3 ⟨(i 0).val % 32, by omega⟩ (i 1) (i 2)) = i :=
      (emb_row3 _ _ (idx1 t 6 (0 : Fin 3)) (idx1 t 6 (1 : Fin 3)) (idx1 t 6 (2 : Fin 3)) _ _ _ (i 0)
        (by show (i 0).val = 32 * t.val + (i 0).val % 32; omega)).trans (eq_ix3 i).symm
    exact ⟨t, flush1_6 t, mem_of_emb e⟩

theorem r1_val :
    (∀ (q : Fin 1024) (l : Fin 200) (j : Fin 16) (r : Fin 204800), r.val = 200 * q.val + l.val →
        ((dat1 V c).arrAt 6 cfg1.N : S1024x200x16.Idx → EReal) (ix3 q l j)
          = Cert.ReferenceIdeal.ReadP.val_main_v85 (F := Ideal) x0 x1 x2 x3 x5 x6 x7 x8 x9 x10 x11 (ix2 r j))
    ∧ (∀ j : Fin 16, ((dat1 V c).arrAt 7 cfg1.N : S1x16.Idx → EReal) (ix2 (0 : Fin 1) j)
          = ∑ r : Fin 204800, (Cert.ReferenceIdeal.ReadP.val_main_v85 (F := Ideal) x0 x1 x2 x3 x5 x6 x7 x8 x9 x10 x11 (ix2 r j) : EReal))
    ∧ (∀ j : Fin 16, ((dat1 V c).arrAt 8 cfg1.N : S1x16.Idx → EReal) (ix2 (0 : Fin 1) j)
          = ∑ r : Fin 204800, (Cert.ReferenceIdeal.ReadP.val_main_v85 (F := Ideal) x0 x1 x2 x3 x5 x6 x7 x8 x9 x10 x11 (ix2 r j) : EReal)
              * Cert.ReferenceIdeal.ReadP.val_main_v85 (F := Ideal) x0 x1 x2 x3 x5 x6 x7 x8 x9 x10 x11 (ix2 r j)) := by
  have h31 : 31 < cfg1.N := lt_of_lt_of_eq (by decide : 31 < 32) N_1.symm
  have hm := m1_at V c x0 x1 x2 x3 x5 x6 x7 x8 x9 x10 x11 H0 H1 H2 H3 H4 H5
  refine ⟨fun q l j r hr => ?_, fun j => ?_, fun j => ?_⟩
  · rw [final1_6 V c x0 x1 x2 x3 x5 x6 x7 x8 x9 x10 x11 H0 H1 H2 H3 H4 H5]
    exact congrArg (fun r' : Fin 204800 => R85 (ix2 r' j)) (Fin.ext hr.symm)
  · rw [arr1_7 V c h31]
    exact fold_blocks (a := 32) (b := 6400) N_1 (fun n h => (sAt1 V c n h).1 (ix2 (0 : Fin 1) j)) (fun r => R85 (ix2 r j))
      (fun t r => pt1_m (iblk1 V c 0 t) (iblk1 V c 1 t) (iblk1 V c 2 t) (iblk1 V c 3 t) (iblk1 V c 4 t) (iblk1 V c 5 t) (ix2 r j)) (fun t r => hm t r j)
      (fun h => by
        show pt1_s (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (pt1_s0 (F := Ideal)) (ix2 (0 : Fin 1) j) = _
        rw [pt1_s_apply, pt1_s0_apply])
      (fun n h => by
        show pt1_s (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩)
          (sAt1 V c n (Nat.lt_of_succ_lt h)).1 (ix2 (0 : Fin 1) j) = _
        rw [pt1_s_apply]) 31 h31 N_1.symm
  · rw [arr1_8 V c h31]
    exact fold_blocks (a := 32) (b := 6400) N_1 (fun n h => (sAt1 V c n h).2 (ix2 (0 : Fin 1) j)) (fun r => R85 (ix2 r j) * R85 (ix2 r j))
      (fun t r => pt1_m (iblk1 V c 0 t) (iblk1 V c 1 t) (iblk1 V c 2 t) (iblk1 V c 3 t) (iblk1 V c 4 t) (iblk1 V c 5 t) (ix2 r j) * pt1_m (iblk1 V c 0 t) (iblk1 V c 1 t) (iblk1 V c 2 t) (iblk1 V c 3 t) (iblk1 V c 4 t) (iblk1 V c 5 t) (ix2 r j)) (fun t r => by rw [hm t r j])
      (fun h => by
        show pt1_q (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (pt1_q0 (F := Ideal)) (ix2 (0 : Fin 1) j) = _
        rw [pt1_q_apply, pt1_q0_apply])
      (fun n h => by
        show pt1_q (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩)
          (sAt1 V c n (Nat.lt_of_succ_lt h)).2 (ix2 (0 : Fin 1) j) = _
        rw [pt1_q_apply]) 31 h31 N_1.symm

end Hyps

end Cert.KernelIdeal.Fr
-- ==== Proof.KI.R2Spec.lean ====
import Idealize.ShloMosaic.Lib.ValueIdx
import Idealize.ShloMosaic.PureOps.Ideal.Laws

noncomputable section

open scoped BigOperators

namespace Cert.Pool

open Idealize.ShloMosaic

def eps : EReal := Ideal.ofBits .f32 0x3089705F#32
def big : EReal := Ideal.ofBits .f32 0x4E6E6B28#32
def one : EReal := Ideal.ofBits .f32 0x3F800000#32
def ninf : EReal := Ideal.ofBits .f32 0xFF800000#32

def dice (x m v a : EReal) : EReal :=
  Ideal.logistic ((x - m) * Ideal.rsqrt (v + eps)) * x
    + a * (one - Ideal.logistic ((x - m) * Ideal.rsqrt (v + eps))) * x

def score (h m v a w : Fin 16 → EReal) (b : EReal) : EReal :=
  (∑ k : Fin 16, dice (h k) (m k) (v k) (a k) * w k) + b

def occ (x : BitVec 32) : EReal := FloatOps.uitofp (F := Ideal) .f32 (IntOp.cmpi .sgt x 0#32)

def masked (s mk : EReal) : EReal := s - (one - mk) * big

def top (z : Fin 200 → EReal) : EReal := (Finset.univ : Finset (Fin 200)).fold max ninf z

def weight (z : Fin 200 → EReal) (l : Fin 200) : EReal :=
  Ideal.div (Ideal.exp (z l - top z)) (∑ l' : Fin 200, Ideal.exp (z l' - top z))

def pooled (z e mk : Fin 200 → EReal) : EReal := ∑ l : Fin 200, e l * mk l * weight z l

end Cert.Pool
-- ==== Proof.KI.R2PtVal.lean ====
import proofs.«421617_j66314295050867_4_alg».proof.Proof.KI.R2Pt
import proofs.«421617_j66314295050867_4_alg».proof.Proof.KI.R2Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

noncomputable section

open scoped BigOperators

namespace Cert.KernelIdeal.Fr

open Idealize.ShloMosaic Idealize.ShloMosaic.ValueIdx Idealize.SL.Sem Cert.KernelIdeal.Gen Cert.Pool

section Layout
variable {α : Type}

theorem row16_apply (x : S1x1x16.Idx → α) (p : Fin 32) (l : Fin 200) (k : Fin 16) :
    broadcastTo S32x200x16 x broadcasts_S1x1x16_S32x200x16 (ix3 p l k) = x (ix3 0 0 k) :=
  broadcastTo_apply x broadcasts_S1x1x16_S32x200x16 (ix3 p l k) (ix3 0 0 k) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show k.val = if (16 : Nat) = 1 then 0 else _; rw [if_neg (by decide)]; rfl)

theorem lift16_apply (v : S1x16.Idx → α) (k : Fin 16) :
    shapeCast S1x1x16 v shapeCasts_S1x16_S1x1x16 (ix3 0 0 k) = v (ix2 0 k) :=
  shapeCast_apply v shapeCasts_S1x16_S1x1x16 (ix3 0 0 k) (ix2 0 k)
    (by rewrite [Shape.rowMajor_val_two, Shape.rowMajor_val_three]; show 0 * 16 + k.val = (0 * 1 + 0) * 16 + k.val; omega)

theorem flat16_apply (x : S32x200x16.Idx → α) (p : Fin 32) (l : Fin 200) (k : Fin 16) (r : Fin 6400)
    (hr : r.val = 200 * p.val + l.val) :
    shapeCast S6400x16 x shapeCasts_S32x200x16_S6400x16 (ix2 r k) = x (ix3 p l k) :=
  shapeCast_apply x shapeCasts_S32x200x16_S6400x16 (ix2 r k) (ix3 p l k)
    (by rewrite [Shape.rowMajor_val_two, Shape.rowMajor_val_three]
        show (p.val * 200 + l.val) * 16 + k.val = r.val * 16 + k.val; rw [hr]; omega)

theorem unflat1_apply (x : S6400x1.Idx → α) (p : Fin 32) (l : Fin 200) (z : Fin 1) (r : Fin 6400)
    (hr : r.val = 200 * p.val + l.val) :
    shapeCast S32x200x1 x shapeCasts_S6400x1_S32x200x1 (ix3 p l z) = x (ix2 r 0) :=
  shapeCast_apply x shapeCasts_S6400x1_S32x200x1 (ix3 p l z) (ix2 r 0)
    (by rewrite [Shape.rowMajor_val_two, Shape.rowMajor_val_three]
        have hz : z.val < 1 := z.isLt
        show r.val * 1 + 0 = (p.val * 200 + l.val) * 1 + z.val; rw [hr]; omega)

private theorem bias_apply (x : S1x1.Idx → α) (r : Fin 6400) (z : Fin 1) :
    broadcastTo S6400x1 x broadcasts_S1x1_S6400x1 (ix2 r z) = x (ix2 0 0) :=
  broadcastTo_apply x broadcasts_S1x1_S6400x1 (ix2 r z) (ix2 0 0) (fun a => match a with
    | ⟨0, _⟩ => by show 0 = if (1 : Nat) = 1 then 0 else _; rw [if_pos rfl]
    | ⟨1, _⟩ => by show 0 = if (1 : Nat) = 1 then 0 else _; rw [if_pos rfl])

end Layout

private theorem logistic_apply {s : Shape} {φ : FTy} (x : FVec Ideal s φ) (i : s.Idx) : logistic x i = Ideal.logistic (x i) := rfl
theorem rsqrt_apply {s : Shape} {φ : FTy} (x : FVec Ideal s φ) (i : s.Idx) : rsqrt x i = Ideal.rsqrt (x i) := rfl
theorem exp_apply {s : Shape} {φ : FTy} (x : FVec Ideal s φ) (i : s.Idx) : exp x i = Ideal.exp (x i) := rfl

local notation "D₂" => dot_S6400x16_S16x1_S6400x1_1_0_0_1_n_n

theorem lhs_score_0 (i : S6400x1.Idx) (q : dot_S6400x16_S16x1_S6400x1_1_0_0_1_n_n.contr.Idx) :
    (dot_S6400x16_S16x1_S6400x1_1_0_0_1_n_n.lhsIdx i q 0).val = (i 0).val := by
  unfold DotDims.lhsIdx
  rw [dif_neg (show ¬(0 : Fin S6400x16.rank) ∈ dot_S6400x16_S16x1_S6400x1_1_0_0_1_n_n.lhsBatch by decide),
    dif_pos (show (0 : Fin S6400x16.rank) ∈ dot_S6400x16_S16x1_S6400x1_1_0_0_1_n_n.lhsNonContracting by decide)]
  rfl
theorem lhs_score_1 (i : S6400x1.Idx) (q : dot_S6400x16_S16x1_S6400x1_1_0_0_1_n_n.contr.Idx) :
    (dot_S6400x16_S16x1_S6400x1_1_0_0_1_n_n.lhsIdx i q 1).val = (q ⟨0, by decide⟩).val :=
  dot_S6400x16_S16x1_S6400x1_1_0_0_1_n_n.lhsIdx_val_of_single rfl i q
theorem rhs_score_0 (i : S6400x1.Idx) (q : dot_S6400x16_S16x1_S6400x1_1_0_0_1_n_n.contr.Idx) :
    (dot_S6400x16_S16x1_S6400x1_1_0_0_1_n_n.rhsIdx i q 0).val = (q ⟨0, by decide⟩).val :=
  dot_S6400x16_S16x1_S6400x1_1_0_0_1_n_n.rhsIdx_val_of_single rfl i q
theorem rhs_score_1 (i : S6400x1.Idx) (q : dot_S6400x16_S16x1_S6400x1_1_0_0_1_n_n.contr.Idx) :
    (dot_S6400x16_S16x1_S6400x1_1_0_0_1_n_n.rhsIdx i q 1).val = (i 1).val := by
  unfold DotDims.rhsIdx
  rw [dif_neg (show ¬(1 : Fin S16x1.rank) ∈ dot_S6400x16_S16x1_S6400x1_1_0_0_1_n_n.rhsBatch by decide),
    dif_pos (show (1 : Fin S16x1.rank) ∈ dot_S6400x16_S16x1_S6400x1_1_0_0_1_n_n.rhsNonContracting by decide)]
  rfl

theorem score_dot_apply (x : FVec Ideal S6400x16 .bf16) (y : FVec Ideal S16x1 .bf16) (r : Fin 6400) :
    matmul dot_S6400x16_S16x1_S6400x1_1_0_0_1_n_n none x y (constant S6400x1 .f32 0x00000000#32) (ix2 r 0)
      = ∑ k : Fin 16, x (ix2 r k) * y (ix2 k 0) := by
  simp only [matmul]
  rw [Ideal.matmul_constant_zero_apply,
    ← Equiv.sum_comp (contrEquiv1 dot_S6400x16_S16x1_S6400x1_1_0_0_1_n_n 16 rfl rfl).symm]
  refine Finset.sum_congr rfl fun k _ => ?_
  have hk := contrEquiv1_symm_val dot_S6400x16_S16x1_S6400x1_1_0_0_1_n_n 16 rfl rfl k
  have el : dot_S6400x16_S16x1_S6400x1_1_0_0_1_n_n.lhsIdx (ix2 r 0)
      ((contrEquiv1 dot_S6400x16_S16x1_S6400x1_1_0_0_1_n_n 16 rfl rfl).symm k) = ix2 r k :=
    funext fun a => Fin.ext (by
      match a with
      | ⟨0, _⟩ => exact lhs_score_0 _ _
      | ⟨1, _⟩ => exact (lhs_score_1 _ _).trans hk)
  have er : dot_S6400x16_S16x1_S6400x1_1_0_0_1_n_n.rhsIdx (ix2 r 0)
      ((contrEquiv1 dot_S6400x16_S16x1_S6400x1_1_0_0_1_n_n 16 rfl rfl).symm k) = ix2 k 0 :=
    funext fun a => Fin.ext (by
      match a with
      | ⟨0, _⟩ => exact (rhs_score_0 _ _).trans hk
      | ⟨1, _⟩ => exact rhs_score_1 _ _)
  rw [el, er]

theorem score_apply (h1 : Vec Ideal S32x200x16 .f32) (mu var al : Vec Ideal S1x16 .f32) (w : Vec Ideal S16x1 .f32)
    (b : Vec Ideal S1x1 .f32) (p : Fin 32) (l : Fin 200) (z : Fin 1) :
    pt2_score (F := Ideal) h1 mu var al w b (ix3 p l z)
      = score (fun k => h1 (ix3 p l k)) (fun k => mu (ix2 0 k)) (fun k => var (ix2 0 k)) (fun k => al (ix2 0 k))
          (fun k => w (ix2 k 0)) (b (ix2 0 0)) := by
  have hr : 200 * p.val + l.val < 6400 := by have := p.isLt; have := l.isLt; omega
  unfold pt2_score k2_pay2
  simp only [shapeCast_self]
  rw [unflat1_apply _ p l z ⟨200 * p.val + l.val, hr⟩ rfl, addf_apply, score_dot_apply, bias_apply]
  unfold score
  congr 1
  refine Finset.sum_congr rfl fun k _ => ?_
  rw [truncf_apply, truncf_apply, flat16_apply _ p l k ⟨200 * p.val + l.val, hr⟩ rfl]
  simp only [addf_apply, mulf_apply, subf_apply, logistic_apply, rsqrt_apply, broadcast_apply, row16_apply, lift16_apply]
  rfl

end Cert.KernelIdeal.Fr

namespace Cert.KernelIdeal.Fr

open Idealize.ShloMosaic Idealize.ShloMosaic.ValueIdx Idealize.SL.Sem Cert.KernelIdeal.Gen Cert.Pool

section Layout2
variable {α : Type}

theorem lastUnit_apply (x : S32x200.Idx → α) (p : Fin 32) (l : Fin 200) (z : Fin 1) :
    shapeCast S32x200x1 x shapeCasts_S32x200_S32x200x1 (ix3 p l z) = x (ix2 p l) :=
  shapeCast_apply x shapeCasts_S32x200_S32x200x1 (ix3 p l z) (ix2 p l)
    (by rewrite [Shape.rowMajor_val_two, Shape.rowMajor_val_three]
        have hz : z.val < 1 := z.isLt
        show p.val * 200 + l.val = (p.val * 200 + l.val) * 1 + z.val; omega)

theorem feat64_apply (x : S32x200x1.Idx → α) (p : Fin 32) (l : Fin 200) (j : Fin 64) :
    broadcastTo S32x200x64 x broadcasts_S32x200x1_S32x200x64 (ix3 p l j) = x (ix3 p l 0) :=
  broadcastTo_apply x broadcasts_S32x200x1_S32x200x64 (ix3 p l j) (ix3 p l 0) (fun a => match a with
    | ⟨0, _⟩ => by show p.val = if (32 : Nat) = 1 then 0 else _; rw [if_neg (by decide)]; rfl
    | ⟨1, _⟩ => by show l.val = if (200 : Nat) = 1 then 0 else _; rw [if_neg (by decide)]; rfl
    | ⟨2, _⟩ => by show 0 = if (1 : Nat) = 1 then 0 else _; rw [if_pos rfl])

theorem perRow_apply (x : S32x1x1.Idx → α) (p : Fin 32) (l : Fin 200) (z : Fin 1) :
    broadcastTo S32x200x1 x broadcasts_S32x1x1_S32x200x1 (ix3 p l z) = x (ix3 p 0 0) :=
  broadcastTo_apply x broadcasts_S32x1x1_S32x200x1 (ix3 p l z) (ix3 p 0 0) (fun a => match a with
    | ⟨0, _⟩ => by show p.val = if (32 : Nat) = 1 then 0 else _; rw [if_neg (by decide)]; rfl
    | ⟨1, _⟩ => by show 0 = if (1 : Nat) = 1 then 0 else _; rw [if_pos rfl]
    | ⟨2, _⟩ => by show 0 = if (1 : Nat) = 1 then 0 else _; rw [if_pos rfl])

theorem col_apply (x : S32x1.Idx → α) (p : Fin 32) :
    shapeCast S32x1x1 x shapeCasts_S32x1_S32x1x1 (ix3 p 0 0) = x (ix2 p 0) :=
  shapeCast_apply x shapeCasts_S32x1_S32x1x1 (ix3 p 0 0) (ix2 p 0)
    (by rewrite [Shape.rowMajor_val_two, Shape.rowMajor_val_three]
        show p.val * 1 + 0 = (p.val * 1 + 0) * 1 + 0; omega)

end Layout2

theorem rowMax_apply (x : FVec Ideal S32x200x1 .f32) (p : Fin 32) :
    multiReduction .maximumf [1] S32x1 x 0xFF800000#32 reduces_S32x200x1_S32x1 (.inl rfl) rfl (ix2 p 0)
      = (Finset.univ : Finset (Fin 200)).fold max ninf (fun l => x (ix3 p l 0)) := by
  refine (Ideal.multiReduction_maximumf_single x 0xFF800000#32 reduces_S32x200x1_S32x1 (.inl rfl) rfl (ix2 p 0)).trans ?_
  show (Finset.univ : Finset (Fin 200)).fold max ninf (x ∘ reduces_S32x200x1_S32x1.lift (ix2 p 0)) = _
  congr 1
  funext l
  show x _ = x _
  congr 1
  funext a
  apply Fin.ext
  match a with
  | ⟨0, _⟩ => rfl
  | ⟨1, _⟩ => rfl
  | ⟨2, _⟩ => rfl

theorem rowSum_apply (x : FVec Ideal S32x200x1 .f32) (p : Fin 32) :
    multiReduction .add [1] S32x1 x 0x00000000#32 reduces_S32x200x1_S32x1 (.inl rfl) rfl (ix2 p 0)
      = ∑ l : Fin 200, x (ix3 p l 0) := by
  refine (Ideal.multiReduction_add_single x 0x00000000#32 reduces_S32x200x1_S32x1 (.inl rfl) rfl (ix2 p 0)).trans ?_
  show ∑ l : Fin 200, x (reduces_S32x200x1_S32x1.lift (ix2 p 0) l) = _
  refine Finset.sum_congr rfl fun l _ => congrArg x (funext fun a => Fin.ext ?_)
  match a with
  | ⟨0, _⟩ => rfl
  | ⟨1, _⟩ => rfl
  | ⟨2, _⟩ => rfl

theorem posSum_apply (x : FVec Ideal S32x200x64 .f32) (p : Fin 32) (j : Fin 64) :
    multiReduction .add [1] S32x64 x 0x00000000#32 reduces_S32x200x64_S32x64 (.inl rfl) rfl (ix2 p j)
      = ∑ l : Fin 200, x (ix3 p l j) := by
  refine (Ideal.multiReduction_add_single x 0x00000000#32 reduces_S32x200x64_S32x64 (.inl rfl) rfl (ix2 p j)).trans ?_
  show ∑ l : Fin 200, x (reduces_S32x200x64_S32x64.lift (ix2 p j) l) = _
  refine Finset.sum_congr rfl fun l _ => congrArg x (funext fun a => Fin.ext ?_)
  match a with
  | ⟨0, _⟩ => rfl
  | ⟨1, _⟩ => rfl
  | ⟨2, _⟩ => rfl

theorem halves_left (x y : FVec Ideal S32x64 .f32) (p : Fin 32) (j : Fin 128) (hj : j.val < 64) :
    concatenate S32x128 1 [⟨S32x64, x⟩, ⟨S32x64, y⟩] concatenates_S32x64_S32x64_S32x128_d1 (ix2 p j)
      = x (ix2 p ⟨j.val, hj⟩) :=
  concatenate_pair_apply_left 1 x y concatenates_S32x64_S32x64_S32x128_d1 (ix2 p j) rfl (ix2 p ⟨j.val, hj⟩)
    (fun b => match b with
      | ⟨0, _⟩ => rfl
      | ⟨1, _⟩ => rfl)

theorem halves_right (x y : FVec Ideal S32x64 .f32) (p : Fin 32) (j : Fin 128) (hj : 64 ≤ j.val) :
    concatenate S32x128 1 [⟨S32x64, x⟩, ⟨S32x64, y⟩] concatenates_S32x64_S32x64_S32x128_d1 (ix2 p j)
      = y (ix2 p ⟨j.val - 64, by have := j.isLt; omega⟩) :=
  concatenate_pair_apply_right 1 x y concatenates_S32x64_S32x64_S32x128_d1 (ix2 p j) rfl rfl
    (ix2 p ⟨j.val - 64, by have := j.isLt; omega⟩)
    (fun b hb => match b, hb with
      | ⟨0, _⟩, _ => rfl
      | ⟨1, _⟩, hb => absurd rfl hb)
    (by show j.val - 64 + 64 = j.val; omega)

def occK (m : IVec S32x200 1) (p : Fin 32) (l : Fin 200) : EReal :=
  FloatOps.sitofp (F := Ideal) .f32 ((m (ix2 p l)).setWidth 32)

theorem maskedScore_apply (s : FVec Ideal S32x200x1 .f32) (m : IVec S32x200 1) (p : Fin 32) (l : Fin 200) (z : Fin 1) :
    subf s (mulf (subf (broadcast S32x200x1 (Scalar.ofBits .f32 0x3F800000#32))
        (shapeCast S32x200x1 (sitofp .f32 (extui 32 m natLt_1_32)) shapeCasts_S32x200_S32x200x1))
        (broadcast S32x200x1 (Scalar.ofBits .f32 0x4E6E6B28#32))) (ix3 p l z)
      = masked (s (ix3 p l z)) (occK m p l) := by
  rw [subf_apply, mulf_apply, subf_apply, lastUnit_apply]
  rfl

theorem weight_apply (z : FVec Ideal S32x200x1 .f32) (p : Fin 32) (l : Fin 200) (u : Fin 1) :
    divf
      (exp (subf z (broadcastTo S32x200x1 (shapeCast S32x1x1
        (multiReduction .maximumf [1] S32x1 z 0xFF800000#32 reduces_S32x200x1_S32x1 (.inl rfl) rfl)
        shapeCasts_S32x1_S32x1x1) broadcasts_S32x1x1_S32x200x1)))
      (broadcastTo S32x200x1 (shapeCast S32x1x1
        (multiReduction .add [1] S32x1
          (exp (subf z (broadcastTo S32x200x1 (shapeCast S32x1x1
            (multiReduction .maximumf [1] S32x1 z 0xFF800000#32 reduces_S32x200x1_S32x1 (.inl rfl) rfl)
            shapeCasts_S32x1_S32x1x1) broadcasts_S32x1x1_S32x200x1)))
          0x00000000#32 reduces_S32x200x1_S32x1 (.inl rfl) rfl)
        shapeCasts_S32x1_S32x1x1) broadcasts_S32x1x1_S32x200x1) (ix3 p l u)
      = weight (fun l => z (ix3 p l 0)) l := by
  obtain rfl : u = 0 := Subsingleton.elim _ _
  rw [divf_apply, exp_apply, subf_apply, perRow_apply, col_apply, rowMax_apply, perRow_apply, col_apply,
    rowSum_apply]
  unfold weight top
  congr 1
  refine Finset.sum_congr rfl fun l' _ => ?_
  rw [exp_apply, subf_apply, perRow_apply, col_apply, rowMax_apply]

theorem pool_apply (s : FVec Ideal S32x200x1 .f32) (m : IVec S32x200 1) (im cm : Vec Ideal S32x200x64 .f32)
    (p : Fin 32) (j : Fin 128) :
    k2_pay1 (F := Ideal) s m im cm (ix2 p j)
      = pooled (fun l => masked (s (ix3 p l 0)) (occK m p l))
          (fun l => if hj : j.val < 64 then im (ix3 p l ⟨j.val, hj⟩)
            else cm (ix3 p l ⟨j.val - 64, by have := j.isLt; omega⟩))
          (fun l => occK m p l) := by
  have hz : (fun l : Fin 200 =>
      subf s (mulf (subf (broadcast S32x200x1 (Scalar.ofBits .f32 0x3F800000#32))
        (shapeCast S32x200x1 (sitofp .f32 (extui 32 m natLt_1_32)) shapeCasts_S32x200_S32x200x1))
        (broadcast S32x200x1 (Scalar.ofBits .f32 0x4E6E6B28#32))) (ix3 p l 0))
      = fun l => masked (s (ix3 p l 0)) (occK m p l) := funext fun l => maskedScore_apply s m p l 0
  unfold k2_pay1
  simp only [shapeCast_self]
  unfold pooled
  by_cases hj : j.val < 64
  · rw [halves_left _ _ p j hj, posSum_apply]
    refine Finset.sum_congr rfl fun l _ => ?_
    rw [mulf_apply, mulf_apply, feat64_apply, feat64_apply, lastUnit_apply, weight_apply, hz]
    dsimp only
    rw [dif_pos hj]
    rfl
  · rw [halves_right _ _ p j (Nat.le_of_not_lt hj), posSum_apply]
    refine Finset.sum_congr rfl fun l _ => ?_
    rw [mulf_apply, mulf_apply, feat64_apply, feat64_apply, lastUnit_apply, weight_apply, hz]
    dsimp only
    rw [dif_neg hj]
    rfl

end Cert.KernelIdeal.Fr

namespace Cert.KernelIdeal.Fr

open Idealize.ShloMosaic Idealize.ShloMosaic.ValueIdx Idealize.SL.Sem Cert.KernelIdeal.Gen Cert.Pool

theorem occK_mask (hist : Vec Ideal S32x200 .i32) (p : Fin 32) (l : Fin 200) :
    occK (pt2_mask (F := Ideal) hist) p l = occ (hist (ix2 p l)) := by
  unfold occK occ pt2_mask k2_pay3
  show ((((IntOp.cmpi .sgt (hist (ix2 p l)) 0#32).setWidth 32).toInt : ℝ) : EReal)
    = (((IntOp.cmpi .sgt (hist (ix2 p l)) 0#32).toNat : ℝ) : EReal)
  rw [toInt_setWidth_bit]
  norm_cast

theorem pt2_apply (h1 : Vec Ideal S32x200x16 .f32) (mu var al : Vec Ideal S1x16 .f32) (w : Vec Ideal S16x1 .f32)
    (b : Vec Ideal S1x1 .f32) (im cm : Vec Ideal S32x200x64 .f32) (hist : Vec Ideal S32x200 .i32)
    (p : Fin 32) (j : Fin 128) :
    pt2 (F := Ideal) h1 mu var al w b im cm hist (ix2 p j)
      = pooled
          (fun l => masked
            (score (fun k => h1 (ix3 p l k)) (fun k => mu (ix2 0 k)) (fun k => var (ix2 0 k))
              (fun k => al (ix2 0 k)) (fun k => w (ix2 k 0)) (b (ix2 0 0)))
            (occ (hist (ix2 p l))))
          (fun l => if hj : j.val < 64 then im (ix3 p l ⟨j.val, hj⟩)
            else cm (ix3 p l ⟨j.val - 64, by have := j.isLt; omega⟩))
          (fun l => occ (hist (ix2 p l))) := by
  rw [pt2_eq, pool_apply]
  simp only [score_apply, occK_mask]

end Cert.KernelIdeal.Fr
-- ==== Proof.KI.R2RefVal.lean ====
import proofs.«421617_j66314295050867_4_alg».proof.Proof.RefRead
import proofs.«421617_j66314295050867_4_alg».proof.Proof.KI.R2Spec
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.PoolRef

open Cert.ReferenceIdeal Cert.ReferenceIdeal.Gen Cert.ReferenceIdeal.ReadP
open Idealize.ShloMosaic Idealize.ShloMosaic.ValueIdx Idealize.SL.Sem Cert.Pool

variable (x0 x1 : (⟨S1024x200, .i32⟩ : BufTy).Contents (Elt Ideal))
  (x2 x3 : (⟨S1024, .i32⟩ : BufTy).Contents (Elt Ideal))
  (x5 : (⟨S1000000x64, .f32⟩ : BufTy).Contents (Elt Ideal))
  (x6 : (⟨S10000x64, .f32⟩ : BufTy).Contents (Elt Ideal))
  (x7 : (⟨S32x512, .f32⟩ : BufTy).Contents (Elt Ideal))
  (x8 x9 : (⟨S32, .f32⟩ : BufTy).Contents (Elt Ideal))
  (x10 : (⟨S16x32, .f32⟩ : BufTy).Contents (Elt Ideal))
  (x11 x12 : (⟨S16, .f32⟩ : BufTy).Contents (Elt Ideal))
  (x13 : (⟨S1x16, .f32⟩ : BufTy).Contents (Elt Ideal))
  (x14 : (⟨S1, .f32⟩ : BufTy).Contents (Elt Ideal))

theorem rowIdx (q : Fin 204800) (k : Fin 16) : idx_main_v90 (ix2 q k) = ix2 0 k :=
  funext fun a => Fin.ext (by match a with | ⟨0, _⟩ => rfl | ⟨1, _⟩ => rfl)

theorem gate_apply (q : Fin 204800) (k : Fin 16) :
    val_main_v117 (F := Ideal) x0 x1 x2 x3 x5 x6 x7 x8 x9 x10 x11 x12 (ix2 q k)
      = dice (val_main_v85 (F := Ideal) x0 x1 x2 x3 x5 x6 x7 x8 x9 x10 x11 (ix2 q k)) (val_main_v89 (F := Ideal) x0 x1 x2 x3 x5 x6 x7 x8 x9 x10 x11 (ix2 0 k))
          (val_main_v96 (F := Ideal) x0 x1 x2 x3 x5 x6 x7 x8 x9 x10 x11 (ix2 0 k)) (val_main_v113 (F := Ideal) x12 (ix2 0 k)) := by
  have e97 : idx_main_v97 (ix2 q k) = ix2 0 k := rowIdx q k
  have e102 : idx_main_v102 (ix2 q k) = ix2 0 k := rowIdx q k
  have e114 : idx_main_v114 (ix2 q k) = ix2 0 k := rowIdx q k
  rw [val_main_v117_apply, val_main_v110_apply, val_main_v116_apply, val_main_v115_apply, val_main_v112_apply,
    val_main_v109_apply, val_main_v107_apply, val_main_v105_apply, val_main_v104_apply, val_main_v103_apply,
    val_main_v98_apply, val_main_v97_apply, val_main_v102_apply, val_main_v101_apply, val_main_v100_apply,
    val_main_v99_apply, val_main_v114_apply, val_main_v106_apply, val_main_v108_apply, val_main_v111_apply,
    e97, e102, e114]
  unfold dice Cert.Pool.one eps
  show Ideal.div (Ideal.ofBits .f32 0x3F800000#32) (Ideal.ofBits .f32 0x3F800000#32 + Ideal.exp (-_)) * _
      + _ * (Ideal.ofBits .f32 0x3F800000#32 - Ideal.div (Ideal.ofBits .f32 0x3F800000#32)
        (Ideal.ofBits .f32 0x3F800000#32 + Ideal.exp (-_))) * _ = _
  rw [Ideal.ofBits_one_f32]
  rfl

theorem scoreRowIdx (r : Fin 1024) (l : Fin 200) (z : Fin 1) (q : Fin 204800) (hq : q.val = 200 * r.val + l.val) :
    idx_main_v123 (ix3 r l z) = ix2 q 0 :=
  funext fun a => Fin.ext (by
    have hz : z.val < 1 := z.isLt
    match a with
    | ⟨0, _⟩ => show ((r.val * 200 + l.val) * 1 + z.val) / 1 = q.val; rw [hq]; omega
    | ⟨1, _⟩ => rfl)

theorem score_apply (r : Fin 1024) (l : Fin 200) (z : Fin 1) (q : Fin 204800) (hq : q.val = 200 * r.val + l.val) :
    val_main_v123 (F := Ideal) x0 x1 x2 x3 x5 x6 x7 x8 x9 x10 x11 x12 x13 x14 (ix3 r l z)
      = score (fun k => val_main_v85 (F := Ideal) x0 x1 x2 x3 x5 x6 x7 x8 x9 x10 x11 (ix2 q k))
          (fun k => val_main_v89 (F := Ideal) x0 x1 x2 x3 x5 x6 x7 x8 x9 x10 x11 (ix2 0 k)) (fun k => val_main_v96 (F := Ideal) x0 x1 x2 x3 x5 x6 x7 x8 x9 x10 x11 (ix2 0 k))
          (fun k => val_main_v113 (F := Ideal) x12 (ix2 0 k)) (fun k => val_main_v118 (F := Ideal) x13 (ix2 k 0))
          (val_main_v120 (F := Ideal) x14 (ix2 0 0)) := by
  have el : ∀ k : Fin 16, lidx_main_v119 (ix2 q (0 : Fin 1)) k = ix2 q k := fun k =>
    funext fun a => Fin.ext (by match a with | ⟨0, _⟩ => rfl | ⟨1, _⟩ => rfl)
  have er : ∀ k : Fin 16, ridx_main_v119 (ix2 q (0 : Fin 1)) k = ix2 k 0 := fun k =>
    funext fun a => Fin.ext (by match a with | ⟨0, _⟩ => rfl | ⟨1, _⟩ => rfl)
  have eb : idx_main_v121 (ix2 q (0 : Fin 1)) = ix2 0 0 :=
    funext fun a => Fin.ext (by match a with | ⟨0, _⟩ => rfl | ⟨1, _⟩ => rfl)
  rw [val_main_v123_apply, scoreRowIdx r l z q hq, val_main_v122_apply, val_main_v119_apply, val_main_v121_apply, eb]
  unfold score
  refine congrArg (· + _) (Finset.sum_congr rfl fun k _ => ?_)
  rw [el, er, gate_apply]

theorem masked_apply (r : Fin 1024) (l : Fin 200) (z : Fin 1) :
    val_main_v128 (F := Ideal) x0 x1 x2 x3 x5 x6 x7 x8 x9 x10 x11 x12 x13 x14 (ix3 r l z)
      = masked (val_main_v123 (F := Ideal) x0 x1 x2 x3 x5 x6 x7 x8 x9 x10 x11 x12 x13 x14 (ix3 r l z)) (occ (x0 (ix2 r l))) := by
  have e17 : idx_main_v17 (ix3 r l z) = ix2 r l :=
    funext fun a => Fin.ext (by match a with | ⟨0, _⟩ => rfl | ⟨1, _⟩ => rfl)
  rw [val_main_v128_apply, val_main_v127_apply, val_main_v125_apply, val_main_v124_apply, val_main_v126_apply,
    val_main_v17_apply, e17, val_main_v16_apply, val_main_v15_apply, val_main_v14_apply]
  rfl

theorem top_apply (r : Fin 1024) (z : Fin 1) :
    val_main_v131 (F := Ideal) x0 x1 x2 x3 x5 x6 x7 x8 x9 x10 x11 x12 x13 x14 (ix2 r z)
      = top (fun l => val_main_v128 (F := Ideal) x0 x1 x2 x3 x5 x6 x7 x8 x9 x10 x11 x12 x13 x14 (ix3 r l 0)) := by
  obtain rfl : z = 0 := Subsingleton.elim _ _
  have hR : S1024x200x1.Reduces [1] S1024x1 := by decide
  rw [val_main_v131_apply, val_main_v130_apply]
  unfold val_main_v129
  generalize val_main_v128 (F := Ideal) x0 x1 x2 x3 x5 x6 x7 x8 x9 x10 x11 x12 x13 x14 = y
  have hfold := Host.reduce_eq_fold_single (α := Ideal .f32) (a := (1 : Fin S1024x200x1.rank))
    (FloatOps.maximumf (F := Ideal) (φ := .f32)) y (val_main_cst_25 (F := Ideal))
    reducesTo_S1024x200x1_S1024x1_d1 hR h_S_ (ix2 r 0)
  refine (congrArg (FloatOps.maximumf (F := Ideal) (φ := .f32) _) hfold).trans ?_
  unfold top
  show max ninf ((Finset.univ : Finset (Fin 200)).fold max ninf (y ∘ hR.lift (ix2 r 0))) = _
  have hlift : (y ∘ hR.lift (ix2 r 0)) = fun l : Fin 200 => y (ix3 r l 0) :=
    funext fun l => congrArg y (funext fun a => Fin.ext (by
      match a with
      | ⟨0, _⟩ => rfl
      | ⟨1, _⟩ => rfl
      | ⟨2, _⟩ => rfl))
  rw [hlift]
  exact max_eq_right ((Finset.le_fold_max _).2 (Or.inl le_rfl))

theorem weight_apply (r : Fin 1024) (l : Fin 200) (z : Fin 1) :
    val_main_v139 (F := Ideal) x0 x1 x2 x3 x5 x6 x7 x8 x9 x10 x11 x12 x13 x14 (ix3 r l z)
      = weight (fun l => val_main_v128 (F := Ideal) x0 x1 x2 x3 x5 x6 x7 x8 x9 x10 x11 x12 x13 x14 (ix3 r l 0)) l := by
  obtain rfl : z = 0 := Subsingleton.elim _ _
  have e133 : ∀ l' : Fin 200, idx_main_v132 (idx_main_v133 (ix3 r l' (0 : Fin 1))) = ix2 r 0 := fun l' =>
    funext fun a => Fin.ext (by match a with | ⟨0, _⟩ => rfl | ⟨1, _⟩ => rfl)
  have e138 : idx_main_v137 (idx_main_v138 (ix3 r l (0 : Fin 1))) = ix2 r 0 :=
    funext fun a => Fin.ext (by match a with | ⟨0, _⟩ => rfl | ⟨1, _⟩ => rfl)
  have e136 : ∀ l' : Fin 200, idx_main_v136 (ix2 r (0 : Fin 1)) l' = ix3 r l' 0 := fun l' =>
    funext fun a => Fin.ext (by match a with | ⟨0, _⟩ => rfl | ⟨1, _⟩ => rfl | ⟨2, _⟩ => rfl)
  have hexp : ∀ l' : Fin 200, val_main_v135 (F := Ideal) x0 x1 x2 x3 x5 x6 x7 x8 x9 x10 x11 x12 x13 x14 (ix3 r l' 0)
      = Ideal.exp (val_main_v128 (F := Ideal) x0 x1 x2 x3 x5 x6 x7 x8 x9 x10 x11 x12 x13 x14 (ix3 r l' 0)
          - top (fun l => val_main_v128 (F := Ideal) x0 x1 x2 x3 x5 x6 x7 x8 x9 x10 x11 x12 x13 x14 (ix3 r l 0))) := fun l' => by
    rw [val_main_v135_apply, val_main_v134_apply, val_main_v133_apply, val_main_v132_apply, e133, top_apply]
    rfl
  rw [val_main_v139_apply, val_main_v138_apply, val_main_v137_apply, e138, val_main_v136_apply, hexp]
  unfold weight
  show Ideal.div _ (Ideal.ofBits .f32 0x00000000#32 + _) = _
  rw [Ideal.ofBits_zero_f32, zero_add]
  refine congrArg (Ideal.div _) (Finset.sum_congr rfl fun l' _ => ?_)
  rw [e136, hexp]

theorem entry_apply (r : Fin 1024) (l : Fin 200) (j : Fin 128) :
    val_main_v36 (F := Ideal) x0 x1 x5 x6 (ix3 r l j)
      = (if hj : j.val < 64 then val_main_v24 (F := Ideal) x0 x5 (ix3 r l ⟨j.val, hj⟩)
          else val_main_v33 (F := Ideal) x1 x6 (ix3 r l ⟨j.val - 64, by have := j.isLt; omega⟩))
        * occ (x0 (ix2 r l)) := by
  have e25 : ∀ j' : Fin 64, idx_main_v17 (idx_main_v25 (ix3 r l j')) = ix2 r l := fun j' =>
    funext fun a => Fin.ext (by match a with | ⟨0, _⟩ => rfl | ⟨1, _⟩ => rfl)
  have e34 : ∀ j' : Fin 64, idx_main_v17 (idx_main_v34 (ix3 r l j')) = ix2 r l := fun j' =>
    funext fun a => Fin.ext (by match a with | ⟨0, _⟩ => rfl | ⟨1, _⟩ => rfl)
  unfold val_main_v36
  by_cases hj : j.val < 64
  · rw [dif_pos hj, concatenate_pair_apply_left 2 _ _ concatenates_S1024x200x64_S1024x200x64_S1024x200x128_d2
      (ix3 r l j) rfl (ix3 r l ⟨j.val, hj⟩) (fun b => match b with
        | ⟨0, _⟩ => rfl
        | ⟨1, _⟩ => rfl
        | ⟨2, _⟩ => rfl),
      val_main_v26_apply, val_main_v25_apply, val_main_v17_apply, e25, val_main_v16_apply, val_main_v15_apply,
      val_main_v14_apply]
    rfl
  · rw [dif_neg hj, concatenate_pair_apply_right 2 _ _ concatenates_S1024x200x64_S1024x200x64_S1024x200x128_d2
      (ix3 r l j) rfl rfl (ix3 r l ⟨j.val - 64, by have := j.isLt; omega⟩)
      (fun b hb => match b, hb with
        | ⟨0, _⟩, _ => rfl
        | ⟨1, _⟩, _ => rfl
        | ⟨2, _⟩, hb => absurd rfl hb)
      (by show j.val - 64 + 64 = j.val; omega),
      val_main_v35_apply, val_main_v34_apply, val_main_v17_apply, e34, val_main_v16_apply, val_main_v15_apply,
      val_main_v14_apply]
    rfl

theorem pooled_apply (r : Fin 1024) (j : Fin 128) :
    val_main_v142 (F := Ideal) x0 x1 x2 x3 x5 x6 x7 x8 x9 x10 x11 x12 x13 x14 (ix2 r j)
      = pooled
          (fun l => masked
            (score (fun k => val_main_v85 (F := Ideal) x0 x1 x2 x3 x5 x6 x7 x8 x9 x10 x11
                (ix2 ⟨200 * r.val + l.val, by have := r.isLt; have := l.isLt; omega⟩ k))
              (fun k => val_main_v89 (F := Ideal) x0 x1 x2 x3 x5 x6 x7 x8 x9 x10 x11 (ix2 0 k)) (fun k => val_main_v96 (F := Ideal) x0 x1 x2 x3 x5 x6 x7 x8 x9 x10 x11 (ix2 0 k))
              (fun k => val_main_v113 (F := Ideal) x12 (ix2 0 k)) (fun k => val_main_v118 (F := Ideal) x13 (ix2 k 0))
              (val_main_v120 (F := Ideal) x14 (ix2 0 0)))
            (occ (x0 (ix2 r l))))
          (fun l => if hj : j.val < 64 then val_main_v24 (F := Ideal) x0 x5 (ix3 r l ⟨j.val, hj⟩)
            else val_main_v33 (F := Ideal) x1 x6 (ix3 r l ⟨j.val - 64, by have := j.isLt; omega⟩))
          (fun l => occ (x0 (ix2 r l))) := by
  have e142 : ∀ l : Fin 200, idx_main_v142 (ix2 r j) l = ix3 r l j := fun l =>
    funext fun a => Fin.ext (by match a with | ⟨0, _⟩ => rfl | ⟨1, _⟩ => rfl | ⟨2, _⟩ => rfl)
  have e140 : ∀ l : Fin 200, idx_main_v140 (ix3 r l j) = ix3 r l 0 := fun l =>
    funext fun a => Fin.ext (by match a with | ⟨0, _⟩ => rfl | ⟨1, _⟩ => rfl | ⟨2, _⟩ => rfl)
  have hz : (fun l : Fin 200 => val_main_v128 (F := Ideal) x0 x1 x2 x3 x5 x6 x7 x8 x9 x10 x11 x12 x13 x14 (ix3 r l 0))
      = fun l => masked
          (score (fun k => val_main_v85 (F := Ideal) x0 x1 x2 x3 x5 x6 x7 x8 x9 x10 x11
              (ix2 ⟨200 * r.val + l.val, by have := r.isLt; have := l.isLt; omega⟩ k))
            (fun k => val_main_v89 (F := Ideal) x0 x1 x2 x3 x5 x6 x7 x8 x9 x10 x11 (ix2 0 k)) (fun k => val_main_v96 (F := Ideal) x0 x1 x2 x3 x5 x6 x7 x8 x9 x10 x11 (ix2 0 k))
            (fun k => val_main_v113 (F := Ideal) x12 (ix2 0 k)) (fun k => val_main_v118 (F := Ideal) x13 (ix2 k 0))
            (val_main_v120 (F := Ideal) x14 (ix2 0 0)))
          (occ (x0 (ix2 r l))) :=
    funext fun l => by rw [masked_apply, score_apply _ _ _ _ _ _ _ _ _ _ _ _ _ _ r l 0 ⟨200 * r.val + l.val, _⟩ rfl]
  rw [val_main_v142_apply]
  unfold pooled
  show Ideal.ofBits .f32 0x00000000#32 + _ = _
  rw [Ideal.ofBits_zero_f32, zero_add]
  refine Finset.sum_congr rfl fun l _ => ?_
  rw [e142, val_main_v141_apply, val_main_v140_apply, e140, weight_apply, entry_apply, hz]
  rfl

end Cert.ReferenceIdeal.PoolRef
-- ==== Proof.KI.R2Val.lean ====
import proofs.«421617_j66314295050867_4_alg».proof.Proof.KI.R2
import proofs.«421617_j66314295050867_4_alg».proof.Proof.KI.R2PtVal
import proofs.«421617_j66314295050867_4_alg».proof.Proof.KI.R2RefVal
import proofs.«421617_j66314295050867_4_alg».proof.Proof.LibBlockSum
import Idealize.ShloMosaic.Lib.Pipeline.Value
import Idealize.ShloMosaic.Lib.ValueIdx

set_option maxRecDepth 16384

noncomputable section

namespace Cert.KernelIdeal.Fr

open BlockSum

open Idealize.ShloMosaic Idealize.ShloMosaic.TcCoe Idealize.ShloMosaic.ValueIdx Idealize.SL.Sem
open Idealize.ShloMosaic.Pipeline (Dat)
open Cert.KernelIdeal.Gen Cert.Pool

theorem idx2 : ∀ (t : Fin cfg2.N) (w : Fin cfg2.W) a,
    (cfg2.win w).index t a = if w.val ∈ [0, 6, 7, 8, 9] ∧ a.val = 0 then t.val else 0 :=
  (by decide +kernel : ∀ (t : Fin grid2.N) (w : Fin 10) a, _)

section Blocks
variable (V : (c : Dev nD) → (b : Ref sig .tc) → Buf (Elt Ideal) ((c : Thread nD τ).loc b)) (c : Dev nD) (t : Fin cfg2.N)

private abbrev rowOf (p : Fin 32) : Fin 1024 :=
  ⟨32 * t.val + p.val, by have h : t.val < 32 := (N_2 ▸ t.isLt); have := p.isLt; omega⟩

theorem embZ2 (w : Fin cfg2.W) (hw : w.val ∉ [0, 6, 7, 8, 9]) (j) (a) : (((cfg2.win w).rect t).emb j a).val = (j a).val :=
  (cfg2.win w).rect_emb_val_of_index_zero t a ((idx2 t w a).trans (if_neg fun h => hw h.1)) j

theorem iblk2_0_apply (p : Fin 32) (l : Fin 200) (k : Fin 16) :
    iblk2 V c 0 t (ix3 p l k) = V c main_v51_0 (ix3 (rowOf t p) l k) :=
  congrArg (V c main_v51_0) (emb_row3 _ _ (idx2 t 0 (0 : Fin 3)) (idx2 t 0 (1 : Fin 3)) (idx2 t 0 (2 : Fin 3)) p l k _ rfl)
theorem iblk2_1_eq : iblk2 V c 1 t = V c main_v53 := read_id _ _ (embZ2 t 1 (by decide))
theorem iblk2_2_eq : iblk2 V c 2 t = V c main_v59 := read_id _ _ (embZ2 t 2 (by decide))
theorem iblk2_3_eq : iblk2 V c 3 t = V c main_v37 := read_id _ _ (embZ2 t 3 (by decide))
theorem iblk2_4_eq : iblk2 V c 4 t = V c main_v30 := read_id _ _ (embZ2 t 4 (by decide))
theorem iblk2_5_eq : iblk2 V c 5 t = V c main_v38 := read_id _ _ (embZ2 t 5 (by decide))
theorem iblk2_6_apply (p : Fin 32) (l : Fin 200) (j : Fin 64) :
    iblk2 V c 6 t (ix3 p l j) = V c main_v20 (ix3 (rowOf t p) l j) :=
  congrArg (V c main_v20) (emb_row3 _ _ (idx2 t 6 (0 : Fin 3)) (idx2 t 6 (1 : Fin 3)) (idx2 t 6 (2 : Fin 3)) p l j _ rfl)
theorem iblk2_7_apply (p : Fin 32) (l : Fin 200) (j : Fin 64) :
    iblk2 V c 7 t (ix3 p l j) = V c main_v27 (ix3 (rowOf t p) l j) :=
  congrArg (V c main_v27) (emb_row3 _ _ (idx2 t 7 (0 : Fin 3)) (idx2 t 7 (1 : Fin 3)) (idx2 t 7 (2 : Fin 3)) p l j _ rfl)
theorem iblk2_8_apply (p : Fin 32) (l : Fin 200) :
    iblk2 V c 8 t (ix2 p l) = V c main_arg0 (ix2 (rowOf t p) l) :=
  congrArg (V c main_arg0) (emb_row2 _ _ (idx2 t 8 (0 : Fin 2)) (idx2 t 8 (1 : Fin 2)) p l _ rfl)

end Blocks

theorem cover_out2 (i : S1024x128.Idx) :
    ∃ t : Fin cfg2.N, (cfg2.win 9).flush t = true ∧ i ∈ ((cfg2.win 9).blk t).view.set := by
  have hi0 : (i 0).val < 1024 := (i 0).isLt
  have hN : cfg2.N = 32 := N_2
  obtain ⟨t, ht⟩ : ∃ t : Fin cfg2.N, t.val = (i 0).val / 32 := ⟨⟨_, by omega⟩, rfl⟩
  have e : ((cfg2.win 9).blk t).view.emb (ix2 ⟨(i 0).val % 32, by omega⟩ (i 1)) = i :=
    (emb_row2 _ _ (idx2 t 9 (0 : Fin 2)) (idx2 t 9 (1 : Fin 2)) _ _ (i 0)
      (by show (i 0).val = 32 * t.val + (i 0).val % 32; omega)).trans (eq_ix2 i).symm
  exact ⟨t, flush2_9 t, mem_of_emb e⟩

theorem region2_value
    (V : (c : Dev nD) → (b : Ref sig .tc) → Buf (Elt Ideal) ((c : Thread nD τ).loc b)) (c : Dev nD)
    (x0 x1 : (⟨Cert.ReferenceIdeal.S1024x200, .i32⟩ : BufTy).Contents (Elt Ideal))
    (x2 x3 : (⟨Cert.ReferenceIdeal.S1024, .i32⟩ : BufTy).Contents (Elt Ideal))
    (x5 : (⟨Cert.ReferenceIdeal.S1000000x64, .f32⟩ : BufTy).Contents (Elt Ideal))
    (x6 : (⟨Cert.ReferenceIdeal.S10000x64, .f32⟩ : BufTy).Contents (Elt Ideal))
    (x7 : (⟨Cert.ReferenceIdeal.S32x512, .f32⟩ : BufTy).Contents (Elt Ideal))
    (x8 x9 : (⟨Cert.ReferenceIdeal.S32, .f32⟩ : BufTy).Contents (Elt Ideal))
    (x10 : (⟨Cert.ReferenceIdeal.S16x32, .f32⟩ : BufTy).Contents (Elt Ideal))
    (x11 x12 : (⟨Cert.ReferenceIdeal.S16, .f32⟩ : BufTy).Contents (Elt Ideal))
    (x13 : (⟨Cert.ReferenceIdeal.S1x16, .f32⟩ : BufTy).Contents (Elt Ideal))
    (x14 : (⟨Cert.ReferenceIdeal.S1, .f32⟩ : BufTy).Contents (Elt Ideal))
    (h_h1 : ∀ (r : Fin 1024) (l : Fin 200) (k : Fin 16),
      V c main_v51_0 (ix3 r l k) = Cert.ReferenceIdeal.ReadP.val_main_v85 (F := Ideal) x0 x1 x2 x3 x5 x6 x7 x8 x9 x10 x11
        (ix2 ⟨200 * r.val + l.val, by have := r.isLt; have := l.isLt; omega⟩ k))
    (h_mu : V c main_v53 = Cert.ReferenceIdeal.ReadP.val_main_v89 (F := Ideal) x0 x1 x2 x3 x5 x6 x7 x8 x9 x10 x11)
    (h_var : V c main_v59 = Cert.ReferenceIdeal.ReadP.val_main_v96 (F := Ideal) x0 x1 x2 x3 x5 x6 x7 x8 x9 x10 x11)
    (h_al : V c main_v37 = Cert.ReferenceIdeal.ReadP.val_main_v113 (F := Ideal) x12)
    (h_w : V c main_v30 = Cert.ReferenceIdeal.ReadP.val_main_v118 (F := Ideal) x13)
    (h_b : V c main_v38 = Cert.ReferenceIdeal.ReadP.val_main_v120 (F := Ideal) x14)
    (h_im : V c main_v20 = Cert.ReferenceIdeal.ReadP.val_main_v24 (F := Ideal) x0 x5)
    (h_cm : V c main_v27 = Cert.ReferenceIdeal.ReadP.val_main_v33 (F := Ideal) x1 x6)
    (h_hist : V c main_arg0 = x0) :
    (dat2 V c).arrAt 9 cfg2.N
      = Cert.ReferenceIdeal.ReadP.val_main_v142 (F := Ideal) x0 x1 x2 x3 x5 x6 x7 x8 x9 x10 x11 x12 x13 x14 := by
  refine (dat2 V c).arrAt_eq_of_cover 9 _ (fun t _ => ?_) cover_out2
  show (cfg2.win 9).cut (grid2.coords t) ((dat2 V c).after 9 t) = _
  rw [after2_9]
  funext y
  obtain ⟨p, j, rfl⟩ : ∃ (p : Fin 32) (j : Fin 128), y = ix2 p j := ⟨y 0, y 1, eq_ix2 y⟩
  show pt2 (F := Ideal) (iblk2 V c 0 t) (iblk2 V c 1 t) (iblk2 V c 2 t) (iblk2 V c 3 t) (iblk2 V c 4 t)
      (iblk2 V c 5 t) (iblk2 V c 6 t) (iblk2 V c 7 t) (iblk2 V c 8 t) (ix2 p j)
    = Cert.ReferenceIdeal.ReadP.val_main_v142 (F := Ideal) x0 x1 x2 x3 x5 x6 x7 x8 x9 x10 x11 x12 x13 x14
        (((cfg2.win 9).blk t).view.emb (ix2 p j))
  rw [show ((cfg2.win 9).blk t).view.emb (ix2 p j) = ix2 (rowOf t p) j from
      emb_row2 _ _ (idx2 t 9 (0 : Fin 2)) (idx2 t 9 (1 : Fin 2)) p j _ rfl,
    pt2_apply, Cert.ReferenceIdeal.PoolRef.pooled_apply]
  simp only [iblk2_0_apply, iblk2_1_eq, iblk2_2_eq, iblk2_3_eq, iblk2_4_eq, iblk2_5_eq,
    iblk2_6_apply, iblk2_7_apply, iblk2_8_apply, h_h1, h_mu, h_var, h_al, h_w, h_b, h_im, h_cm, h_hist]

end Cert.KernelIdeal.Fr
-- ==== Proof.KI.R3PtVal.lean ====
import proofs.«421617_j66314295050867_4_alg».proof.Proof.KI.R3Pt
import proofs.«421617_j66314295050867_4_alg».proof.Proof.RefRead
import Idealize.ShloMosaic.Lib.ValueIdx
import Idealize.ShloMosaic.Lib.Pipeline.Value
import Idealize.ShloMosaic.PureOps.Ideal.Laws

noncomputable section

namespace Cert.KernelIdeal.Fr

open Idealize.ShloMosaic Idealize.ShloMosaic.ValueIdx
open Cert.KernelIdeal Cert.KernelIdeal.Gen
open Cert.ReferenceIdeal.ReadP

theorem matmul_trunc_eq {sl sr so : Shape} (d d' : DotDims sl sr so) (hd : d = d') (x : FVec Ideal sl .f32) (y : FVec Ideal sr .f32)
    (h1 h2 : FTy.bf16.bits < FTy.f32.bits) :
    matmul d none (truncf .bf16 x h1) (truncf .bf16 y h2) (constant so .f32 0x00000000#32) = Host.dotGeneral d' none x y := by
  subst hd
  funext j
  simp only [matmul, Host.dotGeneral]
  rw [Ideal.matmul_constant_zero_apply, Ideal.dotGeneral_apply]
  rfl

theorem broadcast_const_eq {t : Shape} (h : S_.BroadcastsInDim t (![] : Fin S_.rank → Fin t.rank)) (b : BitVec FTy.f32.bits) :
    broadcast t (FloatOps.ofBits .f32 b : Ideal .f32) = broadcastInDim t ![] h (constant (F := Ideal) S_ .f32 b) := rfl

theorem broadcastTo_eq_inDim {s t : Shape} {α : Type} (x : s.Idx → α) (h : s.Broadcasts t) (dims : Fin s.rank → Fin t.rank)
    (h' : s.BroadcastsInDim t dims) (hd : ∀ a : Fin s.rank, (dims a).val = a.val + (t.rank - s.rank)) :
    broadcastTo t x h = broadcastInDim t dims h' x := by
  funext j
  unfold broadcastTo broadcastInDim
  refine congrArg x (funext fun a => ?_)
  by_cases h1 : s.size a = 1
  · rw [dif_pos h1, dif_pos h1]
  · rw [dif_neg h1, dif_neg h1]
    apply Fin.ext
    show (j ⟨_, _⟩).val = (j (dims a)).val
    exact congrArg (fun q => (j q).val) (Fin.ext (hd a).symm)

theorem dims01 (a : Fin 2) : ((![0, 1] : Fin 2 → Fin 2) a).val = a.val + (2 - 2) := by
  match a with
  | ⟨0, _⟩ => rfl
  | ⟨1, _⟩ => rfl

theorem pt3_logit_ref
    (x0 x1 : (⟨S1024x200, .i32⟩ : BufTy).Contents (Elt Ideal)) (x2 x3 x4 : (⟨S1024, .i32⟩ : BufTy).Contents (Elt Ideal))
    (x5 : (⟨S1000000x64, .f32⟩ : BufTy).Contents (Elt Ideal)) (x6 : (⟨S10000x64, .f32⟩ : BufTy).Contents (Elt Ideal))
    (x7 : (⟨S32x512, .f32⟩ : BufTy).Contents (Elt Ideal)) (x8 x9 : (⟨S32, .f32⟩ : BufTy).Contents (Elt Ideal))
    (x10 : (⟨S16x32, .f32⟩ : BufTy).Contents (Elt Ideal)) (x11 x12 : (⟨S16, .f32⟩ : BufTy).Contents (Elt Ideal))
    (x13 : (⟨S1x16, .f32⟩ : BufTy).Contents (Elt Ideal)) (x14 : (⟨S1, .f32⟩ : BufTy).Contents (Elt Ideal))
    (x15 : (⟨S128x256, .f32⟩ : BufTy).Contents (Elt Ideal)) (x16 : (⟨S128, .f32⟩ : BufTy).Contents (Elt Ideal))
    (x17 : (⟨S64x128, .f32⟩ : BufTy).Contents (Elt Ideal)) (x18 : (⟨S64, .f32⟩ : BufTy).Contents (Elt Ideal))
    (x19 : (⟨S1x64, .f32⟩ : BufTy).Contents (Elt Ideal)) (x20 : (⟨S1, .f32⟩ : BufTy).Contents (Elt Ideal)) :
    pt3_logit (F := Ideal) (val_main_v142 (F := Ideal) x0 x1 x2 x3 x5 x6 x7 x8 x9 x10 x11 x12 x13 x14) (val_main_v6 (F := Ideal) x2 x5) (val_main_v13 (F := Ideal) x3 x6)
        (val_main_v144 (F := Ideal) x15) (val_main_v146 (F := Ideal) x16) (val_main_v150 (F := Ideal) x17) (val_main_v152 (F := Ideal) x18)
        (val_main_v156 (F := Ideal) x19) (val_main_v158 (F := Ideal) x20)
      = val_main_v161 (F := Ideal) x0 x1 x2 x3 x5 x6 x7 x8 x9 x10 x11 x12 x13 x14 x15 x16 x17 x18 x19 x20 := by
  unfold val_main_v161 val_main_v160 val_main_v157 val_main_v159 val_main_v155 val_main_call1_v0 val_main_call1_cst val_main_v154
    val_main_v151 val_main_v153 val_main_v149 val_main_call0_v0 val_main_call0_cst val_main_v148 val_main_v145 val_main_v147 val_main_v143
  generalize val_main_v142 (F := Ideal) x0 x1 x2 x3 x5 x6 x7 x8 x9 x10 x11 x12 x13 x14 = A
  generalize val_main_v6 (F := Ideal) x2 x5 = Ti
  generalize val_main_v13 (F := Ideal) x3 x6 = Tc
  generalize val_main_v144 (F := Ideal) x15 = W1
  generalize val_main_v146 (F := Ideal) x16 = B1
  generalize val_main_v150 (F := Ideal) x17 = W2
  generalize val_main_v152 (F := Ideal) x18 = B2
  generalize val_main_v156 (F := Ideal) x19 = W3
  generalize val_main_v158 (F := Ideal) x20 = B3
  unfold pt3_logit pt3_col k3_pay1 k3_pay4 k3_pay5
  simp only [shapeCast_self,
    matmul_trunc_eq dot_S1024x256_S256x128_S1024x128_1_0_0_1_n_n Cert.ReferenceIdeal.dot_S1024x256_S256x128_S1024x128_1_0_0_1_n_n rfl,
    matmul_trunc_eq dot_S1024x128_S128x64_S1024x64_1_0_0_1_n_n Cert.ReferenceIdeal.dot_S1024x128_S128x64_S1024x64_1_0_0_1_n_n rfl,
    matmul_trunc_eq dot_S1024x64_S64x1_S1024x1_1_0_0_1_n_n Cert.ReferenceIdeal.dot_S1024x64_S64x1_S1024x1_1_0_0_1_n_n rfl]
  rw [shapeCast_self (s := S1024x128) A shapeCasts_S1024x128_S1024x128, shapeCast_self (s := S1024x64) Ti shapeCasts_S1024x64_S1024x64,
    shapeCast_self (s := S1024x64) Tc shapeCasts_S1024x64_S1024x64]
  rw [broadcastTo_eq_inDim B1 broadcasts_S1x128_S1024x128 ![0, 1] Cert.ReferenceIdeal.Gen.bcast_S1x128_S1024x128_0_1 dims01,
    broadcastTo_eq_inDim B2 broadcasts_S1x64_S1024x64 ![0, 1] Cert.ReferenceIdeal.Gen.bcast_S1x64_S1024x64_0_1 dims01,
    broadcastTo_eq_inDim B3 broadcasts_S1x1_S1024x1 ![0, 1] Cert.ReferenceIdeal.Gen.bcast_S1x1_S1024x1_0_1 dims01]
  rw [broadcast_const_eq Cert.ReferenceIdeal.Gen.bcast_S_S1024x128, broadcast_const_eq Cert.ReferenceIdeal.Gen.bcast_S_S1024x64]

theorem ofBits_one_f32 : Ideal.ofBits .f32 0x3F800000#32 = 1 := by
  simp [Ideal.ofBits, Ideal.ieee, -EReal.coe_mul]; norm_num

theorem ofBits_1024_f32 : Ideal.ofBits .f32 0x44800000#32 = ((1024 : ℝ) : EReal) := by
  simp [Ideal.ofBits, Ideal.ieee, -EReal.coe_mul]; norm_num

theorem ofBits_inv1024_f32 : Ideal.ofBits .f32 0x3A800000#32 = (((1024 : ℝ)⁻¹ : ℝ) : EReal) := by
  simp [Ideal.ofBits, Ideal.ieee, -EReal.coe_mul]; norm_num

theorem mul_inv1024_eq_div (S : EReal) :
    S * Ideal.ofBits .f32 0x3A800000#32 = Ideal.div S (Ideal.ofBits .f32 0x44800000#32) := by
  rw [ofBits_1024_f32, ofBits_inv1024_f32]
  unfold Ideal.div
  rw [if_neg (EReal.coe_ne_zero.2 (by norm_num)), EReal.coe_inv]

theorem pt3_pred_apply {F : FTy → Type} [FloatOps F] (interest : Vec F S1024x128 .f32) (ti tc : Vec F S1024x64 .f32)
    (w1 : Vec F S256x128 .f32) (b1 : Vec F S1x128 .f32) (w2 : Vec F S128x64 .f32) (b2 : Vec F S1x64 .f32)
    (w3 : Vec F S64x1 .f32) (b3 : Vec F S1x1 .f32) (i : S1024.Idx) :
    pt3_pred interest ti tc w1 b1 w2 b2 w3 b3 i = FloatOps.logistic (pt3_logit interest ti tc w1 b1 w2 b2 w3 b3 i) := rfl

theorem pt3_pred_ref
    (x0 x1 : (⟨S1024x200, .i32⟩ : BufTy).Contents (Elt Ideal)) (x2 x3 x4 : (⟨S1024, .i32⟩ : BufTy).Contents (Elt Ideal))
    (x5 : (⟨S1000000x64, .f32⟩ : BufTy).Contents (Elt Ideal)) (x6 : (⟨S10000x64, .f32⟩ : BufTy).Contents (Elt Ideal))
    (x7 : (⟨S32x512, .f32⟩ : BufTy).Contents (Elt Ideal)) (x8 x9 : (⟨S32, .f32⟩ : BufTy).Contents (Elt Ideal))
    (x10 : (⟨S16x32, .f32⟩ : BufTy).Contents (Elt Ideal)) (x11 x12 : (⟨S16, .f32⟩ : BufTy).Contents (Elt Ideal))
    (x13 : (⟨S1x16, .f32⟩ : BufTy).Contents (Elt Ideal)) (x14 : (⟨S1, .f32⟩ : BufTy).Contents (Elt Ideal))
    (x15 : (⟨S128x256, .f32⟩ : BufTy).Contents (Elt Ideal)) (x16 : (⟨S128, .f32⟩ : BufTy).Contents (Elt Ideal))
    (x17 : (⟨S64x128, .f32⟩ : BufTy).Contents (Elt Ideal)) (x18 : (⟨S64, .f32⟩ : BufTy).Contents (Elt Ideal))
    (x19 : (⟨S1x64, .f32⟩ : BufTy).Contents (Elt Ideal)) (x20 : (⟨S1, .f32⟩ : BufTy).Contents (Elt Ideal)) :
    pt3_pred (F := Ideal) (val_main_v142 (F := Ideal) x0 x1 x2 x3 x5 x6 x7 x8 x9 x10 x11 x12 x13 x14) (val_main_v6 (F := Ideal) x2 x5) (val_main_v13 (F := Ideal) x3 x6)
        (val_main_v144 (F := Ideal) x15) (val_main_v146 (F := Ideal) x16) (val_main_v150 (F := Ideal) x17) (val_main_v152 (F := Ideal) x18)
        (val_main_v156 (F := Ideal) x19) (val_main_v158 (F := Ideal) x20)
      = val_main_v179 (F := Ideal) x0 x1 x2 x3 x5 x6 x7 x8 x9 x10 x11 x12 x13 x14 x15 x16 x17 x18 x19 x20 := by
  funext i
  rw [pt3_pred_apply, pt3_logit_ref x0 x1 x2 x3 x4 x5 x6 x7 x8 x9 x10 x11 x12 x13 x14 x15 x16 x17 x18 x19 x20,
    val_main_v179_apply, val_main_v178_apply, val_main_cst_33_apply, val_main_v177_apply, val_main_v176_apply, val_main_cst_32_apply,
    val_main_v175_apply, val_main_v174_apply]
  generalize val_main_v161 (F := Ideal) x0 x1 x2 x3 x5 x6 x7 x8 x9 x10 x11 x12 x13 x14 x15 x16 x17 x18 x19 x20 i = z
  show Ideal.logistic z = Ideal.div (Ideal.ofBits .f32 0x3F800000#32) (Ideal.ofBits .f32 0x3F800000#32 + Ideal.exp (-z))
  rw [ofBits_one_f32]
  rfl

def idx1Equiv (n : Nat) : (⟨1, ![n]⟩ : Shape).Idx ≃ Fin n where
  toFun j := j 0
  invFun := ix1
  left_inv j := (eq_ix1 j).symm
  right_inv _ := rfl

theorem sum_idx1 {M : Type} [AddCommMonoid M] {n : Nat} (f : (⟨1, ![n]⟩ : Shape).Idx → M) :
    ∑ j, f j = ∑ k : Fin n, f (ix1 k) :=
  (Equiv.sum_comp (idx1Equiv n).symm f).symm

theorem lossDot_lhs_0 (i : S1x1.Idx) (q : dot_S1x1024_S1024x1_S1x1_1_0_0_1_n_n.contr.Idx) :
    (dot_S1x1024_S1024x1_S1x1_1_0_0_1_n_n.lhsIdx i q 0).val = (i 0).val := by
  unfold DotDims.lhsIdx
  rw [dif_neg (show ¬(0 : Fin S1x1024.rank) ∈ dot_S1x1024_S1024x1_S1x1_1_0_0_1_n_n.lhsBatch by decide),
    dif_pos (show (0 : Fin S1x1024.rank) ∈ dot_S1x1024_S1024x1_S1x1_1_0_0_1_n_n.lhsNonContracting by decide)]
  rfl
theorem lossDot_lhs_1 (i : S1x1.Idx) (q : dot_S1x1024_S1024x1_S1x1_1_0_0_1_n_n.contr.Idx) :
    (dot_S1x1024_S1024x1_S1x1_1_0_0_1_n_n.lhsIdx i q 1).val = (q ⟨0, by decide⟩).val :=
  dot_S1x1024_S1024x1_S1x1_1_0_0_1_n_n.lhsIdx_val_of_single rfl i q

set_option maxHeartbeats 1000000 in

theorem pt3_loss_ref
    (x0 x1 : (⟨S1024x200, .i32⟩ : BufTy).Contents (Elt Ideal)) (x2 x3 x4 : (⟨S1024, .i32⟩ : BufTy).Contents (Elt Ideal))
    (x5 : (⟨S1000000x64, .f32⟩ : BufTy).Contents (Elt Ideal)) (x6 : (⟨S10000x64, .f32⟩ : BufTy).Contents (Elt Ideal))
    (x7 : (⟨S32x512, .f32⟩ : BufTy).Contents (Elt Ideal)) (x8 x9 : (⟨S32, .f32⟩ : BufTy).Contents (Elt Ideal))
    (x10 : (⟨S16x32, .f32⟩ : BufTy).Contents (Elt Ideal)) (x11 x12 : (⟨S16, .f32⟩ : BufTy).Contents (Elt Ideal))
    (x13 : (⟨S1x16, .f32⟩ : BufTy).Contents (Elt Ideal)) (x14 : (⟨S1, .f32⟩ : BufTy).Contents (Elt Ideal))
    (x15 : (⟨S128x256, .f32⟩ : BufTy).Contents (Elt Ideal)) (x16 : (⟨S128, .f32⟩ : BufTy).Contents (Elt Ideal))
    (x17 : (⟨S64x128, .f32⟩ : BufTy).Contents (Elt Ideal)) (x18 : (⟨S64, .f32⟩ : BufTy).Contents (Elt Ideal))
    (x19 : (⟨S1x64, .f32⟩ : BufTy).Contents (Elt Ideal)) (x20 : (⟨S1, .f32⟩ : BufTy).Contents (Elt Ideal)) :
    pt3_loss (F := Ideal) (val_main_v142 (F := Ideal) x0 x1 x2 x3 x5 x6 x7 x8 x9 x10 x11 x12 x13 x14) (val_main_v6 (F := Ideal) x2 x5) (val_main_v13 (F := Ideal) x3 x6)
        (val_main_v144 (F := Ideal) x15) (val_main_v146 (F := Ideal) x16) (val_main_v150 (F := Ideal) x17) (val_main_v152 (F := Ideal) x18)
        (val_main_v156 (F := Ideal) x19) (val_main_v158 (F := Ideal) x20) x4 (ix2 0 0)
      = val_main_v173 (F := Ideal) x0 x1 x2 x3 x4 x5 x6 x7 x8 x9 x10 x11 x12 x13 x14 x15 x16 x17 x18 x19 x20 ix0 := by
  have hz : k3_pay1 (pt3_col (F := Ideal) (val_main_v142 (F := Ideal) x0 x1 x2 x3 x5 x6 x7 x8 x9 x10 x11 x12 x13 x14) (val_main_v6 (F := Ideal) x2 x5) (val_main_v13 (F := Ideal) x3 x6)
        (val_main_v144 (F := Ideal) x15) (val_main_v146 (F := Ideal) x16) (val_main_v150 (F := Ideal) x17) (val_main_v152 (F := Ideal) x18)
        (val_main_v156 (F := Ideal) x19)) (k3_pay5 (val_main_v158 (F := Ideal) x20))
      = val_main_v161 (F := Ideal) x0 x1 x2 x3 x5 x6 x7 x8 x9 x10 x11 x12 x13 x14 x15 x16 x17 x18 x19 x20 :=
    pt3_logit_ref x0 x1 x2 x3 x4 x5 x6 x7 x8 x9 x10 x11 x12 x13 x14 x15 x16 x17 x18 x19 x20
  unfold pt3_loss k3_pay2
  rw [val_main_v173_apply, val_main_v172_apply, val_main_cst_31_apply, val_main_cst_30_apply]
  simp only [hz, val_main_v171_apply, val_main_v170_apply, val_main_v169_apply, val_main_v168_apply, val_main_v167_apply,
    val_main_v166_apply, val_main_v165_apply, val_main_v164_apply, val_main_v163_apply, val_main_cst_29_apply, val_main_v162_apply]
  generalize val_main_v161 (F := Ideal) x0 x1 x2 x3 x5 x6 x7 x8 x9 x10 x11 x12 x13 x14 x15 x16 x17 x18 x19 x20 = Z

  rw [mulf_apply, broadcast_apply]
  simp only [matmul]
  rw [Ideal.matmul_constant_zero_apply,
    ← Equiv.sum_comp (contrEquiv1 dot_S1x1024_S1024x1_S1x1_1_0_0_1_n_n 1024 rfl rfl).symm, sum_idx1]
  show (∑ k : Fin 1024, _) * Ideal.ofBits .f32 0x3A800000#32
    = Ideal.div (Ideal.ofBits .f32 0x00000000#32 + ∑ k : Fin 1024, _) (Ideal.ofBits .f32 0x44800000#32)
  rw [Ideal.ofBits_zero_f32, zero_add, ← mul_inv1024_eq_div]
  refine congrArg (· * _) (Finset.sum_congr rfl fun k _ => ?_)

  have hk := contrEquiv1_symm_val dot_S1x1024_S1024x1_S1x1_1_0_0_1_n_n 1024 rfl rfl k
  have h0 := lossDot_lhs_0 (ix2 0 0) ((contrEquiv1 dot_S1x1024_S1024x1_S1x1_1_0_0_1_n_n 1024 rfl rfl).symm k)
  have h1 := lossDot_lhs_1 (ix2 0 0) ((contrEquiv1 dot_S1x1024_S1024x1_S1x1_1_0_0_1_n_n 1024 rfl rfl).symm k)
  rw [broadcast_apply, shapeCast_apply _ shapeCasts_S1024_S1x1024 _ (ix1 k) (by
    rewrite [Shape.rowMajor_val_one, Shape.rowMajor_val_two]
    show k.val = _ * 1024 + _
    rw [h0, h1, hk]
    show k.val = 0 * 1024 + k.val
    omega)]
  show ((max (Z (ix1 k)) (Ideal.ofBits .f32 0x00000000#32) - Z (ix1 k) * _)
      + Ideal.log1p (Ideal.exp (Ideal.ofBits .f32 0x00000000#32 - max (Z (ix1 k)) (-(Z (ix1 k)))))) * Ideal.ofBits .f32 0x3F800000#32
    = (max (Z (ix1 k)) (Ideal.ofBits .f32 0x00000000#32) - Z (ix1 k) * _)
      + Ideal.log1p (Ideal.exp (-(max (Z (ix1 k)) (-(Z (ix1 k))))))
  rw [ofBits_one_f32, mul_one, Ideal.ofBits_zero_f32, zero_sub]
  rfl

end Cert.KernelIdeal.Fr

end
-- ==== Proof.KI.R3Val.lean ====
import proofs.«421617_j66314295050867_4_alg».proof.Proof.KI.R3
import proofs.«421617_j66314295050867_4_alg».proof.Proof.KI.R3PtVal
import proofs.«421617_j66314295050867_4_alg».proof.Proof.LibBlockSum
import Idealize.ShloMosaic.Lib.ValueIdx
import Idealize.ShloMosaic.Lib.Pipeline.Value

set_option maxRecDepth 16384

noncomputable section

namespace Cert.KernelIdeal.Fr

open BlockSum

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open Cert.ReferenceIdeal.ReadP

section Arrays

variable {F : FTy → Type} [FloatOps F]
variable (V : (c : Dev nD) → (b : Ref sig .tc) → Buf (Elt F) ((c : Thread nD τ).loc b))

theorem idx3 : ∀ (w : Fin cfg3.W) (t : Fin cfg3.N) a, (cfg3.win w).index t a = 0 :=
  (by decide +kernel : ∀ (w : Fin 12) (t : Fin grid3.N) a, _)

theorem emb3 (w : Fin cfg3.W) (t : Fin cfg3.N) (j) (a) : (((cfg3.win w).rect t).emb j a).val = (j a).val :=
  (cfg3.win w).rect_emb_val_of_index_zero t a (idx3 w t a) j

variable (c : Dev nD) (t : Fin cfg3.N)

theorem iblk3_0_eq : iblk3 V c 0 t = V c main_v60 := read_id _ _ (emb3 0 t)
theorem iblk3_1_eq : iblk3 V c 1 t = V c main_v6 := read_id _ _ (emb3 1 t)
theorem iblk3_2_eq : iblk3 V c 2 t = V c main_v13 := read_id _ _ (emb3 2 t)
theorem iblk3_3_eq : iblk3 V c 3 t = V c main_arg4 := read_id _ _ (emb3 3 t)
theorem iblk3_4_eq : iblk3 V c 4 t = V c main_v31 := read_id _ _ (emb3 4 t)
theorem iblk3_5_eq : iblk3 V c 5 t = V c main_v39 := read_id _ _ (emb3 5 t)
theorem iblk3_6_eq : iblk3 V c 6 t = V c main_v32 := read_id _ _ (emb3 6 t)
theorem iblk3_7_eq : iblk3 V c 7 t = V c main_v40 := read_id _ _ (emb3 7 t)
theorem iblk3_8_eq : iblk3 V c 8 t = V c main_v33 := read_id _ _ (emb3 8 t)
theorem iblk3_9_eq : iblk3 V c 9 t = V c main_v41 := read_id _ _ (emb3 9 t)

theorem read3_10 (G : Buf (Elt F) ((cfg3.win 10).arr.view.loc (c.tc : Thread nD τ))) :
    ((cfg3.win 10).blk t).view.read (Elt F) G = G := read_id _ _ (emb3 10 t)
theorem read3_11 (G : Buf (Elt F) ((cfg3.win 11).arr.view.loc (c.tc : Thread nD τ))) :
    ((cfg3.win 11).blk t).view.read (Elt F) G = G := read_id _ _ (emb3 11 t)

variable {a0 : Buf (Elt F) ((c : Thread nD τ).loc main_v60)} {a1 : Buf (Elt F) ((c : Thread nD τ).loc main_v6)}
  {a2 : Buf (Elt F) ((c : Thread nD τ).loc main_v13)} {a3 : Buf (Elt F) ((c : Thread nD τ).loc main_arg4)}
  {a4 : Buf (Elt F) ((c : Thread nD τ).loc main_v31)} {a5 : Buf (Elt F) ((c : Thread nD τ).loc main_v39)}
  {a6 : Buf (Elt F) ((c : Thread nD τ).loc main_v32)} {a7 : Buf (Elt F) ((c : Thread nD τ).loc main_v40)}
  {a8 : Buf (Elt F) ((c : Thread nD τ).loc main_v33)} {a9 : Buf (Elt F) ((c : Thread nD τ).loc main_v41)}
  (h0 : V c main_v60 = a0) (h1 : V c main_v6 = a1) (h2 : V c main_v13 = a2) (h3 : V c main_arg4 = a3) (h4 : V c main_v31 = a4)
  (h5 : V c main_v39 = a5) (h6 : V c main_v32 = a6) (h7 : V c main_v40 = a7) (h8 : V c main_v33 = a8) (h9 : V c main_v41 = a9)

include h0 h1 h2 h3 h4 h5 h6 h7 h8 h9

theorem arr3_10 : (dat3 V c).arrAt 10 cfg3.N = pt3_pred a0 a1 a2 a4 a5 a6 a7 a8 a9 := by
  subst h0 h1 h2 h3 h4 h5 h6 h7 h8 h9
  refine (dat3 V c).arrAt_eq_of_cover 10 _ (fun t _ => ?_) (fun i => ⟨t3_0, flush3_10 _, mem_of_emb (funext fun a => Fin.ext (emb3 10 _ i a))⟩)
  rw [read3_10 c t]
  show (cfg3.win 10).cut (grid3.coords t) ((dat3 V c).after 10 t) = _
  rw [after3_10, iblk3_0_eq, iblk3_1_eq, iblk3_2_eq, iblk3_4_eq, iblk3_5_eq, iblk3_6_eq, iblk3_7_eq, iblk3_8_eq, iblk3_9_eq]
  rfl

theorem arr3_11 : (dat3 V c).arrAt 11 cfg3.N = pt3_loss a0 a1 a2 a4 a5 a6 a7 a8 a9 a3 := by
  subst h0 h1 h2 h3 h4 h5 h6 h7 h8 h9
  refine (dat3 V c).arrAt_eq_of_cover 11 _ (fun t _ => ?_) (fun i => ⟨t3_0, flush3_11 _, mem_of_emb (funext fun a => Fin.ext (emb3 11 _ i a))⟩)
  rw [read3_11 c t]
  show (cfg3.win 11).cut (grid3.coords t) ((dat3 V c).after 11 t) = _
  rw [after3_11, iblk3_0_eq, iblk3_1_eq, iblk3_2_eq, iblk3_3_eq, iblk3_4_eq, iblk3_5_eq, iblk3_6_eq, iblk3_7_eq, iblk3_8_eq, iblk3_9_eq]
  rfl

end Arrays

theorem r3_val (V : (c : Dev nD) → (b : Ref sig .tc) → Buf (Elt Ideal) ((c : Thread nD τ).loc b)) (c : Dev nD)
    (x0 x1 : (⟨S1024x200, .i32⟩ : BufTy).Contents (Elt Ideal)) (x2 x3 x4 : (⟨S1024, .i32⟩ : BufTy).Contents (Elt Ideal))
    (x5 : (⟨S1000000x64, .f32⟩ : BufTy).Contents (Elt Ideal)) (x6 : (⟨S10000x64, .f32⟩ : BufTy).Contents (Elt Ideal))
    (x7 : (⟨S32x512, .f32⟩ : BufTy).Contents (Elt Ideal)) (x8 x9 : (⟨S32, .f32⟩ : BufTy).Contents (Elt Ideal))
    (x10 : (⟨S16x32, .f32⟩ : BufTy).Contents (Elt Ideal)) (x11 x12 : (⟨S16, .f32⟩ : BufTy).Contents (Elt Ideal))
    (x13 : (⟨S1x16, .f32⟩ : BufTy).Contents (Elt Ideal)) (x14 : (⟨S1, .f32⟩ : BufTy).Contents (Elt Ideal))
    (x15 : (⟨S128x256, .f32⟩ : BufTy).Contents (Elt Ideal)) (x16 : (⟨S128, .f32⟩ : BufTy).Contents (Elt Ideal))
    (x17 : (⟨S64x128, .f32⟩ : BufTy).Contents (Elt Ideal)) (x18 : (⟨S64, .f32⟩ : BufTy).Contents (Elt Ideal))
    (x19 : (⟨S1x64, .f32⟩ : BufTy).Contents (Elt Ideal)) (x20 : (⟨S1, .f32⟩ : BufTy).Contents (Elt Ideal))
    (h60 : V c main_v60 = val_main_v142 (F := Ideal) x0 x1 x2 x3 x5 x6 x7 x8 x9 x10 x11 x12 x13 x14)
    (h6 : V c main_v6 = val_main_v6 (F := Ideal) x2 x5)
    (h13 : V c main_v13 = val_main_v13 (F := Ideal) x3 x6)
    (h4 : V c main_arg4 = x4)
    (h31 : V c main_v31 = val_main_v144 (F := Ideal) x15)
    (h39 : V c main_v39 = val_main_v146 (F := Ideal) x16)
    (h32 : V c main_v32 = val_main_v150 (F := Ideal) x17)
    (h40 : V c main_v40 = val_main_v152 (F := Ideal) x18)
    (h33 : V c main_v33 = val_main_v156 (F := Ideal) x19)
    (h41 : V c main_v41 = val_main_v158 (F := Ideal) x20) :
    (dat3 V c).arrAt 10 cfg3.N = val_main_v179 (F := Ideal) x0 x1 x2 x3 x5 x6 x7 x8 x9 x10 x11 x12 x13 x14 x15 x16 x17 x18 x19 x20
    ∧ (dat3 V c).arrAt 11 cfg3.N (ix2 0 0) = val_main_v173 (F := Ideal) x0 x1 x2 x3 x4 x5 x6 x7 x8 x9 x10 x11 x12 x13 x14 x15 x16 x17 x18 x19 x20 ix0 :=
  ⟨(arr3_10 V c h60 h6 h13 h4 h31 h39 h32 h40 h33 h41).trans
      (pt3_pred_ref x0 x1 x2 x3 x4 x5 x6 x7 x8 x9 x10 x11 x12 x13 x14 x15 x16 x17 x18 x19 x20),
    (congrFun (arr3_11 V c h60 h6 h13 h4 h31 h39 h32 h40 h33 h41) (ix2 0 0)).trans
      (pt3_loss_ref x0 x1 x2 x3 x4 x5 x6 x7 x8 x9 x10 x11 x12 x13 x14 x15 x16 x17 x18 x19 x20)⟩

end Cert.KernelIdeal.Fr

end
-- ==== Proof.LibVarianceEReal.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Ring.Finset
import Mathlib.Algebra.Order.BigOperators.Group.Finset
import Mathlib.Tactic.Ring
import Mathlib.Tactic.FieldSimp
import Mathlib.Tactic.NormNum

namespace LibVarianceEReal

open Idealize.ShloMosaic

def IsReal (x : EReal) : Prop := ∃ r : ℝ, x = (r : EReal)

namespace IsReal

theorem coe (r : ℝ) : IsReal (r : EReal) := ⟨r, rfl⟩
theorem zero : IsReal 0 := ⟨0, rfl⟩
theorem one : IsReal 1 := ⟨1, rfl⟩

theorem ne_top {x : EReal} (h : IsReal x) : x ≠ ⊤ := by
  obtain ⟨r, rfl⟩ := h; exact EReal.coe_ne_top r
theorem ne_bot {x : EReal} (h : IsReal x) : x ≠ ⊥ := by
  obtain ⟨r, rfl⟩ := h; exact EReal.coe_ne_bot r

theorem of_ne {x : EReal} (hb : x ≠ ⊥) (ht : x ≠ ⊤) : IsReal x := by
  induction x using EReal.rec with
  | bot => exact absurd rfl hb
  | top => exact absurd rfl ht
  | coe r => exact ⟨r, rfl⟩

theorem of_abs_lt_top {x : EReal} (h : max x (-x) < ⊤) : IsReal x := by
  refine of_ne (fun e => ?_) (fun e => ?_)
  · subst e; simp at h
  · subst e; simp at h

theorem add {x y : EReal} (hx : IsReal x) (hy : IsReal y) : IsReal (x + y) := by
  obtain ⟨a, rfl⟩ := hx; obtain ⟨b, rfl⟩ := hy; exact ⟨a + b, (EReal.coe_add a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  rcases le_total x y with h | h
  · rw [max_eq_right h]; exact hy
  · rw [max_eq_left h]; exact hx

theorem sum {ι : Type*} (s : Finset ι) (f : ι → EReal) (h : ∀ i ∈ s, IsReal (f i)) : IsReal (∑ i ∈ s, f i) := by
  induction s using Finset.cons_induction with
  | empty => rw [Finset.sum_empty]; exact zero
  | cons a s ha ih =>
    rw [Finset.sum_cons]
    exact add (h a (Finset.mem_cons_self a s)) (ih fun i hi => h i (Finset.mem_cons.2 (Or.inr hi)))

theorem div_coe {x : EReal} (hx : IsReal x) {y : ℝ} (hy : y ≠ 0) : IsReal (Ideal.div x (y : EReal)) := by
  rw [Ideal.div_coe hy]; exact mul hx (coe _)

theorem exp {x : EReal} (hx : IsReal x) : IsReal (Ideal.exp x) := by
  obtain ⟨a, rfl⟩ := hx; exact ⟨Real.exp a, rfl⟩

theorem logistic {x : EReal} (hx : IsReal x) : IsReal (Ideal.logistic x) := by
  obtain ⟨a, rfl⟩ := hx; exact ⟨_, Ideal.logistic_coe a⟩

theorem rsqrt_of_pos {x : EReal} (hx : IsReal x) (h : 0 < x) : IsReal (Ideal.rsqrt x) := by
  obtain ⟨a, rfl⟩ := hx
  have ha : 0 < a := by exact_mod_cast h
  exact ⟨(Real.sqrt a)⁻¹, by rw [Ideal.rsqrt_coe, if_neg (not_lt.2 ha.le), if_neg ha.ne']⟩

end IsReal

theorem coe_finset_sum {ι : Type*} (s : Finset ι) (f : ι → ℝ) :
    ((∑ i ∈ s, f i : ℝ) : EReal) = ∑ i ∈ s, (f i : EReal) := by
  induction s using Finset.cons_induction with
  | empty => rw [Finset.sum_empty, Finset.sum_empty, EReal.coe_zero]
  | cons a s ha ih => rw [Finset.sum_cons, Finset.sum_cons, EReal.coe_add, ih]

theorem sum_eq_coe_sum {ι : Type*} (s : Finset ι) (x : ι → EReal) (r : ι → ℝ) (h : ∀ i ∈ s, x i = (r i : EReal)) :
    ∑ i ∈ s, x i = ((∑ i ∈ s, r i : ℝ) : EReal) := by
  rw [coe_finset_sum]; exact Finset.sum_congr rfl h

theorem div_coe_coe (a : ℝ) {y : ℝ} (hy : y ≠ 0) : Ideal.div (a : EReal) (y : EReal) = ((a / y : ℝ) : EReal) := by
  rw [Ideal.div_coe hy, ← EReal.coe_mul, one_div, div_eq_mul_inv]

theorem ofBits_f32_204800 : Ideal.ofBits .f32 0x48480000#32 = ((204800 : ℝ) : EReal) := by
  simp [Ideal.ofBits, Ideal.ieee, -EReal.coe_mul]; norm_num

theorem ofBits_f32_1024 : Ideal.ofBits .f32 0x44800000#32 = ((1024 : ℝ) : EReal) := by
  simp [Ideal.ofBits, Ideal.ieee, -EReal.coe_mul]; norm_num

theorem ofBits_f32_inv_1024 : Ideal.ofBits .f32 0x3A800000#32 = ((1 / 1024 : ℝ) : EReal) := by
  simp [Ideal.ofBits, Ideal.ieee, -EReal.coe_mul]; norm_num

theorem ofBits_f32_neg_inf : Ideal.ofBits .f32 0xFF800000#32 = ⊥ := by
  simp [Ideal.ofBits, Ideal.ieee]

theorem ofBits_f32_pos_inf : Ideal.ofBits .f32 0x7F800000#32 = ⊤ := by
  simp [Ideal.ofBits, Ideal.ieee]

theorem mul_inv_1024_eq_div (x : EReal) :
    x * Ideal.ofBits .f32 0x3A800000#32 = Ideal.div x (Ideal.ofBits .f32 0x44800000#32) := by
  rw [ofBits_f32_inv_1024, ofBits_f32_1024, Ideal.div_coe (by norm_num)]

theorem zero_sub_eq_neg (a : EReal) : 0 - a = -a := zero_sub a

theorem max_bot_eq (a : EReal) : max ⊥ a = a := max_bot_left a

theorem max_neg_inf_eq (a : EReal) : max (Ideal.ofBits .f32 0xFF800000#32) a = a := by
  rw [ofBits_f32_neg_inf]; exact max_bot_left a

theorem real_variance {ι : Type*} [Fintype ι] (r : ι → ℝ) (N : ℝ) (hN : (Fintype.card ι : ℝ) = N) (h0 : N ≠ 0) :
    (∑ i, r i * r i) / N - (∑ i, r i) / N * ((∑ i, r i) / N)
      = (∑ i, (r i - (∑ i, r i) / N) * (r i - (∑ i, r i) / N)) / N := by
  have e : ∀ i, (r i - (∑ i, r i) / N) * (r i - (∑ i, r i) / N)
      = r i * r i - 2 * ((∑ i, r i) / N) * r i + (∑ i, r i) / N * ((∑ i, r i) / N) := fun i => by ring
  simp only [e, Finset.sum_add_distrib, Finset.sum_sub_distrib, ← Finset.mul_sum, Finset.sum_const, Finset.card_univ,
    nsmul_eq_mul, hN]
  field_simp
  ring

theorem real_variance_nonneg {ι : Type*} [Fintype ι] (r : ι → ℝ) (μ N : ℝ) (hN : 0 < N) :
    0 ≤ (∑ i, (r i - μ) * (r i - μ)) / N :=
  div_nonneg (Finset.sum_nonneg fun i _ => mul_self_nonneg _) hN.le

theorem variance_identity {ι : Type*} [Fintype ι] (x : ι → EReal) (hx : ∀ i, IsReal (x i)) (N : ℝ)
    (hN : (Fintype.card ι : ℝ) = N) (hpos : 0 < N) :
    max (Ideal.div (∑ i, x i * x i) (N : EReal)
          - Ideal.div (∑ i, x i) (N : EReal) * Ideal.div (∑ i, x i) (N : EReal)) 0
      = Ideal.div (∑ i, (x i - Ideal.div (∑ i, x i) (N : EReal)) * (x i - Ideal.div (∑ i, x i) (N : EReal))) (N : EReal) := by
  choose r hr using hx
  have h0 : N ≠ 0 := hpos.ne'
  have hS : ∑ i, x i = ((∑ i, r i : ℝ) : EReal) := sum_eq_coe_sum _ x r fun i _ => hr i
  have hQ : ∑ i, x i * x i = ((∑ i, r i * r i : ℝ) : EReal) :=
    sum_eq_coe_sum _ _ _ fun i _ => by rw [hr i, ← EReal.coe_mul]
  have hC : ∑ i, (x i - ((((∑ i, r i) / N : ℝ)) : EReal)) * (x i - ((((∑ i, r i) / N : ℝ)) : EReal))
      = ((∑ i, (r i - (∑ i, r i) / N) * (r i - (∑ i, r i) / N) : ℝ) : EReal) :=
    sum_eq_coe_sum _ _ _ fun i _ => by rw [hr i, ← EReal.coe_sub, ← EReal.coe_mul]
  rw [hS, hQ, div_coe_coe _ h0, div_coe_coe _ h0, hC, div_coe_coe _ h0, ← EReal.coe_mul, ← EReal.coe_sub,
    real_variance r N hN h0]
  exact max_eq_left (by exact_mod_cast real_variance_nonneg r _ N hpos)

theorem centred_variance_nonneg {ι : Type*} [Fintype ι] (x : ι → EReal) (hx : ∀ i, IsReal (x i)) (μ : EReal) (hμ : IsReal μ)
    (N : ℝ) (hpos : 0 < N) :
    IsReal (Ideal.div (∑ i, (x i - μ) * (x i - μ)) (N : EReal)) ∧ 0 ≤ Ideal.div (∑ i, (x i - μ) * (x i - μ)) (N : EReal) := by
  choose r hr using hx
  obtain ⟨m, rfl⟩ := hμ
  have hC : ∑ i, (x i - (m : EReal)) * (x i - (m : EReal)) = ((∑ i, (r i - m) * (r i - m) : ℝ) : EReal) :=
    sum_eq_coe_sum _ _ _ fun i _ => by rw [hr i, ← EReal.coe_sub, ← EReal.coe_mul]
  rw [hC, div_coe_coe _ hpos.ne']
  exact ⟨⟨_, rfl⟩, by exact_mod_cast real_variance_nonneg r m N hpos⟩

end LibVarianceEReal
-- ==== Proof.KI.Finite.lean ====
import proofs.«421617_j66314295050867_4_alg».proof.Proof.RefRead
import proofs.«421617_j66314295050867_4_alg».proof.Proof.LibVarianceEReal
import proofs.«421617_j66314295050867_4_alg».proof.Pre_finite_inputs
import Idealize.ShloMosaic.Lib.ReduceAll
import Idealize.ShloMosaic.Lib.ValueIdx
import Idealize.ShloMosaic.Lib.Pipeline.Value

noncomputable section

namespace Cert.Glue

open Idealize.ShloMosaic Idealize.ShloMosaic.ValueIdx LibVarianceEReal
open Cert.ReferenceIdeal Cert.ReferenceIdeal.Gen

theorem IsReal.div {x y : EReal} (hx : IsReal x) (hy : IsReal y) (h0 : y ≠ 0) : IsReal (Ideal.div x y) := by
  obtain ⟨b, rfl⟩ := hy
  exact hx.div_coe (by exact_mod_cast h0)

theorem gather_real {s si t : Shape} {w : Nat} (d : GatherDims s si t) (x : s.Idx → EReal) (idx : IVec si w)
    (hx : ∀ i, IsReal (x i)) (j : t.Idx) : IsReal (Host.gather d x idx j) := hx _

theorem concatenate_real (t : Shape) (a : Fin t.rank) (xs : List ((s : Shape) × (s.Idx → EReal)))
    (h : Shape.Concatenates (xs.map (·.1)) t a) (hx : ∀ p ∈ xs, ∀ i, IsReal (p.2 i)) (j : t.Idx) :
    IsReal (concatenate t a xs h j) := by
  unfold concatenate
  exact hx _ (List.getElem_mem _) _

theorem bcast_const {t : Shape} (h : (⟨0, ![]⟩ : Shape).BroadcastsInDim t ![]) (c : BitVec 32) (j : t.Idx) :
    broadcastInDim t ![] h (constant (F := Ideal) (⟨0, ![]⟩ : Shape) .f32 c) j = Ideal.ofBits .f32 c :=
  broadcastInDim_apply _ h _ j ix0 (fun a => a.elim0)

theorem ofBits_f32_eps : ∃ e : ℝ, 0 < e ∧ Ideal.ofBits .f32 0x3089705F#32 = (e : EReal) := by
  refine ⟨_, ?_, by simp [Ideal.ofBits, Ideal.ieee, -EReal.coe_mul]; rfl⟩
  positivity

theorem ofBits_f32_one : Ideal.ofBits .f32 0x3F800000#32 = 1 := by
  simp [Ideal.ofBits, Ideal.ieee, -EReal.coe_mul]; norm_num

section Stage48

variable (x0 x1 : (⟨S1024x200, .i32⟩ : BufTy).Contents (Elt Ideal)) (x2 x3 : (⟨S1024, .i32⟩ : BufTy).Contents (Elt Ideal))
  (x5 : (⟨S1000000x64, .f32⟩ : BufTy).Contents (Elt Ideal)) (x6 : (⟨S10000x64, .f32⟩ : BufTy).Contents (Elt Ideal))
  (x7 : (⟨S32x512, .f32⟩ : BufTy).Contents (Elt Ideal)) (x8 : (⟨S32, .f32⟩ : BufTy).Contents (Elt Ideal))
  (h5 : ∀ i, IsReal (x5 i)) (h6 : ∀ i, IsReal (x6 i)) (h7 : ∀ i, IsReal (x7 i)) (h8 : ∀ i, IsReal (x8 i))

theorem real_v17 (i : S1024x200x1.Idx) : IsReal (ReadP.val_main_v17 (F := Ideal) x0 i) := by
  rw [ReadP.val_main_v17_apply, ReadP.val_main_v16_apply]; exact ⟨_, rfl⟩

include h5 in

theorem real_v26 (i : S1024x200x64.Idx) : IsReal (ReadP.val_main_v26 (F := Ideal) x0 x5 i) := by
  rw [ReadP.val_main_v26_apply, ReadP.val_main_v25_apply]
  exact IsReal.mul (gather_real _ x5 _ h5 i) (real_v17 x0 _)

include h6 in

theorem real_v35 (i : S1024x200x64.Idx) : IsReal (ReadP.val_main_v35 (F := Ideal) x0 x1 x6 i) := by
  rw [ReadP.val_main_v35_apply, ReadP.val_main_v34_apply]
  exact IsReal.mul (gather_real _ x6 _ h6 i) (real_v17 x0 _)

include h5 h6 in

theorem real_v36 (i : S1024x200x128.Idx) : IsReal (ReadP.val_main_v36 (F := Ideal) x0 x1 x5 x6 i) := by
  unfold ReadP.val_main_v36
  refine concatenate_real _ _ _ _ (fun p hp => ?_) i
  simp only [List.mem_cons, List.not_mem_nil, or_false] at hp
  rcases hp with rfl | rfl
  · exact real_v26 x0 x5 h5
  · exact real_v35 x0 x1 x6 h6

include h5 h6 in

theorem real_v39 (i : S1024x200x128.Idx) : IsReal (ReadP.val_main_v39 (F := Ideal) x2 x3 x5 x6 i) := by
  rw [ReadP.val_main_v39_apply, ReadP.val_main_v38_apply]
  unfold ReadP.val_main_v37
  refine concatenate_real _ _ _ _ (fun p hp => ?_) _
  simp only [List.mem_cons, List.not_mem_nil, or_false] at hp
  rcases hp with rfl | rfl
  · exact gather_real _ x5 _ h5
  · exact gather_real _ x6 _ h6

include h5 h6 in

theorem real_v43 (i : S204800x512.Idx) : IsReal (ReadP.val_main_v43 (F := Ideal) x0 x1 x2 x3 x5 x6 i) := by
  rw [ReadP.val_main_v43_apply]
  unfold ReadP.val_main_v42
  refine concatenate_real _ _ _ _ (fun p hp => ?_) _
  simp only [List.mem_cons, List.not_mem_nil, or_false] at hp
  rcases hp with rfl | rfl | rfl | rfl
  · exact real_v39 x2 x3 x5 x6 h5 h6
  · exact real_v36 x0 x1 x5 x6 h5 h6
  · exact fun j => IsReal.sub (real_v39 x2 x3 x5 x6 h5 h6 j) (real_v36 x0 x1 x5 x6 h5 h6 j)
  · exact fun j => IsReal.mul (real_v39 x2 x3 x5 x6 h5 h6 j) (real_v36 x0 x1 x5 x6 h5 h6 j)

include h5 h6 h7 h8 in

theorem v48_real (i : S204800x32.Idx) : IsReal (ReadP.val_main_v48 (F := Ideal) x0 x1 x2 x3 x5 x6 x7 x8 i) := by
  rw [ReadP.val_main_v48_apply, ReadP.val_main_v45_apply, ReadP.val_main_v47_apply, ReadP.val_main_v46_apply]
  refine IsReal.add (IsReal.sum _ _ fun k _ => IsReal.mul (real_v43 x0 x1 x2 x3 x5 x6 h5 h6 _) ?_) (h8 _)
  rw [ReadP.val_main_v44_apply]; exact h7 _

end Stage48

section Rows

variable (x0 x1 : (⟨S1024x200, .i32⟩ : BufTy).Contents (Elt Ideal)) (x2 x3 : (⟨S1024, .i32⟩ : BufTy).Contents (Elt Ideal))
  (x5 : (⟨S1000000x64, .f32⟩ : BufTy).Contents (Elt Ideal)) (x6 : (⟨S10000x64, .f32⟩ : BufTy).Contents (Elt Ideal))
  (x7 : (⟨S32x512, .f32⟩ : BufTy).Contents (Elt Ideal)) (x8 x9 : (⟨S32, .f32⟩ : BufTy).Contents (Elt Ideal))
  (x10 : (⟨S16x32, .f32⟩ : BufTy).Contents (Elt Ideal)) (x11 : (⟨S16, .f32⟩ : BufTy).Contents (Elt Ideal))

theorem v52_eq (b : Fin 32) :
    ReadP.val_main_v52 (F := Ideal) x0 x1 x2 x3 x5 x6 x7 x8 (ix2 0 b)
      = Ideal.div (∑ k : Fin 204800, ReadP.val_main_v48 (F := Ideal) x0 x1 x2 x3 x5 x6 x7 x8 (ix2 k b)) ((204800 : ℝ) : EReal) := by
  rw [ReadP.val_main_v52_apply, ReadP.val_main_v50_apply, ReadP.val_main_v49_apply, ReadP.val_main_v51_apply,
    ReadP.val_main_cst_8_apply, ReadP.val_main_cst_apply]
  simp only [Ideal.hostDivf_def, Ideal.ofBits_def, ofBits_f32_204800, Ideal.ofBits_zero_f32, zero_add]
  have e : ∀ k : Fin 204800, ReadP.idx_main_v49 (ReadP.idx_main_v50 (ix2 (0 : Fin 1) b)) k = ix2 k b := fun k => by
    funext a; match a with | ⟨0, _⟩ => rfl | ⟨1, _⟩ => rfl
  refine congrArg (fun s : EReal => Ideal.div s ((204800 : ℝ) : EReal)) (Finset.sum_congr rfl fun k _ => ?_)
  rw [e k]

theorem v59_eq (b : Fin 32) :
    ReadP.val_main_v59 (F := Ideal) x0 x1 x2 x3 x5 x6 x7 x8 (ix2 0 b)
      = Ideal.div (∑ k : Fin 204800,
          (ReadP.val_main_v48 (F := Ideal) x0 x1 x2 x3 x5 x6 x7 x8 (ix2 k b) - ReadP.val_main_v52 (F := Ideal) x0 x1 x2 x3 x5 x6 x7 x8 (ix2 0 b))
          * (ReadP.val_main_v48 (F := Ideal) x0 x1 x2 x3 x5 x6 x7 x8 (ix2 k b) - ReadP.val_main_v52 (F := Ideal) x0 x1 x2 x3 x5 x6 x7 x8 (ix2 0 b)))
        ((204800 : ℝ) : EReal) := by
  rw [ReadP.val_main_v59_apply, ReadP.val_main_v57_apply, ReadP.val_main_v56_apply, ReadP.val_main_v58_apply,
    ReadP.val_main_cst_10_apply, ReadP.val_main_cst_9_apply]
  simp only [Ideal.hostDivf_def, Ideal.ofBits_def, ofBits_f32_204800, Ideal.ofBits_zero_f32, zero_add]
  have e1 : ∀ k : Fin 204800, ReadP.idx_main_v56 (ReadP.idx_main_v57 (ix2 (0 : Fin 1) b)) k = ix2 k b := fun k => by
    funext a; match a with | ⟨0, _⟩ => rfl | ⟨1, _⟩ => rfl
  have e2 : ∀ k : Fin 204800, ReadP.idx_main_v53 (ix2 k b) = ix2 (0 : Fin 1) b := fun k => by
    funext a; match a with | ⟨0, _⟩ => rfl | ⟨1, _⟩ => rfl
  refine congrArg (fun s : EReal => Ideal.div s ((204800 : ℝ) : EReal)) (Finset.sum_congr rfl fun k _ => ?_)
  rw [e1 k, ReadP.val_main_v55_apply, ReadP.val_main_v54_apply, ReadP.val_main_v53_apply, e2 k]
  rfl

theorem v89_eq (b : Fin 16) :
    ReadP.val_main_v89 (F := Ideal) x0 x1 x2 x3 x5 x6 x7 x8 x9 x10 x11 (ix2 0 b)
      = Ideal.div (∑ k : Fin 204800, ReadP.val_main_v85 (F := Ideal) x0 x1 x2 x3 x5 x6 x7 x8 x9 x10 x11 (ix2 k b)) ((204800 : ℝ) : EReal) := by
  rw [ReadP.val_main_v89_apply, ReadP.val_main_v87_apply, ReadP.val_main_v86_apply, ReadP.val_main_v88_apply,
    ReadP.val_main_cst_16_apply, ReadP.val_main_cst_15_apply]
  simp only [Ideal.hostDivf_def, Ideal.ofBits_def, ofBits_f32_204800, Ideal.ofBits_zero_f32, zero_add]
  have e : ∀ k : Fin 204800, ReadP.idx_main_v86 (ReadP.idx_main_v87 (ix2 (0 : Fin 1) b)) k = ix2 k b := fun k => by
    funext a; match a with | ⟨0, _⟩ => rfl | ⟨1, _⟩ => rfl
  refine congrArg (fun s : EReal => Ideal.div s ((204800 : ℝ) : EReal)) (Finset.sum_congr rfl fun k _ => ?_)
  rw [e k]

theorem v96_eq (b : Fin 16) :
    ReadP.val_main_v96 (F := Ideal) x0 x1 x2 x3 x5 x6 x7 x8 x9 x10 x11 (ix2 0 b)
      = Ideal.div (∑ k : Fin 204800,
          (ReadP.val_main_v85 (F := Ideal) x0 x1 x2 x3 x5 x6 x7 x8 x9 x10 x11 (ix2 k b) - ReadP.val_main_v89 (F := Ideal) x0 x1 x2 x3 x5 x6 x7 x8 x9 x10 x11 (ix2 0 b))
          * (ReadP.val_main_v85 (F := Ideal) x0 x1 x2 x3 x5 x6 x7 x8 x9 x10 x11 (ix2 k b) - ReadP.val_main_v89 (F := Ideal) x0 x1 x2 x3 x5 x6 x7 x8 x9 x10 x11 (ix2 0 b)))
        ((204800 : ℝ) : EReal) := by
  rw [ReadP.val_main_v96_apply, ReadP.val_main_v94_apply, ReadP.val_main_v93_apply, ReadP.val_main_v95_apply,
    ReadP.val_main_cst_18_apply, ReadP.val_main_cst_17_apply]
  simp only [Ideal.hostDivf_def, Ideal.ofBits_def, ofBits_f32_204800, Ideal.ofBits_zero_f32, zero_add]
  have e1 : ∀ k : Fin 204800, ReadP.idx_main_v93 (ReadP.idx_main_v94 (ix2 (0 : Fin 1) b)) k = ix2 k b := fun k => by
    funext a; match a with | ⟨0, _⟩ => rfl | ⟨1, _⟩ => rfl
  have e2 : ∀ k : Fin 204800, ReadP.idx_main_v90 (ix2 k b) = ix2 (0 : Fin 1) b := fun k => by
    funext a; match a with | ⟨0, _⟩ => rfl | ⟨1, _⟩ => rfl
  refine congrArg (fun s : EReal => Ideal.div s ((204800 : ℝ) : EReal)) (Finset.sum_congr rfl fun k _ => ?_)
  rw [e1 k, ReadP.val_main_v92_apply, ReadP.val_main_v91_apply, ReadP.val_main_v90_apply, e2 k]
  rfl

theorem eq_ix2_zero {n : Nat} (j : (⟨2, ![1, n]⟩ : Shape).Idx) : ∃ b : Fin n, j = ix2 (0 : Fin 1) b :=
  have h0 : j 0 = (0 : Fin 1) := Fin.ext (by have h : (j 0).val < 1 := (j 0).isLt; show (j 0).val = 0; omega)
  ⟨j 1, (eq_ix2 j).trans (by rw [h0]; rfl)⟩

end Rows

section Stage85

variable (x0 x1 : (⟨S1024x200, .i32⟩ : BufTy).Contents (Elt Ideal)) (x2 x3 : (⟨S1024, .i32⟩ : BufTy).Contents (Elt Ideal))
  (x5 : (⟨S1000000x64, .f32⟩ : BufTy).Contents (Elt Ideal)) (x6 : (⟨S10000x64, .f32⟩ : BufTy).Contents (Elt Ideal))
  (x7 : (⟨S32x512, .f32⟩ : BufTy).Contents (Elt Ideal)) (x8 x9 : (⟨S32, .f32⟩ : BufTy).Contents (Elt Ideal))
  (x10 : (⟨S16x32, .f32⟩ : BufTy).Contents (Elt Ideal)) (x11 : (⟨S16, .f32⟩ : BufTy).Contents (Elt Ideal))
  (h5 : ∀ i, IsReal (x5 i)) (h6 : ∀ i, IsReal (x6 i)) (h7 : ∀ i, IsReal (x7 i)) (h8 : ∀ i, IsReal (x8 i))
  (h9 : ∀ i, IsReal (x9 i)) (h10 : ∀ i, IsReal (x10 i)) (h11 : ∀ i, IsReal (x11 i))

include h5 h6 h7 h8 in

theorem real_v52 (j : S1x32.Idx) : IsReal (ReadP.val_main_v52 (F := Ideal) x0 x1 x2 x3 x5 x6 x7 x8 j) := by
  obtain ⟨b, rfl⟩ := eq_ix2_zero j
  rw [v52_eq]
  exact (IsReal.sum _ _ fun k _ => v48_real x0 x1 x2 x3 x5 x6 x7 x8 h5 h6 h7 h8 _).div_coe (by norm_num)

include h5 h6 h7 h8 in

theorem real_v59 (j : S1x32.Idx) :
    IsReal (ReadP.val_main_v59 (F := Ideal) x0 x1 x2 x3 x5 x6 x7 x8 j) ∧ 0 ≤ ReadP.val_main_v59 (F := Ideal) x0 x1 x2 x3 x5 x6 x7 x8 j := by
  obtain ⟨b, rfl⟩ := eq_ix2_zero j
  rw [v59_eq]
  exact centred_variance_nonneg (fun k : Fin 204800 => ReadP.val_main_v48 (F := Ideal) x0 x1 x2 x3 x5 x6 x7 x8 (ix2 k b))
    (fun k => v48_real x0 x1 x2 x3 x5 x6 x7 x8 h5 h6 h7 h8 _) _ (real_v52 x0 x1 x2 x3 x5 x6 x7 x8 h5 h6 h7 h8 _) 204800 (by norm_num)

theorem rsqrt_add_eps_real {v : EReal} (hv : IsReal v) (h0 : 0 ≤ v) :
    IsReal (Ideal.rsqrt (v + Ideal.ofBits .f32 0x3089705F#32)) := by
  obtain ⟨a, rfl⟩ := hv
  obtain ⟨e, he, hE⟩ := ofBits_f32_eps
  have ha : 0 ≤ a := by exact_mod_cast h0
  rw [hE, ← EReal.coe_add]
  exact IsReal.rsqrt_of_pos ⟨_, rfl⟩ (by exact_mod_cast add_pos_of_nonneg_of_pos ha he)

theorem logistic_quot_real {v : EReal} (hv : IsReal v) :
    IsReal (Ideal.div (Ideal.ofBits .f32 0x3F800000#32) (Ideal.ofBits .f32 0x3F800000#32 + Ideal.exp (-v))) := by
  rw [ofBits_f32_one]
  exact IsReal.logistic hv

include h5 h6 h7 h8 in

theorem real_v66 (i : S204800x32.Idx) : IsReal (ReadP.val_main_v66 (F := Ideal) x0 x1 x2 x3 x5 x6 x7 x8 i) := by
  rw [ReadP.val_main_v66_apply, ReadP.val_main_v61_apply, ReadP.val_main_v60_apply, ReadP.val_main_v65_apply,
    ReadP.val_main_v64_apply, ReadP.val_main_v63_apply, ReadP.val_main_v62_apply, ReadP.val_main_cst_11_apply]
  refine IsReal.mul (IsReal.sub (v48_real x0 x1 x2 x3 x5 x6 x7 x8 h5 h6 h7 h8 i) (real_v52 x0 x1 x2 x3 x5 x6 x7 x8 h5 h6 h7 h8 _)) ?_
  exact rsqrt_add_eps_real (real_v59 x0 x1 x2 x3 x5 x6 x7 x8 h5 h6 h7 h8 _).1 (real_v59 x0 x1 x2 x3 x5 x6 x7 x8 h5 h6 h7 h8 _).2

include h5 h6 h7 h8 in

theorem real_v72 (i : S204800x32.Idx) : IsReal (ReadP.val_main_v72 (F := Ideal) x0 x1 x2 x3 x5 x6 x7 x8 i) := by
  rw [ReadP.val_main_v72_apply, ReadP.val_main_v71_apply, ReadP.val_main_cst_13_apply, ReadP.val_main_v70_apply,
    ReadP.val_main_v69_apply, ReadP.val_main_cst_12_apply, ReadP.val_main_v68_apply, ReadP.val_main_v67_apply]
  exact logistic_quot_real (real_v66 x0 x1 x2 x3 x5 x6 x7 x8 h5 h6 h7 h8 i)

include h5 h6 h7 h8 h9 in

theorem real_v80 (i : S204800x32.Idx) : IsReal (ReadP.val_main_v80 (F := Ideal) x0 x1 x2 x3 x5 x6 x7 x8 x9 i) := by
  rw [ReadP.val_main_v80_apply, ReadP.val_main_v73_apply, ReadP.val_main_v79_apply, ReadP.val_main_v78_apply,
    ReadP.val_main_v77_apply, ReadP.val_main_v76_apply, ReadP.val_main_v75_apply, ReadP.val_main_v74_apply,
    ReadP.val_main_cst_14_apply]
  have h48 := v48_real x0 x1 x2 x3 x5 x6 x7 x8 h5 h6 h7 h8 i
  have h72 := real_v72 x0 x1 x2 x3 x5 x6 x7 x8 h5 h6 h7 h8 i
  have h1 : IsReal (FloatOps.ofBits (F := Ideal) .f32 0x3F800000#32) := by
    rw [Ideal.ofBits_def, ofBits_f32_one]; exact IsReal.one
  exact IsReal.add (IsReal.mul h72 h48) (IsReal.mul (IsReal.mul (h9 _) (IsReal.sub h1 h72)) h48)

include h5 h6 h7 h8 h9 h10 h11 in

theorem v85_real (i : S204800x16.Idx) : IsReal (ReadP.val_main_v85 (F := Ideal) x0 x1 x2 x3 x5 x6 x7 x8 x9 x10 x11 i) := by
  rw [ReadP.val_main_v85_apply, ReadP.val_main_v82_apply, ReadP.val_main_v84_apply, ReadP.val_main_v83_apply]
  refine IsReal.add (IsReal.sum _ _ fun k _ => IsReal.mul (real_v80 x0 x1 x2 x3 x5 x6 x7 x8 x9 h5 h6 h7 h8 h9 _) ?_) (h11 _)
  rw [ReadP.val_main_v81_apply]; exact h10 _

end Stage85

section Pre

theorem real_of_all_abs_lt {s : Shape} {axes : List (Fin s.rank)} (x : FVec Ideal s .f32)
    (hb : (⟨0, ![]⟩ : Shape).BroadcastsInDim s ![]) (hr : s.ReducesTo axes (⟨0, ![]⟩ : Shape))
    (hu : 0 < (⟨0, ![]⟩ : Shape).numel)
    (e : Host.reduce IntOp.andi
          (cmpf .olt (Host.absf x) (broadcastInDim s ![] hb (constant (⟨0, ![]⟩ : Shape) .f32 0x7F800000#32)))
          (constantI (⟨0, ![]⟩ : Shape) 1 1#1) hr hu ix0 = 1#1) (i : s.Idx) : IsReal (x i) := by
  haveI : Subsingleton (⟨0, ![]⟩ : Shape).Idx := ⟨fun a b => funext fun d => d.elim0⟩
  have h := Host.reduce_andi_all _ _ hr hu ix0 e i
  have h' : Ideal.cmp .olt (max (x i) (-(x i))) (Ideal.ofBits .f32 0x7F800000#32) = 1#1 := by
    rw [← bcast_const hb _ i]; exact h
  rw [ofBits_f32_pos_inf] at h'
  refine IsReal.of_abs_lt_top ?_
  by_contra hn
  simp [Ideal.cmp, hn] at h'

theorem inputs_real [Cert.Pre_finite_inputs.Facts] (x0 x1 : IVec S1024x200 32) (x2 x3 x4 : IVec S1024 32)
    (x5 : FVec Ideal S1000000x64 .f32) (x6 : FVec Ideal S10000x64 .f32) (x7 : FVec Ideal S32x512 .f32)
    (x8 x9 : FVec Ideal S32 .f32) (x10 : FVec Ideal S16x32 .f32) (x11 x12 : FVec Ideal S16 .f32)
    (x13 : FVec Ideal S1x16 .f32) (x14 : FVec Ideal S1 .f32) (x15 : FVec Ideal S128x256 .f32)
    (x16 : FVec Ideal S128 .f32) (x17 : FVec Ideal S64x128 .f32) (x18 : FVec Ideal S64 .f32)
    (x19 : FVec Ideal S1x64 .f32) (x20 : FVec Ideal S1 .f32)
    (h : Cert.Pre_finite_inputs.fn (F := Ideal) x0 x1 x2 x3 x4 x5 x6 x7 x8 x9 x10 x11 x12 x13 x14 x15 x16 x17 x18 x19 x20 = fun _ => 1#1) :
    (∀ i, IsReal (x5 i)) ∧ (∀ i, IsReal (x6 i)) ∧ (∀ i, IsReal (x7 i)) ∧ (∀ i, IsReal (x8 i)) ∧ (∀ i, IsReal (x9 i))
      ∧ (∀ i, IsReal (x10 i)) ∧ (∀ i, IsReal (x11 i)) ∧ (∀ i, IsReal (x12 i)) ∧ (∀ i, IsReal (x13 i))
      ∧ (∀ i, IsReal (x14 i)) ∧ (∀ i, IsReal (x15 i)) ∧ (∀ i, IsReal (x16 i)) ∧ (∀ i, IsReal (x17 i))
      ∧ (∀ i, IsReal (x18 i)) ∧ (∀ i, IsReal (x19 i)) ∧ (∀ i, IsReal (x20 i)) := by
  have h0 := congrFun h ix0
  dsimp only [Cert.Pre_finite_inputs.fn, Cert.Pre_finite_inputs.fn_part1, Cert.Pre_finite_inputs.fn_part2, Cert.Pre_finite_inputs.fn_part3, Cert.Pre_finite_inputs.fn_part4] at h0
  obtain ⟨h0, e20⟩ := IntOp.andi_eq_one.1 h0
  obtain ⟨h0, e19⟩ := IntOp.andi_eq_one.1 h0
  obtain ⟨h0, e18⟩ := IntOp.andi_eq_one.1 h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨e5, e6⟩ := IntOp.andi_eq_one.1 h0
  exact ⟨real_of_all_abs_lt x5 _ _ _ e5, real_of_all_abs_lt x6 _ _ _ e6, real_of_all_abs_lt x7 _ _ _ e7,
    real_of_all_abs_lt x8 _ _ _ e8, real_of_all_abs_lt x9 _ _ _ e9, real_of_all_abs_lt x10 _ _ _ e10,
    real_of_all_abs_lt x11 _ _ _ e11, real_of_all_abs_lt x12 _ _ _ e12, real_of_all_abs_lt x13 _ _ _ e13,
    real_of_all_abs_lt x14 _ _ _ e14, real_of_all_abs_lt x15 _ _ _ e15, real_of_all_abs_lt x16 _ _ _ e16,
    real_of_all_abs_lt x17 _ _ _ e17, real_of_all_abs_lt x18 _ _ _ e18, real_of_all_abs_lt x19 _ _ _ e19,
    real_of_all_abs_lt x20 _ _ _ e20⟩

end Pre

end Cert.Glue
-- ==== Proof.KI.Glue.lean ====
import proofs.«421617_j66314295050867_4_alg».proof.Proof.Gen.KernelIdeal.Launch
import proofs.«421617_j66314295050867_4_alg».proof.Proof.RefRead
import proofs.«421617_j66314295050867_4_alg».proof.Proof.LibVarianceEReal
import proofs.«421617_j66314295050867_4_alg».proof.Proof.KI.Finite
import Idealize.ShloMosaic.Lib.StableHlo.Run
import Idealize.ShloMosaic.Lib.ValueIdx

set_option maxRecDepth 1156

noncomputable section

namespace Cert.Glue

open Idealize.ShloMosaic Idealize.ShloMosaic.TcCoe Idealize.ShloMosaic.StableHlo Idealize.SL.Sem
open Idealize.ShloMosaic.ValueIdx LibVarianceEReal
open Cert.KernelIdeal Cert.KernelIdeal.Gen

theorem card_rows : (Fintype.card (Fin 204800) : ℝ) = 204800 := by
  rw [Fintype.card_fin]; exact Nat.cast_ofNat

section First

variable (V : Valuation τ sig (Elt Ideal))
  (x0 x1 : (⟨S1024x200, .i32⟩ : BufTy).Contents (Elt Ideal)) (x2 x3 : (⟨S1024, .i32⟩ : BufTy).Contents (Elt Ideal))
  (x5 : (⟨S1000000x64, .f32⟩ : BufTy).Contents (Elt Ideal)) (x6 : (⟨S10000x64, .f32⟩ : BufTy).Contents (Elt Ideal))
  (x7 : (⟨S32x512, .f32⟩ : BufTy).Contents (Elt Ideal)) (x8 : (⟨S32, .f32⟩ : BufTy).Contents (Elt Ideal))

theorem hostOps1_mean
    (hS : ∀ j : Fin 32, V main_v42_1 (ix2 0 j)
      = ∑ r : Fin 204800, Cert.ReferenceIdeal.ReadP.val_main_v48 (F := Ideal) x0 x1 x2 x3 x5 x6 x7 x8 (ix2 r j)) :
    StableHlo.after (hostOps1 (F := Ideal)) V main_v44 = Cert.ReferenceIdeal.ReadP.val_main_v52 (F := Ideal) x0 x1 x2 x3 x5 x6 x7 x8 := by
  after_results
  funext i
  obtain ⟨a, b, rfl⟩ : ∃ (a : Fin 1) (b : Fin 32), i = ix2 a b := ⟨i 0, i 1, eq_ix2 i⟩
  obtain rfl : a = 0 := Subsingleton.elim _ _
  rw [v52_eq]
  show Ideal.div (V main_v42_1 (ix2 0 b)) (broadcastInDim S1x32 ![] bcast_S_S1x32 (constant (F := Ideal) S_ .f32 0x48480000#32) (ix2 0 b)) = _
  rw [bcast_const, hS b, ofBits_f32_204800]

theorem hostOps1_var
    (h5 : ∀ i, IsReal (x5 i)) (h6 : ∀ i, IsReal (x6 i)) (h7 : ∀ i, IsReal (x7 i)) (h8 : ∀ i, IsReal (x8 i))
    (hS : ∀ j : Fin 32, V main_v42_1 (ix2 0 j)
      = ∑ r : Fin 204800, Cert.ReferenceIdeal.ReadP.val_main_v48 (F := Ideal) x0 x1 x2 x3 x5 x6 x7 x8 (ix2 r j))
    (hQ : ∀ j : Fin 32, V main_v42_2 (ix2 0 j)
      = ∑ r : Fin 204800, Cert.ReferenceIdeal.ReadP.val_main_v48 (F := Ideal) x0 x1 x2 x3 x5 x6 x7 x8 (ix2 r j)
          * Cert.ReferenceIdeal.ReadP.val_main_v48 (F := Ideal) x0 x1 x2 x3 x5 x6 x7 x8 (ix2 r j)) :
    StableHlo.after (hostOps1 (F := Ideal)) V main_v50 = Cert.ReferenceIdeal.ReadP.val_main_v59 (F := Ideal) x0 x1 x2 x3 x5 x6 x7 x8 := by
  after_results
  funext i
  obtain ⟨a, b, rfl⟩ : ∃ (a : Fin 1) (b : Fin 32), i = ix2 a b := ⟨i 0, i 1, eq_ix2 i⟩
  obtain rfl : a = 0 := Subsingleton.elim _ _
  rw [v59_eq, v52_eq]
  show max
      (Ideal.div (V main_v42_2 (ix2 0 b)) (broadcastInDim S1x32 ![] bcast_S_S1x32 (constant (F := Ideal) S_ .f32 0x48480000#32) (ix2 0 b))
        - Ideal.div (V main_v42_1 (ix2 0 b)) (broadcastInDim S1x32 ![] bcast_S_S1x32 (constant (F := Ideal) S_ .f32 0x48480000#32) (ix2 0 b))
          * Ideal.div (V main_v42_1 (ix2 0 b)) (broadcastInDim S1x32 ![] bcast_S_S1x32 (constant (F := Ideal) S_ .f32 0x48480000#32) (ix2 0 b)))
      (broadcastInDim S1x32 ![] bcast_S_S1x32 (constant (F := Ideal) S_ .f32 0x00000000#32) (ix2 0 b)) = _
  rw [bcast_const, bcast_const, hS b, hQ b, ofBits_f32_204800, Ideal.ofBits_zero_f32]
  exact variance_identity (fun r : Fin 204800 => Cert.ReferenceIdeal.ReadP.val_main_v48 (F := Ideal) x0 x1 x2 x3 x5 x6 x7 x8 (ix2 r b))
    (fun r => v48_real x0 x1 x2 x3 x5 x6 x7 x8 h5 h6 h7 h8 _) 204800 card_rows (by norm_num)

end First

section Second

variable (V : Valuation τ sig (Elt Ideal))
  (x0 x1 : (⟨S1024x200, .i32⟩ : BufTy).Contents (Elt Ideal)) (x2 x3 : (⟨S1024, .i32⟩ : BufTy).Contents (Elt Ideal))
  (x5 : (⟨S1000000x64, .f32⟩ : BufTy).Contents (Elt Ideal)) (x6 : (⟨S10000x64, .f32⟩ : BufTy).Contents (Elt Ideal))
  (x7 : (⟨S32x512, .f32⟩ : BufTy).Contents (Elt Ideal)) (x8 x9 : (⟨S32, .f32⟩ : BufTy).Contents (Elt Ideal))
  (x10 : (⟨S16x32, .f32⟩ : BufTy).Contents (Elt Ideal)) (x11 : (⟨S16, .f32⟩ : BufTy).Contents (Elt Ideal))

theorem hostOps2_mean
    (hS : ∀ j : Fin 16, V main_v51_1 (ix2 0 j)
      = ∑ r : Fin 204800, Cert.ReferenceIdeal.ReadP.val_main_v85 (F := Ideal) x0 x1 x2 x3 x5 x6 x7 x8 x9 x10 x11 (ix2 r j)) :
    StableHlo.after (hostOps2 (F := Ideal)) V main_v53 = Cert.ReferenceIdeal.ReadP.val_main_v89 (F := Ideal) x0 x1 x2 x3 x5 x6 x7 x8 x9 x10 x11 := by
  after_results
  funext i
  obtain ⟨a, b, rfl⟩ : ∃ (a : Fin 1) (b : Fin 16), i = ix2 a b := ⟨i 0, i 1, eq_ix2 i⟩
  obtain rfl : a = 0 := Subsingleton.elim _ _
  rw [v89_eq]
  show Ideal.div (V main_v51_1 (ix2 0 b)) (broadcastInDim S1x16 ![] bcast_S_S1x16 (constant (F := Ideal) S_ .f32 0x48480000#32) (ix2 0 b)) = _
  rw [bcast_const, hS b, ofBits_f32_204800]

theorem hostOps2_var
    (h5 : ∀ i, IsReal (x5 i)) (h6 : ∀ i, IsReal (x6 i)) (h7 : ∀ i, IsReal (x7 i)) (h8 : ∀ i, IsReal (x8 i))
    (h9 : ∀ i, IsReal (x9 i)) (h10 : ∀ i, IsReal (x10 i)) (h11 : ∀ i, IsReal (x11 i))
    (hS : ∀ j : Fin 16, V main_v51_1 (ix2 0 j)
      = ∑ r : Fin 204800, Cert.ReferenceIdeal.ReadP.val_main_v85 (F := Ideal) x0 x1 x2 x3 x5 x6 x7 x8 x9 x10 x11 (ix2 r j))
    (hQ : ∀ j : Fin 16, V main_v51_2 (ix2 0 j)
      = ∑ r : Fin 204800, Cert.ReferenceIdeal.ReadP.val_main_v85 (F := Ideal) x0 x1 x2 x3 x5 x6 x7 x8 x9 x10 x11 (ix2 r j)
          * Cert.ReferenceIdeal.ReadP.val_main_v85 (F := Ideal) x0 x1 x2 x3 x5 x6 x7 x8 x9 x10 x11 (ix2 r j)) :
    StableHlo.after (hostOps2 (F := Ideal)) V main_v59 = Cert.ReferenceIdeal.ReadP.val_main_v96 (F := Ideal) x0 x1 x2 x3 x5 x6 x7 x8 x9 x10 x11 := by
  after_results
  funext i
  obtain ⟨a, b, rfl⟩ : ∃ (a : Fin 1) (b : Fin 16), i = ix2 a b := ⟨i 0, i 1, eq_ix2 i⟩
  obtain rfl : a = 0 := Subsingleton.elim _ _
  rw [v96_eq, v89_eq]
  show max
      (Ideal.div (V main_v51_2 (ix2 0 b)) (broadcastInDim S1x16 ![] bcast_S_S1x16 (constant (F := Ideal) S_ .f32 0x48480000#32) (ix2 0 b))
        - Ideal.div (V main_v51_1 (ix2 0 b)) (broadcastInDim S1x16 ![] bcast_S_S1x16 (constant (F := Ideal) S_ .f32 0x48480000#32) (ix2 0 b))
          * Ideal.div (V main_v51_1 (ix2 0 b)) (broadcastInDim S1x16 ![] bcast_S_S1x16 (constant (F := Ideal) S_ .f32 0x48480000#32) (ix2 0 b)))
      (broadcastInDim S1x16 ![] bcast_S_S1x16 (constant (F := Ideal) S_ .f32 0x00000000#32) (ix2 0 b)) = _
  rw [bcast_const, bcast_const, hS b, hQ b, ofBits_f32_204800, Ideal.ofBits_zero_f32]
  exact variance_identity (fun r : Fin 204800 => Cert.ReferenceIdeal.ReadP.val_main_v85 (F := Ideal) x0 x1 x2 x3 x5 x6 x7 x8 x9 x10 x11 (ix2 r b))
    (fun r => v85_real x0 x1 x2 x3 x5 x6 x7 x8 x9 x10 x11 h5 h6 h7 h8 h9 h10 h11 _) 204800 card_rows (by norm_num)

end Second

end Cert.Glue
-- ==== Proof.KI.Chain.lean ====
import proofs.«421617_j66314295050867_4_alg».proof.Proof.RefRead
import proofs.«421617_j66314295050867_4_alg».proof.Proof.Gen.Pre_finite_inputs
import proofs.«421617_j66314295050867_4_alg».proof.Proof.KI.HostPrefix
import proofs.«421617_j66314295050867_4_alg».proof.Proof.KI.Run
import proofs.«421617_j66314295050867_4_alg».proof.Proof.KI.R0Val
import proofs.«421617_j66314295050867_4_alg».proof.Proof.KI.R1Val
import proofs.«421617_j66314295050867_4_alg».proof.Proof.KI.R2Val
import proofs.«421617_j66314295050867_4_alg».proof.Proof.KI.R3Val
import proofs.«421617_j66314295050867_4_alg».proof.Proof.KI.Finite
import proofs.«421617_j66314295050867_4_alg».proof.Proof.KI.Glue
import Idealize.ShloMosaic.Lib.ValueIdx
import Idealize.ShloMosaic.Lib.Pipeline.Value

noncomputable section

namespace Cert.KernelIdeal.Chain

open Cert.KernelIdeal Cert.KernelIdeal.Gen Cert.KernelIdeal.Fr Idealize.ShloMosaic Idealize.ShloMosaic.TcCoe Idealize.SL.Sem
open Idealize.ShloMosaic.StableHlo Idealize.ShloMosaic.ValueIdx Cert.ReferenceIdeal
open scoped BigOperators

variable (m : (ℓ : Loc nD τ sig) → Buf (Elt Ideal) ℓ) (c : Dev nD)

abbrev arg (b : Ref sig .tc) : Buf (Elt Ideal) ((c.tc : Thread nD τ).loc b) := m ((c.tc : Thread nD τ).loc b)

abbrev Pre : Prop := Cert.Pre_finite_inputs.fn (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) = (fun _ => 1#1)

abbrev loss := ReadP.val_main_v173 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20)

abbrev pred := ReadP.val_main_v179 (F := Ideal) (arg m c main_arg0) (arg m c main_arg1) (arg m c main_arg2) (arg m c main_arg3) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20)

theorem W3_keep (r : Ref sig .tc) (h1 : r ∉ hostOps1_W) (h0 : r ∉ ([main_v42_0, main_v42_1, main_v42_2] : List (Ref sig .tc))) :
    W3 m c r = W1 m c r := by
  rw [W3_of m c r h1, W2_of m c r h0]

theorem W5_keep (r : Ref sig .tc) (h3 : r ∉ hostOps2_W) (h2 : r ∉ ([main_v51_0, main_v51_1, main_v51_2] : List (Ref sig .tc)))
    (h1 : r ∉ hostOps1_W) (h0 : r ∉ ([main_v42_0, main_v42_1, main_v42_2] : List (Ref sig .tc))) :
    W5 m c r = W1 m c r := by
  rw [W5_of m c r h3, W4_of m c r h2, W3_keep m c r h1 h0]

theorem W6_keep (r : Ref sig .tc) (h4 : r ∉ ([main_v60] : List (Ref sig .tc))) (h3 : r ∉ hostOps2_W)
    (h2 : r ∉ ([main_v51_0, main_v51_1, main_v51_2] : List (Ref sig .tc)))
    (h1 : r ∉ hostOps1_W) (h0 : r ∉ ([main_v42_0, main_v42_1, main_v42_2] : List (Ref sig .tc))) :
    W6 m c r = W1 m c r := by
  rw [W6_of m c r h4, W5_keep m c r h3 h2 h1 h0]

theorem W1_arg (r : Ref sig .tc) (h : r ∉ hostOps0_W) : W1 m c r = m ((c.tc : Thread nD τ).loc r) := W1_of m c r h

def inputs_real (hpre : Pre m c) :=
  Cert.Glue.inputs_real (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) hpre

def region0 :=
  r0_val (V1 m) c (arg m c main_arg0) (arg m c main_arg1) (arg m c main_arg2) (arg m c main_arg3) (arg m c main_arg5) (arg m c main_arg6) (arg m c main_arg7) (arg m c main_arg8)
    (pre_v20 m c) (pre_v27 m c) (pre_v6 m c) (pre_v13 m c) (W1_arg m c main_arg0 (by decide)) (pre_v28 m c) (pre_v34 m c)

theorem h0_at (q : Fin 1024) (l : Fin 200) (k : Fin 32) (r : Fin 204800) (hr : r.val = 200 * q.val + l.val) :
    (W3 m c main_v42_0 : S1024x200x32.Idx → EReal) (ix3 q l k) = ReadP.val_main_v48 (F := Ideal) (arg m c main_arg0) (arg m c main_arg1) (arg m c main_arg2) (arg m c main_arg3) (arg m c main_arg5) (arg m c main_arg6) (arg m c main_arg7) (arg m c main_arg8) (ix2 r k) := by
  rw [W3_of m c main_v42_0 (by decide)]
  exact (congrFun (W2_arr m c 7) (ix3 q l k)).trans ((region0 m c).1 q l k r hr)

theorem mean0 : W3 m c main_v44 = ReadP.val_main_v52 (F := Ideal) (arg m c main_arg0) (arg m c main_arg1) (arg m c main_arg2) (arg m c main_arg3) (arg m c main_arg5) (arg m c main_arg6) (arg m c main_arg7) (arg m c main_arg8) :=
  Cert.Glue.hostOps1_mean (W2 m c) (arg m c main_arg0) (arg m c main_arg1) (arg m c main_arg2) (arg m c main_arg3) (arg m c main_arg5) (arg m c main_arg6) (arg m c main_arg7) (arg m c main_arg8)
    (fun j => (congrFun (W2_arr m c 8) (ix2 0 j)).trans ((region0 m c).2.1 j))

theorem var0 (hpre : Pre m c) :
    W3 m c main_v50 = ReadP.val_main_v59 (F := Ideal) (arg m c main_arg0) (arg m c main_arg1) (arg m c main_arg2) (arg m c main_arg3) (arg m c main_arg5) (arg m c main_arg6) (arg m c main_arg7) (arg m c main_arg8) := by
  obtain ⟨h5, h6, h7, h8, -⟩ := inputs_real m c hpre
  exact Cert.Glue.hostOps1_var (W2 m c) (arg m c main_arg0) (arg m c main_arg1) (arg m c main_arg2) (arg m c main_arg3) (arg m c main_arg5) (arg m c main_arg6) (arg m c main_arg7) (arg m c main_arg8) h5 h6 h7 h8
    (fun j => (congrFun (W2_arr m c 8) (ix2 0 j)).trans ((region0 m c).2.1 j))
    (fun j => (congrFun (W2_arr m c 9) (ix2 0 j)).trans ((region0 m c).2.2 j))

def region1 (hpre : Pre m c) :=
  r1_val (V3 m) c (arg m c main_arg0) (arg m c main_arg1) (arg m c main_arg2) (arg m c main_arg3) (arg m c main_arg5) (arg m c main_arg6) (arg m c main_arg7) (arg m c main_arg8) (arg m c main_arg9) (arg m c main_arg10) (arg m c main_arg11)
    (h0_at m c) (mean0 m c) (var0 m c hpre)
    ((W3_keep m c main_v35 (by decide) (by decide)).trans (pre_v35 m c))
    ((W3_keep m c main_v29 (by decide) (by decide)).trans (pre_v29 m c))
    ((W3_keep m c main_v36 (by decide) (by decide)).trans (pre_v36 m c))

theorem h1_at (hpre : Pre m c)
    (q : Fin 1024) (l : Fin 200) (k : Fin 16) :
    (W5 m c main_v51_0 : S1024x200x16.Idx → EReal) (ix3 q l k)
      = ReadP.val_main_v85 (F := Ideal) (arg m c main_arg0) (arg m c main_arg1) (arg m c main_arg2) (arg m c main_arg3) (arg m c main_arg5) (arg m c main_arg6) (arg m c main_arg7) (arg m c main_arg8) (arg m c main_arg9) (arg m c main_arg10) (arg m c main_arg11) (ix2 ⟨200 * q.val + l.val, by have := q.isLt; have := l.isLt; omega⟩ k) := by
  rw [W5_of m c main_v51_0 (by decide)]
  exact (congrFun (W4_arr m c 6) (ix3 q l k)).trans ((region1 m c hpre).1 q l k _ rfl)

theorem mean1 (hpre : Pre m c) :
    W5 m c main_v53 = ReadP.val_main_v89 (F := Ideal) (arg m c main_arg0) (arg m c main_arg1) (arg m c main_arg2) (arg m c main_arg3) (arg m c main_arg5) (arg m c main_arg6) (arg m c main_arg7) (arg m c main_arg8) (arg m c main_arg9) (arg m c main_arg10) (arg m c main_arg11) :=
  Cert.Glue.hostOps2_mean (W4 m c) (arg m c main_arg0) (arg m c main_arg1) (arg m c main_arg2) (arg m c main_arg3) (arg m c main_arg5) (arg m c main_arg6) (arg m c main_arg7) (arg m c main_arg8) (arg m c main_arg9) (arg m c main_arg10) (arg m c main_arg11)
    (fun j => (congrFun (W4_arr m c 7) (ix2 0 j)).trans ((region1 m c hpre).2.1 j))

theorem var1 (hpre : Pre m c) :
    W5 m c main_v59 = ReadP.val_main_v96 (F := Ideal) (arg m c main_arg0) (arg m c main_arg1) (arg m c main_arg2) (arg m c main_arg3) (arg m c main_arg5) (arg m c main_arg6) (arg m c main_arg7) (arg m c main_arg8) (arg m c main_arg9) (arg m c main_arg10) (arg m c main_arg11) := by
  obtain ⟨h5, h6, h7, h8, h9, h10, h11, -⟩ := inputs_real m c hpre
  exact Cert.Glue.hostOps2_var (W4 m c) (arg m c main_arg0) (arg m c main_arg1) (arg m c main_arg2) (arg m c main_arg3) (arg m c main_arg5) (arg m c main_arg6) (arg m c main_arg7) (arg m c main_arg8) (arg m c main_arg9) (arg m c main_arg10) (arg m c main_arg11) h5 h6 h7 h8 h9 h10 h11
    (fun j => (congrFun (W4_arr m c 7) (ix2 0 j)).trans ((region1 m c hpre).2.1 j))
    (fun j => (congrFun (W4_arr m c 8) (ix2 0 j)).trans ((region1 m c hpre).2.2 j))

theorem interest (hpre : Pre m c) :
    W6 m c main_v60 = ReadP.val_main_v142 (F := Ideal) (arg m c main_arg0) (arg m c main_arg1) (arg m c main_arg2) (arg m c main_arg3) (arg m c main_arg5) (arg m c main_arg6) (arg m c main_arg7) (arg m c main_arg8) (arg m c main_arg9) (arg m c main_arg10) (arg m c main_arg11) (arg m c main_arg12) (arg m c main_arg13) (arg m c main_arg14) :=
  (W6_arr m c 9).trans <|
    region2_value (V5 m) c (arg m c main_arg0) (arg m c main_arg1) (arg m c main_arg2) (arg m c main_arg3) (arg m c main_arg5) (arg m c main_arg6) (arg m c main_arg7) (arg m c main_arg8) (arg m c main_arg9) (arg m c main_arg10) (arg m c main_arg11) (arg m c main_arg12) (arg m c main_arg13) (arg m c main_arg14)
      (h1_at m c hpre) (mean1 m c hpre) (var1 m c hpre)
      ((W5_keep m c main_v37 (by decide) (by decide) (by decide) (by decide)).trans (pre_v37 m c))
      ((W5_keep m c main_v30 (by decide) (by decide) (by decide) (by decide)).trans (pre_v30 m c))
      ((W5_keep m c main_v38 (by decide) (by decide) (by decide) (by decide)).trans (pre_v38 m c))
      ((W5_keep m c main_v20 (by decide) (by decide) (by decide) (by decide)).trans (pre_v20 m c))
      ((W5_keep m c main_v27 (by decide) (by decide) (by decide) (by decide)).trans (pre_v27 m c))
      ((W5_keep m c main_arg0 (by decide) (by decide) (by decide) (by decide)).trans (W1_arg m c main_arg0 (by decide)))

def region3 (hpre : Pre m c) :=
  r3_val (V6 m) c (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20)
    (interest m c hpre)
    ((W6_keep m c main_v6 (by decide) (by decide) (by decide) (by decide) (by decide)).trans (pre_v6 m c))
    ((W6_keep m c main_v13 (by decide) (by decide) (by decide) (by decide) (by decide)).trans (pre_v13 m c))
    ((W6_keep m c main_arg4 (by decide) (by decide) (by decide) (by decide) (by decide)).trans (W1_arg m c main_arg4 (by decide)))
    ((W6_keep m c main_v31 (by decide) (by decide) (by decide) (by decide) (by decide)).trans (pre_v31 m c))
    ((W6_keep m c main_v39 (by decide) (by decide) (by decide) (by decide) (by decide)).trans (pre_v39 m c))
    ((W6_keep m c main_v32 (by decide) (by decide) (by decide) (by decide) (by decide)).trans (pre_v32 m c))
    ((W6_keep m c main_v40 (by decide) (by decide) (by decide) (by decide) (by decide)).trans (pre_v40 m c))
    ((W6_keep m c main_v33 (by decide) (by decide) (by decide) (by decide) (by decide)).trans (pre_v33 m c))
    ((W6_keep m c main_v41 (by decide) (by decide) (by decide) (by decide) (by decide)).trans (pre_v41 m c))

theorem pred_eq (hpre : Pre m c) :
    W8 m c main_v61_0 = pred m c :=
  (W8_main_v61_0 m c).trans (region3 m c hpre).1

theorem loss_eq (hpre : Pre m c) :
    W8 m c main_v62 = loss m c := by
  rw [W8_main_v62 m c]
  funext i
  rw [eq_ix0 i]
  refine (shapeCast_apply _ shapeCasts_S1x1_S_ ix0 (ix2 0 0) (by rfl)).trans ?_
  exact (congrFun (W7_main_v61_1 m c) (ix2 0 0)).trans (region3 m c hpre).2

end Cert.KernelIdeal.Chain

end
-- ==== Proof.RefRun.Ops.lean ====
import proofs.«421617_j66314295050867_4_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ nullary main_c (constantI S_ 32 0#32),
    unary main_c main_v0 (broadcastInDim S1024 ![] bcast_S_S1024),
    binary main_arg2 main_v0 main_v1 (cmpi .slt),
    nullary main_c_0 (constantI S_ 32 1000000#32),
    unary main_c_0 main_v2 (broadcastInDim S1024 ![] bcast_S_S1024),
    binary main_arg2 main_v2 main_v3 (addi),
    ternary main_v1 main_v3 main_arg2 main_v4 (select),
    unary main_v4 main_v5 (broadcastInDim S1024x1 ![0] bcast_S1024_S1024x1_0),
    binary main_arg5 main_v5 main_v6 ((fun x i => Host.gather gather_S1000000x64_S1024x1_S1024x64_1_0_n_n_0_1_164 x i)),
    nullary main_c_1 (constantI S_ 32 0#32),
    unary main_c_1 main_v7 (broadcastInDim S1024 ![] bcast_S_S1024),
    binary main_arg3 main_v7 main_v8 (cmpi .slt),
    nullary main_c_2 (constantI S_ 32 10000#32),
    unary main_c_2 main_v9 (broadcastInDim S1024 ![] bcast_S_S1024),
    binary main_arg3 main_v9 main_v10 (addi),
    ternary main_v8 main_v10 main_arg3 main_v11 (select),
    unary main_v11 main_v12 (broadcastInDim S1024x1 ![0] bcast_S1024_S1024x1_0),
    binary main_arg6 main_v12 main_v13 ((fun x i => Host.gather gather_S10000x64_S1024x1_S1024x64_1_0_n_n_0_1_164 x i)),
    nullary main_c_3 (constantI S_ 32 0#32),
    unary main_c_3 main_v14 (broadcastInDim S1024x200 ![] bcast_S_S1024x200),
    binary main_arg0 main_v14 main_v15 (cmpi .sgt),
    unary main_v15 main_v16 (uitofp .f32),
    unary main_v16 main_v17 (broadcastInDim S1024x200x1 ![0, 1] bcast_S1024x200_S1024x200x1_0_1),
    nullary main_c_4 (constantI S_ 32 0#32),
    unary main_c_4 main_v18 (broadcastInDim S1024x200 ![] bcast_S_S1024x200),
    binary main_arg0 main_v18 main_v19 (cmpi .slt),
    nullary main_c_5 (constantI S_ 32 1000000#32),
    unary main_c_5 main_v20 (broadcastInDim S1024x200 ![] bcast_S_S1024x200),
    binary main_arg0 main_v20 main_v21 (addi),
    ternary main_v19 main_v21 main_arg0 main_v22 (select),
    unary main_v22 main_v23 (broadcastInDim S1024x200x1 ![0, 1] bcast_S1024x200_S1024x200x1_0_1),
    binary main_arg5 main_v23 main_v24 ((fun x i => Host.gather gather_S1000000x64_S1024x200x1_S1024x200x64_2_0_n_n_0_2_164 x i)),
    unary main_v17 main_v25 (broadcastInDim S1024x200x64 ![0, 1, 2] bcast_S1024x200x1_S1024x200x64_0_1_2),
    binary main_v24 main_v25 main_v26 (mulf),
    nullary main_c_6 (constantI S_ 32 0#32),
    unary main_c_6 main_v27 (broadcastInDim S1024x200 ![] bcast_S_S1024x200),
    binary main_arg1 main_v27 main_v28 (cmpi .slt),
    nullary main_c_7 (constantI S_ 32 10000#32),
    unary main_c_7 main_v29 (broadcastInDim S1024x200 ![] bcast_S_S1024x200),
    binary main_arg1 main_v29 main_v30 (addi),
    ternary main_v28 main_v30 main_arg1 main_v31 (select),
    unary main_v31 main_v32 (broadcastInDim S1024x200x1 ![0, 1] bcast_S1024x200_S1024x200x1_0_1),
    binary main_arg6 main_v32 main_v33 ((fun x i => Host.gather gather_S10000x64_S1024x200x1_S1024x200x64_2_0_n_n_0_2_164 x i)),
    unary main_v17 main_v34 (broadcastInDim S1024x200x64 ![0, 1, 2] bcast_S1024x200x1_S1024x200x64_0_1_2),
    binary main_v33 main_v34 main_v35 (mulf),
    binary main_v26 main_v35 main_v36 ((fun a b => concatenate S1024x200x128 2 [⟨S1024x200x64, a⟩, ⟨S1024x200x64, b⟩] concatenates_S1024x200x64_S1024x200x64_S1024x200x128_d2)),
    binary main_v6 main_v13 main_v37 ((fun a b => concatenate S1024x128 1 [⟨S1024x64, a⟩, ⟨S1024x64, b⟩] concatenates_S1024x64_S1024x64_S1024x128_d1)),
    unary main_v37 main_v38 (broadcastInDim S1024x1x128 ![0, 2] bcast_S1024x128_S1024x1x128_0_2),
    unary main_v38 main_v39 (broadcastInDim S1024x200x128 ![0, 1, 2] bcast_S1024x1x128_S1024x200x128_0_1_2),
    binary main_v39 main_v36 main_v40 (subf),
    binary main_v39 main_v36 main_v41 (mulf) ]

abbrev ops0_W : List (Ref sig .tc) := [main_c, main_v0, main_v1, main_c_0, main_v2, main_v3, main_v4, main_v5, main_v6, main_c_1, main_v7, main_v8, main_c_2, main_v9, main_v10, main_v11, main_v12, main_v13, main_c_3, main_v14, main_v15, main_v16, main_v17, main_c_4, main_v18, main_v19, main_c_5, main_v20, main_v21, main_v22, main_v23, main_v24, main_v25, main_v26, main_c_6, main_v27, main_v28, main_c_7, main_v29, main_v30, main_v31, main_v32, main_v33, main_v34, main_v35, main_v36, main_v37, main_v38, main_v39, main_v40, main_v41]
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., binary_bufs_sub .., unary_bufs_sub .., unary_bufs_sub .., binary_bufs_sub .., binary_bufs_sub ..⟩

abbrev ops1 : List (HloOp τ sig (Elt F)) :=
  [ nary ![main_v39, main_v36, main_v40, main_v41] main_v42 (fun u => concatenate S1024x200x512 2 [⟨S1024x200x128, u 0⟩, ⟨S1024x200x128, u 1⟩, ⟨S1024x200x128, u 2⟩, ⟨S1024x200x128, u 3⟩] concatenates_S1024x200x128_S1024x200x128_S1024x200x128_S1024x200x128_S1024x200x512_d2),
    reshape main_v42 main_v43 rfl shapeCasts_S1024x200x512_S204800x512,
    unary main_arg7 main_v44 ((transpose S512x32 [1, 0] · transposes_S32x512_S512x32_1_0)),
    binary main_v43 main_v44 main_v45 ((fun l r => Host.dotGeneral dot_S204800x512_S512x32_S204800x32_1_0_0_1_n_n none l r)),
    unary main_arg8 main_v46 (broadcastInDim S1x32 ![1] bcast_S32_S1x32_1),
    unary main_v46 main_v47 (broadcastInDim S204800x32 ![0, 1] bcast_S1x32_S204800x32_0_1),
    binary main_v45 main_v47 main_v48 (addf),
    nullary main_cst (constant S_ .f32 0x00000000#32),
    binary main_v48 main_cst main_v49 ((fun x v => Host.reduceAdd x v reducesTo_S204800x32_S32_d0 h_S_)) ]

abbrev ops1_W : List (Ref sig .tc) := [main_v42, main_v43, main_v44, main_v45, main_v46, main_v47, main_v48, main_cst, main_v49]
theorem ops1_sub : (ops1 : List (HloOp τ sig (Elt F))).Forall fun op => op.bufs ⊆ tcRefs τ sig :=
  ⟨nary_bufs_sub .., reshape_bufs_sub .., unary_bufs_sub .., binary_bufs_sub .., unary_bufs_sub .., unary_bufs_sub .., binary_bufs_sub .., nullary_bufs_sub .., binary_bufs_sub ..⟩

abbrev ops2 : List (HloOp τ sig (Elt F)) :=
  [ unary main_v49 main_v50 (broadcastInDim S1x32 ![1] bcast_S32_S1x32_1),
    nullary main_cst_8 (constant S_ .f32 0x48480000#32),
    unary main_cst_8 main_v51 (broadcastInDim S1x32 ![] bcast_S_S1x32),
    binary main_v50 main_v51 main_v52 (Host.divf),
    unary main_v52 main_v53 (broadcastInDim S204800x32 ![0, 1] bcast_S1x32_S204800x32_0_1),
    binary main_v48 main_v53 main_v54 (subf),
    binary main_v54 main_v54 main_v55 (mulf),
    nullary main_cst_9 (constant S_ .f32 0x00000000#32),
    binary main_v55 main_cst_9 main_v56 ((fun x v => Host.reduceAdd x v reducesTo_S204800x32_S32_d0 h_S_)),
    unary main_v56 main_v57 (broadcastInDim S1x32 ![1] bcast_S32_S1x32_1),
    nullary main_cst_10 (constant S_ .f32 0x48480000#32),
    unary main_cst_10 main_v58 (broadcastInDim S1x32 ![] bcast_S_S1x32),
    binary main_v57 main_v58 main_v59 (Host.divf),
    unary main_v52 main_v60 (broadcastInDim S204800x32 ![0, 1] bcast_S1x32_S204800x32_0_1),
    binary main_v48 main_v60 main_v61 (subf),
    nullary main_cst_11 (constant S_ .f32 0x3089705F#32),
    unary main_cst_11 main_v62 (broadcastInDim S1x32 ![] bcast_S_S1x32),
    binary main_v59 main_v62 main_v63 (addf),
    unary main_v63 main_v64 (Host.rsqrt),
    unary main_v64 main_v65 (broadcastInDim S204800x32 ![0, 1] bcast_S1x32_S204800x32_0_1),
    binary main_v61 main_v65 main_v66 (mulf),
    unary main_v66 main_v67 (Host.negf),
    unary main_v67 main_v68 (Host.exp),
    nullary main_cst_12 (constant S_ .f32 0x3F800000#32),
    unary main_cst_12 main_v69 (broadcastInDim S204800x32 ![] bcast_S_S204800x32),
    binary main_v69 main_v68 main_v70 (addf),
    nullary main_cst_13 (constant S_ .f32 0x3F800000#32),
    unary main_cst_13 main_v71 (broadcastInDim S204800x32 ![] bcast_S_S204800x32),
    binary main_v71 main_v70 main_v72 (Host.divf),
    binary main_v72 main_v48 main_v73 (mulf),
    nullary main_cst_14 (constant S_ .f32 0x3F800000#32),
    unary main_cst_14 main_v74 (broadcastInDim S204800x32 ![] bcast_S_S204800x32),
    binary main_v74 main_v72 main_v75 (subf),
    unary main_arg9 main_v76 (broadcastInDim S1x32 ![1] bcast_S32_S1x32_1),
    unary main_v76 main_v77 (broadcastInDim S204800x32 ![0, 1] bcast_S1x32_S204800x32_0_1),
    binary main_v77 main_v75 main_v78 (mulf),
    binary main_v78 main_v48 main_v79 (mulf),
    binary main_v73 main_v79 main_v80 (addf),
    unary main_arg10 main_v81 ((transpose S32x16 [1, 0] · transposes_S16x32_S32x16_1_0)),
    binary main_v80 main_v81 main_v82 ((fun l r => Host.dotGeneral dot_S204800x32_S32x16_S204800x16_1_0_0_1_n_n none l r)),
    unary main_arg11 main_v83 (broadcastInDim S1x16 ![1] bcast_S16_S1x16_1),
    unary main_v83 main_v84 (broadcastInDim S204800x16 ![0, 1] bcast_S1x16_S204800x16_0_1),
    binary main_v82 main_v84 main_v85 (addf),
    nullary main_cst_15 (constant S_ .f32 0x00000000#32),
    binary main_v85 main_cst_15 main_v86 ((fun x v => Host.reduceAdd x v reducesTo_S204800x16_S16_d0 h_S_)),
    unary main_v86 main_v87 (broadcastInDim S1x16 ![1] bcast_S16_S1x16_1),
    nullary main_cst_16 (constant S_ .f32 0x48480000#32),
    unary main_cst_16 main_v88 (broadcastInDim S1x16 ![] bcast_S_S1x16),
    binary main_v87 main_v88 main_v89 (Host.divf),
    unary main_v89 main_v90 (broadcastInDim S204800x16 ![0, 1] bcast_S1x16_S204800x16_0_1),
    binary main_v85 main_v90 main_v91 (subf),
    binary main_v91 main_v91 main_v92 (mulf),
    nullary main_cst_17 (constant S_ .f32 0x00000000#32),
    binary main_v92 main_cst_17 main_v93 ((fun x v => Host.reduceAdd x v reducesTo_S204800x16_S16_d0 h_S_)),
    unary main_v93 main_v94 (broadcastInDim S1x16 ![1] bcast_S16_S1x16_1),
    nullary main_cst_18 (constant S_ .f32 0x48480000#32),
    unary main_cst_18 main_v95 (broadcastInDim S1x16 ![] bcast_S_S1x16),
    binary main_v94 main_v95 main_v96 (Host.divf),
    unary main_v89 main_v97 (broadcastInDim S204800x16 ![0, 1] bcast_S1x16_S204800x16_0_1),
    binary main_v85 main_v97 main_v98 (subf) ]

abbrev ops2_W : List (Ref sig .tc) := [main_v50, main_cst_8, main_v51, main_v52, main_v53, main_v54, main_v55, main_cst_9, main_v56, main_v57, main_cst_10, main_v58, main_v59, main_v60, main_v61, main_cst_11, main_v62, main_v63, main_v64, main_v65, main_v66, main_v67, main_v68, main_cst_12, main_v69, main_v70, main_cst_13, main_v71, main_v72, main_v73, main_cst_14, main_v74, main_v75, main_v76, main_v77, main_v78, main_v79, main_v80, main_v81, main_v82, main_v83, main_v84, main_v85, main_cst_15, main_v86, main_v87, main_cst_16, main_v88, main_v89, main_v90, main_v91, main_v92, main_cst_17, main_v93, main_v94, main_cst_18, main_v95, main_v96, main_v97, main_v98]
theorem ops2_sub : (ops2 : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., binary_bufs_sub .., binary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub ..⟩

abbrev ops3 : List (HloOp τ sig (Elt F)) :=
  [ nullary main_cst_19 (constant S_ .f32 0x3089705F#32),
    unary main_cst_19 main_v99 (broadcastInDim S1x16 ![] bcast_S_S1x16),
    binary main_v96 main_v99 main_v100 (addf),
    unary main_v100 main_v101 (Host.rsqrt),
    unary main_v101 main_v102 (broadcastInDim S204800x16 ![0, 1] bcast_S1x16_S204800x16_0_1),
    binary main_v98 main_v102 main_v103 (mulf),
    unary main_v103 main_v104 (Host.negf),
    unary main_v104 main_v105 (Host.exp),
    nullary main_cst_20 (constant S_ .f32 0x3F800000#32),
    unary main_cst_20 main_v106 (broadcastInDim S204800x16 ![] bcast_S_S204800x16),
    binary main_v106 main_v105 main_v107 (addf),
    nullary main_cst_21 (constant S_ .f32 0x3F800000#32),
    unary main_cst_21 main_v108 (broadcastInDim S204800x16 ![] bcast_S_S204800x16),
    binary main_v108 main_v107 main_v109 (Host.divf),
    binary main_v109 main_v85 main_v110 (mulf),
    nullary main_cst_22 (constant S_ .f32 0x3F800000#32),
    unary main_cst_22 main_v111 (broadcastInDim S204800x16 ![] bcast_S_S204800x16),
    binary main_v111 main_v109 main_v112 (subf),
    unary main_arg12 main_v113 (broadcastInDim S1x16 ![1] bcast_S16_S1x16_1),
    unary main_v113 main_v114 (broadcastInDim S204800x16 ![0, 1] bcast_S1x16_S204800x16_0_1),
    binary main_v114 main_v112 main_v115 (mulf),
    binary main_v115 main_v85 main_v116 (mulf),
    binary main_v110 main_v116 main_v117 (addf),
    unary main_arg13 main_v118 ((transpose S16x1 [1, 0] · transposes_S1x16_S16x1_1_0)),
    binary main_v117 main_v118 main_v119 ((fun l r => Host.dotGeneral dot_S204800x16_S16x1_S204800x1_1_0_0_1_n_n none l r)),
    unary main_arg14 main_v120 (broadcastInDim S1x1 ![1] bcast_S1_S1x1_1),
    unary main_v120 main_v121 (broadcastInDim S204800x1 ![0, 1] bcast_S1x1_S204800x1_0_1),
    binary main_v119 main_v121 main_v122 (addf),
    reshape main_v122 main_v123 rfl shapeCasts_S204800x1_S1024x200x1,
    nullary main_cst_23 (constant S_ .f32 0x3F800000#32),
    unary main_cst_23 main_v124 (broadcastInDim S1024x200x1 ![] bcast_S_S1024x200x1),
    binary main_v124 main_v17 main_v125 (subf),
    nullary main_cst_24 (constant S_ .f32 0x4E6E6B28#32),
    unary main_cst_24 main_v126 (broadcastInDim S1024x200x1 ![] bcast_S_S1024x200x1),
    binary main_v125 main_v126 main_v127 (mulf),
    binary main_v123 main_v127 main_v128 (subf),
    nullary main_cst_25 (constant S_ .f32 0xFF800000#32),
    binary main_v128 main_cst_25 main_v129 ((fun x v => Host.reduce FloatOps.maximumf x v reducesTo_S1024x200x1_S1024x1_d1 h_S_)),
    nullary main_cst_26 (constant S_ .f32 0xFF800000#32),
    unary main_cst_26 main_v130 (broadcastInDim S1024x1 ![] bcast_S_S1024x1),
    binary main_v130 main_v129 main_v131 (maximumf),
    unary main_v131 main_v132 (broadcastInDim S1024x1x1 ![0, 2] bcast_S1024x1_S1024x1x1_0_2),
    unary main_v132 main_v133 (broadcastInDim S1024x200x1 ![0, 1, 2] bcast_S1024x1x1_S1024x200x1_0_1_2),
    binary main_v128 main_v133 main_v134 (subf),
    unary main_v134 main_v135 (Host.exp),
    nullary main_cst_27 (constant S_ .f32 0x00000000#32),
    binary main_v135 main_cst_27 main_v136 ((fun x v => Host.reduceAdd x v reducesTo_S1024x200x1_S1024x1_d1 h_S_)),
    unary main_v136 main_v137 (broadcastInDim S1024x1x1 ![0, 2] bcast_S1024x1_S1024x1x1_0_2),
    unary main_v137 main_v138 (broadcastInDim S1024x200x1 ![0, 1, 2] bcast_S1024x1x1_S1024x200x1_0_1_2),
    binary main_v135 main_v138 main_v139 (Host.divf),
    unary main_v139 main_v140 (broadcastInDim S1024x200x128 ![0, 1, 2] bcast_S1024x200x1_S1024x200x128_0_1_2),
    binary main_v36 main_v140 main_v141 (mulf),
    nullary main_cst_28 (constant S_ .f32 0x00000000#32),
    binary main_v141 main_cst_28 main_v142 ((fun x v => Host.reduceAdd x v reducesTo_S1024x200x128_S1024x128_d1 h_S_)) ]

abbrev ops3_W : List (Ref sig .tc) := [main_cst_19, main_v99, main_v100, main_v101, main_v102, main_v103, main_v104, main_v105, main_cst_20, main_v106, main_v107, main_cst_21, main_v108, main_v109, main_v110, main_cst_22, main_v111, main_v112, main_v113, main_v114, main_v115, main_v116, main_v117, main_v118, main_v119, main_v120, main_v121, main_v122, main_v123, main_cst_23, main_v124, main_v125, main_cst_24, main_v126, main_v127, main_v128, main_cst_25, main_v129, main_cst_26, main_v130, main_v131, main_v132, main_v133, main_v134, main_v135, main_cst_27, main_v136, main_v137, main_v138, main_v139, main_v140, main_v141, main_cst_28, main_v142]
theorem ops3_sub : (ops3 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., binary_bufs_sub .., binary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub ..⟩

abbrev ops4 : List (HloOp τ sig (Elt F)) :=
  [ nary ![main_v142, main_v6, main_v13] main_v143 (fun u => concatenate S1024x256 1 [⟨S1024x128, u 0⟩, ⟨S1024x64, u 1⟩, ⟨S1024x64, u 2⟩] concatenates_S1024x128_S1024x64_S1024x64_S1024x256_d1),
    unary main_arg15 main_v144 ((transpose S256x128 [1, 0] · transposes_S128x256_S256x128_1_0)),
    binary main_v143 main_v144 main_v145 ((fun l r => Host.dotGeneral dot_S1024x256_S256x128_S1024x128_1_0_0_1_n_n none l r)),
    unary main_arg16 main_v146 (broadcastInDim S1x128 ![1] bcast_S128_S1x128_1),
    unary main_v146 main_v147 (broadcastInDim S1024x128 ![0, 1] bcast_S1x128_S1024x128_0_1),
    binary main_v145 main_v147 main_v148 (addf) ]

abbrev ops4_W : List (Ref sig .tc) := [main_v143, main_v144, main_v145, main_v146, main_v147, main_v148]
theorem ops4_sub : (ops4 : List (HloOp τ sig (Elt F))).Forall fun op => op.bufs ⊆ tcRefs τ sig :=
  ⟨nary_bufs_sub .., unary_bufs_sub .., binary_bufs_sub .., unary_bufs_sub .., unary_bufs_sub .., binary_bufs_sub ..⟩

abbrev ops5 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S1024x128, .f32⟩) main_call0_v0) (broadcastInDim S1024x128 ![] bcast_S_S1024x128),
    TRef.binary (TRef.of (T := ⟨S1024x128, .f32⟩) main_v148) (TRef.of (T := ⟨S1024x128, .f32⟩) main_call0_v0) (TRef.of (T := ⟨S1024x128, .f32⟩) main_v149) maximumf,
    unary main_arg17 main_v150 ((transpose S128x64 [1, 0] · transposes_S64x128_S128x64_1_0)),
    binary main_v149 main_v150 main_v151 ((fun l r => Host.dotGeneral dot_S1024x128_S128x64_S1024x64_1_0_0_1_n_n none l r)),
    unary main_arg18 main_v152 (broadcastInDim S1x64 ![1] bcast_S64_S1x64_1),
    unary main_v152 main_v153 (broadcastInDim S1024x64 ![0, 1] bcast_S1x64_S1024x64_0_1),
    binary main_v151 main_v153 main_v154 (addf),
    TRef.nullary (TRef.of (T := ⟨S_, .f32⟩) main_call1_cst) (constant S_ .f32 0x00000000#32),
    TRef.unary (TRef.of (T := ⟨S_, .f32⟩) main_call1_cst) (TRef.of (T := ⟨S1024x64, .f32⟩) main_call1_v0) (broadcastInDim S1024x64 ![] bcast_S_S1024x64),
    TRef.binary (TRef.of (T := ⟨S1024x64, .f32⟩) main_v154) (TRef.of (T := ⟨S1024x64, .f32⟩) main_call1_v0) (TRef.of (T := ⟨S1024x64, .f32⟩) main_v155) maximumf,
    unary main_arg19 main_v156 ((transpose S64x1 [1, 0] · transposes_S1x64_S64x1_1_0)),
    binary main_v155 main_v156 main_v157 ((fun l r => Host.dotGeneral dot_S1024x64_S64x1_S1024x1_1_0_0_1_n_n none l r)),
    unary main_arg20 main_v158 (broadcastInDim S1x1 ![1] bcast_S1_S1x1_1),
    unary main_v158 main_v159 (broadcastInDim S1024x1 ![0, 1] bcast_S1x1_S1024x1_0_1),
    binary main_v157 main_v159 main_v160 (addf),
    reshape main_v160 main_v161 rfl shapeCasts_S1024x1_S1024,
    unary main_arg4 main_v162 (sitofp .f32),
    nullary main_cst_29 (constant S_ .f32 0x00000000#32),
    unary main_cst_29 main_v163 (broadcastInDim S1024 ![] bcast_S_S1024),
    binary main_v161 main_v163 main_v164 (maximumf),
    binary main_v161 main_v162 main_v165 (mulf),
    binary main_v164 main_v165 main_v166 (subf),
    unary main_v161 main_v167 (Host.absf),
    unary main_v167 main_v168 (Host.negf),
    unary main_v168 main_v169 (Host.exp),
    unary main_v169 main_v170 (Host.log1p),
    binary main_v166 main_v170 main_v171 (addf),
    nullary main_cst_30 (constant S_ .f32 0x00000000#32),
    binary main_v171 main_cst_30 main_v172 ((fun x v => Host.reduceAdd x v reducesTo_S1024_S_d0 h_S_)),
    nullary main_cst_31 (constant S_ .f32 0x44800000#32),
    binary main_v172 main_cst_31 main_v173 (Host.divf),
    unary main_v161 main_v174 (Host.negf),
    unary main_v174 main_v175 (Host.exp),
    nullary main_cst_32 (constant S_ .f32 0x3F800000#32),
    unary main_cst_32 main_v176 (broadcastInDim S1024 ![] bcast_S_S1024),
    binary main_v176 main_v175 main_v177 (addf),
    nullary main_cst_33 (constant S_ .f32 0x3F800000#32),
    unary main_cst_33 main_v178 (broadcastInDim S1024 ![] bcast_S_S1024),
    binary main_v178 main_v177 main_v179 (Host.divf) ]

abbrev ops5_W : List (Ref sig .tc) := [main_call0_cst, main_call0_v0, main_v149, main_v150, main_v151, main_v152, main_v153, main_v154, main_call1_cst, main_call1_v0, main_v155, main_v156, main_v157, main_v158, main_v159, main_v160, main_v161, main_v162, main_cst_29, main_v163, main_v164, main_v165, main_v166, main_v167, main_v168, main_v169, main_v170, main_v171, main_cst_30, main_v172, main_cst_31, main_v173, main_v174, main_v175, main_cst_32, main_v176, main_v177, main_cst_33, main_v178, main_v179]
theorem ops5_sub : (ops5 : List (HloOp τ sig (Elt F))).Forall fun op => op.bufs ⊆ tcRefs τ sig :=
  ⟨nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., unary_bufs_sub .., unary_bufs_sub .., binary_bufs_sub .., nullary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub ..⟩

abbrev win0 : List (HloOp τ sig (Elt F)) := ops0 ++ ops1

abbrev win1 : List (HloOp τ sig (Elt F)) := ops2

abbrev win2 : List (HloOp τ sig (Elt F)) := ops3 ++ ops4

abbrev win3 : List (HloOp τ sig (Elt F)) := ops5

end Cert.ReferenceIdeal.HandRun

end
-- ==== Proof.RefRun.Line.lean ====
import proofs.«421617_j66314295050867_4_alg».proof.Proof.RefRun.Ops
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part0_eq (c : Dev nD) : main_part0 (F := F) c = seq win0 := rfl
set_option maxRecDepth 8192 in
set_option maxHeartbeats 4000000 in
theorem main_part1_eq (c : Dev nD) : main_part1 (F := F) c = seq win1 := rfl
set_option maxRecDepth 8192 in
set_option maxHeartbeats 4000000 in
theorem main_part2_eq (c : Dev nD) : main_part2 (F := F) c = seq win2 := rfl
set_option maxRecDepth 8192 in
set_option maxHeartbeats 4000000 in

theorem main_part3_eq (c : Dev nD) : main_part3 (F := F) c = seq win3 := rfl

abbrev ops : List (HloOp τ sig (Elt F)) := ops0 ++ (ops1 ++ (ops2 ++ (ops3 ++ (ops4 ++ ops5))))

theorem ops_eq : (ops : List (HloOp τ sig (Elt F))) = win0 ++ (win1 ++ (win2 ++ win3)) := by
  simp only [ops, win0, win1, win2, win3, List.append_assoc]

theorem main_eq (c : Dev nD) : main (F := F) c = seq ops := by
  rw [ops_eq, seq_append win0, seq_append win1, seq_append win2, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem forall_ops {p : HloOp τ sig (Elt F) → Prop} (h0 : (ops0 (F := F)).Forall p) (h1 : (ops1 (F := F)).Forall p)
    (h2 : (ops2 (F := F)).Forall p) (h3 : (ops3 (F := F)).Forall p) (h4 : (ops4 (F := F)).Forall p)
    (h5 : (ops5 (F := F)).Forall p) : ∀ op ∈ (ops (F := F)), p op := by
  intro op hop
  rcases List.mem_append.1 hop with h | h
  · exact List.forall_iff_forall_mem.1 h0 op h
  rcases List.mem_append.1 h with h | h
  · exact List.forall_iff_forall_mem.1 h1 op h
  rcases List.mem_append.1 h with h | h
  · exact List.forall_iff_forall_mem.1 h2 op h
  rcases List.mem_append.1 h with h | h
  · exact List.forall_iff_forall_mem.1 h3 op h
  rcases List.mem_append.1 h with h | h
  · exact List.forall_iff_forall_mem.1 h4 op h
  · exact List.forall_iff_forall_mem.1 h5 op h

theorem ops_sub : (ops : List (HloOp τ sig (Elt F))).Forall fun op => op.bufs ⊆ tcRefs τ sig :=
  List.forall_iff_forall_mem.2 (forall_ops ops0_sub ops1_sub ops2_sub ops3_sub ops4_sub ops5_sub)

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor
theorem ops4_fresh : (ops4 : List (HloOp τ sig (Elt F))).Forall fun op => op.fresh = ∅ := by
  simp only [List.Forall]; repeat' constructor
theorem ops5_fresh : (ops5 : List (HloOp τ sig (Elt F))).Forall fun op => op.fresh = ∅ := by
  simp only [List.Forall]; repeat' constructor

theorem ops_fresh : ∀ op ∈ (ops : List (HloOp τ sig (Elt F))), op.fresh = ∅ :=
  forall_ops ops0_fresh ops1_fresh ops2_fresh ops3_fresh ops4_fresh ops5_fresh

theorem ops0_writes : (ops0 : List (HloOp τ sig (Elt F))).Forall fun op => op.writes ⊆ (ops0_W.map (Proc.devRef (τ := τ) .tc)).toFinset := by
  simp only [List.Forall]
  repeat' apply And.intro
  all_goals (simp only [nullary_writes, unary_writes, binary_writes, ternary_writes, reshape_writes, nary_writes,
    Finset.singleton_subset_iff, List.mem_toFinset]; exact List.mem_map_of_mem (by decide))
theorem ops1_writes : (ops1 : List (HloOp τ sig (Elt F))).Forall fun op => op.writes ⊆ (ops1_W.map (Proc.devRef (τ := τ) .tc)).toFinset := by
  simp only [List.Forall]
  repeat' apply And.intro
  all_goals (simp only [nullary_writes, unary_writes, binary_writes, ternary_writes, reshape_writes, nary_writes,
    Finset.singleton_subset_iff, List.mem_toFinset]; exact List.mem_map_of_mem (by decide))
theorem ops2_writes : (ops2 : List (HloOp τ sig (Elt F))).Forall fun op => op.writes ⊆ (ops2_W.map (Proc.devRef (τ := τ) .tc)).toFinset := by
  simp only [List.Forall]
  repeat' apply And.intro
  all_goals (simp only [nullary_writes, unary_writes, binary_writes, ternary_writes, reshape_writes, nary_writes,
    Finset.singleton_subset_iff, List.mem_toFinset]; exact List.mem_map_of_mem (by decide))
theorem ops3_writes : (ops3 : List (HloOp τ sig (Elt F))).Forall fun op => op.writes ⊆ (ops3_W.map (Proc.devRef (τ := τ) .tc)).toFinset := by
  simp only [List.Forall]
  repeat' apply And.intro
  all_goals (simp only [nullary_writes, unary_writes, binary_writes, ternary_writes, reshape_writes, nary_writes,
    Finset.singleton_subset_iff, List.mem_toFinset]; exact List.mem_map_of_mem (by decide))
theorem ops4_writes : (ops4 : List (HloOp τ sig (Elt F))).Forall fun op => op.writes ⊆ (ops4_W.map (Proc.devRef (τ := τ) .tc)).toFinset := by
  simp only [List.Forall]
  repeat' apply And.intro
  all_goals (simp only [nullary_writes, unary_writes, binary_writes, ternary_writes, reshape_writes, nary_writes,
    Finset.singleton_subset_iff, List.mem_toFinset]; exact List.mem_map_of_mem (by decide))
theorem ops5_writes : (ops5 : List (HloOp τ sig (Elt F))).Forall fun op => op.writes ⊆ (ops5_W.map (Proc.devRef (τ := τ) .tc)).toFinset := by
  simp only [List.Forall]
  repeat' apply And.intro
  all_goals (simp only [nullary_writes, unary_writes, binary_writes, ternary_writes, reshape_writes, nary_writes,
    Finset.singleton_subset_iff, List.mem_toFinset]; exact List.mem_map_of_mem (by decide))

theorem keep0 (W : Valuation τ sig (Elt F)) {r : Ref sig .tc} (h : r ∉ ops0_W) :
    after ops0 W (Proc.devRef .tc r) = W (Proc.devRef .tc r) := after_of_writes_sub ops0 W ops0_writes h
theorem keep1 (W : Valuation τ sig (Elt F)) {r : Ref sig .tc} (h : r ∉ ops1_W) :
    after ops1 W (Proc.devRef .tc r) = W (Proc.devRef .tc r) := after_of_writes_sub ops1 W ops1_writes h
theorem keep2 (W : Valuation τ sig (Elt F)) {r : Ref sig .tc} (h : r ∉ ops2_W) :
    after ops2 W (Proc.devRef .tc r) = W (Proc.devRef .tc r) := after_of_writes_sub ops2 W ops2_writes h
theorem keep3 (W : Valuation τ sig (Elt F)) {r : Ref sig .tc} (h : r ∉ ops3_W) :
    after ops3 W (Proc.devRef .tc r) = W (Proc.devRef .tc r) := after_of_writes_sub ops3 W ops3_writes h
theorem keep4 (W : Valuation τ sig (Elt F)) {r : Ref sig .tc} (h : r ∉ ops4_W) :
    after ops4 W (Proc.devRef .tc r) = W (Proc.devRef .tc r) := after_of_writes_sub ops4 W ops4_writes h
theorem keep5 (W : Valuation τ sig (Elt F)) {r : Ref sig .tc} (h : r ∉ ops5_W) :
    after ops5 W (Proc.devRef .tc r) = W (Proc.devRef .tc r) := after_of_writes_sub ops5 W ops5_writes h

theorem after_ops (V : Valuation τ sig (Elt F)) :
    after ops V = after ops5 (after ops4 (after ops3 (after ops2 (after ops1 (after ops0 V))))) := by
  rw [ops, StableHlo.after_append, StableHlo.after_append, StableHlo.after_append, StableHlo.after_append,
    StableHlo.after_append]

theorem keep_all (V : Valuation τ sig (Elt F)) {r : Ref sig .tc} (h0 : r ∉ ops0_W) (h1 : r ∉ ops1_W) (h2 : r ∉ ops2_W)
    (h3 : r ∉ ops3_W) (h4 : r ∉ ops4_W) (h5 : r ∉ ops5_W) : after ops V (Proc.devRef .tc r) = V (Proc.devRef .tc r) := by
  rw [after_ops, keep5 _ h5, keep4 _ h4, keep3 _ h3, keep2 _ h2, keep1 _ h1, keep0 _ h0]

section
variable {Val : EltTy → Type} {x a b y : Ref sig .tc}

theorem nary3_result
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl
theorem nary3_result'
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G
end

macro "read_back" : tactic =>
  `(tactic| (simp (disch := decide) only [after_cons, after_nil,
    nullary_result', unary_result', binary_result', ternary_result', reshape_result', nary4_result', nary3_result',
    nullary_result_ne', unary_result_ne', binary_result_ne', ternary_result_ne', reshape_result_ne', nary_result_ne']))

end Cert.ReferenceIdeal.HandRun

end
-- ==== Proof.RefRun.V0.lean ====
import proofs.«421617_j66314295050867_4_alg».proof.Proof.RefRun.Line
import proofs.«421617_j66314295050867_4_alg».proof.Proof.RefRead

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

local notation "dr" => Proc.devRef (τ := τ) (sig := sig) Proc.tc

section L0
variable (V : Valuation τ sig (Elt F))

set_option maxRecDepth 8192 in
set_option maxHeartbeats 400000 in
theorem l0_v6 : after ops0 V (dr main_v6) = ReadP.val_main_v6 (F := F) (V (dr main_arg2)) (V (dr main_arg5)) := by
  read_back; rfl
set_option maxRecDepth 8192 in
set_option maxHeartbeats 400000 in
theorem l0_v13 : after ops0 V (dr main_v13) = ReadP.val_main_v13 (F := F) (V (dr main_arg3)) (V (dr main_arg6)) := by
  read_back; rfl
set_option maxRecDepth 8192 in
set_option maxHeartbeats 400000 in
theorem l0_v17 : after ops0 V (dr main_v17) = ReadP.val_main_v17 (F := F) (V (dr main_arg0)) := by
  read_back; rfl
set_option maxRecDepth 8192 in
set_option maxHeartbeats 400000 in
theorem l0_v36 : after ops0 V (dr main_v36) = ReadP.val_main_v36 (F := F) (V (dr main_arg0)) (V (dr main_arg1)) (V (dr main_arg5)) (V (dr main_arg6)) := by
  read_back; rfl
set_option maxRecDepth 8192 in
set_option maxHeartbeats 400000 in
theorem l0_v39 : after ops0 V (dr main_v39) = ReadP.val_main_v39 (F := F) (V (dr main_arg2)) (V (dr main_arg3)) (V (dr main_arg5)) (V (dr main_arg6)) := by
  read_back; rfl
set_option maxRecDepth 8192 in
set_option maxHeartbeats 1000000 in
theorem l0_v40 : after ops0 V (dr main_v40) = ReadP.val_main_v40 (F := F) (V (dr main_arg0)) (V (dr main_arg1)) (V (dr main_arg2)) (V (dr main_arg3)) (V (dr main_arg5)) (V (dr main_arg6)) := by
  read_back; rfl
set_option maxRecDepth 8192 in
set_option maxHeartbeats 1000000 in
theorem l0_v41 : after ops0 V (dr main_v41) = ReadP.val_main_v41 (F := F) (V (dr main_arg0)) (V (dr main_arg1)) (V (dr main_arg2)) (V (dr main_arg3)) (V (dr main_arg5)) (V (dr main_arg6)) := by
  read_back; rfl

end L0

end Cert.ReferenceIdeal.HandRun

end
-- ==== Proof.RefRun.V1.lean ====
import proofs.«421617_j66314295050867_4_alg».proof.Proof.RefRun.Line
import proofs.«421617_j66314295050867_4_alg».proof.Proof.RefRead

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

local notation "dr" => Proc.devRef (τ := τ) (sig := sig) Proc.tc

section L1
variable (W : Valuation τ sig (Elt F)) (x0 : (⟨S1024x200, .i32⟩ : BufTy).Contents (Elt F)) (x1 : (⟨S1024x200, .i32⟩ : BufTy).Contents (Elt F)) (x2 : (⟨S1024, .i32⟩ : BufTy).Contents (Elt F)) (x3 : (⟨S1024, .i32⟩ : BufTy).Contents (Elt F)) (x5 : (⟨S1000000x64, .f32⟩ : BufTy).Contents (Elt F)) (x6 : (⟨S10000x64, .f32⟩ : BufTy).Contents (Elt F)) (x7 : (⟨S32x512, .f32⟩ : BufTy).Contents (Elt F)) (x8 : (⟨S32, .f32⟩ : BufTy).Contents (Elt F))
  (h36 : W (dr main_v36) = ReadP.val_main_v36 (F := F) x0 x1 x5 x6)
  (h39 : W (dr main_v39) = ReadP.val_main_v39 (F := F) x2 x3 x5 x6)
  (h40 : W (dr main_v40) = ReadP.val_main_v40 (F := F) x0 x1 x2 x3 x5 x6)
  (h41 : W (dr main_v41) = ReadP.val_main_v41 (F := F) x0 x1 x2 x3 x5 x6)
  (a7 : W (dr main_arg7) = x7) (a8 : W (dr main_arg8) = x8)
include h36 h39 h40 h41 a7 a8

set_option maxRecDepth 8192 in
set_option maxHeartbeats 1000000 in
theorem l1_v48 : after ops1 W (dr main_v48) = ReadP.val_main_v48 (F := F) x0 x1 x2 x3 x5 x6 x7 x8 := by
  read_back; rw [h36, h39, h40, h41, a7, a8]; rfl
set_option maxRecDepth 8192 in
set_option maxHeartbeats 1000000 in
theorem l1_v49 : after ops1 W (dr main_v49) = ReadP.val_main_v49 (F := F) x0 x1 x2 x3 x5 x6 x7 x8 := by
  read_back; rw [h36, h39, h40, h41, a7, a8]; rfl

end L1

end Cert.ReferenceIdeal.HandRun

end
-- ==== Proof.RefRun.V2.lean ====
import proofs.«421617_j66314295050867_4_alg».proof.Proof.RefRun.Line
import proofs.«421617_j66314295050867_4_alg».proof.Proof.RefRead

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

local notation "dr" => Proc.devRef (τ := τ) (sig := sig) Proc.tc

section L2
variable (W : Valuation τ sig (Elt F)) (x0 : (⟨S1024x200, .i32⟩ : BufTy).Contents (Elt F)) (x1 : (⟨S1024x200, .i32⟩ : BufTy).Contents (Elt F)) (x2 : (⟨S1024, .i32⟩ : BufTy).Contents (Elt F)) (x3 : (⟨S1024, .i32⟩ : BufTy).Contents (Elt F)) (x5 : (⟨S1000000x64, .f32⟩ : BufTy).Contents (Elt F)) (x6 : (⟨S10000x64, .f32⟩ : BufTy).Contents (Elt F)) (x7 : (⟨S32x512, .f32⟩ : BufTy).Contents (Elt F)) (x8 : (⟨S32, .f32⟩ : BufTy).Contents (Elt F)) (x9 : (⟨S32, .f32⟩ : BufTy).Contents (Elt F)) (x10 : (⟨S16x32, .f32⟩ : BufTy).Contents (Elt F)) (x11 : (⟨S16, .f32⟩ : BufTy).Contents (Elt F))
  (h48 : W (dr main_v48) = ReadP.val_main_v48 (F := F) x0 x1 x2 x3 x5 x6 x7 x8)
  (h49 : W (dr main_v49) = ReadP.val_main_v49 (F := F) x0 x1 x2 x3 x5 x6 x7 x8)
  (a9 : W (dr main_arg9) = x9) (a10 : W (dr main_arg10) = x10) (a11 : W (dr main_arg11) = x11)
include h48 h49 a9 a10 a11

set_option maxRecDepth 8192 in
set_option maxHeartbeats 1000000 in
theorem l2_v85 : after ops2 W (dr main_v85) = ReadP.val_main_v85 (F := F) x0 x1 x2 x3 x5 x6 x7 x8 x9 x10 x11 := by
  read_back; rw [h48, h49, a9, a10, a11]; rfl
set_option maxRecDepth 8192 in
set_option maxHeartbeats 1000000 in
theorem l2_v96 : after ops2 W (dr main_v96) = ReadP.val_main_v96 (F := F) x0 x1 x2 x3 x5 x6 x7 x8 x9 x10 x11 := by
  read_back; rw [h48, h49, a9, a10, a11]; rfl
set_option maxRecDepth 8192 in
set_option maxHeartbeats 1000000 in
theorem l2_v98 : after ops2 W (dr main_v98) = ReadP.val_main_v98 (F := F) x0 x1 x2 x3 x5 x6 x7 x8 x9 x10 x11 := by
  read_back; rw [h48, h49, a9, a10, a11]; rfl

end L2

end Cert.ReferenceIdeal.HandRun

end
-- ==== Proof.RefRun.V3.lean ====
import proofs.«421617_j66314295050867_4_alg».proof.Proof.RefRun.Line
import proofs.«421617_j66314295050867_4_alg».proof.Proof.RefRead

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

local notation "dr" => Proc.devRef (τ := τ) (sig := sig) Proc.tc

section L3
variable (W : Valuation τ sig (Elt F)) (x0 : (⟨S1024x200, .i32⟩ : BufTy).Contents (Elt F)) (x1 : (⟨S1024x200, .i32⟩ : BufTy).Contents (Elt F)) (x2 : (⟨S1024, .i32⟩ : BufTy).Contents (Elt F)) (x3 : (⟨S1024, .i32⟩ : BufTy).Contents (Elt F)) (x5 : (⟨S1000000x64, .f32⟩ : BufTy).Contents (Elt F)) (x6 : (⟨S10000x64, .f32⟩ : BufTy).Contents (Elt F)) (x7 : (⟨S32x512, .f32⟩ : BufTy).Contents (Elt F)) (x8 : (⟨S32, .f32⟩ : BufTy).Contents (Elt F)) (x9 : (⟨S32, .f32⟩ : BufTy).Contents (Elt F)) (x10 : (⟨S16x32, .f32⟩ : BufTy).Contents (Elt F)) (x11 : (⟨S16, .f32⟩ : BufTy).Contents (Elt F)) (x12 : (⟨S16, .f32⟩ : BufTy).Contents (Elt F)) (x13 : (⟨S1x16, .f32⟩ : BufTy).Contents (Elt F)) (x14 : (⟨S1, .f32⟩ : BufTy).Contents (Elt F))
  (h17 : W (dr main_v17) = ReadP.val_main_v17 (F := F) x0)
  (h36 : W (dr main_v36) = ReadP.val_main_v36 (F := F) x0 x1 x5 x6)
  (h85 : W (dr main_v85) = ReadP.val_main_v85 (F := F) x0 x1 x2 x3 x5 x6 x7 x8 x9 x10 x11)
  (h96 : W (dr main_v96) = ReadP.val_main_v96 (F := F) x0 x1 x2 x3 x5 x6 x7 x8 x9 x10 x11)
  (h98 : W (dr main_v98) = ReadP.val_main_v98 (F := F) x0 x1 x2 x3 x5 x6 x7 x8 x9 x10 x11)
  (a12 : W (dr main_arg12) = x12) (a13 : W (dr main_arg13) = x13) (a14 : W (dr main_arg14) = x14)
include h17 h36 h85 h96 h98 a12 a13 a14

set_option maxRecDepth 8192 in
set_option maxHeartbeats 2000000 in
theorem l3_v142 : after ops3 W (dr main_v142) = ReadP.val_main_v142 (F := F) x0 x1 x2 x3 x5 x6 x7 x8 x9 x10 x11 x12 x13 x14 := by
  read_back; rw [h17, h36, h85, h96, h98, a12, a13, a14]; rfl

end L3

end Cert.ReferenceIdeal.HandRun

end
-- ==== Proof.RefRun.V4.lean ====
import proofs.«421617_j66314295050867_4_alg».proof.Proof.RefRun.Line
import proofs.«421617_j66314295050867_4_alg».proof.Proof.RefRead

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

local notation "dr" => Proc.devRef (τ := τ) (sig := sig) Proc.tc

section L4
variable (W : Valuation τ sig (Elt F)) (x0 : (⟨S1024x200, .i32⟩ : BufTy).Contents (Elt F)) (x1 : (⟨S1024x200, .i32⟩ : BufTy).Contents (Elt F)) (x2 : (⟨S1024, .i32⟩ : BufTy).Contents (Elt F)) (x3 : (⟨S1024, .i32⟩ : BufTy).Contents (Elt F)) (x5 : (⟨S1000000x64, .f32⟩ : BufTy).Contents (Elt F)) (x6 : (⟨S10000x64, .f32⟩ : BufTy).Contents (Elt F)) (x7 : (⟨S32x512, .f32⟩ : BufTy).Contents (Elt F)) (x8 : (⟨S32, .f32⟩ : BufTy).Contents (Elt F)) (x9 : (⟨S32, .f32⟩ : BufTy).Contents (Elt F)) (x10 : (⟨S16x32, .f32⟩ : BufTy).Contents (Elt F)) (x11 : (⟨S16, .f32⟩ : BufTy).Contents (Elt F)) (x12 : (⟨S16, .f32⟩ : BufTy).Contents (Elt F)) (x13 : (⟨S1x16, .f32⟩ : BufTy).Contents (Elt F)) (x14 : (⟨S1, .f32⟩ : BufTy).Contents (Elt F)) (x15 : (⟨S128x256, .f32⟩ : BufTy).Contents (Elt F)) (x16 : (⟨S128, .f32⟩ : BufTy).Contents (Elt F))
  (h6 : W (dr main_v6) = ReadP.val_main_v6 (F := F) x2 x5) (h13 : W (dr main_v13) = ReadP.val_main_v13 (F := F) x3 x6)
  (h142 : W (dr main_v142) = ReadP.val_main_v142 (F := F) x0 x1 x2 x3 x5 x6 x7 x8 x9 x10 x11 x12 x13 x14)
  (a15 : W (dr main_arg15) = x15) (a16 : W (dr main_arg16) = x16)
include h6 h13 h142 a15 a16

set_option maxRecDepth 8192 in
set_option maxHeartbeats 1000000 in
theorem l4_v148 : after ops4 W (dr main_v148) = ReadP.val_main_v148 (F := F) x0 x1 x2 x3 x5 x6 x7 x8 x9 x10 x11 x12 x13 x14 x15 x16 := by
  read_back; rw [h6, h13, h142, a15, a16]; rfl

end L4

end Cert.ReferenceIdeal.HandRun

end
-- ==== Proof.RefRun.V5.lean ====
import proofs.«421617_j66314295050867_4_alg».proof.Proof.RefRun.Line
import proofs.«421617_j66314295050867_4_alg».proof.Proof.RefRead

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

local notation "dr" => Proc.devRef (τ := τ) (sig := sig) Proc.tc

section L5
variable (W : Valuation τ sig (Elt F)) (x0 : (⟨S1024x200, .i32⟩ : BufTy).Contents (Elt F)) (x1 : (⟨S1024x200, .i32⟩ : BufTy).Contents (Elt F)) (x2 : (⟨S1024, .i32⟩ : BufTy).Contents (Elt F)) (x3 : (⟨S1024, .i32⟩ : BufTy).Contents (Elt F)) (x4 : (⟨S1024, .i32⟩ : BufTy).Contents (Elt F)) (x5 : (⟨S1000000x64, .f32⟩ : BufTy).Contents (Elt F)) (x6 : (⟨S10000x64, .f32⟩ : BufTy).Contents (Elt F)) (x7 : (⟨S32x512, .f32⟩ : BufTy).Contents (Elt F)) (x8 : (⟨S32, .f32⟩ : BufTy).Contents (Elt F)) (x9 : (⟨S32, .f32⟩ : BufTy).Contents (Elt F)) (x10 : (⟨S16x32, .f32⟩ : BufTy).Contents (Elt F)) (x11 : (⟨S16, .f32⟩ : BufTy).Contents (Elt F)) (x12 : (⟨S16, .f32⟩ : BufTy).Contents (Elt F)) (x13 : (⟨S1x16, .f32⟩ : BufTy).Contents (Elt F)) (x14 : (⟨S1, .f32⟩ : BufTy).Contents (Elt F)) (x15 : (⟨S128x256, .f32⟩ : BufTy).Contents (Elt F)) (x16 : (⟨S128, .f32⟩ : BufTy).Contents (Elt F)) (x17 : (⟨S64x128, .f32⟩ : BufTy).Contents (Elt F)) (x18 : (⟨S64, .f32⟩ : BufTy).Contents (Elt F)) (x19 : (⟨S1x64, .f32⟩ : BufTy).Contents (Elt F)) (x20 : (⟨S1, .f32⟩ : BufTy).Contents (Elt F))
  (h148 : W (dr main_v148) = ReadP.val_main_v148 (F := F) x0 x1 x2 x3 x5 x6 x7 x8 x9 x10 x11 x12 x13 x14 x15 x16)
  (a4 : W (dr main_arg4) = x4) (a17 : W (dr main_arg17) = x17) (a18 : W (dr main_arg18) = x18) (a19 : W (dr main_arg19) = x19) (a20 : W (dr main_arg20) = x20)
include h148 a17 a18 a19 a20

set_option maxRecDepth 8192 in
set_option maxHeartbeats 2000000 in
theorem l5_v179 : after ops5 W (dr main_v179) = ReadP.val_main_v179 (F := F) x0 x1 x2 x3 x5 x6 x7 x8 x9 x10 x11 x12 x13 x14 x15 x16 x17 x18 x19 x20 := by
  read_back; simp only [TRef.ofBuf, TRef.toBuf, cast_eq]; rw [h148, a17, a18, a19, a20]; rfl

include a4 in
set_option maxRecDepth 8192 in
set_option maxHeartbeats 2000000 in
theorem l5_v173 : after ops5 W (dr main_v173) = ReadP.val_main_v173 (F := F) x0 x1 x2 x3 x4 x5 x6 x7 x8 x9 x10 x11 x12 x13 x14 x15 x16 x17 x18 x19 x20 := by
  read_back; simp only [TRef.ofBuf, TRef.toBuf, cast_eq]; rw [h148, a4, a17, a18, a19, a20]; rfl

end L5

end Cert.ReferenceIdeal.HandRun

end
-- ==== Proof.RefRun.lean ====
import proofs.«421617_j66314295050867_4_alg».proof.Proof.RefRun.V0
import proofs.«421617_j66314295050867_4_alg».proof.Proof.RefRun.V1
import proofs.«421617_j66314295050867_4_alg».proof.Proof.RefRun.V2
import proofs.«421617_j66314295050867_4_alg».proof.Proof.RefRun.V3
import proofs.«421617_j66314295050867_4_alg».proof.Proof.RefRun.V4
import proofs.«421617_j66314295050867_4_alg».proof.Proof.RefRun.V5

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

local notation "dr" => Proc.devRef (τ := τ) (sig := sig) Proc.tc

section Between
variable (V : Valuation τ sig (Elt F))

abbrev W0 : Valuation τ sig (Elt F) := after ops0 V
abbrev W1 : Valuation τ sig (Elt F) := after ops1 (W0 V)
abbrev W2 : Valuation τ sig (Elt F) := after ops2 (W1 V)
abbrev W3 : Valuation τ sig (Elt F) := after ops3 (W2 V)
abbrev W4 : Valuation τ sig (Elt F) := after ops4 (W3 V)

theorem W0_keep {r : Ref sig .tc} (h0 : r ∉ ops0_W) : W0 V (dr r) = V (dr r) := keep0 V h0
theorem W1_keep {r : Ref sig .tc} (h0 : r ∉ ops0_W) (h1 : r ∉ ops1_W) : W1 V (dr r) = V (dr r) :=
  (keep1 _ h1).trans (W0_keep V h0)
theorem W2_keep {r : Ref sig .tc} (h0 : r ∉ ops0_W) (h1 : r ∉ ops1_W) (h2 : r ∉ ops2_W) : W2 V (dr r) = V (dr r) :=
  (keep2 _ h2).trans (W1_keep V h0 h1)
theorem W3_keep {r : Ref sig .tc} (h0 : r ∉ ops0_W) (h1 : r ∉ ops1_W) (h2 : r ∉ ops2_W) (h3 : r ∉ ops3_W) :
    W3 V (dr r) = V (dr r) := (keep3 _ h3).trans (W2_keep V h0 h1 h2)
theorem W4_keep {r : Ref sig .tc} (h0 : r ∉ ops0_W) (h1 : r ∉ ops1_W) (h2 : r ∉ ops2_W) (h3 : r ∉ ops3_W)
    (h4 : r ∉ ops4_W) : W4 V (dr r) = V (dr r) := (keep4 _ h4).trans (W3_keep V h0 h1 h2 h3)

theorem W1_v48 : W1 V (dr main_v48) = ReadP.val_main_v48 (F := F) (V (dr main_arg0)) (V (dr main_arg1)) (V (dr main_arg2)) (V (dr main_arg3)) (V (dr main_arg5)) (V (dr main_arg6)) (V (dr main_arg7)) (V (dr main_arg8)) :=
  l1_v48 (W0 V) _ _ _ _ _ _ _ _ (l0_v36 V) (l0_v39 V) (l0_v40 V) (l0_v41 V) (W0_keep V (by decide)) (W0_keep V (by decide))
theorem W1_v49 : W1 V (dr main_v49) = ReadP.val_main_v49 (F := F) (V (dr main_arg0)) (V (dr main_arg1)) (V (dr main_arg2)) (V (dr main_arg3)) (V (dr main_arg5)) (V (dr main_arg6)) (V (dr main_arg7)) (V (dr main_arg8)) :=
  l1_v49 (W0 V) _ _ _ _ _ _ _ _ (l0_v36 V) (l0_v39 V) (l0_v40 V) (l0_v41 V) (W0_keep V (by decide)) (W0_keep V (by decide))

theorem W2_v85 : W2 V (dr main_v85) = ReadP.val_main_v85 (F := F) (V (dr main_arg0)) (V (dr main_arg1)) (V (dr main_arg2)) (V (dr main_arg3)) (V (dr main_arg5)) (V (dr main_arg6)) (V (dr main_arg7)) (V (dr main_arg8)) (V (dr main_arg9)) (V (dr main_arg10)) (V (dr main_arg11)) :=
  l2_v85 (W1 V) _ _ _ _ _ _ _ _ _ _ _ (W1_v48 V) (W1_v49 V) (W1_keep V (by decide) (by decide)) (W1_keep V (by decide) (by decide)) (W1_keep V (by decide) (by decide))
theorem W2_v96 : W2 V (dr main_v96) = ReadP.val_main_v96 (F := F) (V (dr main_arg0)) (V (dr main_arg1)) (V (dr main_arg2)) (V (dr main_arg3)) (V (dr main_arg5)) (V (dr main_arg6)) (V (dr main_arg7)) (V (dr main_arg8)) (V (dr main_arg9)) (V (dr main_arg10)) (V (dr main_arg11)) :=
  l2_v96 (W1 V) _ _ _ _ _ _ _ _ _ _ _ (W1_v48 V) (W1_v49 V) (W1_keep V (by decide) (by decide)) (W1_keep V (by decide) (by decide)) (W1_keep V (by decide) (by decide))
theorem W2_v98 : W2 V (dr main_v98) = ReadP.val_main_v98 (F := F) (V (dr main_arg0)) (V (dr main_arg1)) (V (dr main_arg2)) (V (dr main_arg3)) (V (dr main_arg5)) (V (dr main_arg6)) (V (dr main_arg7)) (V (dr main_arg8)) (V (dr main_arg9)) (V (dr main_arg10)) (V (dr main_arg11)) :=
  l2_v98 (W1 V) _ _ _ _ _ _ _ _ _ _ _ (W1_v48 V) (W1_v49 V) (W1_keep V (by decide) (by decide)) (W1_keep V (by decide) (by decide)) (W1_keep V (by decide) (by decide))

theorem W3_v142 : W3 V (dr main_v142) = ReadP.val_main_v142 (F := F) (V (dr main_arg0)) (V (dr main_arg1)) (V (dr main_arg2)) (V (dr main_arg3)) (V (dr main_arg5)) (V (dr main_arg6)) (V (dr main_arg7)) (V (dr main_arg8)) (V (dr main_arg9)) (V (dr main_arg10)) (V (dr main_arg11)) (V (dr main_arg12)) (V (dr main_arg13)) (V (dr main_arg14)) :=
  l3_v142 (W2 V) _ _ _ _ _ _ _ _ _ _ _ _ _ _
    ((keep2 _ (by decide)).trans ((keep1 _ (by decide)).trans (l0_v17 V)))
    ((keep2 _ (by decide)).trans ((keep1 _ (by decide)).trans (l0_v36 V)))
    (W2_v85 V) (W2_v96 V) (W2_v98 V)
    (W2_keep V (by decide) (by decide) (by decide)) (W2_keep V (by decide) (by decide) (by decide)) (W2_keep V (by decide) (by decide) (by decide))

theorem W4_v148 : W4 V (dr main_v148) = ReadP.val_main_v148 (F := F) (V (dr main_arg0)) (V (dr main_arg1)) (V (dr main_arg2)) (V (dr main_arg3)) (V (dr main_arg5)) (V (dr main_arg6)) (V (dr main_arg7)) (V (dr main_arg8)) (V (dr main_arg9)) (V (dr main_arg10)) (V (dr main_arg11)) (V (dr main_arg12)) (V (dr main_arg13)) (V (dr main_arg14)) (V (dr main_arg15)) (V (dr main_arg16)) :=
  l4_v148 (W3 V) _ _ _ _ _ _ _ _ _ _ _ _ _ _ _ _
    ((keep3 _ (by decide)).trans ((keep2 _ (by decide)).trans ((keep1 _ (by decide)).trans (l0_v6 V))))
    ((keep3 _ (by decide)).trans ((keep2 _ (by decide)).trans ((keep1 _ (by decide)).trans (l0_v13 V))))
    (W3_v142 V) (W3_keep V (by decide) (by decide) (by decide) (by decide)) (W3_keep V (by decide) (by decide) (by decide) (by decide))

theorem after_v173 : after ops V (dr main_v173) = ReadP.val_main_v173 (F := F) (V (dr main_arg0)) (V (dr main_arg1)) (V (dr main_arg2)) (V (dr main_arg3)) (V (dr main_arg4)) (V (dr main_arg5)) (V (dr main_arg6)) (V (dr main_arg7)) (V (dr main_arg8)) (V (dr main_arg9)) (V (dr main_arg10)) (V (dr main_arg11)) (V (dr main_arg12)) (V (dr main_arg13)) (V (dr main_arg14)) (V (dr main_arg15)) (V (dr main_arg16)) (V (dr main_arg17)) (V (dr main_arg18)) (V (dr main_arg19)) (V (dr main_arg20)) := by
  rw [after_ops]
  exact l5_v173 (W4 V) _ _ _ _ _ _ _ _ _ _ _ _ _ _ _ _ _ _ _ _ _ (W4_v148 V)
    (W4_keep V (by decide) (by decide) (by decide) (by decide) (by decide)) (W4_keep V (by decide) (by decide) (by decide) (by decide) (by decide)) (W4_keep V (by decide) (by decide) (by decide) (by decide) (by decide)) (W4_keep V (by decide) (by decide) (by decide) (by decide) (by decide)) (W4_keep V (by decide) (by decide) (by decide) (by decide) (by decide))

theorem after_v179 : after ops V (dr main_v179) = ReadP.val_main_v179 (F := F) (V (dr main_arg0)) (V (dr main_arg1)) (V (dr main_arg2)) (V (dr main_arg3)) (V (dr main_arg5)) (V (dr main_arg6)) (V (dr main_arg7)) (V (dr main_arg8)) (V (dr main_arg9)) (V (dr main_arg10)) (V (dr main_arg11)) (V (dr main_arg12)) (V (dr main_arg13)) (V (dr main_arg14)) (V (dr main_arg15)) (V (dr main_arg16)) (V (dr main_arg17)) (V (dr main_arg18)) (V (dr main_arg19)) (V (dr main_arg20)) := by
  rw [after_ops]
  exact l5_v179 (W4 V) _ _ _ _ _ _ _ _ _ _ _ _ _ _ _ _ _ _ _ _ (W4_v148 V)
    (W4_keep V (by decide) (by decide) (by decide) (by decide) (by decide)) (W4_keep V (by decide) (by decide) (by decide) (by decide) (by decide)) (W4_keep V (by decide) (by decide) (by decide) (by decide) (by decide)) (W4_keep V (by decide) (by decide) (by decide) (by decide) (by decide))

end Between

theorem run_line (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (dr b) :=
  run_seq scopedRefs_eq scopedSems_eq defs main (fun _ => ops) main_eq (fun _ => ops_sub) m ρ (fun _ => ops_fresh)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

theorem arg_kept (V : Valuation τ sig (Elt F)) : ∀ b ∈ argRefs, after ops V (dr b) = V (dr b) := by
  have h : ∀ b ∈ argRefs, b ∉ ops0_W ∧ b ∉ ops1_W ∧ b ∉ ops2_W ∧ b ∉ ops3_W ∧ b ∉ ops4_W ∧ b ∉ ops5_W := by decide
  intro b hb
  obtain ⟨h0, h1, h2, h3, h4, h5⟩ := h b hb
  exact keep_all V h0 h1 h2 h3 h4 h5

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v173) = ReadP.val_main_v173 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_v179) = ReadP.val_main_v179 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ ∀ b ∈ argRefs, r.2.mem ((c.tc : Thread nD τ).loc b) = m ((c.tc : Thread nD τ).loc b) :=
  (θ_run _ _ _).mono (fun _ h c => ⟨(h c main_v173).trans (after_v173 (launchContents m c)),
      (h c main_v179).trans (after_v179 (launchContents m c)),
      fun b hb => (h c b).trans (arg_kept (launchContents m c) b hb)⟩)
    (run_line m ρ)

end Cert.ReferenceIdeal.HandRun

end
-- ==== Proof.lean ====
import proofs.«421617_j66314295050867_4_alg».proof.Defs
import proofs.«421617_j66314295050867_4_alg».proof.Proof.Gen.Kernel
import proofs.«421617_j66314295050867_4_alg».proof.Proof.Gen.KernelIdeal
import proofs.«421617_j66314295050867_4_alg».proof.Proof.Gen.ReferenceIdeal
import proofs.«421617_j66314295050867_4_alg».proof.Proof.Gen.Pre_finite_inputs
import proofs.«421617_j66314295050867_4_alg».proof.Proof.K.Run
import proofs.«421617_j66314295050867_4_alg».proof.Proof.KI.Run
import proofs.«421617_j66314295050867_4_alg».proof.Proof.KI.Chain
import proofs.«421617_j66314295050867_4_alg».proof.Proof.RefRun
import Idealize.ShloMosaic.Adequacy
import Idealize.ShloMosaic.Init

noncomputable section

namespace Cert.Proof

open Idealize.ShloMosaic Idealize.SL.Sem Cert.ReferenceIdeal

theorem frame_k : Cert.frame_Kernel := fun m ρ _ =>
  (θ_run (Cert.Kernel.defs (F := Bits)) _ _).mono (fun r h c => by
    refine ⟨?_, ?_, ?_, ?_, ?_, ?_, ?_, ?_, ?_, ?_, ?_, ?_, ?_, ?_, ?_, ?_, ?_, ?_, ?_, ?_, ?_⟩ <;>
      exact (h c _ (Cert.Kernel.Fr.mem_uc _ (by decide))).trans (Cert.Kernel.Fr.W8_arg m c _ (by decide)))
    (Cert.Kernel.Fr.run (F := Bits) m ρ)

theorem frame_ki : Cert.frame_KernelIdeal := fun m ρ _ =>
  (θ_run (Cert.KernelIdeal.defs (F := Ideal)) _ _).mono (fun r h c => by
    refine ⟨?_, ?_, ?_, ?_, ?_, ?_, ?_, ?_, ?_, ?_, ?_, ?_, ?_, ?_, ?_, ?_, ?_, ?_, ?_, ?_, ?_⟩ <;>
      exact (h c _ (Cert.KernelIdeal.Fr.mem_uc _ (by decide))).trans (Cert.KernelIdeal.Fr.W8_arg m c _ (by decide)))
    (Cert.KernelIdeal.Fr.run (F := Ideal) m ρ)

theorem frame_ri : Cert.frame_ReferenceIdeal := fun m ρ _ =>
  (θ_run (Cert.ReferenceIdeal.defs (F := Ideal)) _ _).mono (fun r h c => by
    refine ⟨?_, ?_, ?_, ?_, ?_, ?_, ?_, ?_, ?_, ?_, ?_, ?_, ?_, ?_, ?_, ?_, ?_, ?_, ?_, ?_, ?_⟩ <;> exact (h c).2.2 _ (by decide))
    (Cert.ReferenceIdeal.HandRun.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Chain.loss m c, fun c => Cert.KernelIdeal.Chain.pred m c, ?_, ?_⟩
  · exact (θ_run (Cert.KernelIdeal.defs (F := Ideal)) _ _).mono (fun r h c => by
      refine ⟨(h c _ (Cert.KernelIdeal.Fr.mem_uc Cert.KernelIdeal.main_v62 (by decide))).trans (Cert.KernelIdeal.Chain.loss_eq m c (hpre c)),
        (h c _ (Cert.KernelIdeal.Fr.mem_uc Cert.KernelIdeal.main_v61_0 (by decide))).trans (Cert.KernelIdeal.Chain.pred_eq m c (hpre c)),
        ?_, ?_, ?_, ?_, ?_, ?_, ?_, ?_, ?_, ?_, ?_, ?_, ?_, ?_, ?_, ?_, ?_, ?_, ?_, ?_, ?_⟩ <;>
        exact (h c _ (Cert.KernelIdeal.Fr.mem_uc _ (by decide))).trans (Cert.KernelIdeal.Fr.W8_arg m c _ (by decide)))
      (Cert.KernelIdeal.Fr.run (F := Ideal) m ρ)
  · refine (θ_run (Cert.ReferenceIdeal.defs (F := Ideal)) _ _).mono (fun r h c => ?_) (Cert.ReferenceIdeal.HandRun.run (F := Ideal) m' ρ')
    refine ⟨(h c).1.trans (by simp only [hagree c]), (h c).2.1.trans (by simp only [hagree c]), ?_, ?_, ?_, ?_, ?_, ?_, ?_, ?_, ?_, ?_, ?_, ?_, ?_, ?_, ?_, ?_, ?_, ?_, ?_, ?_, ?_⟩ <;>
      exact (h c).2.2 _ (by decide)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
